-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x600000 : Shape := ⟨2, ![2, 600000]⟩
abbrev S600000x4 : Shape := ⟨2, ![600000, 4]⟩
abbrev S16x128 : Shape := ⟨2, ![16, 128]⟩
abbrev S128 : Shape := ⟨1, ![128]⟩
abbrev S4x132x128 : Shape := ⟨3, ![4, 132, 128]⟩
abbrev S4x128 : Shape := ⟨2, ![4, 128]⟩
abbrev S4x128x128 : Shape := ⟨3, ![4, 128, 128]⟩
abbrev S4x256x128 : Shape := ⟨3, ![4, 256, 128]⟩
abbrev S128x128 : Shape := ⟨2, ![128, 128]⟩
abbrev S128x3 : Shape := ⟨2, ![128, 3]⟩
abbrev S3 : Shape := ⟨1, ![3]⟩
abbrev S_ : Shape := ⟨0, ![]⟩
abbrev S1x600000 : Shape := ⟨2, ![1, 600000]⟩
abbrev S600000 : Shape := ⟨1, ![600000]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S4x132x128 : S_.BroadcastsInDim S4x132x128 (![] : Fin 0 → Fin S4x132x128.rank)
  reducesTo_S4x132x128_S_d0_1_2 : S4x132x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_v78 : IVec S_ 1) (main_v82 : IVec S600000 1) (main_v84 : IVec S600000 32) (main_v85 : IVec S600000 32) : IVec S_ 1 :=
  let main_v86 : IVec S600000 1 := cmpi .slt main_v84 main_v85
  let main_v87 : IVec S600000 1 := andi main_v82 main_v86
  let main_c_32 : IVec S_ 1 := constantI S_ 1 1#1
  let main_v88 : IVec S_ 1 := (fun x v => Host.reduce IntOp.andi x v reducesTo_S600000_S_d0 h_S_) main_v87 main_c_32
  let main_v89 : IVec S_ 1 := andi main_v78 main_v88
  main_v89

def fn_part4 {F : FTy → Type} [FloatOps F] (main_arg1 : IVec S2x600000 32) (main_arg15 : FVec F S128x3 .f32) (main_arg16 : FVec F S3 .f32) (main_v63 : IVec S_ 1) (main_v67 : IVec S_ 1) : IVec S_ 1 :=
  let main_v68 : IVec S_ 1 := andi main_v63 main_v67
  let main_v69 : FVec F S128x3 .f32 := Host.absf main_arg15
  let main_cst_26 : FVec F S_ .f32 := constant S_ .f32 0x7F800000#32
  let main_v70 : FVec F S128x3 .f32 := broadcastInDim S128x3 ![] bcast_S_S128x3 main_cst_26
  let main_v71 : IVec S128x3 1 := cmpf .olt main_v69 main_v70
  let main_c_27 : IVec S_ 1 := constantI S_ 1 1#1
  let main_v72 : IVec S_ 1 := (fun x v => Host.reduce IntOp.andi x v reducesTo_S128x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_v79 : IVec S1x600000 32 := (extractStridedSlice S1x600000 ![0, 0] · slices_S2x600000_S1x600000_0_0) main_arg1
  let main_v80 : IVec S600000 32 := shapeCast S600000 main_v79 shapeCasts_S1x600000_S600000
  let main_c_30 : IVec S_ 32 := constantI S_ 32 0#32
  let main_v81 : IVec S600000 32 := broadcastInDim S600000 ![] bcast_S_S600000 main_c_30
  let main_v82 : IVec S600000 1 := cmpi .sge main_v80 main_v81
  let main_v83 : IVec S1x600000 32 := (extractStridedSlice S1x600000 ![0, 0] · slices_S2x600000_S1x600000_0_0) main_arg1
  let main_v84 : IVec S600000 32 := shapeCast S600000 main_v83 shapeCasts_S1x600000_S600000
  let main_c_31 : IVec S_ 32 := constantI S_ 32 50000#32
  let main_v85 : IVec S600000 32 := broadcastInDim S600000 ![] bcast_S_S600000 main_c_31
  fn_part5 (F := F) main_v78 main_v82 main_v84 main_v85

def fn_part3 {F : FTy → Type} [FloatOps F] (main_arg1 : IVec S2x600000 32) (main_arg12 : FVec F S4x128 .f32) (main_arg13 : FVec F S128x128 .f32) (main_arg14 : FVec F S128 .f32) (main_arg15 : FVec F S128x3 .f32) (main_arg16 : FVec F S3 .f32) (main_v48 : IVec S_ 1) (main_v49 : FVec F S4x128x128 .f32) (main_v50 : FVec F S4x128x128 .f32) : IVec S_ 1 :=
  let main_v51 : IVec S4x128x128 1 := cmpf .olt main_v49 main_v50
  let main_c_19 : IVec S_ 1 := constantI S_ 1 1#1
  let main_v52 : IVec S_ 1 := (fun x v => Host.reduce IntOp.andi x v reducesTo_S4x128x128_S_d0_1_2 h_S_) main_v51 main_c_19
  let main_v53 : IVec S_ 1 := andi main_v48 main_v52
  let main_v54 : FVec F S4x128 .f32 := Host.absf main_arg12
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x600000 32) (main_arg8 : FVec F S4x128 .f32) (main_arg9 : FVec F S4x256x128 .f32) (main_arg10 : FVec F S4x128 .f32) (main_arg11 : FVec F S4x128x128 .f32) (main_arg12 : FVec F S4x128 .f32) (main_arg13 : FVec F S128x128 .f32) (main_arg14 : FVec F S128 .f32) (main_arg15 : FVec F S128x3 .f32) (main_arg16 : FVec F S3 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x256x128 .f32 := Host.absf main_arg9
  let main_cst_14 : FVec F S_ .f32 := constant S_ .f32 0x7F800000#32
  let main_v40 : FVec F S4x256x128 .f32 := broadcastInDim S4x256x128 ![] bcast_S_S4x256x128 main_cst_14
  let main_v41 : IVec S4x256x128 1 := cmpf .olt main_v39 main_v40
  let main_c_15 : IVec S_ 1 := constantI S_ 1 1#1
  let main_v42 : IVec S_ 1 := (fun x v => Host.reduce IntOp.andi x v reducesTo_S4x256x128_S_d0_1_2 h_S_) main_v41 main_c_15
  let main_v43 : IVec S_ 1 := andi main_v38 main_v42
  let main_v44 : FVec F S4x128 .f32 := Host.absf main_arg10
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128x128 .f32 := Host.absf main_arg11
  let main_cst_18 : FVec F S_ .f32 := constant S_ .f32 0x7F800000#32
  let main_v50 : FVec F S4x128x128 .f32 := broadcastInDim S4x128x128 ![] bcast_S_S4x128x128 main_cst_18
  fn_part3 (F := F) main_arg1 main_arg12 main_arg13 main_arg14 main_arg15 main_arg16 main_v48 main_v49 main_v50

def fn_part1 {F : FTy → Type} [FloatOps F] (main_arg1 : IVec S2x600000 32) (main_arg5 : FVec F S4x132x128 .f32) (main_arg6 : FVec F S4x128 .f32) (main_arg7 : FVec F S4x128x128 .f32) (main_arg8 : FVec F S4x128 .f32) (main_arg9 : FVec F S4x256x128 .f32) (main_arg10 : FVec F S4x128 .f32) (main_arg11 : FVec F S4x128x128 .f32) (main_arg12 : FVec F S4x128 .f32) (main_arg13 : FVec F S128x128 .f32) (main_arg14 : FVec F S128 .f32) (main_arg15 : FVec F S128x3 .f32) (main_arg16 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x132x128 .f32 := Host.absf main_arg5
  let main_cst_6 : FVec F S_ .f32 := constant S_ .f32 0x7F800000#32
  let main_v20 : FVec F S4x132x128 .f32 := broadcastInDim S4x132x128 ![] bcast_S_S4x132x128 main_cst_6
  let main_v21 : IVec S4x132x128 1 := cmpf .olt main_v19 main_v20
  let main_c_7 : IVec S_ 1 := constantI S_ 1 1#1
  let main_v22 : IVec S_ 1 := (fun x v => Host.reduce IntOp.andi x v reducesTo_S4x132x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg7
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x16 .f32) (main_arg1 : IVec S2x600000 32) (main_arg2 : FVec F S600000x4 .f32) (main_arg3 : FVec F S16x128 .f32) (main_arg4 : FVec F S128 .f32) (main_arg5 : FVec F S4x132x128 .f32) (main_arg6 : FVec F S4x128 .f32) (main_arg7 : FVec F S4x128x128 .f32) (main_arg8 : FVec F S4x128 .f32) (main_arg9 : FVec F S4x256x128 .f32) (main_arg10 : FVec F S4x128 .f32) (main_arg11 : FVec F S4x128x128 .f32) (main_arg12 : FVec F S4x128 .f32) (main_arg13 : FVec F S128x128 .f32) (main_arg14 : FVec F S128 .f32) (main_arg15 : FVec F S128x3 .f32) (main_arg16 : FVec F S3 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S600000x4 .f32 := Host.absf main_arg2
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x16 : Shape := ⟨2, ![50000, 16]⟩
abbrev S2x600000 : Shape := ⟨2, ![2, 600000]⟩
abbrev S600000x4 : Shape := ⟨2, ![600000, 4]⟩
abbrev S16x128 : Shape := ⟨2, ![16, 128]⟩
abbrev S128 : Shape := ⟨1, ![128]⟩
abbrev S4x132x128 : Shape := ⟨3, ![4, 132, 128]⟩
abbrev S4x128 : Shape := ⟨2, ![4, 128]⟩
abbrev S4x128x128 : Shape := ⟨3, ![4, 128, 128]⟩
abbrev S4x256x128 : Shape := ⟨3, ![4, 256, 128]⟩
abbrev S128x128 : Shape := ⟨2, ![128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S50000x128 : Shape := ⟨2, ![50000, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128x128 : Shape := ⟨3, ![1, 128, 128]⟩
abbrev S1x4x128 : Shape := ⟨3, ![1, 4, 128]⟩
abbrev S1x128 : Shape := ⟨2, ![1, 128]⟩
abbrev S1 : Shape := ⟨1, ![1]⟩
abbrev S1x1 : Shape := ⟨2, ![1, 1]⟩
abbrev S600000x128 : Shape := ⟨2, ![600000, 128]⟩
abbrev S50000x3 : Shape := ⟨2, ![50000, 3]⟩
abbrev S2000x16 : Shape := ⟨2, ![2000, 16]⟩
abbrev S2000x128 : Shape := ⟨2, ![2000, 128]⟩
abbrev S6000x128 : Shape := ⟨2, ![6000, 128]⟩
abbrev S6000x4 : Shape := ⟨2, ![6000, 4]⟩
abbrev S2000x3 : Shape := ⟨2, ![2000, 3]⟩
abbrev S1x3 : Shape := ⟨2, ![1, 3]⟩

abbrev nBuf : Space → Nat
  | .hbm => 237
  | .vmem => 102
  | .smem => 0
  | _ => 0

abbrev hbmTy0_0 (i : Nat) : BufTy := match i % 128 with
  | 0 => ⟨S50000x16, .f32⟩
  | 1 => ⟨S2x600000, .i32⟩
  | 2 => ⟨S600000x4, .f32⟩
  | 3 => ⟨S16x128, .f32⟩
  | 4 => ⟨S128, .f32⟩
  | 5 => ⟨S4x132x128, .f32⟩
  | 6 => ⟨S4x128, .f32⟩
  | 7 => ⟨S4x128x128, .f32⟩
  | 8 => ⟨S4x128, .f32⟩
  | 9 => ⟨S4x256x128, .f32⟩
  | 10 => ⟨S4x128, .f32⟩
  | 11 => ⟨S4x128x128, .f32⟩
  | 12 => ⟨S4x128, .f32⟩
  | 13 => ⟨S128x128, .f32⟩
  | 14 => ⟨S128, .f32⟩
  | 15 => ⟨S128x3, .f32⟩
  | 16 => ⟨S3, .f32⟩
  | 17 => ⟨S1x600000, .i32⟩
  | 18 => ⟨S600000, .i32⟩
  | 19 => ⟨S1x600000, .i32⟩
  | 20 => ⟨S600000, .i32⟩
  | 21 => ⟨S50000x128, .f32⟩
  | 22 => ⟨S_, .f32⟩
  | 23 => ⟨S600000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S1x128x128, .f32⟩
  | 33 => ⟨S128x128, .f32⟩
  | 34 => ⟨S1x4x128, .f32⟩
  | 35 => ⟨S4x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S1, .i32⟩
  | 51 => ⟨S_, .i32⟩
  | 52 => ⟨S600000x1, .i32⟩
  | 53 => ⟨S600000x1, .i1⟩
  | 54 => ⟨S1x1, .i32⟩
  | 55 => ⟨S600000x1, .i32⟩
  | 56 => ⟨S600000x1, .i1⟩
  | 57 => ⟨S600000x1, .i1⟩
  | 58 => ⟨S_, .i1⟩
  | 59 => ⟨S600000, .i1⟩
  | 60 => ⟨S600000x128, .f32⟩
  | 61 => ⟨S600000x128, .i1⟩
  | 62 => ⟨S_, .f32⟩
  | 63 => ⟨S600000x128, .f32⟩
  | 64 => ⟨S600000x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S50000x128, .f32⟩
  | 83 => ⟨S1x128x128, .f32⟩
  | 84 => ⟨S128x128, .f32⟩
  | 85 => ⟨S1x4x128, .f32⟩
  | 86 => ⟨S4x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S1, .i32⟩
  | 102 => ⟨S_, .i32⟩
  | 103 => ⟨S600000x1, .i32⟩
  | 104 => ⟨S600000x1, .i1⟩
  | 105 => ⟨S1x1, .i32⟩
  | 106 => ⟨S600000x1, .i32⟩
  | 107 => ⟨S600000x1, .i1⟩
  | 108 => ⟨S600000x1, .i1⟩
  | 109 => ⟨S_, .i1⟩
  | 110 => ⟨S600000, .i1⟩
  | 111 => ⟨S600000x128, .f32⟩
  | 112 => ⟨S600000x128, .i1⟩
  | 113 => ⟨S_, .f32⟩
  | 114 => ⟨S600000x128, .f32⟩
  | 115 => ⟨S600000x128, .f32⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S1x128x128, .f32⟩
  | 126 => ⟨S128x128, .f32⟩
  | 127 => ⟨S1x128, .f32⟩
  | _ => ⟨S50000x16, .f32⟩

abbrev hbmTy0_1 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S50000x128, .f32⟩
  | 6 => ⟨S1x128x128, .f32⟩
  | 7 => ⟨S128x128, .f32⟩
  | 8 => ⟨S1x4x128, .f32⟩
  | 9 => ⟨S4x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S1, .i32⟩
  | 25 => ⟨S_, .i32⟩
  | 26 => ⟨S600000x1, .i32⟩
  | 27 => ⟨S600000x1, .i1⟩
  | 28 => ⟨S1x1, .i32⟩
  | 29 => ⟨S600000x1, .i32⟩
  | 30 => ⟨S600000x1, .i1⟩
  | 31 => ⟨S600000x1, .i1⟩
  | 32 => ⟨S_, .i1⟩
  | 33 => ⟨S600000, .i1⟩
  | 34 => ⟨S600000x128, .f32⟩
  | 35 => ⟨S600000x128, .i1⟩
  | 36 => ⟨S_, .f32⟩
  | 37 => ⟨S600000x128, .f32⟩
  | 38 => ⟨S600000x128, .f32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S50000x128, .f32⟩
  | 45 => ⟨S50000x128, .f32⟩
  | 46 => ⟨S1x128x128, .f32⟩
  | 47 => ⟨S128x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S50000x128, .f32⟩
  | 57 => ⟨S1x128x128, .f32⟩
  | 58 => ⟨S128x128, .f32⟩
  | 59 => ⟨S1x4x128, .f32⟩
  | 60 => ⟨S4x128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S1, .i32⟩
  | 76 => ⟨S_, .i32⟩
  | 77 => ⟨S600000x1, .i32⟩
  | 78 => ⟨S600000x1, .i1⟩
  | 79 => ⟨S1x1, .i32⟩
  | 80 => ⟨S600000x1, .i32⟩
  | 81 => ⟨S600000x1, .i1⟩
  | 82 => ⟨S600000x1, .i1⟩
  | 83 => ⟨S_, .i1⟩
  | 84 => ⟨S600000, .i1⟩
  | 85 => ⟨S600000x128, .f32⟩
  | 86 => ⟨S600000x128, .i1⟩
  | 87 => ⟨S_, .f32⟩
  | 88 => ⟨S600000x128, .f32⟩
  | 89 => ⟨S600000x128, .f32⟩
  | 90 => ⟨S600000x128, .f32⟩
  | 91 => ⟨S_, .f32⟩
  | 92 => ⟨S50000x128, .f32⟩
  | 93 => ⟨S600000x1, .i32⟩
  | 94 => ⟨S50000x128, .f32⟩
  | 95 => ⟨S50000x128, .f32⟩
  | 96 => ⟨S50000x128, .f32⟩
  | 97 => ⟨S1x128x128, .f32⟩
  | 98 => ⟨S128x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S50000x128, .f32⟩
  | 108 => ⟨S50000x3, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S6000x128, .f32⟩
  | .local _ .vmem, ⟨7, _⟩ => ⟨S6000x128, .f32⟩
  | .local _ .vmem, ⟨8, _⟩ => ⟨S6000x4, .f32⟩
  | .local _ .vmem, ⟨9, _⟩ => ⟨S6000x4, .f32⟩
  | .local _ .vmem, ⟨10, _⟩ => ⟨S128x128, .f32⟩
  | .local _ .vmem, ⟨11, _⟩ => ⟨S4x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S6000x128, .f32⟩
  | .local _ .vmem, ⟨16, _⟩ => ⟨S6000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | .local _ .vmem, ⟨28, _⟩ => ⟨S6000x128, .f32⟩
  | .local _ .vmem, ⟨29, _⟩ => ⟨S6000x128, .f32⟩
  | .local _ .vmem, ⟨30, _⟩ => ⟨S6000x4, .f32⟩
  | .local _ .vmem, ⟨31, _⟩ => ⟨S6000x4, .f32⟩
  | .local _ .vmem, ⟨32, _⟩ => ⟨S128x128, .f32⟩
  | .local _ .vmem, ⟨33, _⟩ => ⟨S4x128, .f32⟩
  | .local _ .vmem, ⟨34, _⟩ => ⟨S128, .f32⟩
  | .local _ .vmem, ⟨35, _⟩ => ⟨S128x128, .f32⟩
  | .local _ .vmem, ⟨36, _⟩ => ⟨S128, .f32⟩
  | .local _ .vmem, ⟨37, _⟩ => ⟨S6000x128, .f32⟩
  | .local _ .vmem, ⟨38, _⟩ => ⟨S6000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S128x128, .f32⟩
  | .local _ .vmem, ⟨44, _⟩ => ⟨S128x128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S2000x128, .f32⟩
  | .local _ .vmem, ⟨49, _⟩ => ⟨S2000x128, .f32⟩
  | .local _ .vmem, ⟨50, _⟩ => ⟨S6000x128, .f32⟩
  | .local _ .vmem, ⟨51, _⟩ => ⟨S6000x128, .f32⟩
  | .local _ .vmem, ⟨52, _⟩ => ⟨S6000x4, .f32⟩
  | .local _ .vmem, ⟨53, _⟩ => ⟨S6000x4, .f32⟩
  | .local _ .vmem, ⟨54, _⟩ => ⟨S128x128, .f32⟩
  | .local _ .vmem, ⟨55, _⟩ => ⟨S4x128, .f32⟩
  | .local _ .vmem, ⟨56, _⟩ => ⟨S128, .f32⟩
  | .local _ .vmem, ⟨57, _⟩ => ⟨S128x128, .f32⟩
  | .local _ .vmem, ⟨58, _⟩ => ⟨S128, .f32⟩
  | .local _ .vmem, ⟨59, _⟩ => ⟨S6000x128, .f32⟩
  | .local _ .vmem, ⟨60, _⟩ => ⟨S6000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S128x128, .f32⟩
  | .local _ .vmem, ⟨66, _⟩ => ⟨S128x128, .f32⟩
  | .local _ .vmem, ⟨67, _⟩ => ⟨S128, .f32⟩
  | .local _ .vmem, ⟨68, _⟩ => ⟨S128x128, .f32⟩
  | .local _ .vmem, ⟨69, _⟩ => ⟨S128, .f32⟩
  | .local _ .vmem, ⟨70, _⟩ => ⟨S2000x128, .f32⟩
  | .local _ .vmem, ⟨71, _⟩ => ⟨S2000x128, .f32⟩
  | .local _ .vmem, ⟨72, _⟩ => ⟨S6000x128, .f32⟩
  | .local _ .vmem, ⟨73, _⟩ => ⟨S6000x128, .f32⟩
  | .local _ .vmem, ⟨74, _⟩ => ⟨S6000x4, .f32⟩
  | .local _ .vmem, ⟨75, _⟩ => ⟨S6000x4, .f32⟩
  | .local _ .vmem, ⟨76, _⟩ => ⟨S128x128, .f32⟩
  | .local _ .vmem, ⟨77, _⟩ => ⟨S4x128, .f32⟩
  | .local _ .vmem, ⟨78, _⟩ => ⟨S128, .f32⟩
  | .local _ .vmem, ⟨79, _⟩ => ⟨S128x128, .f32⟩
  | .local _ .vmem, ⟨80, _⟩ => ⟨S128, .f32⟩
  | .local _ .vmem, ⟨81, _⟩ => ⟨S6000x128, .f32⟩
  | .local _ .vmem, ⟨82, _⟩ => ⟨S6000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S128x128, .f32⟩
  | .local _ .vmem, ⟨88, _⟩ => ⟨S128x128, .f32⟩
  | .local _ .vmem, ⟨89, _⟩ => ⟨S128, .f32⟩
  | .local _ .vmem, ⟨90, _⟩ => ⟨S128x128, .f32⟩
  | .local _ .vmem, ⟨91, _⟩ => ⟨S128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S128x128, .f32⟩
  | .local _ .vmem, ⟨97, _⟩ => ⟨S128, .f32⟩
  | .local _ .vmem, ⟨98, _⟩ => ⟨S128x3, .f32⟩
  | .local _ .vmem, ⟨99, _⟩ => ⟨S3, .f32⟩
  | .local _ .vmem, ⟨100, _⟩ => ⟨S2000x3, .f32⟩
  | .local _ .vmem, ⟨101, _⟩ => ⟨S2000x3, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_call0_cst_0 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_cst_1 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_call0_c : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_c_0 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_c_1 : Ref sig .tc := ⟨.hbm, 50, rfl⟩
abbrev main_call0_call0_c_2 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_call0_c_3 : Ref sig .tc := ⟨.hbm, 58, rfl⟩
abbrev main_call0_call0_v12 : Ref sig .tc := ⟨.hbm, 59, rfl⟩
abbrev main_call0_call0_v13 : Ref sig .tc := ⟨.hbm, 60, rfl⟩
abbrev main_call0_call0_v14 : Ref sig .tc := ⟨.hbm, 61, rfl⟩
abbrev main_call0_call0_cst : Ref sig .tc := ⟨.hbm, 62, rfl⟩
abbrev main_call0_call0_v15 : Ref sig .tc := ⟨.hbm, 63, rfl⟩
abbrev main_call0_v22 : Ref sig .tc := ⟨.hbm, 64, rfl⟩
abbrev main_call0_v23 : Ref sig .tc := ⟨.hbm, 65, rfl⟩
abbrev main_call0_cst_2 : Ref sig .tc := ⟨.hbm, 66, rfl⟩
abbrev main_call0_v24 : Ref sig .tc := ⟨.hbm, 67, rfl⟩
abbrev main_call0_v25 : Ref sig .tc := ⟨.hbm, 68, rfl⟩
abbrev main_call0_v26 : Ref sig .tc := ⟨.hbm, 69, rfl⟩
abbrev main_call0_v27 : Ref sig .tc := ⟨.hbm, 70, rfl⟩
abbrev main_call0_v28 : Ref sig .tc := ⟨.hbm, 71, rfl⟩
abbrev main_call0_v29 : Ref sig .tc := ⟨.hbm, 72, rfl⟩
abbrev main_call0_v30 : Ref sig .tc := ⟨.hbm, 73, rfl⟩
abbrev main_call0_v31 : Ref sig .tc := ⟨.hbm, 74, rfl⟩
abbrev main_call0_v32 : Ref sig .tc := ⟨.hbm, 75, rfl⟩
abbrev main_call0_v33 : Ref sig .tc := ⟨.hbm, 76, rfl⟩
abbrev main_call0_v34 : Ref sig .tc := ⟨.hbm, 77, rfl⟩
abbrev main_call0_v35 : Ref sig .tc := ⟨.hbm, 78, rfl⟩
abbrev main_call0_v36 : Ref sig .tc := ⟨.hbm, 79, rfl⟩
abbrev main_call0_v37 : Ref sig .tc := ⟨.hbm, 80, rfl⟩
abbrev main_call0_v38 : Ref sig .tc := ⟨.hbm, 81, rfl⟩
abbrev main_call0_v39 : Ref sig .tc := ⟨.hbm, 82, rfl⟩
abbrev main_call0_v40 : Ref sig .tc := ⟨.hbm, 83, rfl⟩
abbrev main_call0_v41 : Ref sig .tc := ⟨.hbm, 84, rfl⟩
abbrev main_call0_v42 : Ref sig .tc := ⟨.hbm, 85, rfl⟩
abbrev main_call0_v43 : Ref sig .tc := ⟨.hbm, 86, rfl⟩
abbrev main_call0_v44 : Ref sig .tc := ⟨.hbm, 87, rfl⟩
abbrev main_call0_v45 : Ref sig .tc := ⟨.hbm, 88, rfl⟩
abbrev main_call0_v46 : Ref sig .tc := ⟨.hbm, 89, rfl⟩
abbrev main_call0_v47 : Ref sig .tc := ⟨.hbm, 90, rfl⟩
abbrev main_call0_v48 : Ref sig .tc := ⟨.hbm, 91, rfl⟩
abbrev main_call0_v49 : Ref sig .tc := ⟨.hbm, 92, rfl⟩
abbrev main_call0_call1_c : Ref sig .tc := ⟨.hbm, 93, rfl⟩
abbrev main_call0_call1_v0 : Ref sig .tc := ⟨.hbm, 94, rfl⟩
abbrev main_call0_call1_v1 : Ref sig .tc := ⟨.hbm, 95, rfl⟩
abbrev main_call0_call1_c_0 : Ref sig .tc := ⟨.hbm, 96, rfl⟩
abbrev main_call0_call1_v2 : Ref sig .tc := ⟨.hbm, 97, rfl⟩
abbrev main_call0_call1_v3 : Ref sig .tc := ⟨.hbm, 98, rfl⟩
abbrev main_call0_call1_v4 : Ref sig .tc := ⟨.hbm, 99, rfl⟩
abbrev main_call0_call1_v5 : Ref sig .tc := ⟨.hbm, 100, rfl⟩
abbrev main_call0_call1_c_1 : Ref sig .tc := ⟨.hbm, 101, rfl⟩
abbrev main_call0_call1_c_2 : Ref sig .tc := ⟨.hbm, 102, rfl⟩
abbrev main_call0_call1_v6 : Ref sig .tc := ⟨.hbm, 103, rfl⟩
abbrev main_call0_call1_v7 : Ref sig .tc := ⟨.hbm, 104, rfl⟩
abbrev main_call0_call1_v8 : Ref sig .tc := ⟨.hbm, 105, rfl⟩
abbrev main_call0_call1_v9 : Ref sig .tc := ⟨.hbm, 106, rfl⟩
abbrev main_call0_call1_v10 : Ref sig .tc := ⟨.hbm, 107, rfl⟩
abbrev main_call0_call1_v11 : Ref sig .tc := ⟨.hbm, 108, rfl⟩
abbrev main_call0_call1_c_3 : Ref sig .tc := ⟨.hbm, 109, rfl⟩
abbrev main_call0_call1_v12 : Ref sig .tc := ⟨.hbm, 110, rfl⟩
abbrev main_call0_call1_v13 : Ref sig .tc := ⟨.hbm, 111, rfl⟩
abbrev main_call0_call1_v14 : Ref sig .tc := ⟨.hbm, 112, rfl⟩
abbrev main_call0_call1_cst : Ref sig .tc := ⟨.hbm, 113, rfl⟩
abbrev main_call0_call1_v15 : Ref sig .tc := ⟨.hbm, 114, rfl⟩
abbrev main_call0_v50 : Ref sig .tc := ⟨.hbm, 115, rfl⟩
abbrev main_call0_v51 : Ref sig .tc := ⟨.hbm, 116, rfl⟩
abbrev main_call0_cst_3 : Ref sig .tc := ⟨.hbm, 117, rfl⟩
abbrev main_call0_v52 : Ref sig .tc := ⟨.hbm, 118, rfl⟩
abbrev main_call0_v53 : Ref sig .tc := ⟨.hbm, 119, rfl⟩
abbrev main_call0_v54 : Ref sig .tc := ⟨.hbm, 120, rfl⟩
abbrev main_call0_v55 : Ref sig .tc := ⟨.hbm, 121, rfl⟩
abbrev main_call0_v56 : Ref sig .tc := ⟨.hbm, 122, rfl⟩
abbrev main_call0_v57 : Ref sig .tc := ⟨.hbm, 123, rfl⟩
abbrev main_call0_v58 : Ref sig .tc := ⟨.hbm, 124, rfl⟩
abbrev main_call0_v59 : Ref sig .tc := ⟨.hbm, 125, rfl⟩
abbrev main_call0_v60 : Ref sig .tc := ⟨.hbm, 126, rfl⟩
abbrev main_call0_v61 : Ref sig .tc := ⟨.hbm, 127, rfl⟩
abbrev main_call0_v62 : Ref sig .tc := ⟨.hbm, 128, rfl⟩
abbrev main_call0_v63 : Ref sig .tc := ⟨.hbm, 129, rfl⟩
abbrev main_call0_v64 : Ref sig .tc := ⟨.hbm, 130, rfl⟩
abbrev main_call0_v65 : Ref sig .tc := ⟨.hbm, 131, rfl⟩
abbrev main_call0_v66 : Ref sig .tc := ⟨.hbm, 132, rfl⟩
abbrev main_call0_v67 : Ref sig .tc := ⟨.hbm, 133, rfl⟩
abbrev main_call0_v68 : Ref sig .tc := ⟨.hbm, 134, rfl⟩
abbrev main_call0_v69 : Ref sig .tc := ⟨.hbm, 135, rfl⟩
abbrev main_call0_v70 : Ref sig .tc := ⟨.hbm, 136, rfl⟩
abbrev main_call0_v71 : Ref sig .tc := ⟨.hbm, 137, rfl⟩
abbrev main_call0_v72 : Ref sig .tc := ⟨.hbm, 138, rfl⟩
abbrev main_call0_v73 : Ref sig .tc := ⟨.hbm, 139, rfl⟩
abbrev main_call0_v74 : Ref sig .tc := ⟨.hbm, 140, rfl⟩
abbrev main_call0_v75 : Ref sig .tc := ⟨.hbm, 141, rfl⟩
abbrev main_call0_v76 : Ref sig .tc := ⟨.hbm, 142, rfl⟩
abbrev main_call0_v77 : Ref sig .tc := ⟨.hbm, 143, rfl⟩
abbrev main_call0_call2_c : Ref sig .tc := ⟨.hbm, 144, rfl⟩
abbrev main_call0_call2_v0 : Ref sig .tc := ⟨.hbm, 145, rfl⟩
abbrev main_call0_call2_v1 : Ref sig .tc := ⟨.hbm, 146, rfl⟩
abbrev main_call0_call2_c_0 : Ref sig .tc := ⟨.hbm, 147, rfl⟩
abbrev main_call0_call2_v2 : Ref sig .tc := ⟨.hbm, 148, rfl⟩
abbrev main_call0_call2_v3 : Ref sig .tc := ⟨.hbm, 149, rfl⟩
abbrev main_call0_call2_v4 : Ref sig .tc := ⟨.hbm, 150, rfl⟩
abbrev main_call0_call2_v5 : Ref sig .tc := ⟨.hbm, 151, rfl⟩
abbrev main_call0_call2_c_1 : Ref sig .tc := ⟨.hbm, 152, rfl⟩
abbrev main_call0_call2_c_2 : Ref sig .tc := ⟨.hbm, 153, rfl⟩
abbrev main_call0_call2_v6 : Ref sig .tc := ⟨.hbm, 154, rfl⟩
abbrev main_call0_call2_v7 : Ref sig .tc := ⟨.hbm, 155, rfl⟩
abbrev main_call0_call2_v8 : Ref sig .tc := ⟨.hbm, 156, rfl⟩
abbrev main_call0_call2_v9 : Ref sig .tc := ⟨.hbm, 157, rfl⟩
abbrev main_call0_call2_v10 : Ref sig .tc := ⟨.hbm, 158, rfl⟩
abbrev main_call0_call2_v11 : Ref sig .tc := ⟨.hbm, 159, rfl⟩
abbrev main_call0_call2_c_3 : Ref sig .tc := ⟨.hbm, 160, rfl⟩
abbrev main_call0_call2_v12 : Ref sig .tc := ⟨.hbm, 161, rfl⟩
abbrev main_call0_call2_v13 : Ref sig .tc := ⟨.hbm, 162, rfl⟩
abbrev main_call0_call2_v14 : Ref sig .tc := ⟨.hbm, 163, rfl⟩
abbrev main_call0_call2_cst : Ref sig .tc := ⟨.hbm, 164, rfl⟩
abbrev main_call0_call2_v15 : Ref sig .tc := ⟨.hbm, 165, rfl⟩
abbrev main_call0_v78 : Ref sig .tc := ⟨.hbm, 166, rfl⟩
abbrev main_call0_v79 : Ref sig .tc := ⟨.hbm, 167, rfl⟩
abbrev main_call0_cst_4 : Ref sig .tc := ⟨.hbm, 168, rfl⟩
abbrev main_call0_v80 : Ref sig .tc := ⟨.hbm, 169, rfl⟩
abbrev main_call0_v81 : Ref sig .tc := ⟨.hbm, 170, rfl⟩
abbrev main_call0_v82 : Ref sig .tc := ⟨.hbm, 171, rfl⟩
abbrev main_call0_v83 : Ref sig .tc := ⟨.hbm, 172, rfl⟩
abbrev main_call0_v84 : Ref sig .tc := ⟨.hbm, 173, rfl⟩
abbrev main_call0_v85 : Ref sig .tc := ⟨.hbm, 174, rfl⟩
abbrev main_call0_v86 : Ref sig .tc := ⟨.hbm, 175, rfl⟩
abbrev main_call0_v87 : Ref sig .tc := ⟨.hbm, 176, rfl⟩
abbrev main_call0_v88 : Ref sig .tc := ⟨.hbm, 177, rfl⟩
abbrev main_call0_v89 : Ref sig .tc := ⟨.hbm, 178, rfl⟩
abbrev main_call0_v90 : Ref sig .tc := ⟨.hbm, 179, rfl⟩
abbrev main_call0_v91 : Ref sig .tc := ⟨.hbm, 180, rfl⟩
abbrev main_call0_v92 : Ref sig .tc := ⟨.hbm, 181, rfl⟩
abbrev main_call0_v93 : Ref sig .tc := ⟨.hbm, 182, rfl⟩
abbrev main_call0_v94 : Ref sig .tc := ⟨.hbm, 183, rfl⟩
abbrev main_call0_v95 : Ref sig .tc := ⟨.hbm, 184, rfl⟩
abbrev main_call0_v96 : Ref sig .tc := ⟨.hbm, 185, rfl⟩
abbrev main_call0_v97 : Ref sig .tc := ⟨.hbm, 186, rfl⟩
abbrev main_call0_v98 : Ref sig .tc := ⟨.hbm, 187, rfl⟩
abbrev main_call0_v99 : Ref sig .tc := ⟨.hbm, 188, rfl⟩
abbrev main_call0_v100 : Ref sig .tc := ⟨.hbm, 189, rfl⟩
abbrev main_call0_v101 : Ref sig .tc := ⟨.hbm, 190, rfl⟩
abbrev main_call0_v102 : Ref sig .tc := ⟨.hbm, 191, rfl⟩
abbrev main_call0_v103 : Ref sig .tc := ⟨.hbm, 192, rfl⟩
abbrev main_call0_v104 : Ref sig .tc := ⟨.hbm, 193, rfl⟩
abbrev main_call0_v105 : Ref sig .tc := ⟨.hbm, 194, rfl⟩
abbrev main_call0_call3_c : Ref sig .tc := ⟨.hbm, 195, rfl⟩
abbrev main_call0_call3_v0 : Ref sig .tc := ⟨.hbm, 196, rfl⟩
abbrev main_call0_call3_v1 : Ref sig .tc := ⟨.hbm, 197, rfl⟩
abbrev main_call0_call3_c_0 : Ref sig .tc := ⟨.hbm, 198, rfl⟩
abbrev main_call0_call3_v2 : Ref sig .tc := ⟨.hbm, 199, rfl⟩
abbrev main_call0_call3_v3 : Ref sig .tc := ⟨.hbm, 200, rfl⟩
abbrev main_call0_call3_v4 : Ref sig .tc := ⟨.hbm, 201, rfl⟩
abbrev main_call0_call3_v5 : Ref sig .tc := ⟨.hbm, 202, rfl⟩
abbrev main_call0_call3_c_1 : Ref sig .tc := ⟨.hbm, 203, rfl⟩
abbrev main_call0_call3_c_2 : Ref sig .tc := ⟨.hbm, 204, rfl⟩
abbrev main_call0_call3_v6 : Ref sig .tc := ⟨.hbm, 205, rfl⟩
abbrev main_call0_call3_v7 : Ref sig .tc := ⟨.hbm, 206, rfl⟩
abbrev main_call0_call3_v8 : Ref sig .tc := ⟨.hbm, 207, rfl⟩
abbrev main_call0_call3_v9 : Ref sig .tc := ⟨.hbm, 208, rfl⟩
abbrev main_call0_call3_v10 : Ref sig .tc := ⟨.hbm, 209, rfl⟩
abbrev main_call0_call3_v11 : Ref sig .tc := ⟨.hbm, 210, rfl⟩
abbrev main_call0_call3_c_3 : Ref sig .tc := ⟨.hbm, 211, rfl⟩
abbrev main_call0_call3_v12 : Ref sig .tc := ⟨.hbm, 212, rfl⟩
abbrev main_call0_call3_v13 : Ref sig .tc := ⟨.hbm, 213, rfl⟩
abbrev main_call0_call3_v14 : Ref sig .tc := ⟨.hbm, 214, rfl⟩
abbrev main_call0_call3_cst : Ref sig .tc := ⟨.hbm, 215, rfl⟩
abbrev main_call0_call3_v15 : Ref sig .tc := ⟨.hbm, 216, rfl⟩
abbrev main_call0_v106 : Ref sig .tc := ⟨.hbm, 217, rfl⟩
abbrev main_call0_v107 : Ref sig .tc := ⟨.hbm, 218, rfl⟩
abbrev main_call0_cst_5 : Ref sig .tc := ⟨.hbm, 219, rfl⟩
abbrev main_call0_v108 : Ref sig .tc := ⟨.hbm, 220, rfl⟩
abbrev main_call0_v109 : Ref sig .tc := ⟨.hbm, 221, rfl⟩
abbrev main_call0_v110 : Ref sig .tc := ⟨.hbm, 222, rfl⟩
abbrev main_call0_v111 : Ref sig .tc := ⟨.hbm, 223, rfl⟩
abbrev main_call0_v112 : Ref sig .tc := ⟨.hbm, 224, rfl⟩
abbrev main_call0_v113 : Ref sig .tc := ⟨.hbm, 225, rfl⟩
abbrev main_call0_v114 : Ref sig .tc := ⟨.hbm, 226, rfl⟩
abbrev main_call0_v115 : Ref sig .tc := ⟨.hbm, 227, rfl⟩
abbrev main_call0_v116 : Ref sig .tc := ⟨.hbm, 228, rfl⟩
abbrev main_call0_v117 : Ref sig .tc := ⟨.hbm, 229, rfl⟩
abbrev main_call0_v118 : Ref sig .tc := ⟨.hbm, 230, rfl⟩
abbrev main_call0_v119 : Ref sig .tc := ⟨.hbm, 231, rfl⟩
abbrev main_call0_v120 : Ref sig .tc := ⟨.hbm, 232, rfl⟩
abbrev main_call0_v121 : Ref sig .tc := ⟨.hbm, 233, rfl⟩
abbrev main_call0_v122 : Ref sig .tc := ⟨.hbm, 234, rfl⟩
abbrev main_call0_v123 : Ref sig .tc := ⟨.hbm, 235, rfl⟩
abbrev main_v0 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg7_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg7_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg5_0 : Ref sig .tc := ⟨.vmem, 79, rfl⟩
abbrev cc7_stg6_0 : Ref sig .tc := ⟨.vmem, 80, rfl⟩
abbrev cc7_stg7_0 : Ref sig .tc := ⟨.vmem, 81, rfl⟩
abbrev cc7_stg7_1 : Ref sig .tc := ⟨.vmem, 82, rfl⟩
abbrev cc8_stg0_0 : Ref sig .tc := ⟨.vmem, 83, rfl⟩
abbrev cc8_stg0_1 : Ref sig .tc := ⟨.vmem, 84, rfl⟩
abbrev cc8_stg1_0 : Ref sig .tc := ⟨.vmem, 85, rfl⟩
abbrev cc8_stg1_1 : Ref sig .tc := ⟨.vmem, 86, rfl⟩
abbrev cc8_stg2_0 : Ref sig .tc := ⟨.vmem, 87, rfl⟩
abbrev cc8_stg3_0 : Ref sig .tc := ⟨.vmem, 88, rfl⟩
abbrev cc8_stg4_0 : Ref sig .tc := ⟨.vmem, 89, rfl⟩
abbrev cc8_stg5_0 : Ref sig .tc := ⟨.vmem, 90, rfl⟩
abbrev cc8_stg6_0 : Ref sig .tc := ⟨.vmem, 91, rfl⟩
abbrev cc8_stg7_0 : Ref sig .tc := ⟨.vmem, 92, rfl⟩
abbrev cc8_stg7_1 : Ref sig .tc := ⟨.vmem, 93, rfl⟩
abbrev cc9_stg0_0 : Ref sig .tc := ⟨.vmem, 94, rfl⟩
abbrev cc9_stg0_1 : Ref sig .tc := ⟨.vmem, 95, rfl⟩
abbrev cc9_stg1_0 : Ref sig .tc := ⟨.vmem, 96, rfl⟩
abbrev cc9_stg2_0 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg5_0 : Ref sig .tc := ⟨.vmem, 100, rfl⟩
abbrev cc9_stg5_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59
abbrev cc5_sem7_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem7_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem3_0 : DmaSem sig := 77
abbrev cc7_sem4_0 : DmaSem sig := 78
abbrev cc7_sem5_0 : DmaSem sig := 79
abbrev cc7_sem6_0 : DmaSem sig := 80
abbrev cc7_sem7_0 : DmaSem sig := 81
abbrev cc7_sem7_1 : DmaSem sig := 82
abbrev cc8_sem0_0 : DmaSem sig := 83
abbrev cc8_sem0_1 : DmaSem sig := 84
abbrev cc8_sem1_0 : DmaSem sig := 85
abbrev cc8_sem1_1 : DmaSem sig := 86
abbrev cc8_sem2_0 : DmaSem sig := 87
abbrev cc8_sem3_0 : DmaSem sig := 88
abbrev cc8_sem4_0 : DmaSem sig := 89
abbrev cc8_sem5_0 : DmaSem sig := 90
abbrev cc8_sem6_0 : DmaSem sig := 91
abbrev cc8_sem7_0 : DmaSem sig := 92
abbrev cc8_sem7_1 : DmaSem sig := 93
abbrev cc9_sem0_0 : DmaSem sig := 94
abbrev cc9_sem0_1 : DmaSem sig := 95
abbrev cc9_sem1_0 : DmaSem sig := 96
abbrev cc9_sem2_0 : DmaSem sig := 97
abbrev cc9_sem3_0 : DmaSem sig := 98
abbrev cc9_sem4_0 : DmaSem sig := 99
abbrev cc9_sem5_0 : DmaSem sig := 100
abbrev cc9_sem5_1 : DmaSem sig := 101

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S6000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x4 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S6000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x4 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S4x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S6000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x3 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x3 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  slices_S4x132x128_S1x128x128_0_0_0 : S4x132x128.Slices ![0, 0, 0] S1x128x128
  shapeCasts_S1x128x128_S128x128 : S1x128x128.ShapeCasts S128x128
  slices_S4x132x128_S1x4x128_0_128_0 : S4x132x128.Slices ![0, 128, 0] S1x4x128
  shapeCasts_S1x4x128_S4x128 : S1x4x128.ShapeCasts S4x128
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x256x128_S1x128x128_0_0_0 : S4x256x128.Slices ![0, 0, 0] S1x128x128
  slices_S4x256x128_S1x128x128_0_128_0 : S4x256x128.Slices ![0, 128, 0] S1x128x128
  slices_S4x132x128_S1x128x128_1_0_0 : S4x132x128.Slices ![1, 0, 0] S1x128x128
  slices_S4x132x128_S1x4x128_1_128_0 : S4x132x128.Slices ![1, 128, 0] S1x4x128
  slices_S4x128_S1x128_1_0 : S4x128.Slices ![1, 0] S1x128
  slices_S4x128x128_S1x128x128_1_0_0 : S4x128x128.Slices ![1, 0, 0] S1x128x128
  slices_S4x256x128_S1x128x128_1_0_0 : S4x256x128.Slices ![1, 0, 0] S1x128x128
  slices_S4x256x128_S1x128x128_1_128_0 : S4x256x128.Slices ![1, 128, 0] S1x128x128
  slices_S4x132x128_S1x128x128_2_0_0 : S4x132x128.Slices ![2, 0, 0] S1x128x128
  slices_S4x132x128_S1x4x128_2_128_0 : S4x132x128.Slices ![2, 128, 0] S1x4x128
  slices_S4x128_S1x128_2_0 : S4x128.Slices ![2, 0] S1x128
  slices_S4x128x128_S1x128x128_2_0_0 : S4x128x128.Slices ![2, 0, 0] S1x128x128
  slices_S4x256x128_S1x128x128_2_0_0 : S4x256x128.Slices ![2, 0, 0] S1x128x128
  slices_S4x256x128_S1x128x128_2_128_0 : S4x256x128.Slices ![2, 128, 0] S1x128x128
  slices_S4x132x128_S1x128x128_3_0_0 : S4x132x128.Slices ![3, 0, 0] S1x128x128
  slices_S4x132x128_S1x4x128_3_128_0 : S4x132x128.Slices ![3, 128, 0] S1x4x128
  slices_S4x128_S1x128_3_0 : S4x128.Slices ![3, 0] S1x128
  slices_S4x128x128_S1x128x128_3_0_0 : S4x128x128.Slices ![3, 0, 0] S1x128x128
  slices_S4x256x128_S1x128x128_3_0_0 : S4x256x128.Slices ![3, 0, 0] S1x128x128
  slices_S4x256x128_S1x128x128_3_128_0 : S4x256x128.Slices ![3, 128, 0] S1x128x128
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x4_S6000x4_0_0 : ∀ a, (![0, 0] : Fin 2 → Nat) a + S6000x4.size a ≤ S6000x4.size a
  h_S6000x4 : 0 < S6000x4.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  shapeCasts_S128_S128 : S128.ShapeCasts S128
  broadcasts_S1x128_S6000x128 : S1x128.Broadcasts S6000x128
  shapeCasts_S2000x128_S2000x128 : S2000x128.ShapeCasts S2000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x16_S16x128_S2000x128_1_0_0_1_n_n_wf : DotDims.WF S2000x16 S16x128 S2000x128 [1] [0] [0] [1] [] []
  dot_S6000x128_S128x128_S6000x128_1_0_0_1_n_n_wf : DotDims.WF S6000x128 S128x128 S6000x128 [1] [0] [0] [1] [] []
  dot_S6000x4_S4x128_S6000x128_1_0_0_1_n_n_wf : DotDims.WF S6000x4 S4x128 S6000x128 [1] [0] [0] [1] [] []
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x4.size a ≤ S600000x4.size a
  hwx1_1 : ∀ i : grid1.Coords, EltTy.bits .f32 = 32 ∨ (Rect.block (s := S600000x4) S6000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x128.size a ≤ S600000x128.size a
  hwx1_7 : ∀ i : grid1.Coords, EltTy.bits .f32 = 32 ∨ (Rect.block (s := S600000x128) S6000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S600000x128.size a
  hwx3_0 : ∀ i : grid3.Coords, EltTy.bits .f32 = 32 ∨ (Rect.block (s := S600000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x4.size a ≤ S600000x4.size a
  hwx3_1 : ∀ i : grid3.Coords, EltTy.bits .f32 = 32 ∨ (Rect.block (s := S600000x4) S6000x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4x128.size a ≤ S4x128.size a
  hwx3_3 : ∀ i : grid3.Coords, EltTy.bits .f32 = 32 ∨ (Rect.block (s := S4x128) S4x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S6000x128.size a ≤ S600000x128.size a
  hwx3_7 : ∀ i : grid3.Coords, EltTy.bits .f32 = 32 ∨ (Rect.block (s := S600000x128) S6000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S600000x128.size a
  hwx5_0 : ∀ i : grid5.Coords, EltTy.bits .f32 = 32 ∨ (Rect.block (s := S600000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x4.size a ≤ S600000x4.size a
  hwx5_1 : ∀ i : grid5.Coords, EltTy.bits .f32 = 32 ∨ (Rect.block (s := S600000x4) S6000x4.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4x128.size a ≤ S4x128.size a
  hwx5_3 : ∀ i : grid5.Coords, EltTy.bits .f32 = 32 ∨ (Rect.block (s := S4x128) S4x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S6000x128.size a ≤ S600000x128.size a
  hwx5_7 : ∀ i : grid5.Coords, EltTy.bits .f32 = 32 ∨ (Rect.block (s := S600000x128) S6000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x128.size a ≤ S600000x128.size a
  hwx7_0 : ∀ i : grid7.Coords, EltTy.bits .f32 = 32 ∨ (Rect.block (s := S600000x128) S6000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x4.size a ≤ S600000x4.size a
  hwx7_1 : ∀ i : grid7.Coords, EltTy.bits .f32 = 32 ∨ (Rect.block (s := S600000x4) S6000x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S4x128.size a ≤ S4x128.size a
  hwx7_3 : ∀ i : grid7.Coords, EltTy.bits .f32 = 32 ∨ (Rect.block (s := S4x128) S4x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S6000x128.size a ≤ S600000x128.size a
  hwx7_7 : ∀ i : grid7.Coords, EltTy.bits .f32 = 32 ∨ (Rect.block (s := S600000x128) S6000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128.size a ≤ S128.size a
  hwx8_6 : ∀ i : grid8.Coords, EltTy.bits .f32 = 32 ∨ (Rect.block (s := S128) S128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S50000x128.size a
  hwx8_7 : ∀ i : grid8.Coords, EltTy.bits .f32 = 32 ∨ (Rect.block (s := S50000x128) S2000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x3.size a ≤ S128x3.size a
  hwx9_3 : ∀ i : grid9.Coords, EltTy.bits .f32 = 32 ∨ (Rect.block (s := S128x3) S128x3.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3.size a ≤ S3.size a
  hwx9_4 : ∀ i : grid9.Coords, EltTy.bits .f32 = 32 ∨ (Rect.block (s := S3) S3.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x3.size a ≤ S50000x3.size a
  hwx9_5 : ∀ i : grid9.Coords, EltTy.bits .f32 = 32 ∨ (Rect.block (s := S50000x3) S2000x3.size (cc9_transform_5 i) (hinb9_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S6000x4_S4x128_S6000x128_1_0_0_1_n_n : DotDims S6000x4 S4x128 S6000x128 where
  lhsContracting := [1]
  rhsContracting := [0]
  lhsNonContracting := [0]
  rhsNonContracting := [1]
  lhsBatch := []
  rhsBatch := []
  wf := dot_S6000x4_S4x128_S6000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v22) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S6000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v15) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v19) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v21) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v23) S6000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v4) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v28) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v34) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v36) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v38) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v39) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v50) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S6000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v41) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v43) S4x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v45) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v47) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v49) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v51) S6000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_call0_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v56) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v58) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v60) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v62) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v64) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v66) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v67) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_call0_v78) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S6000x4.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v69) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v71) S4x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v73) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v75) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v77) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_call0_v79) S6000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_call0_v67) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v84) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v86) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v88) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v90) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v92) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v94) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_call0_v95) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_call0_v106) S6000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg2) S6000x4.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v97) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v99) S4x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v101) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v103) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v105) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_call0_v107) S6000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_call0_v95) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v112) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_call0_v114) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v116) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_call0_v118) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_call0_v120) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_call0_v122) S128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_call0_v123) S2000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_call0_v123) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg14) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg15) S128x3.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg16) S3.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v0) S2000x3.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x16 : Shape := ⟨2, ![50000, 16]⟩
abbrev S2x600000 : Shape := ⟨2, ![2, 600000]⟩
abbrev S600000x4 : Shape := ⟨2, ![600000, 4]⟩
abbrev S16x128 : Shape := ⟨2, ![16, 128]⟩
abbrev S128 : Shape := ⟨1, ![128]⟩
abbrev S4x132x128 : Shape := ⟨3, ![4, 132, 128]⟩
abbrev S4x128 : Shape := ⟨2, ![4, 128]⟩
abbrev S4x128x128 : Shape := ⟨3, ![4, 128, 128]⟩
abbrev S4x256x128 : Shape := ⟨3, ![4, 256, 128]⟩
abbrev S128x128 : Shape := ⟨2, ![128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S600000x132 : Shape := ⟨2, ![600000, 132]⟩
abbrev S1x132x128 : Shape := ⟨3, ![1, 132, 128]⟩
abbrev S132x128 : Shape := ⟨2, ![132, 128]⟩
abbrev S1x128x128 : Shape := ⟨3, ![1, 128, 128]⟩
abbrev S50000x256 : Shape := ⟨2, ![50000, 256]⟩
abbrev S1x256x128 : Shape := ⟨3, ![1, 256, 128]⟩
abbrev S256x128 : Shape := ⟨2, ![256, 128]⟩
abbrev S50000x3 : Shape := ⟨2, ![50000, 3]⟩
abbrev S1x3 : Shape := ⟨2, ![1, 3]⟩

abbrev nBuf : Space → Nat
  | .hbm => 300
  | .vmem => 0
  | .smem => 0
  | _ => 0

abbrev hbmTy0_0 (i : Nat) : BufTy := match i % 128 with
  | 0 => ⟨S50000x16, .f32⟩
  | 1 => ⟨S2x600000, .i32⟩
  | 2 => ⟨S600000x4, .f32⟩
  | 3 => ⟨S16x128, .f32⟩
  | 4 => ⟨S128, .f32⟩
  | 5 => ⟨S4x132x128, .f32⟩
  | 6 => ⟨S4x128, .f32⟩
  | 7 => ⟨S4x128x128, .f32⟩
  | 8 => ⟨S4x128, .f32⟩
  | 9 => ⟨S4x256x128, .f32⟩
  | 10 => ⟨S4x128, .f32⟩
  | 11 => ⟨S4x128x128, .f32⟩
  | 12 => ⟨S4x128, .f32⟩
  | 13 => ⟨S128x128, .f32⟩
  | 14 => ⟨S128, .f32⟩
  | 15 => ⟨S128x3, .f32⟩
  | 16 => ⟨S3, .f32⟩
  | 17 => ⟨S1x600000, .i32⟩
  | 18 => ⟨S600000, .i32⟩
  | 19 => ⟨S1x600000, .i32⟩
  | 20 => ⟨S600000, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S600000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x132, .f32⟩
  | 48 => ⟨S1x132x128, .f32⟩
  | 49 => ⟨S132x128, .f32⟩
  | 50 => ⟨S600000x128, .f32⟩
  | 51 => ⟨S1x128, .f32⟩
  | 52 => ⟨S128, .f32⟩
  | 53 => ⟨S1x128, .f32⟩
  | 54 => ⟨S600000x128, .f32⟩
  | 55 => ⟨S600000x128, .f32⟩
  | 56 => ⟨S_, .f32⟩
  | 57 => ⟨S600000x128, .f32⟩
  | 58 => ⟨S600000x128, .f32⟩
  | 59 => ⟨S1x128x128, .f32⟩
  | 60 => ⟨S128x128, .f32⟩
  | 61 => ⟨S600000x128, .f32⟩
  | 62 => ⟨S1x128, .f32⟩
  | 63 => ⟨S128, .f32⟩
  | 64 => ⟨S1x128, .f32⟩
  | 65 => ⟨S600000x128, .f32⟩
  | 66 => ⟨S600000x128, .f32⟩
  | 67 => ⟨S_, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S50000x256, .f32⟩
  | 77 => ⟨S1x256x128, .f32⟩
  | 78 => ⟨S256x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x132, .f32⟩
  | 110 => ⟨S1x132x128, .f32⟩
  | 111 => ⟨S132x128, .f32⟩
  | 112 => ⟨S600000x128, .f32⟩
  | 113 => ⟨S1x128, .f32⟩
  | 114 => ⟨S128, .f32⟩
  | 115 => ⟨S1x128, .f32⟩
  | 116 => ⟨S600000x128, .f32⟩
  | 117 => ⟨S600000x128, .f32⟩
  | 118 => ⟨S_, .f32⟩
  | 119 => ⟨S600000x128, .f32⟩
  | 120 => ⟨S600000x128, .f32⟩
  | 121 => ⟨S1x128x128, .f32⟩
  | 122 => ⟨S128x128, .f32⟩
  | 123 => ⟨S600000x128, .f32⟩
  | 124 => ⟨S1x128, .f32⟩
  | 125 => ⟨S128, .f32⟩
  | 126 => ⟨S1x128, .f32⟩
  | 127 => ⟨S600000x128, .f32⟩
  | _ => ⟨S50000x16, .f32⟩

abbrev hbmTy0_1 (i : Nat) : BufTy := match i % 128 with
  | 0 => ⟨S600000x128, .f32⟩
  | 1 => ⟨S_, .f32⟩
  | 2 => ⟨S600000x128, .f32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S50000x128, .f32⟩
  | 9 => ⟨S50000x128, .f32⟩
  | 10 => ⟨S50000x256, .f32⟩
  | 11 => ⟨S1x256x128, .f32⟩
  | 12 => ⟨S256x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x132, .f32⟩
  | 44 => ⟨S1x132x128, .f32⟩
  | 45 => ⟨S132x128, .f32⟩
  | 46 => ⟨S600000x128, .f32⟩
  | 47 => ⟨S1x128, .f32⟩
  | 48 => ⟨S128, .f32⟩
  | 49 => ⟨S1x128, .f32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S1x128x128, .f32⟩
  | 56 => ⟨S128x128, .f32⟩
  | 57 => ⟨S600000x128, .f32⟩
  | 58 => ⟨S1x128, .f32⟩
  | 59 => ⟨S128, .f32⟩
  | 60 => ⟨S1x128, .f32⟩
  | 61 => ⟨S600000x128, .f32⟩
  | 62 => ⟨S600000x128, .f32⟩
  | 63 => ⟨S_, .f32⟩
  | 64 => ⟨S600000x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x128, .f32⟩
  | 71 => ⟨S50000x128, .f32⟩
  | 72 => ⟨S50000x256, .f32⟩
  | 73 => ⟨S1x256x128, .f32⟩
  | 74 => ⟨S256x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x132, .f32⟩
  | 106 => ⟨S1x132x128, .f32⟩
  | 107 => ⟨S132x128, .f32⟩
  | 108 => ⟨S600000x128, .f32⟩
  | 109 => ⟨S1x128, .f32⟩
  | 110 => ⟨S128, .f32⟩
  | 111 => ⟨S1x128, .f32⟩
  | 112 => ⟨S600000x128, .f32⟩
  | 113 => ⟨S600000x128, .f32⟩
  | 114 => ⟨S_, .f32⟩
  | 115 => ⟨S600000x128, .f32⟩
  | 116 => ⟨S600000x128, .f32⟩
  | 117 => ⟨S1x128x128, .f32⟩
  | 118 => ⟨S128x128, .f32⟩
  | 119 => ⟨S600000x128, .f32⟩
  | 120 => ⟨S1x128, .f32⟩
  | 121 => ⟨S128, .f32⟩
  | 122 => ⟨S1x128, .f32⟩
  | 123 => ⟨S600000x128, .f32⟩
  | 124 => ⟨S600000x128, .f32⟩
  | 125 => ⟨S_, .f32⟩
  | 126 => ⟨S600000x128, .f32⟩
  | 127 => ⟨S600000x128, .f32⟩
  | _ => ⟨S50000x16, .f32⟩

abbrev hbmTy0_2 (i : Nat) : BufTy := match i % 128 with
  | 0 => ⟨S_, .f32⟩
  | 1 => ⟨S50000x128, .f32⟩
  | 2 => ⟨S600000x1, .i32⟩
  | 3 => ⟨S50000x128, .f32⟩
  | 4 => ⟨S50000x128, .f32⟩
  | 5 => ⟨S50000x128, .f32⟩
  | 6 => ⟨S50000x256, .f32⟩
  | 7 => ⟨S1x256x128, .f32⟩
  | 8 => ⟨S256x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x3, .f32⟩
  | 38 => ⟨S1x3, .f32⟩
  | 39 => ⟨S50000x3, .f32⟩
  | 40 => ⟨S50000x3, .f32⟩
  | 41 => ⟨S_, .f32⟩
  | 42 => ⟨S50000x3, .f32⟩
  | 43 => ⟨S50000x3, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_cst : Ref sig .tc := ⟨.hbm, 56, rfl⟩
abbrev main_call1_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call2_cst : Ref sig .tc := ⟨.hbm, 67, rfl⟩
abbrev main_call2_v0 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call3_cst : Ref sig .tc := ⟨.hbm, 85, rfl⟩
abbrev main_call3_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call4_cst : Ref sig .tc := ⟨.hbm, 97, rfl⟩
abbrev main_call4_v0 : Ref sig .tc := ⟨.hbm, 98, rfl⟩
abbrev main_v66 : Ref sig .tc := ⟨.hbm, 99, rfl⟩
abbrev main_c_4 : Ref sig .tc := ⟨.hbm, 100, rfl⟩
abbrev main_v67 : Ref sig .tc := ⟨.hbm, 101, rfl⟩
abbrev main_v68 : Ref sig .tc := ⟨.hbm, 102, rfl⟩
abbrev main_c_5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call5_cst : Ref sig .tc := ⟨.hbm, 118, rfl⟩
abbrev main_call5_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call6_cst : Ref sig .tc := ⟨.hbm, 129, rfl⟩
abbrev main_call6_v0 : Ref sig .tc := ⟨.hbm, 130, rfl⟩
abbrev main_v92 : Ref sig .tc := ⟨.hbm, 131, rfl⟩
abbrev main_cst_6 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call7_cst : Ref sig .tc := ⟨.hbm, 147, rfl⟩
abbrev main_call7_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_call8_cst : Ref sig .tc := ⟨.hbm, 159, rfl⟩
abbrev main_call8_v0 : Ref sig .tc := ⟨.hbm, 160, rfl⟩
abbrev main_v117 : Ref sig .tc := ⟨.hbm, 161, rfl⟩
abbrev main_c_7 : Ref sig .tc := ⟨.hbm, 162, rfl⟩
abbrev main_v118 : Ref sig .tc := ⟨.hbm, 163, rfl⟩
abbrev main_v119 : Ref sig .tc := ⟨.hbm, 164, rfl⟩
abbrev main_c_8 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_call9_cst : Ref sig .tc := ⟨.hbm, 180, rfl⟩
abbrev main_call9_v0 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call10_cst : Ref sig .tc := ⟨.hbm, 191, rfl⟩
abbrev main_call10_v0 : Ref sig .tc := ⟨.hbm, 192, rfl⟩
abbrev main_v143 : Ref sig .tc := ⟨.hbm, 193, rfl⟩
abbrev main_cst_9 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_call11_cst : Ref sig .tc := ⟨.hbm, 209, rfl⟩
abbrev main_call11_v0 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_call12_cst : Ref sig .tc := ⟨.hbm, 221, rfl⟩
abbrev main_call12_v0 : Ref sig .tc := ⟨.hbm, 222, rfl⟩
abbrev main_v168 : Ref sig .tc := ⟨.hbm, 223, rfl⟩
abbrev main_c_10 : Ref sig .tc := ⟨.hbm, 224, rfl⟩
abbrev main_v169 : Ref sig .tc := ⟨.hbm, 225, rfl⟩
abbrev main_v170 : Ref sig .tc := ⟨.hbm, 226, rfl⟩
abbrev main_c_11 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_call13_cst : Ref sig .tc := ⟨.hbm, 242, rfl⟩
abbrev main_call13_v0 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_call14_cst : Ref sig .tc := ⟨.hbm, 253, rfl⟩
abbrev main_call14_v0 : Ref sig .tc := ⟨.hbm, 254, rfl⟩
abbrev main_v194 : Ref sig .tc := ⟨.hbm, 255, rfl⟩
abbrev main_cst_12 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_call15_cst : Ref sig .tc := ⟨.hbm, 271, rfl⟩
abbrev main_call15_v0 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_call16_cst : Ref sig .tc := ⟨.hbm, 283, rfl⟩
abbrev main_call16_v0 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_call17_cst : Ref sig .tc := ⟨.hbm, 290, rfl⟩
abbrev main_call17_v0 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_call18_cst : Ref sig .tc := ⟨.hbm, 297, rfl⟩
abbrev main_call18_v0 : Ref sig .tc := ⟨.hbm, 298, rfl⟩
abbrev main_v229 : Ref sig .tc := ⟨.hbm, 299, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  concatenates_S600000x128_S600000x4_S600000x132_d1 : Shape.Concatenates [S600000x128, S600000x4] S600000x132 1
  slices_S4x132x128_S1x132x128_0_0_0 : S4x132x128.Slices ![0, 0, 0] S1x132x128
  shapeCasts_S1x132x128_S132x128 : S1x132x128.ShapeCasts S132x128
  slices_S4x128_S1x128_0_0 : S4x128.Slices ![0, 0] S1x128
  shapeCasts_S1x128_S128 : S1x128.ShapeCasts S128
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S4x128x128_S1x128x128_0_0_0 : S4x128x128.Slices ![0, 0, 0] S1x128x128
  shapeCasts_S1x128x128_S128x128 : S1x128x128.ShapeCasts S128x128
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  slices_S4x256x128_S1x256x128_0_0_0 : S4x256x128.Slices ![0, 0, 0] S1x256x128
  shapeCasts_S1x256x128_S256x128 : S1x256x128.ShapeCasts S256x128
  slices_S4x132x128_S1x132x128_1_0_0 : S4x132x128.Slices ![1, 0, 0] S1x132x128
  slices_S4x128_S1x128_1_0 : S4x128.Slices ![1, 0] S1x128
  slices_S4x128x128_S1x128x128_1_0_0 : S4x128x128.Slices ![1, 0, 0] S1x128x128
  slices_S4x256x128_S1x256x128_1_0_0 : S4x256x128.Slices ![1, 0, 0] S1x256x128
  slices_S4x132x128_S1x132x128_2_0_0 : S4x132x128.Slices ![2, 0, 0] S1x132x128
  slices_S4x128_S1x128_2_0 : S4x128.Slices ![2, 0] S1x128
  slices_S4x128x128_S1x128x128_2_0_0 : S4x128x128.Slices ![2, 0, 0] S1x128x128
  slices_S4x256x128_S1x256x128_2_0_0 : S4x256x128.Slices ![2, 0, 0] S1x256x128
  slices_S4x132x128_S1x132x128_3_0_0 : S4x132x128.Slices ![3, 0, 0] S1x132x128
  slices_S4x128_S1x128_3_0 : S4x128.Slices ![3, 0] S1x128
  slices_S4x128x128_S1x128x128_3_0_0 : S4x128x128.Slices ![3, 0, 0] S1x128x128
  slices_S4x256x128_S1x256x128_3_0_0 : S4x256x128.Slices ![3, 0, 0] S1x256x128
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S_S50000x3 : S_.BroadcastsInDim S50000x3 (![] : Fin 0 → Fin S50000x3.rank)
  dot_S50000x16_S16x128_S50000x128_1_0_0_1_n_n_wf : DotDims.WF S50000x16 S16x128 S50000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  dot_S600000x132_S132x128_S600000x128_1_0_0_1_n_n_wf : DotDims.WF S600000x132 S132x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x132_S132x128_S600000x128_1_0_0_1_n_n : DotDims S600000x132 S132x128 S600000x128 where
  lhsContracting := [1]
  rhsContracting := [0]
  lhsNonContracting := [0]
  rhsNonContracting := [1]
  lhsBatch := []
  rhsBatch := []
  wf := dot_S600000x132_S132x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.RefRunOps.lean ====
import proofs.«406442_j73220602462590_1_alg».proof.Proof.RefRead
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev P0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg0 main_arg3 main_v4 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf,
    nullary main_cst (constant S_ .f32 0x3F800000#32),
    unary main_cst main_v9 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v3 main_v11 (broadcastInDim S600000x1 ![0] bcast_S600000_S600000x1_0 : (⟨S600000, .i32⟩ : BufTy).Contents (Elt F) → (⟨S600000x1, .i32⟩ : BufTy).Contents (Elt F)),
    ternary main_v10 main_v11 main_v9 main_v12 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v16 (broadcastInDim S600000 ![] bcast_S_S600000 : (⟨S_, .i32⟩ : BufTy).Contents (Elt F) → (⟨S600000, .i32⟩ : BufTy).Contents (Elt F)),
    binary main_v1 main_v16 main_v17 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v18 (broadcastInDim S600000 ![] bcast_S_S600000 : (⟨S_, .i32⟩ : BufTy).Contents (Elt F) → (⟨S600000, .i32⟩ : BufTy).Contents (Elt F)),
    binary main_v1 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v8 main_v21 main_v22 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

abbrev P1 : List (HloOp τ sig (Elt F)) :=
  [ binary main_v22 main_arg2 main_v23 ((fun a b => concatenate S600000x132 1 [⟨S600000x128, a⟩, ⟨S600000x4, b⟩] concatenates_S600000x128_S600000x4_S600000x132_d1) : (⟨S600000x128, .f32⟩ : BufTy).Contents (Elt F) → (⟨S600000x4, .f32⟩ : BufTy).Contents (Elt F) → (⟨S600000x132, .f32⟩ : BufTy).Contents (Elt F)),
    unary main_arg5 main_v24 ((extractStridedSlice S1x132x128 ![0, 0, 0] · slices_S4x132x128_S1x132x128_0_0_0) : (⟨S4x132x128, .f32⟩ : BufTy).Contents (Elt F) → (⟨S1x132x128, .f32⟩ : BufTy).Contents (Elt F)),
    reshape main_v24 main_v25 rfl shapeCasts_S1x132x128_S132x128,
    binary main_v23 main_v25 main_v26 ((fun l r => Host.dotGeneral dot_S600000x132_S132x128_S600000x128_1_0_0_1_n_n none l r) : (⟨S600000x132, .f32⟩ : BufTy).Contents (Elt F) → (⟨S132x128, .f32⟩ : BufTy).Contents (Elt F) → (⟨S600000x128, .f32⟩ : BufTy).Contents (Elt F)),
    unary main_arg6 main_v27 ((extractStridedSlice S1x128 ![0, 0] · slices_S4x128_S1x128_0_0) : (⟨S4x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S600000x128 ![0, 1] bcast_S1x128_S600000x128_0_1 : (⟨S1x128, .f32⟩ : BufTy).Contents (Elt F) → (⟨S600000x128, .f32⟩ : BufTy).Contents (Elt F)),
    binary main_v26 main_v30 main_v31 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S600000x128, .f32⟩) main_call1_v0) (broadcastInDim S600000x128 ![] bcast_S_S600000x128),
    TRef.binary (TRef.of (T := ⟨S600000x128, .f32⟩) main_v31) (TRef.of (T := ⟨S600000x128, .f32⟩) main_call1_v0) (TRef.of (T := ⟨S600000x128, .f32⟩) main_v32) maximumf,
    unary main_arg7 main_v33 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v33 main_v34 rfl shapeCasts_S1x128x128_S128x128,
    binary main_v32 main_v34 main_v35 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v36 ((extractStridedSlice S1x128 ![0, 0] · slices_S4x128_S1x128_0_0) : (⟨S4x128, .f32⟩ : BufTy).Contents (Elt F) → (⟨S1x128, .f32⟩ : BufTy).Contents (Elt F)),
    reshape main_v36 main_v37 rfl shapeCasts_S1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S600000x128 ![0, 1] bcast_S1x128_S600000x128_0_1 : (⟨S1x128, .f32⟩ : BufTy).Contents (Elt F) → (⟨S600000x128, .f32⟩ : BufTy).Contents (Elt F)),
    binary main_v35 main_v39 main_v40 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S600000x128, .f32⟩) main_call2_v0) (broadcastInDim S600000x128 ![] bcast_S_S600000x128),
    TRef.binary (TRef.of (T := ⟨S600000x128, .f32⟩) main_v40) (TRef.of (T := ⟨S600000x128, .f32⟩) main_call2_v0) (TRef.of (T := ⟨S600000x128, .f32⟩) main_v41) maximumf,
    nullary main_cst_3 (constant S_ .f32 0x00000000#32),
    unary main_cst_3 main_v42 (broadcastInDim S50000x128 ![] bcast_S_S50000x128 : (⟨S_, .f32⟩ : BufTy).Contents (Elt F) → (⟨S50000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v15 main_v45 (broadcastInDim S50000x128 ![0, 1] bcast_S50000x1_S50000x128_0_1 : (⟨S50000x1, .f32⟩ : BufTy).Contents (Elt F) → (⟨S50000x128, .f32⟩ : BufTy).Contents (Elt F)),
    binary main_v44 main_v45 main_v46 (Host.divf : (⟨S50000x128, .f32⟩ : BufTy).Contents (Elt F) → (⟨S50000x128, .f32⟩ : BufTy).Contents (Elt F) → (⟨S50000x128, .f32⟩ : BufTy).Contents (Elt F)) ]

abbrev P2 : List (HloOp τ sig (Elt F)) :=
  [ binary main_v8 main_v46 main_v47 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg9 main_v48 ((extractStridedSlice S1x256x128 ![0, 0, 0] · slices_S4x256x128_S1x256x128_0_0_0) : (⟨S4x256x128, .f32⟩ : BufTy).Contents (Elt F) → (⟨S1x256x128, .f32⟩ : BufTy).Contents (Elt F)),
    reshape main_v48 main_v49 rfl shapeCasts_S1x256x128_S256x128,
    binary main_v47 main_v49 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v51 ((extractStridedSlice S1x128 ![0, 0] · slices_S4x128_S1x128_0_0) : (⟨S4x128, .f32⟩ : BufTy).Contents (Elt F) → (⟨S1x128, .f32⟩ : BufTy).Contents (Elt F)),
    reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v50 main_v54 main_v55 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v55) (TRef.of (T := ⟨S50000x128, .f32⟩) main_call3_v0) (TRef.of (T := ⟨S50000x128, .f32⟩) main_v56) maximumf,
    unary main_arg11 main_v57 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v57 main_v58 rfl shapeCasts_S1x128x128_S128x128,
    binary main_v56 main_v58 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v60 ((extractStridedSlice S1x128 ![0, 0] · slices_S4x128_S1x128_0_0) : (⟨S4x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (addf : (⟨S50000x128, .f32⟩ : BufTy).Contents (Elt F) → (⟨S50000x128, .f32⟩ : BufTy).Contents (Elt F) → (⟨S50000x128, .f32⟩ : BufTy).Contents (Elt F)),
    binary main_v64 main_v8 main_v65 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v65) (TRef.of (T := ⟨S50000x128, .f32⟩) main_call4_v0) (TRef.of (T := ⟨S50000x128, .f32⟩) main_v66) maximumf,
    nullary main_c_4 (constantI S_ 32 0#32),
    unary main_c_4 main_v67 (broadcastInDim S600000 ![] bcast_S_S600000 : (⟨S_, .i32⟩ : BufTy).Contents (Elt F) → (⟨S600000, .i32⟩ : BufTy).Contents (Elt F)),
    binary main_v1 main_v67 main_v68 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v69 (broadcastInDim S600000 ![] bcast_S_S600000 : (⟨S_, .i32⟩ : BufTy).Contents (Elt F) → (⟨S600000, .i32⟩ : BufTy).Contents (Elt F)),
    binary main_v1 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v1 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v66 main_v72 main_v73 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

abbrev P3 : List (HloOp τ sig (Elt F)) :=
  [ binary main_v73 main_arg2 main_v74 ((fun a b => concatenate S600000x132 1 [⟨S600000x128, a⟩, ⟨S600000x4, b⟩] concatenates_S600000x128_S600000x4_S600000x132_d1) : (⟨S600000x128, .f32⟩ : BufTy).Contents (Elt F) → (⟨S600000x4, .f32⟩ : BufTy).Contents (Elt F) → (⟨S600000x132, .f32⟩ : BufTy).Contents (Elt F)),
    unary main_arg5 main_v75 ((extractStridedSlice S1x132x128 ![1, 0, 0] · slices_S4x132x128_S1x132x128_1_0_0) : (⟨S4x132x128, .f32⟩ : BufTy).Contents (Elt F) → (⟨S1x132x128, .f32⟩ : BufTy).Contents (Elt F)),
    reshape main_v75 main_v76 rfl shapeCasts_S1x132x128_S132x128,
    binary main_v74 main_v76 main_v77 ((fun l r => Host.dotGeneral dot_S600000x132_S132x128_S600000x128_1_0_0_1_n_n none l r) : (⟨S600000x132, .f32⟩ : BufTy).Contents (Elt F) → (⟨S132x128, .f32⟩ : BufTy).Contents (Elt F) → (⟨S600000x128, .f32⟩ : BufTy).Contents (Elt F)),
    unary main_arg6 main_v78 ((extractStridedSlice S1x128 ![1, 0] · slices_S4x128_S1x128_1_0) : (⟨S4x128, .f32⟩ : BufTy).Contents (Elt F) → (⟨S1x128, .f32⟩ : BufTy).Contents (Elt F)),
    reshape main_v78 main_v79 rfl shapeCasts_S1x128_S128,
    unary main_v79 main_v80 (broadcastInDim S1x128 ![1] bcast_S128_S1x128_1 : (⟨S128, .f32⟩ : BufTy).Contents (Elt F) → (⟨S1x128, .f32⟩ : BufTy).Contents (Elt F)),
    unary main_v80 main_v81 (broadcastInDim S600000x128 ![0, 1] bcast_S1x128_S600000x128_0_1 : (⟨S1x128, .f32⟩ : BufTy).Contents (Elt F) → (⟨S600000x128, .f32⟩ : BufTy).Contents (Elt F)),
    binary main_v77 main_v81 main_v82 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S600000x128, .f32⟩) main_call5_v0) (broadcastInDim S600000x128 ![] bcast_S_S600000x128),
    TRef.binary (TRef.of (T := ⟨S600000x128, .f32⟩) main_v82) (TRef.of (T := ⟨S600000x128, .f32⟩) main_call5_v0) (TRef.of (T := ⟨S600000x128, .f32⟩) main_v83) maximumf,
    unary main_arg7 main_v84 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v84 main_v85 rfl shapeCasts_S1x128x128_S128x128,
    binary main_v83 main_v85 main_v86 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v87 ((extractStridedSlice S1x128 ![1, 0] · slices_S4x128_S1x128_1_0) : (⟨S4x128, .f32⟩ : BufTy).Contents (Elt F) → (⟨S1x128, .f32⟩ : BufTy).Contents (Elt F)),
    reshape main_v87 main_v88 rfl shapeCasts_S1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S600000x128 ![0, 1] bcast_S1x128_S600000x128_0_1 : (⟨S1x128, .f32⟩ : BufTy).Contents (Elt F) → (⟨S600000x128, .f32⟩ : BufTy).Contents (Elt F)),
    binary main_v86 main_v90 main_v91 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S600000x128, .f32⟩) main_call6_v0) (broadcastInDim S600000x128 ![] bcast_S_S600000x128),
    TRef.binary (TRef.of (T := ⟨S600000x128, .f32⟩) main_v91) (TRef.of (T := ⟨S600000x128, .f32⟩) main_call6_v0) (TRef.of (T := ⟨S600000x128, .f32⟩) main_v92) maximumf,
    nullary main_cst_6 (constant S_ .f32 0x00000000#32),
    unary main_cst_6 main_v93 (broadcastInDim S50000x128 ![] bcast_S_S50000x128 : (⟨S_, .f32⟩ : BufTy).Contents (Elt F) → (⟨S50000x128, .f32⟩ : BufTy).Contents (Elt F)),
    unary main_v3 main_v94 (broadcastInDim S600000x1 ![0] bcast_S600000_S600000x1_0 : (⟨S600000, .i32⟩ : BufTy).Contents (Elt F) → (⟨S600000x1, .i32⟩ : BufTy).Contents (Elt F)),
    ternary main_v93 main_v94 main_v92 main_v95 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v15 main_v96 (broadcastInDim S50000x128 ![0, 1] bcast_S50000x1_S50000x128_0_1 : (⟨S50000x1, .f32⟩ : BufTy).Contents (Elt F) → (⟨S50000x128, .f32⟩ : BufTy).Contents (Elt F)),
    binary main_v95 main_v96 main_v97 (Host.divf : (⟨S50000x128, .f32⟩ : BufTy).Contents (Elt F) → (⟨S50000x128, .f32⟩ : BufTy).Contents (Elt F) → (⟨S50000x128, .f32⟩ : BufTy).Contents (Elt F)) ]

abbrev P4 : List (HloOp τ sig (Elt F)) :=
  [ binary main_v66 main_v97 main_v98 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg9 main_v99 ((extractStridedSlice S1x256x128 ![1, 0, 0] · slices_S4x256x128_S1x256x128_1_0_0) : (⟨S4x256x128, .f32⟩ : BufTy).Contents (Elt F) → (⟨S1x256x128, .f32⟩ : BufTy).Contents (Elt F)),
    reshape main_v99 main_v100 rfl shapeCasts_S1x256x128_S256x128,
    binary main_v98 main_v100 main_v101 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v101 main_v105 main_v106 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v106) (TRef.of (T := ⟨S50000x128, .f32⟩) main_call7_v0) (TRef.of (T := ⟨S50000x128, .f32⟩) main_v107) maximumf,
    unary main_arg11 main_v108 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v108 main_v109 rfl shapeCasts_S1x128x128_S128x128,
    binary main_v107 main_v109 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v111 ((extractStridedSlice S1x128 ![1, 0] · slices_S4x128_S1x128_1_0) : (⟨S4x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v110 main_v114 main_v115 (addf : (⟨S50000x128, .f32⟩ : BufTy).Contents (Elt F) → (⟨S50000x128, .f32⟩ : BufTy).Contents (Elt F) → (⟨S50000x128, .f32⟩ : BufTy).Contents (Elt F)),
    binary main_v115 main_v66 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v116) (TRef.of (T := ⟨S50000x128, .f32⟩) main_call8_v0) (TRef.of (T := ⟨S50000x128, .f32⟩) main_v117) maximumf,
    nullary main_c_7 (constantI S_ 32 0#32),
    unary main_c_7 main_v118 (broadcastInDim S600000 ![] bcast_S_S600000 : (⟨S_, .i32⟩ : BufTy).Contents (Elt F) → (⟨S600000, .i32⟩ : BufTy).Contents (Elt F)),
    binary main_v1 main_v118 main_v119 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v120 (broadcastInDim S600000 ![] bcast_S_S600000 : (⟨S_, .i32⟩ : BufTy).Contents (Elt F) → (⟨S600000, .i32⟩ : BufTy).Contents (Elt F)),
    binary main_v1 main_v120 main_v121 (addi : (⟨S600000, .i32⟩ : BufTy).Contents (Elt F) → (⟨S600000, .i32⟩ : BufTy).Contents (Elt F) → (⟨S600000, .i32⟩ : BufTy).Contents (Elt F)),
    ternary main_v119 main_v121 main_v1 main_v122 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v122 main_v123 (broadcastInDim S600000x1 ![0] bcast_S600000_S600000x1_0 : (⟨S600000, .i32⟩ : BufTy).Contents (Elt F) → (⟨S600000x1, .i32⟩ : BufTy).Contents (Elt F)),
    binary main_v117 main_v123 main_v124 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

abbrev P5 : List (HloOp τ sig (Elt F)) :=
  [ binary main_v124 main_arg2 main_v125 ((fun a b => concatenate S600000x132 1 [⟨S600000x128, a⟩, ⟨S600000x4, b⟩] concatenates_S600000x128_S600000x4_S600000x132_d1) : (⟨S600000x128, .f32⟩ : BufTy).Contents (Elt F) → (⟨S600000x4, .f32⟩ : BufTy).Contents (Elt F) → (⟨S600000x132, .f32⟩ : BufTy).Contents (Elt F)),
    unary main_arg5 main_v126 ((extractStridedSlice S1x132x128 ![2, 0, 0] · slices_S4x132x128_S1x132x128_2_0_0) : (⟨S4x132x128, .f32⟩ : BufTy).Contents (Elt F) → (⟨S1x132x128, .f32⟩ : BufTy).Contents (Elt F)),
    reshape main_v126 main_v127 rfl shapeCasts_S1x132x128_S132x128,
    binary main_v125 main_v127 main_v128 ((fun l r => Host.dotGeneral dot_S600000x132_S132x128_S600000x128_1_0_0_1_n_n none l r) : (⟨S600000x132, .f32⟩ : BufTy).Contents (Elt F) → (⟨S132x128, .f32⟩ : BufTy).Contents (Elt F) → (⟨S600000x128, .f32⟩ : BufTy).Contents (Elt F)),
    unary main_arg6 main_v129 ((extractStridedSlice S1x128 ![2, 0] · slices_S4x128_S1x128_2_0) : (⟨S4x128, .f32⟩ : BufTy).Contents (Elt F) → (⟨S1x128, .f32⟩ : BufTy).Contents (Elt F)),
    reshape main_v129 main_v130 rfl shapeCasts_S1x128_S128,
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S600000x128 ![0, 1] bcast_S1x128_S600000x128_0_1 : (⟨S1x128, .f32⟩ : BufTy).Contents (Elt F) → (⟨S600000x128, .f32⟩ : BufTy).Contents (Elt F)),
    binary main_v128 main_v132 main_v133 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S600000x128, .f32⟩) main_call9_v0) (broadcastInDim S600000x128 ![] bcast_S_S600000x128),
    TRef.binary (TRef.of (T := ⟨S600000x128, .f32⟩) main_v133) (TRef.of (T := ⟨S600000x128, .f32⟩) main_call9_v0) (TRef.of (T := ⟨S600000x128, .f32⟩) main_v134) maximumf,
    unary main_arg7 main_v135 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v135 main_v136 rfl shapeCasts_S1x128x128_S128x128,
    binary main_v134 main_v136 main_v137 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v138 ((extractStridedSlice S1x128 ![2, 0] · slices_S4x128_S1x128_2_0) : (⟨S4x128, .f32⟩ : BufTy).Contents (Elt F) → (⟨S1x128, .f32⟩ : BufTy).Contents (Elt F)),
    reshape main_v138 main_v139 rfl shapeCasts_S1x128_S128,
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S600000x128 ![0, 1] bcast_S1x128_S600000x128_0_1 : (⟨S1x128, .f32⟩ : BufTy).Contents (Elt F) → (⟨S600000x128, .f32⟩ : BufTy).Contents (Elt F)),
    binary main_v137 main_v141 main_v142 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S600000x128, .f32⟩) main_call10_v0) (broadcastInDim S600000x128 ![] bcast_S_S600000x128),
    TRef.binary (TRef.of (T := ⟨S600000x128, .f32⟩) main_v142) (TRef.of (T := ⟨S600000x128, .f32⟩) main_call10_v0) (TRef.of (T := ⟨S600000x128, .f32⟩) main_v143) maximumf,
    nullary main_cst_9 (constant S_ .f32 0x00000000#32),
    unary main_cst_9 main_v144 (broadcastInDim S50000x128 ![] bcast_S_S50000x128 : (⟨S_, .f32⟩ : BufTy).Contents (Elt F) → (⟨S50000x128, .f32⟩ : BufTy).Contents (Elt F)),
    unary main_v3 main_v145 (broadcastInDim S600000x1 ![0] bcast_S600000_S600000x1_0 : (⟨S600000, .i32⟩ : BufTy).Contents (Elt F) → (⟨S600000x1, .i32⟩ : BufTy).Contents (Elt F)),
    ternary main_v144 main_v145 main_v143 main_v146 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v15 main_v147 (broadcastInDim S50000x128 ![0, 1] bcast_S50000x1_S50000x128_0_1 : (⟨S50000x1, .f32⟩ : BufTy).Contents (Elt F) → (⟨S50000x128, .f32⟩ : BufTy).Contents (Elt F)),
    binary main_v146 main_v147 main_v148 (Host.divf : (⟨S50000x128, .f32⟩ : BufTy).Contents (Elt F) → (⟨S50000x128, .f32⟩ : BufTy).Contents (Elt F) → (⟨S50000x128, .f32⟩ : BufTy).Contents (Elt F)) ]

abbrev P6 : List (HloOp τ sig (Elt F)) :=
  [ binary main_v117 main_v148 main_v149 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg9 main_v150 ((extractStridedSlice S1x256x128 ![2, 0, 0] · slices_S4x256x128_S1x256x128_2_0_0) : (⟨S4x256x128, .f32⟩ : BufTy).Contents (Elt F) → (⟨S1x256x128, .f32⟩ : BufTy).Contents (Elt F)),
    reshape main_v150 main_v151 rfl shapeCasts_S1x256x128_S256x128,
    binary main_v149 main_v151 main_v152 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v153 ((extractStridedSlice S1x128 ![2, 0] · slices_S4x128_S1x128_2_0) : (⟨S4x128, .f32⟩ : BufTy).Contents (Elt F) → (⟨S1x128, .f32⟩ : BufTy).Contents (Elt F)),
    reshape main_v153 main_v154 rfl shapeCasts_S1x128_S128,
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v152 main_v156 main_v157 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v157) (TRef.of (T := ⟨S50000x128, .f32⟩) main_call11_v0) (TRef.of (T := ⟨S50000x128, .f32⟩) main_v158) maximumf,
    unary main_arg11 main_v159 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v159 main_v160 rfl shapeCasts_S1x128x128_S128x128,
    binary main_v158 main_v160 main_v161 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v162 ((extractStridedSlice S1x128 ![2, 0] · slices_S4x128_S1x128_2_0) : (⟨S4x128, .f32⟩ : BufTy).Contents (Elt F) → (⟨S1x128, .f32⟩ : BufTy).Contents (Elt F)),
    reshape main_v162 main_v163 rfl shapeCasts_S1x128_S128,
    unary main_v163 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v161 main_v165 main_v166 (addf : (⟨S50000x128, .f32⟩ : BufTy).Contents (Elt F) → (⟨S50000x128, .f32⟩ : BufTy).Contents (Elt F) → (⟨S50000x128, .f32⟩ : BufTy).Contents (Elt F)),
    binary main_v166 main_v117 main_v167 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S50000x128, .f32⟩) main_call12_v0) (broadcastInDim S50000x128 ![] bcast_S_S50000x128),
    TRef.binary (TRef.of (T := ⟨S50000x128, .f32⟩) main_v167) (TRef.of (T := ⟨S50000x128, .f32⟩) main_call12_v0) (TRef.of (T := ⟨S50000x128, .f32⟩) main_v168) maximumf,
    nullary main_c_10 (constantI S_ 32 0#32),
    unary main_c_10 main_v169 (broadcastInDim S600000 ![] bcast_S_S600000 : (⟨S_, .i32⟩ : BufTy).Contents (Elt F) → (⟨S600000, .i32⟩ : BufTy).Contents (Elt F)),
    binary main_v1 main_v169 main_v170 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v171 (broadcastInDim S600000 ![] bcast_S_S600000 : (⟨S_, .i32⟩ : BufTy).Contents (Elt F) → (⟨S600000, .i32⟩ : BufTy).Contents (Elt F)),
    binary main_v1 main_v171 main_v172 (addi : (⟨S600000, .i32⟩ : BufTy).Contents (Elt F) → (⟨S600000, .i32⟩ : BufTy).Contents (Elt F) → (⟨S600000, .i32⟩ : BufTy).Contents (Elt F)),
    ternary main_v170 main_v172 main_v1 main_v173 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v173 main_v174 (broadcastInDim S600000x1 ![0] bcast_S600000_S600000x1_0 : (⟨S600000, .i32⟩ : BufTy).Contents (Elt F) → (⟨S600000x1, .i32⟩ : BufTy).Contents (Elt F)),
    binary main_v168 main_v174 main_v175 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

abbrev P7 : List (HloOp τ sig (Elt F)) :=
  [ binary main_v175 main_arg2 main_v176 ((fun a b => concatenate S600000x132 1 [⟨S600000x128, a⟩, ⟨S600000x4, b⟩] concatenates_S600000x128_S600000x4_S600000x132_d1) : (⟨S600000x128, .f32⟩ : BufTy).Contents (Elt F) → (⟨S600000x4, .f32⟩ : BufTy).Contents (Elt F) → (⟨S600000x132, .f32⟩ : BufTy).Contents (Elt F)),
    unary main_arg5 main_v177 ((extractStridedSlice S1x132x128 ![3, 0, 0] · slices_S4x132x128_S1x132x128_3_0_0) : (⟨S4x132x128, .f32⟩ : BufTy).Contents (Elt F) → (⟨S1x132x128, .f32⟩ : BufTy).Contents (Elt F)),
    reshape main_v177 main_v178 rfl shapeCasts_S1x132x128_S132x128,
    binary main_v176 main_v178 main_v179 ((fun l r => Host.dotGeneral dot_S600000x132_S132x128_S600000x128_1_0_0_1_n_n none l r) : (⟨S600000x132, .f32⟩ : BufTy).Contents (Elt F) → (⟨S132x128, .f32⟩ : BufTy).Contents (Elt F) → (⟨S600000x128, .f32⟩ : BufTy).Contents (Elt F)),
    unary main_arg6 main_v180 ((extractStridedSlice S1x128 ![3, 0] · slices_S4x128_S1x128_3_0) : (⟨S4x128, .f32⟩ : BufTy).Contents (Elt F) → (⟨S1x128, .f32⟩ : BufTy).Contents (Elt F)),
    reshape main_v180 main_v181 rfl shapeCasts_S1x128_S128,
    unary main_v181 main_v182 (broadcastInDim S1x128 ![1] bcast_S128_S1x128_1 : (⟨S128, .f32⟩ : BufTy).Contents (Elt F) → (⟨S1x128, .f32⟩ : BufTy).Contents (Elt F)),
    unary main_v182 main_v183 (broadcastInDim S600000x128 ![0, 1] bcast_S1x128_S600000x128_0_1 : (⟨S1x128, .f32⟩ : BufTy).Contents (Elt F) → (⟨S600000x128, .f32⟩ : BufTy).Contents (Elt F)),
    binary main_v179 main_v183 main_v184 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S600000x128, .f32⟩) main_call13_v0) (broadcastInDim S600000x128 ![] bcast_S_S600000x128),
    TRef.binary (TRef.of (T := ⟨S600000x128, .f32⟩) main_v184) (TRef.of (T := ⟨S600000x128, .f32⟩) main_call13_v0) (TRef.of (T := ⟨S600000x128, .f32⟩) main_v185) maximumf,
    unary main_arg7 main_v186 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v186 main_v187 rfl shapeCasts_S1x128x128_S128x128,
    binary main_v185 main_v187 main_v188 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg8 main_v189 ((extractStridedSlice S1x128 ![3, 0] · slices_S4x128_S1x128_3_0) : (⟨S4x128, .f32⟩ : BufTy).Contents (Elt F) → (⟨S1x128, .f32⟩ : BufTy).Contents (Elt F)),
    reshape main_v189 main_v190 rfl shapeCasts_S1x128_S128,
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S600000x128 ![0, 1] bcast_S1x128_S600000x128_0_1 : (⟨S1x128, .f32⟩ : BufTy).Contents (Elt F) → (⟨S600000x128, .f32⟩ : BufTy).Contents (Elt F)),
    binary main_v188 main_v192 main_v193 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S600000x128, .f32⟩) main_call14_v0) (broadcastInDim S600000x128 ![] bcast_S_S600000x128),
    TRef.binary (TRef.of (T := ⟨S600000x128, .f32⟩) main_v193) (TRef.of (T := ⟨S600000x128, .f32⟩) main_call14_v0) (TRef.of (T := ⟨S600000x128, .f32⟩) main_v194) maximumf,
    nullary main_cst_12 (constant S_ .f32 0x00000000#32),
    unary main_cst_12 main_v195 (broadcastInDim S50000x128 ![] bcast_S_S50000x128 : (⟨S_, .f32⟩ : BufTy).Contents (Elt F) → (⟨S50000x128, .f32⟩ : BufTy).Contents (Elt F)),
    unary main_v3 main_v196 (broadcastInDim S600000x1 ![0] bcast_S600000_S600000x1_0 : (⟨S600000, .i32⟩ : BufTy).Contents (Elt F) → (⟨S600000x1, .i32⟩ : BufTy).Contents (Elt F)),
    ternary main_v195 main_v196 main_v194 main_v197 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v15 main_v198 (broadcastInDim S50000x128 ![0, 1] bcast_S50000x1_S50000x128_0_1 : (⟨S50000x1, .f32⟩ : BufTy).Contents (Elt F) → (⟨S50000x128, .f32⟩ : BufTy).Contents (Elt F)),
    binary main_v197 main_v198 main_v199 (Host.divf : (⟨S50000x128, .f32⟩ : BufTy).Contents (Elt F) → (⟨S50000x128, .f32⟩ : BufTy).Contents (Elt F) → (⟨S50000x128, .f32⟩ : BufTy).Contents (Elt F)) ]

abbrev P8 : List (HloOp τ sig (Elt F)) :=
  [ binary main_v168 main_v199 main_v200 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg9 main_v201 ((extractStridedSlice S1x256x128 ![3, 0, 0] · slices_S4x256x128_S1x256x128_3_0_0) : (⟨S4x256x128, .f32⟩ : BufTy).Contents (Elt F) → (⟨S1x256x128, .f32⟩ : BufTy).Contents (Elt F)),
    reshape main_v201 main_v202 rfl shapeCasts_S1x256x128_S256x128,
    binary main_v200 main_v202 main_v203 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v204 ((extractStridedSlice S1x128 ![3, 0] · slices_S4x128_S1x128_3_0) : (⟨S4x128, .f32⟩ : BufTy).Contents (Elt F) → (⟨S1x128, .f32⟩ : BufTy).Contents (Elt F)),
    reshape main_v204 main_v205 rfl shapeCasts_S1x128_S128,
    unary main_v205 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v203 main_v207 main_v208 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S50000x128, .f32⟩) main_call15_v0) (broadcastInDim S50000x128 ![] bcast_S_S50000x128),
    TRef.binary (TRef.of (T := ⟨S50000x128, .f32⟩) main_v208) (TRef.of (T := ⟨S50000x128, .f32⟩) main_call15_v0) (TRef.of (T := ⟨S50000x128, .f32⟩) main_v209) maximumf,
    unary main_arg11 main_v210 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v210 main_v211 rfl shapeCasts_S1x128x128_S128x128,
    binary main_v209 main_v211 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v213 ((extractStridedSlice S1x128 ![3, 0] · slices_S4x128_S1x128_3_0) : (⟨S4x128, .f32⟩ : BufTy).Contents (Elt F) → (⟨S1x128, .f32⟩ : BufTy).Contents (Elt F)),
    reshape main_v213 main_v214 rfl shapeCasts_S1x128_S128,
    unary main_v214 main_v215 (broadcastInDim S1x128 ![1] bcast_S128_S1x128_1 : (⟨S128, .f32⟩ : BufTy).Contents (Elt F) → (⟨S1x128, .f32⟩ : BufTy).Contents (Elt F)),
    unary main_v215 main_v216 (broadcastInDim S50000x128 ![0, 1] bcast_S1x128_S50000x128_0_1 : (⟨S1x128, .f32⟩ : BufTy).Contents (Elt F) → (⟨S50000x128, .f32⟩ : BufTy).Contents (Elt F)),
    binary main_v212 main_v216 main_v217 (addf : (⟨S50000x128, .f32⟩ : BufTy).Contents (Elt F) → (⟨S50000x128, .f32⟩ : BufTy).Contents (Elt F) → (⟨S50000x128, .f32⟩ : BufTy).Contents (Elt F)),
    binary main_v217 main_v168 main_v218 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S50000x128, .f32⟩) main_call16_v0) (broadcastInDim S50000x128 ![] bcast_S_S50000x128),
    TRef.binary (TRef.of (T := ⟨S50000x128, .f32⟩) main_v218) (TRef.of (T := ⟨S50000x128, .f32⟩) main_call16_v0) (TRef.of (T := ⟨S50000x128, .f32⟩) main_v219) maximumf,
    binary main_v219 main_arg13 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v221 (broadcastInDim S1x128 ![1] bcast_S128_S1x128_1 : (⟨S128, .f32⟩ : BufTy).Contents (Elt F) → (⟨S1x128, .f32⟩ : BufTy).Contents (Elt F)),
    unary main_v221 main_v222 (broadcastInDim S50000x128 ![0, 1] bcast_S1x128_S50000x128_0_1 : (⟨S1x128, .f32⟩ : BufTy).Contents (Elt F) → (⟨S50000x128, .f32⟩ : BufTy).Contents (Elt F)),
    binary main_v220 main_v222 main_v223 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S50000x128, .f32⟩) main_call17_v0) (broadcastInDim S50000x128 ![] bcast_S_S50000x128),
    TRef.binary (TRef.of (T := ⟨S50000x128, .f32⟩) main_v223) (TRef.of (T := ⟨S50000x128, .f32⟩) main_call17_v0) (TRef.of (T := ⟨S50000x128, .f32⟩) main_v224) maximumf,
    binary main_v224 main_arg15 main_v225 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg16 main_v226 (broadcastInDim S1x3 ![1] bcast_S3_S1x3_1 : (⟨S3, .f32⟩ : BufTy).Contents (Elt F) → (⟨S1x3, .f32⟩ : BufTy).Contents (Elt F)),
    unary main_v226 main_v227 (broadcastInDim S50000x3 ![0, 1] bcast_S1x3_S50000x3_0_1 : (⟨S1x3, .f32⟩ : BufTy).Contents (Elt F) → (⟨S50000x3, .f32⟩ : BufTy).Contents (Elt F)),
    binary main_v225 main_v227 main_v228 (addf : (⟨S50000x3, .f32⟩ : BufTy).Contents (Elt F) → (⟨S50000x3, .f32⟩ : BufTy).Contents (Elt F) → (⟨S50000x3, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S50000x3, .f32⟩) main_call18_v0) (broadcastInDim S50000x3 ![] bcast_S_S50000x3),
    TRef.binary (TRef.of (T := ⟨S50000x3, .f32⟩) main_v228) (TRef.of (T := ⟨S50000x3, .f32⟩) main_call18_v0) (TRef.of (T := ⟨S50000x3, .f32⟩) main_v229) maximumf ]

/-- The whole program: the nine stretches in order. -/
abbrev refOps : List (HloOp τ sig (Elt F)) := P0 ++ (P1 ++ (P2 ++ (P3 ++ (P4 ++ (P5 ++ (P6 ++ (P7 ++ P8)))))))

theorem sub0 : (P0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

theorem fresh0 : (P0 : List (HloOp τ sig (Elt F))).Forall fun op => op.fresh = ∅ := by
  simp only [P0, List.Forall]; repeat' constructor

theorem sub1 : (P1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩

theorem fresh1 : (P1 : List (HloOp τ sig (Elt F))).Forall fun op => op.fresh = ∅ := by
  simp only [P1, List.Forall]; repeat' constructor

theorem sub2 : (P2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem fresh2 : (P2 : List (HloOp τ sig (Elt F))).Forall fun op => op.fresh = ∅ := by
  simp only [P2, List.Forall]; repeat' constructor

theorem sub3 : (P3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩

theorem fresh3 : (P3 : List (HloOp τ sig (Elt F))).Forall fun op => op.fresh = ∅ := by
  simp only [P3, List.Forall]; repeat' constructor

theorem sub4 : (P4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem fresh4 : (P4 : List (HloOp τ sig (Elt F))).Forall fun op => op.fresh = ∅ := by
  simp only [P4, List.Forall]; repeat' constructor

theorem sub5 : (P5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩

theorem fresh5 : (P5 : List (HloOp τ sig (Elt F))).Forall fun op => op.fresh = ∅ := by
  simp only [P5, List.Forall]; repeat' constructor

theorem sub6 : (P6 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem fresh6 : (P6 : List (HloOp τ sig (Elt F))).Forall fun op => op.fresh = ∅ := by
  simp only [P6, List.Forall]; repeat' constructor

theorem sub7 : (P7 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩

theorem fresh7 : (P7 : List (HloOp τ sig (Elt F))).Forall fun op => op.fresh = ∅ := by
  simp only [P7, List.Forall]; repeat' constructor

theorem sub8 : (P8 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem fresh8 : (P8 : List (HloOp τ sig (Elt F))).Forall fun op => op.fresh = ∅ := by
  simp only [P8, List.Forall]; repeat' constructor

abbrev la0 (V : Valuation τ sig (Elt F)) : (⟨S50000x16, .f32⟩ : BufTy).Contents (Elt F) := V (Proc.devRef .tc main_arg0)

abbrev la1 (V : Valuation τ sig (Elt F)) : (⟨S2x600000, .i32⟩ : BufTy).Contents (Elt F) := V (Proc.devRef .tc main_arg1)

abbrev la2 (V : Valuation τ sig (Elt F)) : (⟨S600000x4, .f32⟩ : BufTy).Contents (Elt F) := V (Proc.devRef .tc main_arg2)

abbrev la3 (V : Valuation τ sig (Elt F)) : (⟨S16x128, .f32⟩ : BufTy).Contents (Elt F) := V (Proc.devRef .tc main_arg3)

abbrev la4 (V : Valuation τ sig (Elt F)) : (⟨S128, .f32⟩ : BufTy).Contents (Elt F) := V (Proc.devRef .tc main_arg4)

abbrev la5 (V : Valuation τ sig (Elt F)) : (⟨S4x132x128, .f32⟩ : BufTy).Contents (Elt F) := V (Proc.devRef .tc main_arg5)

abbrev la6 (V : Valuation τ sig (Elt F)) : (⟨S4x128, .f32⟩ : BufTy).Contents (Elt F) := V (Proc.devRef .tc main_arg6)

abbrev la7 (V : Valuation τ sig (Elt F)) : (⟨S4x128x128, .f32⟩ : BufTy).Contents (Elt F) := V (Proc.devRef .tc main_arg7)

abbrev la8 (V : Valuation τ sig (Elt F)) : (⟨S4x128, .f32⟩ : BufTy).Contents (Elt F) := V (Proc.devRef .tc main_arg8)

abbrev la9 (V : Valuation τ sig (Elt F)) : (⟨S4x256x128, .f32⟩ : BufTy).Contents (Elt F) := V (Proc.devRef .tc main_arg9)

abbrev la10 (V : Valuation τ sig (Elt F)) : (⟨S4x128, .f32⟩ : BufTy).Contents (Elt F) := V (Proc.devRef .tc main_arg10)

abbrev la11 (V : Valuation τ sig (Elt F)) : (⟨S4x128x128, .f32⟩ : BufTy).Contents (Elt F) := V (Proc.devRef .tc main_arg11)

abbrev la12 (V : Valuation τ sig (Elt F)) : (⟨S4x128, .f32⟩ : BufTy).Contents (Elt F) := V (Proc.devRef .tc main_arg12)

abbrev la13 (V : Valuation τ sig (Elt F)) : (⟨S128x128, .f32⟩ : BufTy).Contents (Elt F) := V (Proc.devRef .tc main_arg13)

abbrev la14 (V : Valuation τ sig (Elt F)) : (⟨S128, .f32⟩ : BufTy).Contents (Elt F) := V (Proc.devRef .tc main_arg14)

abbrev la15 (V : Valuation τ sig (Elt F)) : (⟨S128x3, .f32⟩ : BufTy).Contents (Elt F) := V (Proc.devRef .tc main_arg15)

abbrev la16 (V : Valuation τ sig (Elt F)) : (⟨S3, .f32⟩ : BufTy).Contents (Elt F) := V (Proc.devRef .tc main_arg16)

/-- What holds at boundary 0: the argument arrays are the launch's, and each buffer a later stretch reads holds its stage of them. -/
structure Cut0 (V W : Valuation τ sig (Elt F)) : Prop where
  args : ∀ b : Ref sig .tc, b.idx.val < 17 → W (Proc.devRef .tc b) = V (Proc.devRef .tc b)

/-- What holds at boundary 1: the argument arrays are the launch's, and each buffer a later stretch reads holds its stage of them. -/
structure Cut1 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v8 : W (Proc.devRef .tc main_v8) = val_main_v8 (F := F) (la0 V) (la3 V) (la4 V)
  v22 : W (Proc.devRef .tc main_v22) = val_main_v22 (F := F) (la0 V) (la1 V) (la3 V) (la4 V)

/-- What holds at boundary 2: the argument arrays are the launch's, and each buffer a later stretch reads holds its stage of them. -/
structure Cut2 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v8 : W (Proc.devRef .tc main_v8) = val_main_v8 (F := F) (la0 V) (la3 V) (la4 V)
  v46 : W (Proc.devRef .tc main_v46) = val_main_v46 (F := F) (la0 V) (la1 V) (la2 V) (la3 V) (la4 V) (la5 V) (la6 V) (la7 V) (la8 V)

/-- What holds at boundary 3: the argument arrays are the launch's, and each buffer a later stretch reads holds its stage of them. -/
structure Cut3 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v66 : W (Proc.devRef .tc main_v66) = val_main_v66 (F := F) (la0 V) (la1 V) (la2 V) (la3 V) (la4 V) (la5 V) (la6 V) (la7 V) (la8 V) (la9 V) (la10 V) (la11 V) (la12 V)
  v73 : W (Proc.devRef .tc main_v73) = val_main_v73 (F := F) (la0 V) (la1 V) (la2 V) (la3 V) (la4 V) (la5 V) (la6 V) (la7 V) (la8 V) (la9 V) (la10 V) (la11 V) (la12 V)

/-- What holds at boundary 4: the argument arrays are the launch's, and each buffer a later stretch reads holds its stage of them. -/
structure Cut4 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v66 : W (Proc.devRef .tc main_v66) = val_main_v66 (F := F) (la0 V) (la1 V) (la2 V) (la3 V) (la4 V) (la5 V) (la6 V) (la7 V) (la8 V) (la9 V) (la10 V) (la11 V) (la12 V)
  v97 : W (Proc.devRef .tc main_v97) = val_main_v97 (F := F) (la0 V) (la1 V) (la2 V) (la3 V) (la4 V) (la5 V) (la6 V) (la7 V) (la8 V) (la9 V) (la10 V) (la11 V) (la12 V)

/-- What holds at boundary 5: the argument arrays are the launch's, and each buffer a later stretch reads holds its stage of them. -/
structure Cut5 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v117 : W (Proc.devRef .tc main_v117) = val_main_v117 (F := F) (la0 V) (la1 V) (la2 V) (la3 V) (la4 V) (la5 V) (la6 V) (la7 V) (la8 V) (la9 V) (la10 V) (la11 V) (la12 V)
  v124 : W (Proc.devRef .tc main_v124) = val_main_v124 (F := F) (la0 V) (la1 V) (la2 V) (la3 V) (la4 V) (la5 V) (la6 V) (la7 V) (la8 V) (la9 V) (la10 V) (la11 V) (la12 V)

/-- What holds at boundary 6: the argument arrays are the launch's, and each buffer a later stretch reads holds its stage of them. -/
structure Cut6 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v117 : W (Proc.devRef .tc main_v117) = val_main_v117 (F := F) (la0 V) (la1 V) (la2 V) (la3 V) (la4 V) (la5 V) (la6 V) (la7 V) (la8 V) (la9 V) (la10 V) (la11 V) (la12 V)
  v148 : W (Proc.devRef .tc main_v148) = val_main_v148 (F := F) (la0 V) (la1 V) (la2 V) (la3 V) (la4 V) (la5 V) (la6 V) (la7 V) (la8 V) (la9 V) (la10 V) (la11 V) (la12 V)

/-- What holds at boundary 7: the argument arrays are the launch's, and each buffer a later stretch reads holds its stage of them. -/
structure Cut7 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v168 : W (Proc.devRef .tc main_v168) = val_main_v168 (F := F) (la0 V) (la1 V) (la2 V) (la3 V) (la4 V) (la5 V) (la6 V) (la7 V) (la8 V) (la9 V) (la10 V) (la11 V) (la12 V)
  v175 : W (Proc.devRef .tc main_v175) = val_main_v175 (F := F) (la0 V) (la1 V) (la2 V) (la3 V) (la4 V) (la5 V) (la6 V) (la7 V) (la8 V) (la9 V) (la10 V) (la11 V) (la12 V)

/-- What holds at boundary 8: the argument arrays are the launch's, and each buffer a later stretch reads holds its stage of them. -/
structure Cut8 (V W : Valuation τ sig (Elt F)) : Prop where
  args : ∀ b : Ref sig .tc, b.idx.val < 17 → W (Proc.devRef .tc b) = V (Proc.devRef .tc b)
  v1 : W (Proc.devRef .tc main_v1) = val_main_v1 (F := F) (la1 V)
  v3 : W (Proc.devRef .tc main_v3) = val_main_v3 (F := F) (la1 V)
  v15 : W (Proc.devRef .tc main_v15) = val_main_v15 (F := F) (la1 V)
  v168 : W (Proc.devRef .tc main_v168) = val_main_v168 (F := F) (la0 V) (la1 V) (la2 V) (la3 V) (la4 V) (la5 V) (la6 V) (la7 V) (la8 V) (la9 V) (la10 V) (la11 V) (la12 V)
  v199 : W (Proc.devRef .tc main_v199) = val_main_v199 (F := F) (la0 V) (la1 V) (la2 V) (la3 V) (la4 V) (la5 V) (la6 V) (la7 V) (la8 V) (la9 V) (la10 V) (la11 V) (la12 V)

/-- What holds at boundary 9: the argument arrays are the launch's, and each buffer a later stretch reads holds its stage of them. -/
structure Cut9 (V W : Valuation τ sig (Elt F)) : Prop where
  args : ∀ b : Ref sig .tc, b.idx.val < 17 → W (Proc.devRef .tc b) = V (Proc.devRef .tc b)
  v229 : W (Proc.devRef .tc main_v229) = val_main_v229 (F := F) (la0 V) (la1 V) (la2 V) (la3 V) (la4 V) (la5 V) (la6 V) (la7 V) (la8 V) (la9 V) (la10 V) (la11 V) (la12 V) (la13 V) (la14 V) (la15 V) (la16 V)

theorem cut0 (V : Valuation τ sig (Elt F)) : Cut0 V V where
  args := fun _ _ => rfl

end Cert.ReferenceIdeal.Hand

end
-- ==== Proof.RefRunMain.lean ====
import proofs.«406442_j73220602462590_1_alg».proof.Proof.RefRunOps
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The program is its operations run in order. -/
theorem main_eq (c : Dev nD) : main (F := F) c = seq refOps := by chain_rfl

theorem scopedRefs_eq : (Finset.univ.filter fun b : Ref sig .tc => b.isScoped) = ∅ := by decide
theorem scopedSems_eq : (Finset.univ.filter fun sm : SemLoc sig => sm.isScoped .tc) = ∅ := by decide

theorem refOps_sub : (refOps : List (HloOp τ sig (Elt F))).Forall fun op => op.bufs ⊆ tcRefs τ sig := by
  refine List.forall_iff_forall_mem.mpr fun op h => ?_
  simp only [refOps, List.mem_append] at h
  rcases h with h | h | h | h | h | h | h | h | h
  · exact List.forall_iff_forall_mem.mp sub0 op h
  · exact List.forall_iff_forall_mem.mp sub1 op h
  · exact List.forall_iff_forall_mem.mp sub2 op h
  · exact List.forall_iff_forall_mem.mp sub3 op h
  · exact List.forall_iff_forall_mem.mp sub4 op h
  · exact List.forall_iff_forall_mem.mp sub5 op h
  · exact List.forall_iff_forall_mem.mp sub6 op h
  · exact List.forall_iff_forall_mem.mp sub7 op h
  · exact List.forall_iff_forall_mem.mp sub8 op h

theorem refOps_fresh : ∀ op ∈ (refOps : List (HloOp τ sig (Elt F))), op.fresh = ∅ := by
  intro op h
  simp only [refOps, List.mem_append] at h
  rcases h with h | h | h | h | h | h | h | h | h
  · exact List.forall_iff_forall_mem.mp fresh0 op h
  · exact List.forall_iff_forall_mem.mp fresh1 op h
  · exact List.forall_iff_forall_mem.mp fresh2 op h
  · exact List.forall_iff_forall_mem.mp fresh3 op h
  · exact List.forall_iff_forall_mem.mp fresh4 op h
  · exact List.forall_iff_forall_mem.mp fresh5 op h
  · exact List.forall_iff_forall_mem.mp fresh6 op h
  · exact List.forall_iff_forall_mem.mp fresh7 op h
  · exact List.forall_iff_forall_mem.mp fresh8 op h

end Cert.ReferenceIdeal.Hand

end
-- ==== Proof.LibKeep.lean ====
import Idealize.ShloMosaic.Lib.StableHlo.Run

namespace Cert.Hand

open Idealize.ShloMosaic Idealize.ShloMosaic.StableHlo

variable {τ : Topo} {sig : RefSig} {Val : EltTy → Type}

/-- Every result buffer of the operations `ops` is numbered `k` or higher. -/
abbrev From (k : ℕ) (ops : List (HloOp τ sig Val)) : Prop :=
  ops.Forall fun op => ∀ r : Ref sig .tc, Proc.devRef .tc r ∈ op.writes → k ≤ r.idx.val

/-- Operations that write only buffers numbered `k` or higher leave a lower-numbered buffer as it was. -/
theorem host_keep (ops : List (HloOp τ sig Val)) (X : Valuation τ sig Val) (k : ℕ) (h : From k ops)
    (b : Ref sig .tc) (hb : b.idx.val < k) : after ops X (Proc.devRef .tc b) = X (Proc.devRef .tc b) :=
  after_of_forall_not_mem ops X fun op hop hm =>
    absurd (List.forall_iff_forall_mem.mp h op hop b hm) (Nat.not_le.mpr hb)

/-- A region changes only its output windows' arrays, so a buffer numbered below every output is as it was. -/
theorem reg_keep {n : ℕ} (arr : Fin n → Ref sig .tc) (out : Fin n → Bool) (X Y : Valuation τ sig Val) (k : ℕ)
    (hin : ∀ w, out w = false → Y (Proc.devRef .tc (arr w)) = X (Proc.devRef .tc (arr w)))
    (hne : ∀ b, (∀ w, arr w ≠ b) → Y (Proc.devRef .tc b) = X (Proc.devRef .tc b))
    (hk : ∀ w, (arr w).idx.val < k → out w = false)
    (b : Ref sig .tc) (hb : b.idx.val < k) : Y (Proc.devRef .tc b) = X (Proc.devRef .tc b) := by
  by_cases h : ∃ w, arr w = b
  · obtain ⟨w, rfl⟩ := h; exact hin w (hk w hb)
  · exact hne b fun w e => h ⟨w, e⟩

end Cert.Hand
-- ==== Proof.RefKeep.lean ====
import proofs.«406442_j73220602462590_1_alg».proof.Proof.RefRunOps
import proofs.«406442_j73220602462590_1_alg».proof.Proof.LibKeep

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.Hand

variable {F : FTy → Type} [FloatOps F]

/-- The buffers are numbered in program order: each stretch of the program writes from its first result's number up. -/
theorem wrP : From 17 (P0 (F := F)) ∧ From 47 (P1 (F := F)) ∧ From 76 (P2 (F := F)) ∧ From 109 (P3 (F := F)) ∧
    From 138 (P4 (F := F)) ∧ From 171 (P5 (F := F)) ∧ From 200 (P6 (F := F)) ∧ From 233 (P7 (F := F)) ∧
    From 262 (P8 (F := F)) := by
  refine ⟨?_, ?_, ?_, ?_, ?_, ?_, ?_, ?_, ?_⟩ <;>
    (simp only [P0, P1, P2, P3, P4, P5, P6, P7, P8, TRef.nullary, TRef.unary, TRef.binary, List.Forall,
      StableHlo.nullary_writes, StableHlo.unary_writes, StableHlo.binary_writes, StableHlo.ternary_writes,
      StableHlo.quaternary_writes, StableHlo.reshape_writes, StableHlo.binaryIndexed_writes, Finset.mem_singleton]
     repeat' apply And.intro
     all_goals (intro r e; cases Proc.devRef_injective _ e; decide))

variable (W : Valuation τ sig (Elt F)) (b : Ref sig .tc)

/-! A stretch leaves a buffer numbered below its first result as it was. -/
theorem stay0 (hb : b.idx.val < 17) : after (P0 (F := F)) W (Proc.devRef .tc b) = W (Proc.devRef .tc b) := host_keep _ W 17 wrP.1 b hb
theorem stay1 (hb : b.idx.val < 47) : after (P1 (F := F)) W (Proc.devRef .tc b) = W (Proc.devRef .tc b) := host_keep _ W 47 wrP.2.1 b hb
theorem stay2 (hb : b.idx.val < 76) : after (P2 (F := F)) W (Proc.devRef .tc b) = W (Proc.devRef .tc b) := host_keep _ W 76 wrP.2.2.1 b hb
theorem stay3 (hb : b.idx.val < 109) : after (P3 (F := F)) W (Proc.devRef .tc b) = W (Proc.devRef .tc b) := host_keep _ W 109 wrP.2.2.2.1 b hb
theorem stay4 (hb : b.idx.val < 138) : after (P4 (F := F)) W (Proc.devRef .tc b) = W (Proc.devRef .tc b) := host_keep _ W 138 wrP.2.2.2.2.1 b hb
theorem stay5 (hb : b.idx.val < 171) : after (P5 (F := F)) W (Proc.devRef .tc b) = W (Proc.devRef .tc b) := host_keep _ W 171 wrP.2.2.2.2.2.1 b hb
theorem stay6 (hb : b.idx.val < 200) : after (P6 (F := F)) W (Proc.devRef .tc b) = W (Proc.devRef .tc b) := host_keep _ W 200 wrP.2.2.2.2.2.2.1 b hb
theorem stay7 (hb : b.idx.val < 233) : after (P7 (F := F)) W (Proc.devRef .tc b) = W (Proc.devRef .tc b) := host_keep _ W 233 wrP.2.2.2.2.2.2.2.1 b hb
theorem stay8 (hb : b.idx.val < 262) : after (P8 (F := F)) W (Proc.devRef .tc b) = W (Proc.devRef .tc b) := host_keep _ W 262 wrP.2.2.2.2.2.2.2.2 b hb

end Cert.ReferenceIdeal.Hand

end
-- ==== Proof.RefRunS0.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made0_v1 {V W : Valuation τ sig (Elt F)} (h : Cut0 V W) :
    after (P0 (F := F)) W (Proc.devRef .tc main_v1) = val_main_v1 (F := F) (la1 V) := by
  unfold P0
  after_results_simp
  try simp only [TRef.toBuf, TRef.ofBuf, cast_eq]
  simp only [h.args main_arg1 (by decide), h.args main_arg0 (by decide), h.args main_arg3 (by decide), h.args main_arg4 (by decide)]
  try rewrite [h.args main_arg1 (by decide)]
  try rewrite [h.args main_arg0 (by decide)]
  try rewrite [h.args main_arg3 (by decide)]
  try rewrite [h.args main_arg4 (by decide)]
  rfl

theorem made0_v3 {V W : Valuation τ sig (Elt F)} (h : Cut0 V W) :
    after (P0 (F := F)) W (Proc.devRef .tc main_v3) = val_main_v3 (F := F) (la1 V) := by
  unfold P0
  after_results_simp
  try simp only [TRef.toBuf, TRef.ofBuf, cast_eq]
  simp only [h.args main_arg1 (by decide), h.args main_arg0 (by decide), h.args main_arg3 (by decide), h.args main_arg4 (by decide)]
  try rewrite [h.args main_arg1 (by decide)]
  try rewrite [h.args main_arg0 (by decide)]
  try rewrite [h.args main_arg3 (by decide)]
  try rewrite [h.args main_arg4 (by decide)]
  rfl

theorem made0_v15 {V W : Valuation τ sig (Elt F)} (h : Cut0 V W) :
    after (P0 (F := F)) W (Proc.devRef .tc main_v15) = val_main_v15 (F := F) (la1 V) := by
  unfold P0
  after_results_simp
  try simp only [TRef.toBuf, TRef.ofBuf, cast_eq]
  simp only [h.args main_arg1 (by decide), h.args main_arg0 (by decide), h.args main_arg3 (by decide), h.args main_arg4 (by decide)]
  try rewrite [h.args main_arg1 (by decide)]
  try rewrite [h.args main_arg0 (by decide)]
  try rewrite [h.args main_arg3 (by decide)]
  try rewrite [h.args main_arg4 (by decide)]
  rfl

theorem made0_v8 {V W : Valuation τ sig (Elt F)} (h : Cut0 V W) :
    after (P0 (F := F)) W (Proc.devRef .tc main_v8) = val_main_v8 (F := F) (la0 V) (la3 V) (la4 V) := by
  unfold P0
  after_results_simp
  try simp only [TRef.toBuf, TRef.ofBuf, cast_eq]
  simp only [h.args main_arg1 (by decide), h.args main_arg0 (by decide), h.args main_arg3 (by decide), h.args main_arg4 (by decide)]
  try rewrite [h.args main_arg1 (by decide)]
  try rewrite [h.args main_arg0 (by decide)]
  try rewrite [h.args main_arg3 (by decide)]
  try rewrite [h.args main_arg4 (by decide)]
  rfl

theorem made0_v22 {V W : Valuation τ sig (Elt F)} (h : Cut0 V W) :
    after (P0 (F := F)) W (Proc.devRef .tc main_v22) = val_main_v22 (F := F) (la0 V) (la1 V) (la3 V) (la4 V) := by
  unfold P0
  after_results_simp
  try simp only [TRef.toBuf, TRef.ofBuf, cast_eq]
  simp only [h.args main_arg1 (by decide), h.args main_arg0 (by decide), h.args main_arg3 (by decide), h.args main_arg4 (by decide)]
  try rewrite [h.args main_arg1 (by decide)]
  try rewrite [h.args main_arg0 (by decide)]
  try rewrite [h.args main_arg3 (by decide)]
  try rewrite [h.args main_arg4 (by decide)]
  rfl

/-- Stretch 0 carries the boundary facts across: a buffer it does not write stays, a buffer it writes holds its stage. -/
theorem step0 {V W : Valuation τ sig (Elt F)} (h : Cut0 V W) : Cut1 V (after (P0 (F := F)) W) where
  args := fun b hb => (stay0 W b (by omega)).trans (h.args b hb)
  v1 := made0_v1 h
  v3 := made0_v3 h
  v15 := made0_v15 h
  v8 := made0_v8 h
  v22 := made0_v22 h

end Cert.ReferenceIdeal.Hand

end
-- ==== Proof.RefRunS1.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made1_v46 {V W : Valuation τ sig (Elt F)} (h : Cut1 V W) :
    after (P1 (F := F)) W (Proc.devRef .tc main_v46) = val_main_v46 (F := F) (la0 V) (la1 V) (la2 V) (la3 V) (la4 V) (la5 V) (la6 V) (la7 V) (la8 V) := by
  unfold P1
  after_results_simp
  try simp only [TRef.toBuf, TRef.ofBuf, cast_eq]
  simp only [h.v22, h.args main_arg2 (by decide), h.args main_arg5 (by decide), h.args main_arg6 (by decide), h.args main_arg7 (by decide), h.args main_arg8 (by decide), h.v3, h.v15]
  try rewrite [h.v22]
  try rewrite [h.args main_arg2 (by decide)]
  try rewrite [h.args main_arg5 (by decide)]
  try rewrite [h.args main_arg6 (by decide)]
  try rewrite [h.args main_arg7 (by decide)]
  try rewrite [h.args main_arg8 (by decide)]
  try rewrite [h.v3]
  try rewrite [h.v15]
  rfl

/-- Stretch 1 carries the boundary facts across: a buffer it does not write stays, a buffer it writes holds its stage. -/
theorem step1 {V W : Valuation τ sig (Elt F)} (h : Cut1 V W) : Cut2 V (after (P1 (F := F)) W) where
  args := fun b hb => (stay1 W b (by omega)).trans (h.args b hb)
  v1 := (stay1 W main_v1 (by decide)).trans h.v1
  v3 := (stay1 W main_v3 (by decide)).trans h.v3
  v15 := (stay1 W main_v15 (by decide)).trans h.v15
  v8 := (stay1 W main_v8 (by decide)).trans h.v8
  v46 := made1_v46 h

end Cert.ReferenceIdeal.Hand

end
-- ==== Proof.RefRunS2.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made2_v66 {V W : Valuation τ sig (Elt F)} (h : Cut2 V W) :
    after (P2 (F := F)) W (Proc.devRef .tc main_v66) = val_main_v66 (F := F) (la0 V) (la1 V) (la2 V) (la3 V) (la4 V) (la5 V) (la6 V) (la7 V) (la8 V) (la9 V) (la10 V) (la11 V) (la12 V) := by
  unfold P2
  after_results_simp
  try simp only [TRef.toBuf, TRef.ofBuf, cast_eq]
  simp only [h.v8, h.v46, h.args main_arg9 (by decide), h.args main_arg10 (by decide), h.args main_arg11 (by decide), h.args main_arg12 (by decide), h.v1]
  try rewrite [h.v8]
  try rewrite [h.v46]
  try rewrite [h.args main_arg9 (by decide)]
  try rewrite [h.args main_arg10 (by decide)]
  try rewrite [h.args main_arg11 (by decide)]
  try rewrite [h.args main_arg12 (by decide)]
  try rewrite [h.v1]
  rfl

theorem made2_v73 {V W : Valuation τ sig (Elt F)} (h : Cut2 V W) :
    after (P2 (F := F)) W (Proc.devRef .tc main_v73) = val_main_v73 (F := F) (la0 V) (la1 V) (la2 V) (la3 V) (la4 V) (la5 V) (la6 V) (la7 V) (la8 V) (la9 V) (la10 V) (la11 V) (la12 V) := by
  unfold P2
  after_results_simp
  try simp only [TRef.toBuf, TRef.ofBuf, cast_eq]
  simp only [h.v8, h.v46, h.args main_arg9 (by decide), h.args main_arg10 (by decide), h.args main_arg11 (by decide), h.args main_arg12 (by decide), h.v1]
  try rewrite [h.v8]
  try rewrite [h.v46]
  try rewrite [h.args main_arg9 (by decide)]
  try rewrite [h.args main_arg10 (by decide)]
  try rewrite [h.args main_arg11 (by decide)]
  try rewrite [h.args main_arg12 (by decide)]
  try rewrite [h.v1]
  rfl

/-- Stretch 2 carries the boundary facts across: a buffer it does not write stays, a buffer it writes holds its stage. -/
theorem step2 {V W : Valuation τ sig (Elt F)} (h : Cut2 V W) : Cut3 V (after (P2 (F := F)) W) where
  args := fun b hb => (stay2 W b (by omega)).trans (h.args b hb)
  v1 := (stay2 W main_v1 (by decide)).trans h.v1
  v3 := (stay2 W main_v3 (by decide)).trans h.v3
  v15 := (stay2 W main_v15 (by decide)).trans h.v15
  v66 := made2_v66 h
  v73 := made2_v73 h

end Cert.ReferenceIdeal.Hand

end
-- ==== Proof.RefRunS3.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made3_v97 {V W : Valuation τ sig (Elt F)} (h : Cut3 V W) :
    after (P3 (F := F)) W (Proc.devRef .tc main_v97) = val_main_v97 (F := F) (la0 V) (la1 V) (la2 V) (la3 V) (la4 V) (la5 V) (la6 V) (la7 V) (la8 V) (la9 V) (la10 V) (la11 V) (la12 V) := by
  unfold P3
  after_results_simp
  try simp only [TRef.toBuf, TRef.ofBuf, cast_eq]
  simp only [h.v73, h.args main_arg2 (by decide), h.args main_arg5 (by decide), h.args main_arg6 (by decide), h.args main_arg7 (by decide), h.args main_arg8 (by decide), h.v3, h.v15]
  try rewrite [h.v73]
  try rewrite [h.args main_arg2 (by decide)]
  try rewrite [h.args main_arg5 (by decide)]
  try rewrite [h.args main_arg6 (by decide)]
  try rewrite [h.args main_arg7 (by decide)]
  try rewrite [h.args main_arg8 (by decide)]
  try rewrite [h.v3]
  try rewrite [h.v15]
  rfl

/-- Stretch 3 carries the boundary facts across: a buffer it does not write stays, a buffer it writes holds its stage. -/
theorem step3 {V W : Valuation τ sig (Elt F)} (h : Cut3 V W) : Cut4 V (after (P3 (F := F)) W) where
  args := fun b hb => (stay3 W b (by omega)).trans (h.args b hb)
  v1 := (stay3 W main_v1 (by decide)).trans h.v1
  v3 := (stay3 W main_v3 (by decide)).trans h.v3
  v15 := (stay3 W main_v15 (by decide)).trans h.v15
  v66 := (stay3 W main_v66 (by decide)).trans h.v66
  v97 := made3_v97 h

end Cert.ReferenceIdeal.Hand

end
-- ==== Proof.RefRunS4.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made4_v117 {V W : Valuation τ sig (Elt F)} (h : Cut4 V W) :
    after (P4 (F := F)) W (Proc.devRef .tc main_v117) = val_main_v117 (F := F) (la0 V) (la1 V) (la2 V) (la3 V) (la4 V) (la5 V) (la6 V) (la7 V) (la8 V) (la9 V) (la10 V) (la11 V) (la12 V) := by
  unfold P4
  after_results_simp
  try simp only [TRef.toBuf, TRef.ofBuf, cast_eq]
  simp only [h.v66, h.v97, h.args main_arg9 (by decide), h.args main_arg10 (by decide), h.args main_arg11 (by decide), h.args main_arg12 (by decide), h.v1]
  try rewrite [h.v66]
  try rewrite [h.v97]
  try rewrite [h.args main_arg9 (by decide)]
  try rewrite [h.args main_arg10 (by decide)]
  try rewrite [h.args main_arg11 (by decide)]
  try rewrite [h.args main_arg12 (by decide)]
  try rewrite [h.v1]
  rfl

theorem made4_v124 {V W : Valuation τ sig (Elt F)} (h : Cut4 V W) :
    after (P4 (F := F)) W (Proc.devRef .tc main_v124) = val_main_v124 (F := F) (la0 V) (la1 V) (la2 V) (la3 V) (la4 V) (la5 V) (la6 V) (la7 V) (la8 V) (la9 V) (la10 V) (la11 V) (la12 V) := by
  unfold P4
  after_results_simp
  try simp only [TRef.toBuf, TRef.ofBuf, cast_eq]
  simp only [h.v66, h.v97, h.args main_arg9 (by decide), h.args main_arg10 (by decide), h.args main_arg11 (by decide), h.args main_arg12 (by decide), h.v1]
  try rewrite [h.v66]
  try rewrite [h.v97]
  try rewrite [h.args main_arg9 (by decide)]
  try rewrite [h.args main_arg10 (by decide)]
  try rewrite [h.args main_arg11 (by decide)]
  try rewrite [h.args main_arg12 (by decide)]
  try rewrite [h.v1]
  rfl

/-- Stretch 4 carries the boundary facts across: a buffer it does not write stays, a buffer it writes holds its stage. -/
theorem step4 {V W : Valuation τ sig (Elt F)} (h : Cut4 V W) : Cut5 V (after (P4 (F := F)) W) where
  args := fun b hb => (stay4 W b (by omega)).trans (h.args b hb)
  v1 := (stay4 W main_v1 (by decide)).trans h.v1
  v3 := (stay4 W main_v3 (by decide)).trans h.v3
  v15 := (stay4 W main_v15 (by decide)).trans h.v15
  v117 := made4_v117 h
  v124 := made4_v124 h

end Cert.ReferenceIdeal.Hand

end
-- ==== Proof.RefRunS5.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made5_v148 {V W : Valuation τ sig (Elt F)} (h : Cut5 V W) :
    after (P5 (F := F)) W (Proc.devRef .tc main_v148) = val_main_v148 (F := F) (la0 V) (la1 V) (la2 V) (la3 V) (la4 V) (la5 V) (la6 V) (la7 V) (la8 V) (la9 V) (la10 V) (la11 V) (la12 V) := by
  unfold P5
  after_results_simp
  try simp only [TRef.toBuf, TRef.ofBuf, cast_eq]
  simp only [h.v124, h.args main_arg2 (by decide), h.args main_arg5 (by decide), h.args main_arg6 (by decide), h.args main_arg7 (by decide), h.args main_arg8 (by decide), h.v3, h.v15]
  try rewrite [h.v124]
  try rewrite [h.args main_arg2 (by decide)]
  try rewrite [h.args main_arg5 (by decide)]
  try rewrite [h.args main_arg6 (by decide)]
  try rewrite [h.args main_arg7 (by decide)]
  try rewrite [h.args main_arg8 (by decide)]
  try rewrite [h.v3]
  try rewrite [h.v15]
  rfl

/-- Stretch 5 carries the boundary facts across: a buffer it does not write stays, a buffer it writes holds its stage. -/
theorem step5 {V W : Valuation τ sig (Elt F)} (h : Cut5 V W) : Cut6 V (after (P5 (F := F)) W) where
  args := fun b hb => (stay5 W b (by omega)).trans (h.args b hb)
  v1 := (stay5 W main_v1 (by decide)).trans h.v1
  v3 := (stay5 W main_v3 (by decide)).trans h.v3
  v15 := (stay5 W main_v15 (by decide)).trans h.v15
  v117 := (stay5 W main_v117 (by decide)).trans h.v117
  v148 := made5_v148 h

end Cert.ReferenceIdeal.Hand

end
-- ==== Proof.RefRunS6.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made6_v168 {V W : Valuation τ sig (Elt F)} (h : Cut6 V W) :
    after (P6 (F := F)) W (Proc.devRef .tc main_v168) = val_main_v168 (F := F) (la0 V) (la1 V) (la2 V) (la3 V) (la4 V) (la5 V) (la6 V) (la7 V) (la8 V) (la9 V) (la10 V) (la11 V) (la12 V) := by
  unfold P6
  after_results_simp
  try simp only [TRef.toBuf, TRef.ofBuf, cast_eq]
  simp only [h.v117, h.v148, h.args main_arg9 (by decide), h.args main_arg10 (by decide), h.args main_arg11 (by decide), h.args main_arg12 (by decide), h.v1]
  try rewrite [h.v117]
  try rewrite [h.v148]
  try rewrite [h.args main_arg9 (by decide)]
  try rewrite [h.args main_arg10 (by decide)]
  try rewrite [h.args main_arg11 (by decide)]
  try rewrite [h.args main_arg12 (by decide)]
  try rewrite [h.v1]
  rfl

theorem made6_v175 {V W : Valuation τ sig (Elt F)} (h : Cut6 V W) :
    after (P6 (F := F)) W (Proc.devRef .tc main_v175) = val_main_v175 (F := F) (la0 V) (la1 V) (la2 V) (la3 V) (la4 V) (la5 V) (la6 V) (la7 V) (la8 V) (la9 V) (la10 V) (la11 V) (la12 V) := by
  unfold P6
  after_results_simp
  try simp only [TRef.toBuf, TRef.ofBuf, cast_eq]
  simp only [h.v117, h.v148, h.args main_arg9 (by decide), h.args main_arg10 (by decide), h.args main_arg11 (by decide), h.args main_arg12 (by decide), h.v1]
  try rewrite [h.v117]
  try rewrite [h.v148]
  try rewrite [h.args main_arg9 (by decide)]
  try rewrite [h.args main_arg10 (by decide)]
  try rewrite [h.args main_arg11 (by decide)]
  try rewrite [h.args main_arg12 (by decide)]
  try rewrite [h.v1]
  rfl

/-- Stretch 6 carries the boundary facts across: a buffer it does not write stays, a buffer it writes holds its stage. -/
theorem step6 {V W : Valuation τ sig (Elt F)} (h : Cut6 V W) : Cut7 V (after (P6 (F := F)) W) where
  args := fun b hb => (stay6 W b (by omega)).trans (h.args b hb)
  v1 := (stay6 W main_v1 (by decide)).trans h.v1
  v3 := (stay6 W main_v3 (by decide)).trans h.v3
  v15 := (stay6 W main_v15 (by decide)).trans h.v15
  v168 := made6_v168 h
  v175 := made6_v175 h

end Cert.ReferenceIdeal.Hand

end
-- ==== Proof.RefRunS7.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made7_v199 {V W : Valuation τ sig (Elt F)} (h : Cut7 V W) :
    after (P7 (F := F)) W (Proc.devRef .tc main_v199) = val_main_v199 (F := F) (la0 V) (la1 V) (la2 V) (la3 V) (la4 V) (la5 V) (la6 V) (la7 V) (la8 V) (la9 V) (la10 V) (la11 V) (la12 V) := by
  unfold P7
  after_results_simp
  try simp only [TRef.toBuf, TRef.ofBuf, cast_eq]
  simp only [h.v175, h.args main_arg2 (by decide), h.args main_arg5 (by decide), h.args main_arg6 (by decide), h.args main_arg7 (by decide), h.args main_arg8 (by decide), h.v3, h.v15]
  try rewrite [h.v175]
  try rewrite [h.args main_arg2 (by decide)]
  try rewrite [h.args main_arg5 (by decide)]
  try rewrite [h.args main_arg6 (by decide)]
  try rewrite [h.args main_arg7 (by decide)]
  try rewrite [h.args main_arg8 (by decide)]
  try rewrite [h.v3]
  try rewrite [h.v15]
  rfl

/-- Stretch 7 carries the boundary facts across: a buffer it does not write stays, a buffer it writes holds its stage. -/
theorem step7 {V W : Valuation τ sig (Elt F)} (h : Cut7 V W) : Cut8 V (after (P7 (F := F)) W) where
  args := fun b hb => (stay7 W b (by omega)).trans (h.args b hb)
  v1 := (stay7 W main_v1 (by decide)).trans h.v1
  v3 := (stay7 W main_v3 (by decide)).trans h.v3
  v15 := (stay7 W main_v15 (by decide)).trans h.v15
  v168 := (stay7 W main_v168 (by decide)).trans h.v168
  v199 := made7_v199 h

end Cert.ReferenceIdeal.Hand

end
-- ==== Proof.RefRunS8.lean ====
import proofs.«406442_j73220602462590_1_alg».proof.Proof.RefKeep
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem made8_v229 {V W : Valuation τ sig (Elt F)} (h : Cut8 V W) :
    after (P8 (F := F)) W (Proc.devRef .tc main_v229) = val_main_v229 (F := F) (la0 V) (la1 V) (la2 V) (la3 V) (la4 V) (la5 V) (la6 V) (la7 V) (la8 V) (la9 V) (la10 V) (la11 V) (la12 V) (la13 V) (la14 V) (la15 V) (la16 V) := by
  unfold P8
  after_results_simp
  try simp only [TRef.toBuf, TRef.ofBuf, cast_eq]
  simp only [h.v168, h.v199, h.args main_arg9 (by decide), h.args main_arg10 (by decide), h.args main_arg11 (by decide), h.args main_arg12 (by decide), h.args main_arg13 (by decide), h.args main_arg14 (by decide), h.args main_arg15 (by decide), h.args main_arg16 (by decide)]
  try rewrite [h.v168]
  try rewrite [h.v199]
  try rewrite [h.args main_arg9 (by decide)]
  try rewrite [h.args main_arg10 (by decide)]
  try rewrite [h.args main_arg11 (by decide)]
  try rewrite [h.args main_arg12 (by decide)]
  try rewrite [h.args main_arg13 (by decide)]
  try rewrite [h.args main_arg14 (by decide)]
  try rewrite [h.args main_arg15 (by decide)]
  try rewrite [h.args main_arg16 (by decide)]
  rfl

/-- Stretch 8 carries the boundary facts across: a buffer it does not write stays, a buffer it writes holds its stage. -/
theorem step8 {V W : Valuation τ sig (Elt F)} (h : Cut8 V W) : Cut9 V (after (P8 (F := F)) W) where
  args := fun b hb => (stay8 W b (by omega)).trans (h.args b hb)
  v229 := made8_v229 h

end Cert.ReferenceIdeal.Hand

end
-- ==== Proof.RefRun.lean ====
import proofs.«406442_j73220602462590_1_alg».proof.Proof.RefRunMain
import proofs.«406442_j73220602462590_1_alg».proof.Proof.RefRunS0
import proofs.«406442_j73220602462590_1_alg».proof.Proof.RefRunS1
import proofs.«406442_j73220602462590_1_alg».proof.Proof.RefRunS2
import proofs.«406442_j73220602462590_1_alg».proof.Proof.RefRunS3
import proofs.«406442_j73220602462590_1_alg».proof.Proof.RefRunS4
import proofs.«406442_j73220602462590_1_alg».proof.Proof.RefRunS5
import proofs.«406442_j73220602462590_1_alg».proof.Proof.RefRunS6
import proofs.«406442_j73220602462590_1_alg».proof.Proof.RefRunS7
import proofs.«406442_j73220602462590_1_alg».proof.Proof.RefRunS8
import Idealize.ShloMosaic.Lib.StableHlo.Run

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : Cut9 V (after (refOps (F := F)) V) := by
  unfold refOps
  simp only [after_app]
  exact step8 (step7 (step6 (step5 (step4 (step3 (step2 (step1 (step0 (cut0 V)))))))))

/-- Every weakly fair execution of the reference ends with the result at the last stage of the argument arrays, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v229) = val_main_v229 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v229).trans (after_ops (launchContents m c)).v229,
      (h c main_arg0).trans ((after_ops (launchContents m c)).args main_arg0 (by decide)),
      (h c main_arg1).trans ((after_ops (launchContents m c)).args main_arg1 (by decide)),
      (h c main_arg2).trans ((after_ops (launchContents m c)).args main_arg2 (by decide)),
      (h c main_arg3).trans ((after_ops (launchContents m c)).args main_arg3 (by decide)),
      (h c main_arg4).trans ((after_ops (launchContents m c)).args main_arg4 (by decide)),
      (h c main_arg5).trans ((after_ops (launchContents m c)).args main_arg5 (by decide)),
      (h c main_arg6).trans ((after_ops (launchContents m c)).args main_arg6 (by decide)),
      (h c main_arg7).trans ((after_ops (launchContents m c)).args main_arg7 (by decide)),
      (h c main_arg8).trans ((after_ops (launchContents m c)).args main_arg8 (by decide)),
      (h c main_arg9).trans ((after_ops (launchContents m c)).args main_arg9 (by decide)),
      (h c main_arg10).trans ((after_ops (launchContents m c)).args main_arg10 (by decide)),
      (h c main_arg11).trans ((after_ops (launchContents m c)).args main_arg11 (by decide)),
      (h c main_arg12).trans ((after_ops (launchContents m c)).args main_arg12 (by decide)),
      (h c main_arg13).trans ((after_ops (launchContents m c)).args main_arg13 (by decide)),
      (h c main_arg14).trans ((after_ops (launchContents m c)).args main_arg14 (by decide)),
      (h c main_arg15).trans ((after_ops (launchContents m c)).args main_arg15 (by decide)),
      (h c main_arg16).trans ((after_ops (launchContents m c)).args main_arg16 (by decide))⟩)
    (run_seq scopedRefs_eq scopedSems_eq defs main (fun _ => refOps) main_eq (fun _ => refOps_sub) m ρ (fun _ => refOps_fresh))

end Cert.ReferenceIdeal.Hand

end
-- ==== Proof.PreIdx.lean ====
import proofs.«406442_j73220602462590_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Hand

open Idealize.ShloMosaic Idealize.ShloMosaic.ValueIdx

instance subsingleton_scalar_idx : Subsingleton S_.Idx := ⟨fun a b => funext fun d => d.elim0⟩

/-- The precondition's integer conjunct: every edge's source index is a node index. -/
theorem src_in_range [Cert.Pre_finite_inputs.Facts]
    (a0 : FVec Ideal S50000x16 .f32) (a1 : IVec S2x600000 32) (a2 : FVec Ideal S600000x4 .f32)
    (a3 : FVec Ideal S16x128 .f32) (a4 : FVec Ideal S128 .f32) (a5 : FVec Ideal S4x132x128 .f32)
    (a6 : FVec Ideal S4x128 .f32) (a7 : FVec Ideal S4x128x128 .f32) (a8 : FVec Ideal S4x128 .f32)
    (a9 : FVec Ideal S4x256x128 .f32) (a10 : FVec Ideal S4x128 .f32) (a11 : FVec Ideal S4x128x128 .f32)
    (a12 : FVec Ideal S4x128 .f32) (a13 : FVec Ideal S128x128 .f32) (a14 : FVec Ideal S128 .f32)
    (a15 : FVec Ideal S128x3 .f32) (a16 : FVec Ideal S3 .f32)
    (hpre : Cert.Pre_finite_inputs.fn (F := Ideal) a0 a1 a2 a3 a4 a5 a6 a7 a8 a9 a10 a11 a12 a13 a14 a15 a16 = (fun _ => 1#1))
    (hs : S2x600000.Slices ![0, 0] S1x600000) (hc : S1x600000.ShapeCasts S600000) (e : Fin 600000) :
    0 ≤ ((shapeCast S600000 (extractStridedSlice S1x600000 ![0, 0] a1 hs) hc) (ix1 e)).toInt
      ∧ ((shapeCast S600000 (extractStridedSlice S1x600000 ![0, 0] a1 hs) hc) (ix1 e)).toInt < 50000 := by
  have h := congrFun hpre ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  have h88 := (IntOp.andi_eq_one.1 h).2
  have hall := Host.reduce_andi_all _ _ _ _ _ h88 (ix1 e)
  obtain ⟨hge, hlt⟩ := IntOp.andi_eq_one.1 hall
  have hge' := IntOp.cmpi_sge.1 hge
  have hlt' := IntOp.cmpi_slt.1 hlt
  exact ⟨hge', hlt'⟩

end Cert.Pre_finite_inputs.Hand

end
-- ==== Proof.WalkKeep.lean ====
import proofs.«406442_j73220602462590_1_alg».proof.Proof.Gen.KernelIdeal.Frame
import proofs.«406442_j73220602462590_1_alg».proof.Proof.LibKeep

set_option maxRecDepth 16384

noncomputable section

namespace Cert.KernelIdeal.Hand.Keep

open Cert.KernelIdeal Cert.KernelIdeal.Gen Idealize.ShloMosaic Idealize.ShloMosaic.TcCoe Idealize.SL.Sem Cert.Hand

variable {F : FTy → Type} [FloatOps F]

/-- The buffers are numbered in program order: each stretch of host operations writes from its first result's number up. -/
theorem wr : From 17 (hostOps0 (F := F)) ∧ From 22 (hostOps1 (F := F)) ∧ From 66 (hostOps2 (F := F)) ∧
    From 83 (hostOps3 (F := F)) ∧ From 117 (hostOps4 (F := F)) ∧ From 134 (hostOps5 (F := F)) ∧
    From 168 (hostOps6 (F := F)) ∧ From 185 (hostOps7 (F := F)) ∧ From 219 (hostOps8 (F := F)) := by
  refine ⟨?_, ?_, ?_, ?_, ?_, ?_, ?_, ?_, ?_⟩ <;>
    (simp only [hostOps0, hostOps1, hostOps2, hostOps3, hostOps4, hostOps5, hostOps6, hostOps7, hostOps8, List.Forall,
      StableHlo.nullary_writes, StableHlo.unary_writes, StableHlo.binary_writes, StableHlo.ternary_writes,
      StableHlo.quaternary_writes, StableHlo.reshape_writes, StableHlo.binaryIndexed_writes, Finset.mem_singleton]
     repeat' apply And.intro
     all_goals (intro r e; cases Proc.devRef_injective _ e; decide))

variable (m : (ℓ : Loc nD τ sig) → Buf (Elt F) ℓ) (ρ : Dev nD → PrngReg) (c : Dev nD) (b : Ref sig .tc)

/-! Boundary `j` of the run against boundary `j - 1`, for a buffer numbered below everything the segment between them writes. -/
theorem keep1 (hb : b.idx.val < 17) : W1 m ρ c (Proc.devRef .tc b) = W0 m ρ c (Proc.devRef .tc b) :=
  host_keep _ _ 17 wr.1 b hb
theorem keep2 (hb : b.idx.val < 21) : W2 m ρ c (Proc.devRef .tc b) = W1 m ρ c (Proc.devRef .tc b) :=
  reg_keep (Pipeline.arrRef spec0) (fun w => (cfg0.win w).isOut) _ _ 21
    (fun w hw => (W2_arr m ρ c w).trans (((dat0 (V1 m ρ) c).arrAt_in w hw _).trans (A_eq0 (V1 m ρ) c w)))
    (W2_of_ne m ρ c) (by decide) b hb
theorem keep3 (hb : b.idx.val < 22) : W3 m ρ c (Proc.devRef .tc b) = W2 m ρ c (Proc.devRef .tc b) :=
  host_keep _ _ 22 wr.2.1 b hb
theorem keep4 (hb : b.idx.val < 65) : W4 m ρ c (Proc.devRef .tc b) = W3 m ρ c (Proc.devRef .tc b) :=
  reg_keep (Pipeline.arrRef spec1) (fun w => (cfg1.win w).isOut) _ _ 65
    (fun w hw => (W4_arr m ρ c w).trans (((dat1 (V3 m ρ) c).arrAt_in w hw _).trans (A_eq1 (V3 m ρ) c w)))
    (W4_of_ne m ρ c) (by decide) b hb
theorem keep5 (hb : b.idx.val < 66) : W5 m ρ c (Proc.devRef .tc b) = W4 m ρ c (Proc.devRef .tc b) :=
  host_keep _ _ 66 wr.2.2.1 b hb
theorem keep6 (hb : b.idx.val < 82) : W6 m ρ c (Proc.devRef .tc b) = W5 m ρ c (Proc.devRef .tc b) :=
  reg_keep (Pipeline.arrRef spec2) (fun w => (cfg2.win w).isOut) _ _ 82
    (fun w hw => (W6_arr m ρ c w).trans (((dat2 (V5 m ρ) c).arrAt_in w hw _).trans (A_eq2 (V5 m ρ) c w)))
    (W6_of_ne m ρ c) (by decide) b hb
theorem keep7 (hb : b.idx.val < 83) : W7 m ρ c (Proc.devRef .tc b) = W6 m ρ c (Proc.devRef .tc b) :=
  host_keep _ _ 83 wr.2.2.2.1 b hb
theorem keep8 (hb : b.idx.val < 116) : W8 m ρ c (Proc.devRef .tc b) = W7 m ρ c (Proc.devRef .tc b) :=
  reg_keep (Pipeline.arrRef spec3) (fun w => (cfg3.win w).isOut) _ _ 116
    (fun w hw => (W8_arr m ρ c w).trans (((dat3 (V7 m ρ) c).arrAt_in w hw _).trans (A_eq3 (V7 m ρ) c w)))
    (W8_of_ne m ρ c) (by decide) b hb
theorem keep9 (hb : b.idx.val < 117) : W9 m ρ c (Proc.devRef .tc b) = W8 m ρ c (Proc.devRef .tc b) :=
  host_keep _ _ 117 wr.2.2.2.2.1 b hb
theorem keep10 (hb : b.idx.val < 133) : W10 m ρ c (Proc.devRef .tc b) = W9 m ρ c (Proc.devRef .tc b) :=
  reg_keep (Pipeline.arrRef spec4) (fun w => (cfg4.win w).isOut) _ _ 133
    (fun w hw => (W10_arr m ρ c w).trans (((dat4 (V9 m ρ) c).arrAt_in w hw _).trans (A_eq4 (V9 m ρ) c w)))
    (W10_of_ne m ρ c) (by decide) b hb
theorem keep11 (hb : b.idx.val < 134) : W11 m ρ c (Proc.devRef .tc b) = W10 m ρ c (Proc.devRef .tc b) :=
  host_keep _ _ 134 wr.2.2.2.2.2.1 b hb
theorem keep12 (hb : b.idx.val < 167) : W12 m ρ c (Proc.devRef .tc b) = W11 m ρ c (Proc.devRef .tc b) :=
  reg_keep (Pipeline.arrRef spec5) (fun w => (cfg5.win w).isOut) _ _ 167
    (fun w hw => (W12_arr m ρ c w).trans (((dat5 (V11 m ρ) c).arrAt_in w hw _).trans (A_eq5 (V11 m ρ) c w)))
    (W12_of_ne m ρ c) (by decide) b hb
theorem keep13 (hb : b.idx.val < 168) : W13 m ρ c (Proc.devRef .tc b) = W12 m ρ c (Proc.devRef .tc b) :=
  host_keep _ _ 168 wr.2.2.2.2.2.2.1 b hb
theorem keep14 (hb : b.idx.val < 184) : W14 m ρ c (Proc.devRef .tc b) = W13 m ρ c (Proc.devRef .tc b) :=
  reg_keep (Pipeline.arrRef spec6) (fun w => (cfg6.win w).isOut) _ _ 184
    (fun w hw => (W14_arr m ρ c w).trans (((dat6 (V13 m ρ) c).arrAt_in w hw _).trans (A_eq6 (V13 m ρ) c w)))
    (W14_of_ne m ρ c) (by decide) b hb
theorem keep15 (hb : b.idx.val < 185) : W15 m ρ c (Proc.devRef .tc b) = W14 m ρ c (Proc.devRef .tc b) :=
  host_keep _ _ 185 wr.2.2.2.2.2.2.2.1 b hb
theorem keep16 (hb : b.idx.val < 218) : W16 m ρ c (Proc.devRef .tc b) = W15 m ρ c (Proc.devRef .tc b) :=
  reg_keep (Pipeline.arrRef spec7) (fun w => (cfg7.win w).isOut) _ _ 218
    (fun w hw => (W16_arr m ρ c w).trans (((dat7 (V15 m ρ) c).arrAt_in w hw _).trans (A_eq7 (V15 m ρ) c w)))
    (W16_of_ne m ρ c) (by decide) b hb
theorem keep17 (hb : b.idx.val < 219) : W17 m ρ c (Proc.devRef .tc b) = W16 m ρ c (Proc.devRef .tc b) :=
  host_keep _ _ 219 wr.2.2.2.2.2.2.2.2 b hb
theorem keep18 (hb : b.idx.val < 235) : W18 m ρ c (Proc.devRef .tc b) = W17 m ρ c (Proc.devRef .tc b) :=
  reg_keep (Pipeline.arrRef spec8) (fun w => (cfg8.win w).isOut) _ _ 235
    (fun w hw => (W18_arr m ρ c w).trans (((dat8 (V17 m ρ) c).arrAt_in w hw _).trans (A_eq8 (V17 m ρ) c w)))
    (W18_of_ne m ρ c) (by decide) b hb

/-! An argument array (numbered below 17) holds at every boundary what the launch memory held. -/
theorem at1 (hb : b.idx.val < 17) : W1 m ρ c (Proc.devRef .tc b) = m ((c : Thread nD τ).loc b) := keep1 m ρ c b hb
theorem at2 (hb : b.idx.val < 17) : W2 m ρ c (Proc.devRef .tc b) = m ((c : Thread nD τ).loc b) :=
  (keep2 m ρ c b (by omega)).trans (at1 m ρ c b hb)
theorem at3 (hb : b.idx.val < 17) : W3 m ρ c (Proc.devRef .tc b) = m ((c : Thread nD τ).loc b) :=
  (keep3 m ρ c b (by omega)).trans (at2 m ρ c b hb)
theorem at4 (hb : b.idx.val < 17) : W4 m ρ c (Proc.devRef .tc b) = m ((c : Thread nD τ).loc b) :=
  (keep4 m ρ c b (by omega)).trans (at3 m ρ c b hb)
theorem at5 (hb : b.idx.val < 17) : W5 m ρ c (Proc.devRef .tc b) = m ((c : Thread nD τ).loc b) :=
  (keep5 m ρ c b (by omega)).trans (at4 m ρ c b hb)
theorem at6 (hb : b.idx.val < 17) : W6 m ρ c (Proc.devRef .tc b) = m ((c : Thread nD τ).loc b) :=
  (keep6 m ρ c b (by omega)).trans (at5 m ρ c b hb)
theorem at7 (hb : b.idx.val < 17) : W7 m ρ c (Proc.devRef .tc b) = m ((c : Thread nD τ).loc b) :=
  (keep7 m ρ c b (by omega)).trans (at6 m ρ c b hb)
theorem at8 (hb : b.idx.val < 17) : W8 m ρ c (Proc.devRef .tc b) = m ((c : Thread nD τ).loc b) :=
  (keep8 m ρ c b (by omega)).trans (at7 m ρ c b hb)
theorem at9 (hb : b.idx.val < 17) : W9 m ρ c (Proc.devRef .tc b) = m ((c : Thread nD τ).loc b) :=
  (keep9 m ρ c b (by omega)).trans (at8 m ρ c b hb)
theorem at10 (hb : b.idx.val < 17) : W10 m ρ c (Proc.devRef .tc b) = m ((c : Thread nD τ).loc b) :=
  (keep10 m ρ c b (by omega)).trans (at9 m ρ c b hb)
theorem at11 (hb : b.idx.val < 17) : W11 m ρ c (Proc.devRef .tc b) = m ((c : Thread nD τ).loc b) :=
  (keep11 m ρ c b (by omega)).trans (at10 m ρ c b hb)
theorem at12 (hb : b.idx.val < 17) : W12 m ρ c (Proc.devRef .tc b) = m ((c : Thread nD τ).loc b) :=
  (keep12 m ρ c b (by omega)).trans (at11 m ρ c b hb)
theorem at13 (hb : b.idx.val < 17) : W13 m ρ c (Proc.devRef .tc b) = m ((c : Thread nD τ).loc b) :=
  (keep13 m ρ c b (by omega)).trans (at12 m ρ c b hb)
theorem at14 (hb : b.idx.val < 17) : W14 m ρ c (Proc.devRef .tc b) = m ((c : Thread nD τ).loc b) :=
  (keep14 m ρ c b (by omega)).trans (at13 m ρ c b hb)
theorem at15 (hb : b.idx.val < 17) : W15 m ρ c (Proc.devRef .tc b) = m ((c : Thread nD τ).loc b) :=
  (keep15 m ρ c b (by omega)).trans (at14 m ρ c b hb)
theorem at16 (hb : b.idx.val < 17) : W16 m ρ c (Proc.devRef .tc b) = m ((c : Thread nD τ).loc b) :=
  (keep16 m ρ c b (by omega)).trans (at15 m ρ c b hb)
theorem at17 (hb : b.idx.val < 17) : W17 m ρ c (Proc.devRef .tc b) = m ((c : Thread nD τ).loc b) :=
  (keep17 m ρ c b (by omega)).trans (at16 m ρ c b hb)
theorem at18 (hb : b.idx.val < 17) : W18 m ρ c (Proc.devRef .tc b) = m ((c : Thread nD τ).loc b) :=
  (keep18 m ρ c b (by omega)).trans (at17 m ρ c b hb)

/-! A buffer written before boundary 1 (numbered below 21) holds afterwards what it held there. -/
theorem from1_2 (hb : b.idx.val < 21) : W2 m ρ c (Proc.devRef .tc b) = W1 m ρ c (Proc.devRef .tc b) := keep2 m ρ c b hb
theorem from1_3 (hb : b.idx.val < 21) : W3 m ρ c (Proc.devRef .tc b) = W1 m ρ c (Proc.devRef .tc b) :=
  (keep3 m ρ c b (by omega)).trans (from1_2 m ρ c b hb)
theorem from1_4 (hb : b.idx.val < 21) : W4 m ρ c (Proc.devRef .tc b) = W1 m ρ c (Proc.devRef .tc b) :=
  (keep4 m ρ c b (by omega)).trans (from1_3 m ρ c b hb)
theorem from1_5 (hb : b.idx.val < 21) : W5 m ρ c (Proc.devRef .tc b) = W1 m ρ c (Proc.devRef .tc b) :=
  (keep5 m ρ c b (by omega)).trans (from1_4 m ρ c b hb)
theorem from1_6 (hb : b.idx.val < 21) : W6 m ρ c (Proc.devRef .tc b) = W1 m ρ c (Proc.devRef .tc b) :=
  (keep6 m ρ c b (by omega)).trans (from1_5 m ρ c b hb)
theorem from1_7 (hb : b.idx.val < 21) : W7 m ρ c (Proc.devRef .tc b) = W1 m ρ c (Proc.devRef .tc b) :=
  (keep7 m ρ c b (by omega)).trans (from1_6 m ρ c b hb)
theorem from1_8 (hb : b.idx.val < 21) : W8 m ρ c (Proc.devRef .tc b) = W1 m ρ c (Proc.devRef .tc b) :=
  (keep8 m ρ c b (by omega)).trans (from1_7 m ρ c b hb)
theorem from1_9 (hb : b.idx.val < 21) : W9 m ρ c (Proc.devRef .tc b) = W1 m ρ c (Proc.devRef .tc b) :=
  (keep9 m ρ c b (by omega)).trans (from1_8 m ρ c b hb)
theorem from1_10 (hb : b.idx.val < 21) : W10 m ρ c (Proc.devRef .tc b) = W1 m ρ c (Proc.devRef .tc b) :=
  (keep10 m ρ c b (by omega)).trans (from1_9 m ρ c b hb)
theorem from1_11 (hb : b.idx.val < 21) : W11 m ρ c (Proc.devRef .tc b) = W1 m ρ c (Proc.devRef .tc b) :=
  (keep11 m ρ c b (by omega)).trans (from1_10 m ρ c b hb)
theorem from1_12 (hb : b.idx.val < 21) : W12 m ρ c (Proc.devRef .tc b) = W1 m ρ c (Proc.devRef .tc b) :=
  (keep12 m ρ c b (by omega)).trans (from1_11 m ρ c b hb)
theorem from1_13 (hb : b.idx.val < 21) : W13 m ρ c (Proc.devRef .tc b) = W1 m ρ c (Proc.devRef .tc b) :=
  (keep13 m ρ c b (by omega)).trans (from1_12 m ρ c b hb)
theorem from1_14 (hb : b.idx.val < 21) : W14 m ρ c (Proc.devRef .tc b) = W1 m ρ c (Proc.devRef .tc b) :=
  (keep14 m ρ c b (by omega)).trans (from1_13 m ρ c b hb)
theorem from1_15 (hb : b.idx.val < 21) : W15 m ρ c (Proc.devRef .tc b) = W1 m ρ c (Proc.devRef .tc b) :=
  (keep15 m ρ c b (by omega)).trans (from1_14 m ρ c b hb)
theorem from1_16 (hb : b.idx.val < 21) : W16 m ρ c (Proc.devRef .tc b) = W1 m ρ c (Proc.devRef .tc b) :=
  (keep16 m ρ c b (by omega)).trans (from1_15 m ρ c b hb)

/-! A buffer written before boundary 3 (numbered below 65) holds afterwards what it held there. -/
theorem from3_4 (hb : b.idx.val < 65) : W4 m ρ c (Proc.devRef .tc b) = W3 m ρ c (Proc.devRef .tc b) := keep4 m ρ c b hb
theorem from3_5 (hb : b.idx.val < 65) : W5 m ρ c (Proc.devRef .tc b) = W3 m ρ c (Proc.devRef .tc b) :=
  (keep5 m ρ c b (by omega)).trans (from3_4 m ρ c b hb)
theorem from3_6 (hb : b.idx.val < 65) : W6 m ρ c (Proc.devRef .tc b) = W3 m ρ c (Proc.devRef .tc b) :=
  (keep6 m ρ c b (by omega)).trans (from3_5 m ρ c b hb)
theorem from3_7 (hb : b.idx.val < 65) : W7 m ρ c (Proc.devRef .tc b) = W3 m ρ c (Proc.devRef .tc b) :=
  (keep7 m ρ c b (by omega)).trans (from3_6 m ρ c b hb)
theorem from3_8 (hb : b.idx.val < 65) : W8 m ρ c (Proc.devRef .tc b) = W3 m ρ c (Proc.devRef .tc b) :=
  (keep8 m ρ c b (by omega)).trans (from3_7 m ρ c b hb)
theorem from3_9 (hb : b.idx.val < 65) : W9 m ρ c (Proc.devRef .tc b) = W3 m ρ c (Proc.devRef .tc b) :=
  (keep9 m ρ c b (by omega)).trans (from3_8 m ρ c b hb)
theorem from3_10 (hb : b.idx.val < 65) : W10 m ρ c (Proc.devRef .tc b) = W3 m ρ c (Proc.devRef .tc b) :=
  (keep10 m ρ c b (by omega)).trans (from3_9 m ρ c b hb)
theorem from3_11 (hb : b.idx.val < 65) : W11 m ρ c (Proc.devRef .tc b) = W3 m ρ c (Proc.devRef .tc b) :=
  (keep11 m ρ c b (by omega)).trans (from3_10 m ρ c b hb)
theorem from3_12 (hb : b.idx.val < 65) : W12 m ρ c (Proc.devRef .tc b) = W3 m ρ c (Proc.devRef .tc b) :=
  (keep12 m ρ c b (by omega)).trans (from3_11 m ρ c b hb)
theorem from3_13 (hb : b.idx.val < 65) : W13 m ρ c (Proc.devRef .tc b) = W3 m ρ c (Proc.devRef .tc b) :=
  (keep13 m ρ c b (by omega)).trans (from3_12 m ρ c b hb)
theorem from3_14 (hb : b.idx.val < 65) : W14 m ρ c (Proc.devRef .tc b) = W3 m ρ c (Proc.devRef .tc b) :=
  (keep14 m ρ c b (by omega)).trans (from3_13 m ρ c b hb)
theorem from3_15 (hb : b.idx.val < 65) : W15 m ρ c (Proc.devRef .tc b) = W3 m ρ c (Proc.devRef .tc b) :=
  (keep15 m ρ c b (by omega)).trans (from3_14 m ρ c b hb)
theorem from3_16 (hb : b.idx.val < 65) : W16 m ρ c (Proc.devRef .tc b) = W3 m ρ c (Proc.devRef .tc b) :=
  (keep16 m ρ c b (by omega)).trans (from3_15 m ρ c b hb)

/-! A layer's node features, written by the region before boundary `i`, are still there three boundaries on. -/
theorem from2_5 (hb : b.idx.val < 22) : W5 m ρ c (Proc.devRef .tc b) = W2 m ρ c (Proc.devRef .tc b) :=
  (keep5 m ρ c b (by omega)).trans ((keep4 m ρ c b (by omega)).trans (keep3 m ρ c b hb))
theorem from6_9 (hb : b.idx.val < 83) : W9 m ρ c (Proc.devRef .tc b) = W6 m ρ c (Proc.devRef .tc b) :=
  (keep9 m ρ c b (by omega)).trans ((keep8 m ρ c b (by omega)).trans (keep7 m ρ c b hb))
theorem from10_13 (hb : b.idx.val < 134) : W13 m ρ c (Proc.devRef .tc b) = W10 m ρ c (Proc.devRef .tc b) :=
  (keep13 m ρ c b (by omega)).trans ((keep12 m ρ c b (by omega)).trans (keep11 m ρ c b hb))
theorem from14_17 (hb : b.idx.val < 185) : W17 m ρ c (Proc.devRef .tc b) = W14 m ρ c (Proc.devRef .tc b) :=
  (keep17 m ρ c b (by omega)).trans ((keep16 m ρ c b (by omega)).trans (keep15 m ρ c b hb))

end Cert.KernelIdeal.Hand.Keep

end
-- ==== Proof.WalkDefs.lean ====
import proofs.«406442_j73220602462590_1_alg».proof.Proof.Gen.KernelIdeal.Frame
import Idealize.ShloMosaic.Lib.StableHlo.Run
import Idealize.ShloMosaic.Lib.ValueIdx
import Idealize.ShloMosaic.PureOps.Ideal

set_option maxRecDepth 16384

noncomputable section

namespace Cert.KernelIdeal.Hand.Walk

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

abbrev A0 (c : Dev nD) : S50000x16.Idx → EReal := m ((c : Thread nD τ).loc main_arg0)
abbrev A1 (c : Dev nD) : S2x600000.Idx → BitVec 32 := m ((c : Thread nD τ).loc main_arg1)
abbrev A2 (c : Dev nD) : S600000x4.Idx → EReal := m ((c : Thread nD τ).loc main_arg2)
abbrev A3 (c : Dev nD) : S16x128.Idx → EReal := m ((c : Thread nD τ).loc main_arg3)
abbrev A4 (c : Dev nD) : S128.Idx → EReal := m ((c : Thread nD τ).loc main_arg4)
abbrev A5 (c : Dev nD) : S4x132x128.Idx → EReal := m ((c : Thread nD τ).loc main_arg5)
abbrev A6 (c : Dev nD) : S4x128.Idx → EReal := m ((c : Thread nD τ).loc main_arg6)
abbrev A7 (c : Dev nD) : S4x128x128.Idx → EReal := m ((c : Thread nD τ).loc main_arg7)
abbrev A8 (c : Dev nD) : S4x128.Idx → EReal := m ((c : Thread nD τ).loc main_arg8)
abbrev A9 (c : Dev nD) : S4x256x128.Idx → EReal := m ((c : Thread nD τ).loc main_arg9)
abbrev A10 (c : Dev nD) : S4x128.Idx → EReal := m ((c : Thread nD τ).loc main_arg10)
abbrev A11 (c : Dev nD) : S4x128x128.Idx → EReal := m ((c : Thread nD τ).loc main_arg11)
abbrev A12 (c : Dev nD) : S4x128.Idx → EReal := m ((c : Thread nD τ).loc main_arg12)
abbrev A13 (c : Dev nD) : S128x128.Idx → EReal := m ((c : Thread nD τ).loc main_arg13)
abbrev A14 (c : Dev nD) : S128.Idx → EReal := m ((c : Thread nD τ).loc main_arg14)
abbrev A15 (c : Dev nD) : S128x3.Idx → EReal := m ((c : Thread nD τ).loc main_arg15)
abbrev A16 (c : Dev nD) : S3.Idx → EReal := m ((c : Thread nD τ).loc main_arg16)

abbrev Src (c : Dev nD) : IVec S600000 32 :=
  shapeCast S600000 (extractStridedSlice S1x600000 ![0, 0] (A1 m c) slices_S2x600000_S1x600000_0_0) shapeCasts_S1x600000_S600000

abbrev Dst (c : Dev nD) : IVec S600000 32 :=
  shapeCast S600000 (extractStridedSlice S1x600000 ![1, 0] (A1 m c) slices_S2x600000_S1x600000_1_0) shapeCasts_S1x600000_S600000

abbrev Cnt (c : Dev nD) : FVec Ideal S50000x1 .f32 :=
  broadcastInDim S50000x1 ![0] bcast_S50000_S50000x1_0
    (maximumf
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 (Dst m c))
        (broadcastInDim S600000 ![] bcast_S_S600000 (constant (F := Ideal) S_ .f32 0x3F800000#32)))
      (broadcastInDim S50000 ![] bcast_S_S50000 (constant (F := Ideal) S_ .f32 0x3F800000#32)))

/-- Every edge's source index is a node index. -/
def SrcOk : Prop :=
  ∀ (c : Dev nD) (e : Fin 600000), 0 ≤ ((Src m c) (ix1 e)).toInt ∧ ((Src m c) (ix1 e)).toInt < 50000

theorem at1_src (c : Dev nD) : W1 m ρ c (Proc.devRef .tc main_call0_v1) = Src m c := by
  show StableHlo.after hostOps0 (W0 m ρ c) (Proc.devRef .tc main_call0_v1) = _
  after_results
  rfl

theorem at1_dst (c : Dev nD) : W1 m ρ c (Proc.devRef .tc main_call0_v3) = Dst m c := by
  show StableHlo.after hostOps0 (W0 m ρ c) (Proc.devRef .tc main_call0_v3) = _
  after_results
  rfl

end Cert.KernelIdeal.Hand.Walk

end
-- ==== Proof.Spec.lean ====
import Idealize.ShloMosaic.PureOps.Ideal
import Idealize.ShloMosaic.Lib.ValueIdx

noncomputable section

open scoped BigOperators
open Idealize.ShloMosaic Idealize.ShloMosaic.ValueIdx

namespace MeshGnn

abbrev A1 (a : Nat) : Type := (⟨1, ![a]⟩ : Shape).Idx → EReal

abbrev A2 (a b : Nat) : Type := (⟨2, ![a, b]⟩ : Shape).Idx → EReal

abbrev A3 (a b c : Nat) : Type := (⟨3, ![a, b, c]⟩ : Shape).Idx → EReal

abbrev row {a b : Nat} (i : (⟨2, ![a, b]⟩ : Shape).Idx) : Fin a := ⟨(i 0).val, idx2_lt0 i⟩

abbrev col {a b : Nat} (i : (⟨2, ![a, b]⟩ : Shape).Idx) : Fin b := ⟨(i 1).val, idx2_lt1 i⟩

/-- Row `r` of `x` contracted with column `c` of `A`. -/
def dot {n k p : Nat} (x : A2 n k) (A : A2 k p) (r : Fin n) (c : Fin p) : EReal :=
  ∑ q : Fin k, x (ix2 r q) * A (ix2 q c)

/-- A dense layer: `x · A` plus the bias row, clamped below at zero. -/
def dense {n k p : Nat} (x : A2 n k) (A : A2 k p) (b : A1 p) : A2 n p :=
  fun i => max (dot x A (row i) (col i) + b (ix1 (col i))) 0

/-- A dense layer on two inputs side by side: `x · A + y · A'` plus the bias row, clamped below at zero. -/
def dense2 {n k k' p : Nat} (x : A2 n k) (A : A2 k p) (y : A2 n k') (A' : A2 k' p) (b : A1 p) : A2 n p :=
  fun i => max ((dot x A (row i) (col i) + dot y A' (row i) (col i)) + b (ix1 (col i))) 0

/-- The closing layer of an update: `y · B` plus the bias row plus the residual `h`, clamped below at zero. -/
def denseRes {n k p : Nat} (y : A2 n k) (B : A2 k p) (b : A1 p) (h : A2 n p) : A2 n p :=
  fun i => max ((dot y B (row i) (col i) + b (ix1 (col i))) + h i) 0

theorem dense_apply {n k p : Nat} (x : A2 n k) (A : A2 k p) (b : A1 p) (r : Fin n) (c : Fin p) :
    dense x A b (ix2 r c) = max ((∑ q : Fin k, x (ix2 r q) * A (ix2 q c)) + b (ix1 c)) 0 := rfl

theorem dense2_apply {n k k' p : Nat} (x : A2 n k) (A : A2 k p) (y : A2 n k') (A' : A2 k' p) (b : A1 p)
    (r : Fin n) (c : Fin p) :
    dense2 x A y A' b (ix2 r c)
      = max (((∑ q : Fin k, x (ix2 r q) * A (ix2 q c)) + (∑ q : Fin k', y (ix2 r q) * A' (ix2 q c))) + b (ix1 c)) 0 := rfl

theorem denseRes_apply {n k p : Nat} (y : A2 n k) (B : A2 k p) (b : A1 p) (h : A2 n p) (r : Fin n) (c : Fin p) :
    denseRes y B b h (ix2 r c) = max (((∑ q : Fin k, y (ix2 r q) * B (ix2 q c)) + b (ix1 c)) + h (ix2 r c)) 0 := rfl

/-- Rows `off … off + a' - 1` of matrix `l` of a stack of matrices. -/
def slab {L a b : Nat} (W : A3 L a b) (l : Fin L) (off a' : Nat) (h : off + a' ≤ a) : A2 a' b :=
  fun i => W (ix3 l ⟨off + (i 0).val, by have := idx2_lt0 i; omega⟩ (col i))

/-- Row `l` of a matrix. -/
def rowOf {L a : Nat} (W : A2 L a) (l : Fin L) : A1 a :=
  fun i => W (ix2 l ⟨(i 0).val, (i 0).isLt⟩)

/-- Two arrays joined side by side along the columns. -/
def beside {n a b : Nat} (x : A2 n a) (y : A2 n b) : A2 n (a + b) :=
  fun i => if h : (i 1).val < a then x (ix2 (row i) ⟨(i 1).val, h⟩)
    else y (ix2 (row i) ⟨(i 1).val - a, by have := idx2_lt1 i; omega⟩)

theorem sum_split {a b : Nat} (f : Fin (a + b) → EReal) :
    ∑ q : Fin (a + b), f q = (∑ q : Fin a, f (Fin.castAdd b q)) + ∑ q : Fin b, f (Fin.natAdd a q) :=
  Fin.sum_univ_add f

/-- A contraction over a joined row is the sum of the contractions over its two pieces: a finite sum over `Fin (a + b)` splits, whatever the summands. -/
theorem dot_beside {n a b p : Nat} (x : A2 n a) (y : A2 n b) (M : A2 (a + b) p) (r : Fin n) (c : Fin p) :
    dot (beside x y) M r c
      = dot x (fun i => M (ix2 (Fin.castAdd b (row i)) (col i))) r c
        + dot y (fun i => M (ix2 (Fin.natAdd a (row i)) (col i))) r c := by
  unfold dot
  rw [sum_split]
  congr 1
  · refine Finset.sum_congr rfl fun q _ => ?_
    have hq : ((ix2 r (Fin.castAdd b q) : (⟨2, ![n, a + b]⟩ : Shape).Idx) 1).val < a := q.isLt
    show beside x y (ix2 r (Fin.castAdd b q)) * _ = _
    unfold beside
    rw [dif_pos hq]
    rfl
  · refine Finset.sum_congr rfl fun q _ => ?_
    have hq : ¬ ((ix2 r (Fin.natAdd a q) : (⟨2, ![n, a + b]⟩ : Shape).Idx) 1).val < a := by
      show ¬ a + q.val < a
      omega
    show beside x y (ix2 r (Fin.natAdd a q)) * _ = _
    unfold beside
    rw [dif_neg hq]
    congr 2
    funext d
    match d with
    | ⟨0, _⟩ => rfl
    | ⟨1, _⟩ => exact Fin.ext (by show a + q.val - a = q.val; omega)

/-- A dense layer acts row by row: rows picked out of `x` give the same rows of the result. -/
theorem dense_rows {n n' k p : Nat} (x : A2 n k) (x' : A2 n' k) (f : Fin n' → Fin n)
    (hx : ∀ r q, x' (ix2 r q) = x (ix2 (f r) q)) (A : A2 k p) (b : A1 p) (r : Fin n') (c : Fin p) :
    dense x' A b (ix2 r c) = dense x A b (ix2 (f r) c) := by
  rw [dense_apply, dense_apply]
  simp only [hx]

theorem dense2_rows {n n' k k' p : Nat} (x : A2 n k) (x' : A2 n' k) (y : A2 n k') (y' : A2 n' k') (f : Fin n' → Fin n)
    (hx : ∀ r q, x' (ix2 r q) = x (ix2 (f r) q)) (hy : ∀ r q, y' (ix2 r q) = y (ix2 (f r) q))
    (A : A2 k p) (A' : A2 k' p) (b : A1 p) (r : Fin n') (c : Fin p) :
    dense2 x' A y' A' b (ix2 r c) = dense2 x A y A' b (ix2 (f r) c) := by
  rw [dense2_apply, dense2_apply]
  simp only [hx, hy]

theorem denseRes_rows {n n' k p : Nat} (y : A2 n k) (y' : A2 n' k) (h : A2 n p) (h' : A2 n' p) (f : Fin n' → Fin n)
    (hy : ∀ r q, y' (ix2 r q) = y (ix2 (f r) q)) (hh : ∀ r q, h' (ix2 r q) = h (ix2 (f r) q))
    (B : A2 k p) (b : A1 p) (r : Fin n') (c : Fin p) :
    denseRes y' B b h' (ix2 r c) = denseRes y B b h (ix2 (f r) c) := by
  rw [denseRes_apply, denseRes_apply]
  simp only [hy, hh]

end MeshGnn

end
-- ==== Proof.PayLin.lean ====
import proofs.«406442_j73220602462590_1_alg».proof.Proof.Gen.KernelIdeal.Skeleton
import proofs.«406442_j73220602462590_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Lin

open Idealize.ShloMosaic Idealize.SL.Sem Idealize.ShloMosaic.ValueIdx
open Facts₀ Facts
open scoped BigOperators

theorem lhs_0 (i : S2000x128.Idx) (q : dot_S2000x16_S16x128_S2000x128_1_0_0_1_n_n.contr.Idx) :
    (dot_S2000x16_S16x128_S2000x128_1_0_0_1_n_n.lhsIdx i q 0).val = (i 0).val := by
  unfold DotDims.lhsIdx
  rw [dif_neg (show ¬(0 : Fin S2000x16.rank) ∈ dot_S2000x16_S16x128_S2000x128_1_0_0_1_n_n.lhsBatch by decide), dif_pos (show (0 : Fin S2000x16.rank) ∈ dot_S2000x16_S16x128_S2000x128_1_0_0_1_n_n.lhsNonContracting by decide)]
  rfl
theorem lhs_1 (i : S2000x128.Idx) (q : dot_S2000x16_S16x128_S2000x128_1_0_0_1_n_n.contr.Idx) :
    (dot_S2000x16_S16x128_S2000x128_1_0_0_1_n_n.lhsIdx i q 1).val = (q ⟨0, by decide⟩).val :=
  dot_S2000x16_S16x128_S2000x128_1_0_0_1_n_n.lhsIdx_val_of_single rfl i q
theorem rhs_0 (i : S2000x128.Idx) (q : dot_S2000x16_S16x128_S2000x128_1_0_0_1_n_n.contr.Idx) :
    (dot_S2000x16_S16x128_S2000x128_1_0_0_1_n_n.rhsIdx i q 0).val = (q ⟨0, by decide⟩).val :=
  dot_S2000x16_S16x128_S2000x128_1_0_0_1_n_n.rhsIdx_val_of_single rfl i q
theorem rhs_1 (i : S2000x128.Idx) (q : dot_S2000x16_S16x128_S2000x128_1_0_0_1_n_n.contr.Idx) :
    (dot_S2000x16_S16x128_S2000x128_1_0_0_1_n_n.rhsIdx i q 1).val = (i 1).val := by
  unfold DotDims.rhsIdx
  rw [dif_neg (show ¬(1 : Fin S16x128.rank) ∈ dot_S2000x16_S16x128_S2000x128_1_0_0_1_n_n.rhsBatch by decide), dif_pos (show (1 : Fin S16x128.rank) ∈ dot_S2000x16_S16x128_S2000x128_1_0_0_1_n_n.rhsNonContracting by decide)]
  rfl

theorem mm_apply (a : FVec Ideal S2000x16 .bf16) (b : FVec Ideal S16x128 .bf16) (p : Fin 2000) (q : Fin 128) :
    matmul dot_S2000x16_S16x128_S2000x128_1_0_0_1_n_n none a b (constant S2000x128 .f32 0x00000000#32) (ix2 p q)
      = ∑ k : Fin 16, a (ix2 p k) * b (ix2 k q) := by
  simp only [matmul]
  rw [Ideal.matmul_constant_zero_apply, ← Equiv.sum_comp (contrEquiv1 dot_S2000x16_S16x128_S2000x128_1_0_0_1_n_n 16 rfl rfl).symm]
  refine Finset.sum_congr rfl fun k _ => ?_
  have hk := contrEquiv1_symm_val dot_S2000x16_S16x128_S2000x128_1_0_0_1_n_n 16 rfl rfl k
  have el : dot_S2000x16_S16x128_S2000x128_1_0_0_1_n_n.lhsIdx (ix2 p q) ((contrEquiv1 dot_S2000x16_S16x128_S2000x128_1_0_0_1_n_n 16 rfl rfl).symm k) = ix2 p k := funext fun d => Fin.ext (by
    match d with
    | ⟨0, _⟩ => exact lhs_0 _ _
    | ⟨1, _⟩ => exact (lhs_1 _ _).trans hk)
  have er : dot_S2000x16_S16x128_S2000x128_1_0_0_1_n_n.rhsIdx (ix2 p q) ((contrEquiv1 dot_S2000x16_S16x128_S2000x128_1_0_0_1_n_n 16 rfl rfl).symm k) = ix2 k q := funext fun d => Fin.ext (by
    match d with
    | ⟨0, _⟩ => exact (rhs_0 _ _).trans hk
    | ⟨1, _⟩ => exact rhs_1 _ _)
  rw [el, er]

theorem bias_apply (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (0 : Fin 1) q) (fun d => match d with
    | ⟨0, _⟩ => rfl
    | ⟨1, _⟩ => rfl)]
  exact shapeCast_a_1a_apply b shapeCasts_S128_S1x128 (0 : Fin 1) q

/-- One block of rows through the input projection. -/
theorem pay (x0 : Vec Ideal S2000x16 .f32) (x1 : Vec Ideal S16x128 .f32) (x2 : Vec Ideal S128 .f32) :
    Gen.k0_pay1 (F := Ideal) x0 x1 x2 = MeshGnn.dense x0 x1 x2 := by
  funext j
  obtain ⟨p, q, rfl⟩ : ∃ (p : Fin 2000) (q : Fin 128), j = ix2 p q := ⟨_, _, eq_ix2 j⟩
  rw [MeshGnn.dense_apply]
  unfold Gen.k0_pay1
  rw [maximumf_apply, addf_apply, broadcast_apply, mm_apply, bias_apply]
  simp only [truncf_apply]
  show max _ (Ideal.ofBits .f32 0x00000000#32) = _
  rw [Ideal.ofBits_zero_f32]

end Cert.KernelIdeal.Hand.Lin

end
-- ==== Proof.RegLin.lean ====
import proofs.«406442_j73220602462590_1_alg».proof.Proof.Gen.KernelIdeal.Frame
import proofs.«406442_j73220602462590_1_alg».proof.Proof.PayLin
import Idealize.ShloMosaic.Lib.Pipeline.Value
import Idealize.ShloMosaic.Lib.ValueIdx

noncomputable section

namespace Cert.KernelIdeal.Hand.Lin

open Idealize.ShloMosaic Idealize.ShloMosaic.TcCoe Idealize.SL.Sem Idealize.ShloMosaic.ValueIdx
open Idealize.ShloMosaic.Pipeline (Dat)
open Facts₀ Facts

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

def rowAt (t : Fin cfg0.N) (r : Fin 2000) : Fin 50000 :=
  ⟨t.val * 2000 + r.val, by have h : t.val < 25 := t.isLt.trans_eq Gen.N_0; have := r.isLt; omega⟩

abbrev G (c : Dev nD) : S50000x128.Idx → EReal :=
  MeshGnn.dense (V c main_arg0 : S50000x16.Idx → EReal) (V c main_arg3 : S16x128.Idx → EReal) (V c main_arg4 : S128.Idx → EReal)

theorem blk0_apply (c : Dev nD) (t : Fin cfg0.N) (r : Fin 2000) (q : Fin 16) :
    (Gen.iblk0 V c 0 t : Vec Ideal S2000x16 .f32) (ix2 r q)
      = (V c main_arg0 : S50000x16.Idx → EReal) (ix2 (rowAt t r) q) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 16 + 1 * q.val = q.val; rw [e1]; omega

theorem blk1_eq (c : Dev nD) (t : Fin cfg0.N) :
    (Gen.iblk0 V c 1 t : Vec Ideal S16x128 .f32) = (V c main_arg3 : S16x128.Idx → EReal) := by
  obtain ⟨-, -, e2, e3, -⟩ := idx_facts t
  funext y
  unfold Gen.iblk0
  rw [View.read_apply]
  show V c main_arg3 _ = V c main_arg3 _
  congr 1
  funext a
  apply Fin.ext
  match a with
  | ⟨0, _⟩ => show win0_1.index t (0 : Fin 2) * 16 + 1 * (y 0).val = (y 0).val; rw [e2]; omega
  | ⟨1, _⟩ => show win0_1.index t (1 : Fin 2) * 128 + 1 * (y 1).val = (y 1).val; rw [e3]; omega

theorem blk2_eq (c : Dev nD) (t : Fin cfg0.N) :
    (Gen.iblk0 V c 2 t : Vec Ideal S128 .f32) = (V c main_arg4 : S128.Idx → EReal) := by
  obtain ⟨-, -, -, -, e4, -⟩ := idx_facts t
  funext y
  unfold Gen.iblk0
  rw [View.read_apply]
  show V c main_arg4 _ = V c main_arg4 _
  congr 1
  funext a
  apply Fin.ext
  match a with
  | ⟨0, _⟩ => show win0_2.index t (0 : Fin 1) * 128 + 1 * (y 0).val = (y 0).val; rw [e4]; omega

theorem block_value (c : Dev nD) (t : Fin cfg0.N) (j : S2000x128.Idx) (i : S50000x128.Idx)
    (h0 : (i 0).val = t.val * 2000 + (j 0).val) (h1 : (i 1).val = (j 1).val) :
    MeshGnn.dense (Gen.iblk0 V c 0 t : Vec Ideal S2000x16 .f32) (Gen.iblk0 V c 1 t : Vec Ideal S16x128 .f32)
      (Gen.iblk0 V c 2 t : Vec Ideal S128 .f32) j = G V c i := by
  obtain ⟨p, q, rfl⟩ : ∃ (p : Fin 2000) (q : Fin 128), j = ix2 p q := ⟨_, _, eq_ix2 j⟩
  have hi : i = ix2 (rowAt t p) q := funext fun a => Fin.ext (by
    match a with
    | ⟨0, _⟩ => exact h0
    | ⟨1, _⟩ => exact h1)
  rw [hi, blk1_eq V c t, blk2_eq V c t]
  exact MeshGnn.dense_rows _ _ (rowAt t) (fun r k => blk0_apply V c t r k) _ _ p q

theorem flushed_eq (c : Dev nD) (t : Fin cfg0.N) :
    (Gen.dat0 (F := Ideal) V c).flushed 3 t = ((cfg0.win 3).blk t).view.read (Elt Ideal) (G V c) := by
  show (cfg0.win 3).cut (grid0.coords t) ((Gen.dat0 (F := Ideal) V c).after 3 t) = _
  rw [Gen.after0_3]
  unfold Gen.out0_3
  rw [View.canon_unit_zero hz2]
  simp only [View.ld_unit_zero (S := S2000x16) hz2, View.ld_unit_zero (S := S16x128) hz2, View.ld_unit_zero (S := S128) hz1]
  rw [pay]
  obtain ⟨-, -, -, -, -, e5, e6⟩ := idx_facts t
  funext j
  rw [View.read_apply]
  refine block_value V c t _ _ ?_ ?_
  · show win0_3.index t (0 : Fin 2) * 2000 + 1 * (j 0).val = t.val * 2000 + (j 0).val
    rw [e5]; omega
  · show win0_3.index t (1 : Fin 2) * 128 + 1 * (j 1).val = (j 1).val
    rw [e6]; omega

theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v4).slice (win0_3.rect t)).set ↔ _
  rw [View.set_slice_whole, Rect.mem_set_unit]
  exact Iff.rfl

theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from Gen.N_0]; omega⟩, rfl⟩
  obtain ⟨-, -, -, -, -, e5, e6⟩ := idx_facts t
  refine ⟨t, Gen.flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e5]; omega
  | ⟨1, _⟩ => show win0_3.index t (1 : Fin 2) * 128 ≤ (i 1).val ∧ (i 1).val < win0_3.index t (1 : Fin 2) * 128 + 128; rw [e6]; omega

/-- The array the region leaves is the dense layer of the whole arrays it found: each block of rows is the same rows of the whole map, and the blocks tile the array. -/
theorem region_value (c : Dev nD) :
    (Gen.dat0 (F := Ideal) V c).arrAt 3 cfg0.N = MeshGnn.dense (V c main_arg0) (V c main_arg3) (V c main_arg4) :=
  (Gen.dat0 (F := Ideal) V c).arrAt_eq_of_cover 3 (G V c) (fun t _ => flushed_eq V c t) cover

end Cert.KernelIdeal.Hand.Lin

end
-- ==== Proof.RefLin.lean ====
import proofs.«406442_j73220602462590_1_alg».proof.Proof.RefRead
import proofs.«406442_j73220602462590_1_alg».proof.Proof.Spec
import Idealize.ShloMosaic.Lib.ValueIdx
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

/-- The reference's input projection is one dense layer. -/
theorem ref_lin (x0 : (⟨S50000x16, .f32⟩ : BufTy).Contents (Elt Ideal))
    (x3 : (⟨S16x128, .f32⟩ : BufTy).Contents (Elt Ideal))
    (x4 : (⟨S128, .f32⟩ : BufTy).Contents (Elt Ideal)) :
    val_main_v8 (F := Ideal) x0 x3 x4 = MeshGnn.dense x0 x3 x4 := by
  funext i
  obtain ⟨r, c, rfl⟩ : ∃ (r : Fin 50000) (c : Fin 128), i = ix2 r c := ⟨_, _, eq_ix2 i⟩
  rw [val_main_v8_apply, val_main_v7_apply, val_main_v4_apply, val_main_v6_apply, val_main_v5_apply,
    val_main_call0_v0_apply, val_main_call0_cst_apply, MeshGnn.dense_apply]

  have eb : idx_main_v5 (idx_main_v6 (ix2 r c)) = ix1 c :=
    funext fun a => Fin.ext (by match a with | ⟨0, _⟩ => rfl)
  have el : ∀ k : Fin 16, lidx_main_v4 (ix2 r c) k = ix2 r k := fun k =>
    funext fun a => Fin.ext (by match a with | ⟨0, _⟩ => rfl | ⟨1, _⟩ => rfl)
  have er : ∀ k : Fin 16, ridx_main_v4 (ix2 r c) k = ix2 k c := fun k =>
    funext fun a => Fin.ext (by match a with | ⟨0, _⟩ => rfl | ⟨1, _⟩ => rfl)
  simp only [eb, el, er]
  show max ((∑ k : Fin 16, x0 (ix2 r k) * x3 (ix2 k c)) + x4 (ix1 c)) (Ideal.ofBits .f32 0x00000000#32) = _
  rw [Ideal.ofBits_zero_f32]

end Cert.ReferenceIdeal.Hand

end
-- ==== Proof.WalkBase.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.RegLin
import proofs.«406442_j73220602462590_1_alg».proof.Proof.RefLin
import proofs.«406442_j73220602462590_1_alg».proof.Proof.RefRead
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- After the first region the node features are the reference's input projection. -/
theorem at2_h0 (c : Dev nD) :
    W2 m ρ c (Proc.devRef .tc main_call0_v4) = val_main_v8 (F := Ideal) (A0 m c) (A3 m c) (A4 m c) := by
  refine (show W2 m ρ c (Proc.devRef .tc main_call0_v4) = (dat0 (V1 m ρ) c).arrAt 3 cfg0.N from W2_arr m ρ c 3).trans ?_
  rw [Lin.region_value (V1 m ρ) c]
  rw [show V1 m ρ c main_arg0 = A0 m c from at1 m ρ c main_arg0 (by decide),
    show V1 m ρ c main_arg3 = A3 m c from at1 m ρ c main_arg3 (by decide),
    show V1 m ρ c main_arg4 = A4 m c from at1 m ρ c main_arg4 (by decide)]
  exact (Cert.ReferenceIdeal.Hand.ref_lin (A0 m c) (A3 m c) (A4 m c)).symm

end Cert.KernelIdeal.Hand.Walk

end
-- ==== Proof.KSlices.lean ====
import Idealize.ShloMosaic.Lib.ValueLayout
import proofs.«406442_j73220602462590_1_alg».proof.Proof.Spec

noncomputable section

open Idealize.ShloMosaic Idealize.ShloMosaic.ValueIdx

namespace MeshGnn.Slices

/-- A unit-stride slice of one matrix of a stack, reshaped to drop the unit axis, is that band of rows of the matrix. -/
theorem slab_of_slice {L a b a' : Nat} (W : A3 L a b) (l : Fin L) (n off : Nat) (hn : l.val = n) (h : off + a' ≤ a)
    (hs : (⟨3, ![L, a, b]⟩ : Shape).Slices ![n, off, 0] ⟨3, ![1, a', b]⟩)
    (hc : (⟨3, ![1, a', b]⟩ : Shape).ShapeCasts ⟨2, ![a', b]⟩) :
    shapeCast ⟨2, ![a', b]⟩ (extractStridedSlice ⟨3, ![1, a', b]⟩ ![n, off, 0] W hs) hc = MeshGnn.slab W l off a' h := by
  funext i
  obtain ⟨r, c, rfl⟩ : ∃ (r : Fin a') (c : Fin b), i = ix2 r c :=
    ⟨⟨(i 0).val, idx2_lt0 i⟩, ⟨(i 1).val, idx2_lt1 i⟩, by funext d; match d with | ⟨0, _⟩ => rfl | ⟨1, _⟩ => rfl⟩
  refine (shapeCast_1ab_ab_apply _ hc r c).trans ?_
  show _ = W (ix3 l ⟨off + r.val, by have := r.isLt; omega⟩ c)
  exact extractStridedSlice_apply ![n, off, 0] W hs _ _ (fun e => match e with
    | ⟨0, _⟩ => by show l.val = n + 0; omega
    | ⟨1, _⟩ => by show off + r.val = off + r.val; rfl
    | ⟨2, _⟩ => by show c.val = 0 + c.val; omega)

/-- Likewise one row of a matrix. -/
theorem row_of_slice {L a : Nat} (W : A2 L a) (l : Fin L) (n : Nat) (hn : l.val = n)
    (hs : (⟨2, ![L, a]⟩ : Shape).Slices ![n, 0] ⟨2, ![1, a]⟩)
    (hc : (⟨2, ![1, a]⟩ : Shape).ShapeCasts ⟨1, ![a]⟩) :
    shapeCast ⟨1, ![a]⟩ (extractStridedSlice ⟨2, ![1, a]⟩ ![n, 0] W hs) hc = MeshGnn.rowOf W l := by
  funext i
  obtain ⟨c, rfl⟩ : ∃ c : Fin a, i = ix1 c :=
    ⟨⟨(i 0).val, (i 0).isLt⟩, by funext d; match d with | ⟨0, _⟩ => rfl⟩
  refine (shapeCast_1a_a_apply _ hc c).trans ?_
  show _ = W (ix2 l c)
  exact extractStridedSlice_apply ![n, 0] W hs _ _ (fun e => match e with
    | ⟨0, _⟩ => by show l.val = n + 0; omega
    | ⟨1, _⟩ => by show c.val = 0 + c.val; omega)

theorem slab3_132_top (W : A3 4 132 128) (l : Fin 4)
    (hs : (⟨3, ![4, 132, 128]⟩ : Shape).Slices ![l.val, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, 0, 0] W hs) hc
      = MeshGnn.slab W l 0 128 (by decide) :=
  slab_of_slice W l l.val 0 rfl _ hs hc

theorem slab3_132_bot (W : A3 4 132 128) (l : Fin 4)
    (hs : (⟨3, ![4, 132, 128]⟩ : Shape).Slices ![l.val, 128, 0] ⟨3, ![1, 4, 128]⟩)
    (hc : (⟨3, ![1, 4, 128]⟩ : Shape).ShapeCasts ⟨2, ![4, 128]⟩) :
    shapeCast ⟨2, ![4, 128]⟩ (extractStridedSlice ⟨3, ![1, 4, 128]⟩ ![l.val, 128, 0] W hs) hc
      = MeshGnn.slab W l 128 4 (by decide) :=
  slab_of_slice W l l.val 128 rfl _ hs hc

theorem slab3_128 (W : A3 4 128 128) (l : Fin 4)
    (hs : (⟨3, ![4, 128, 128]⟩ : Shape).Slices ![l.val, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, 0, 0] W hs) hc
      = MeshGnn.slab W l 0 128 (by decide) :=
  slab_of_slice W l l.val 0 rfl _ hs hc

theorem slab3_256_top (W : A3 4 256 128) (l : Fin 4)
    (hs : (⟨3, ![4, 256, 128]⟩ : Shape).Slices ![l.val, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, 0, 0] W hs) hc
      = MeshGnn.slab W l 0 128 (by decide) :=
  slab_of_slice W l l.val 0 rfl _ hs hc

theorem slab3_256_bot (W : A3 4 256 128) (l : Fin 4)
    (hs : (⟨3, ![4, 256, 128]⟩ : Shape).Slices ![l.val, 128, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, 128, 0] W hs) hc
      = MeshGnn.slab W l 128 128 (by decide) :=
  slab_of_slice W l l.val 128 rfl _ hs hc

theorem row2 (W : A2 4 128) (l : Fin 4)
    (hs : (⟨2, ![4, 128]⟩ : Shape).Slices ![l.val, 0] ⟨2, ![1, 128]⟩)
    (hc : (⟨2, ![1, 128]⟩ : Shape).ShapeCasts ⟨1, ![128]⟩) :
    shapeCast ⟨1, ![128]⟩ (extractStridedSlice ⟨2, ![1, 128]⟩ ![l.val, 0] W hs) hc = MeshGnn.rowOf W l :=
  row_of_slice W l l.val rfl hs hc

end MeshGnn.Slices

end
-- ==== Proof.WalkWts0.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.KSlices
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The layer's weights and biases as the run holds them: bands and rows of the stacked parameter arrays. -/
theorem at3_w1a (c : Dev nD) :
    W3 m ρ c (Proc.devRef .tc main_call0_v13) = MeshGnn.slab (A5 m c) 0 0 128 (by decide) := by
  show StableHlo.after hostOps1 (W2 m ρ c) (Proc.devRef .tc main_call0_v13) = _
  after_results_simp
  simp only [TRef.toBuf, TRef.ofBuf, cast_eq, at2 m ρ c main_arg5 (by decide)]
  exact MeshGnn.Slices.slab3_132_top (A5 m c) 0 _ _

theorem at3_w1b (c : Dev nD) :
    W3 m ρ c (Proc.devRef .tc main_call0_v15) = MeshGnn.slab (A5 m c) 0 128 4 (by decide) := by
  show StableHlo.after hostOps1 (W2 m ρ c) (Proc.devRef .tc main_call0_v15) = _
  after_results_simp
  simp only [TRef.toBuf, TRef.ofBuf, cast_eq, at2 m ρ c main_arg5 (by decide)]
  exact MeshGnn.Slices.slab3_132_bot (A5 m c) 0 _ _

theorem at3_b1 (c : Dev nD) :
    W3 m ρ c (Proc.devRef .tc main_call0_v17) = MeshGnn.rowOf (A6 m c) 0 := by
  show StableHlo.after hostOps1 (W2 m ρ c) (Proc.devRef .tc main_call0_v17) = _
  after_results_simp
  simp only [TRef.toBuf, TRef.ofBuf, cast_eq, at2 m ρ c main_arg6 (by decide)]
  exact MeshGnn.Slices.row2 (A6 m c) 0 _ _

theorem at3_w2 (c : Dev nD) :
    W3 m ρ c (Proc.devRef .tc main_call0_v19) = MeshGnn.slab (A7 m c) 0 0 128 (by decide) := by
  show StableHlo.after hostOps1 (W2 m ρ c) (Proc.devRef .tc main_call0_v19) = _
  after_results_simp
  simp only [TRef.toBuf, TRef.ofBuf, cast_eq, at2 m ρ c main_arg7 (by decide)]
  exact MeshGnn.Slices.slab3_128 (A7 m c) 0 _ _

theorem at3_b2 (c : Dev nD) :
    W3 m ρ c (Proc.devRef .tc main_call0_v21) = MeshGnn.rowOf (A8 m c) 0 := by
  show StableHlo.after hostOps1 (W2 m ρ c) (Proc.devRef .tc main_call0_v21) = _
  after_results_simp
  simp only [TRef.toBuf, TRef.ofBuf, cast_eq, at2 m ρ c main_arg8 (by decide)]
  exact MeshGnn.Slices.row2 (A8 m c) 0 _ _

theorem at5_wu1h (c : Dev nD) :
    W5 m ρ c (Proc.devRef .tc main_call0_v30) = MeshGnn.slab (A9 m c) 0 0 128 (by decide) := by
  show StableHlo.after hostOps2 (W4 m ρ c) (Proc.devRef .tc main_call0_v30) = _
  after_results_simp
  simp only [TRef.toBuf, TRef.ofBuf, cast_eq, at4 m ρ c main_arg9 (by decide)]
  exact MeshGnn.Slices.slab3_256_top (A9 m c) 0 _ _

theorem at5_wu1a (c : Dev nD) :
    W5 m ρ c (Proc.devRef .tc main_call0_v32) = MeshGnn.slab (A9 m c) 0 128 128 (by decide) := by
  show StableHlo.after hostOps2 (W4 m ρ c) (Proc.devRef .tc main_call0_v32) = _
  after_results_simp
  simp only [TRef.toBuf, TRef.ofBuf, cast_eq, at4 m ρ c main_arg9 (by decide)]
  exact MeshGnn.Slices.slab3_256_bot (A9 m c) 0 _ _

theorem at5_bu1 (c : Dev nD) :
    W5 m ρ c (Proc.devRef .tc main_call0_v34) = MeshGnn.rowOf (A10 m c) 0 := by
  show StableHlo.after hostOps2 (W4 m ρ c) (Proc.devRef .tc main_call0_v34) = _
  after_results_simp
  simp only [TRef.toBuf, TRef.ofBuf, cast_eq, at4 m ρ c main_arg10 (by decide)]
  exact MeshGnn.Slices.row2 (A10 m c) 0 _ _

theorem at5_wu2 (c : Dev nD) :
    W5 m ρ c (Proc.devRef .tc main_call0_v36) = MeshGnn.slab (A11 m c) 0 0 128 (by decide) := by
  show StableHlo.after hostOps2 (W4 m ρ c) (Proc.devRef .tc main_call0_v36) = _
  after_results_simp
  simp only [TRef.toBuf, TRef.ofBuf, cast_eq, at4 m ρ c main_arg11 (by decide)]
  exact MeshGnn.Slices.slab3_128 (A11 m c) 0 _ _

theorem at5_bu2 (c : Dev nD) :
    W5 m ρ c (Proc.devRef .tc main_call0_v38) = MeshGnn.rowOf (A12 m c) 0 := by
  show StableHlo.after hostOps2 (W4 m ρ c) (Proc.devRef .tc main_call0_v38) = _
  after_results_simp
  simp only [TRef.toBuf, TRef.ofBuf, cast_eq, at4 m ρ c main_arg12 (by decide)]
  exact MeshGnn.Slices.row2 (A12 m c) 0 _ _

end Cert.KernelIdeal.Hand.Walk

end
-- ==== Proof.TakeFill.lean ====
import Idealize.ShloMosaic.Lib.ReduceAll
import Idealize.ShloMosaic.Lib.ValueIdx

noncomputable section

namespace MeshGnn.Take

open Idealize.ShloMosaic Idealize.ShloMosaic.ValueIdx

abbrev Sc : Shape := ⟨0, ![]⟩
abbrev SE : Shape := ⟨1, ![600000]⟩
abbrev SE1 : Shape := ⟨2, ![600000, 1]⟩
abbrev S1 : Shape := ⟨1, ![1]⟩
abbrev S11 : Shape := ⟨2, ![1, 1]⟩
abbrev SEF : Shape := ⟨2, ![600000, 128]⟩
abbrev SNF : Shape := ⟨2, ![50000, 128]⟩

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

theorem wrap_word (s : BitVec 32) (h0 : 0 ≤ s.toInt) :
    Scalar.select (IntOp.cmpi .slt s 0#32) (IntOp.addi s 50000#32) s = s := by
  have hn : ¬ IntOp.cmpi .slt s 0#32 = 1#1 := by
    rw [IntOp.cmpi_slt]
    have hz : (0#32 : BitVec 32).toInt = 0 := by decide
    omega
  exact if_neg hn

theorem inrange_word (s : BitVec 32) (h0 : 0 ≤ s.toInt) (h1 : s.toInt < 50000) :
    IntOp.andi (IntOp.cmpi .sge s 0#32) (IntOp.cmpi .sle s 49999#32) = 1#1 := by
  have hz : (0#32 : BitVec 32).toInt = 0 := by decide
  have hn : (49999#32 : BitVec 32).toInt = 49999 := by decide
  refine IntOp.andi_eq_one.2 ⟨IntOp.cmpi_sge.2 ?_, IntOp.cmpi_sle.2 ?_⟩ <;> omega

section
variable (src : IVec SE 32)
  (hb : Sc.BroadcastsInDim SE (![] : Fin 0 → Fin SE.rank))
  (hb0 : SE.BroadcastsInDim SE1 (![0] : Fin 1 → Fin SE1.rank))
  (hbz : Sc.BroadcastsInDim SE1 (![] : Fin 0 → Fin SE1.rank))
  (hb1 : S1.BroadcastsInDim S11 (![1] : Fin 1 → Fin S11.rank))
  (hb11 : S11.BroadcastsInDim SE1 (![0, 1] : Fin 2 → Fin SE1.rank))
  (hr : SE1.ReducesTo [1] SE) (h_ : 0 < Sc.numel)
  (hbm : SE.BroadcastsInDim SEF (![0] : Fin 1 → Fin SEF.rank))
  (hbn : Sc.BroadcastsInDim SEF (![] : Fin 0 → Fin SEF.rank))
  (hsrc : ∀ e : Fin 600000, 0 ≤ (src (ix1 e)).toInt ∧ (src (ix1 e)).toInt < 50000)
include hsrc

theorem wrap_eq :
    select (cmpi .slt src (broadcastInDim SE ![] hb (constantI Sc 32 0#32)))
      (addi src (broadcastInDim SE ![] hb (constantI Sc 32 50000#32))) src = src := by
  funext j
  obtain ⟨e, rfl⟩ : ∃ e : Fin 600000, j = ix1 e := ⟨j 0, eq_ix1 j⟩
  exact wrap_word _ (hsrc e).1

theorem idx_eq :
    broadcastInDim SE1 ![0] hb0 (select (cmpi .slt src (broadcastInDim SE ![] hb (constantI Sc 32 0#32)))
      (addi src (broadcastInDim SE ![] hb (constantI Sc 32 50000#32))) src)
    = broadcastInDim SE1 ![0] hb0 src := by
  rw [wrap_eq src hb hsrc]

theorem idx_apply (i : SE1.Idx) :
    broadcastInDim SE1 ![0] hb0 (select (cmpi .slt src (broadcastInDim SE ![] hb (constantI Sc 32 0#32)))
      (addi src (broadcastInDim SE ![] hb (constantI Sc 32 50000#32))) src) i = src (ix1 (i 0)) := by
  rw [idx_eq src hb hb0 hsrc]
  unfold broadcastInDim
  refine congrArg src (funext fun a => ?_)
  have ha : a = 0 := Subsingleton.elim _ _
  subst ha
  apply Fin.ext
  split
  · next h1 => exact absurd h1 (by decide)
  · rfl

theorem mask_all_ones :
    broadcastInDim SEF ![0] hbm
      (Host.reduce IntOp.andi
        (andi
          (cmpi .sge
            (broadcastInDim SE1 ![0] hb0 (select (cmpi .slt src (broadcastInDim SE ![] hb (constantI Sc 32 0#32)))
              (addi src (broadcastInDim SE ![] hb (constantI Sc 32 50000#32))) src))
            (broadcastInDim SE1 ![] hbz (constantI Sc 32 0#32)))
          (cmpi .sle
            (broadcastInDim SE1 ![0] hb0 (select (cmpi .slt src (broadcastInDim SE ![] hb (constantI Sc 32 0#32)))
              (addi src (broadcastInDim SE ![] hb (constantI Sc 32 50000#32))) src))
            (broadcastInDim SE1 ![0, 1] hb11 (broadcastInDim S11 ![1] hb1 (constantI S1 32 49999#32)))))
        (constantI Sc 1 1#1) hr h_)
    = fun _ => 1#1 := by
  funext j
  unfold broadcastInDim
  refine reduce_andi_ones _ _ hr h_ (fun i => ?_) (fun _ => rfl) _
  have hi := idx_apply src hb hb0 hsrc i
  have hw := inrange_word _ (hsrc (i 0)).1 (hsrc (i 0)).2
  rw [← hi] at hw
  exact hw

theorem take_fill (g : GatherDims SNF SE1 SEF) (h : SNF.Idx → EReal) :
    select
      (broadcastInDim SEF ![0] hbm
        (Host.reduce IntOp.andi
          (andi
            (cmpi .sge
              (broadcastInDim SE1 ![0] hb0 (select (cmpi .slt src (broadcastInDim SE ![] hb (constantI Sc 32 0#32)))
                (addi src (broadcastInDim SE ![] hb (constantI Sc 32 50000#32))) src))
              (broadcastInDim SE1 ![] hbz (constantI Sc 32 0#32)))
            (cmpi .sle
              (broadcastInDim SE1 ![0] hb0 (select (cmpi .slt src (broadcastInDim SE ![] hb (constantI Sc 32 0#32)))
                (addi src (broadcastInDim SE ![] hb (constantI Sc 32 50000#32))) src))
              (broadcastInDim SE1 ![0, 1] hb11 (broadcastInDim S11 ![1] hb1 (constantI S1 32 49999#32)))))
          (constantI Sc 1 1#1) hr h_))
      (Host.gather g h
        (broadcastInDim SE1 ![0] hb0 (select (cmpi .slt src (broadcastInDim SE ![] hb (constantI Sc 32 0#32)))
          (addi src (broadcastInDim SE ![] hb (constantI Sc 32 50000#32))) src)))
      (broadcastInDim SEF ![] hbn (constant (F := Ideal) Sc .f32 0x7FC00000#32))
    = Host.gather g h
        (broadcastInDim SE1 ![0] hb0 (select (cmpi .slt src (broadcastInDim SE ![] hb (constantI Sc 32 0#32)))
          (addi src (broadcastInDim SE ![] hb (constantI Sc 32 50000#32))) src)) := by
  rw [mask_all_ones src hb hb0 hbz hb1 hb11 hr h_ hbm hsrc]
  funext j
  rw [select_apply, select_one]

/-- With every index in `0 … 49999` the wrap of negative indices is the identity and the range mask is all ones, so the masked gather is the plain gather. -/
theorem take_fill_src (g : GatherDims SNF SE1 SEF) (h : SNF.Idx → EReal) :
    select
      (broadcastInDim SEF ![0] hbm
        (Host.reduce IntOp.andi
          (andi
            (cmpi .sge
              (broadcastInDim SE1 ![0] hb0 (select (cmpi .slt src (broadcastInDim SE ![] hb (constantI Sc 32 0#32)))
                (addi src (broadcastInDim SE ![] hb (constantI Sc 32 50000#32))) src))
              (broadcastInDim SE1 ![] hbz (constantI Sc 32 0#32)))
            (cmpi .sle
              (broadcastInDim SE1 ![0] hb0 (select (cmpi .slt src (broadcastInDim SE ![] hb (constantI Sc 32 0#32)))
                (addi src (broadcastInDim SE ![] hb (constantI Sc 32 50000#32))) src))
              (broadcastInDim SE1 ![0, 1] hb11 (broadcastInDim S11 ![1] hb1 (constantI S1 32 49999#32)))))
          (constantI Sc 1 1#1) hr h_))
      (Host.gather g h
        (broadcastInDim SE1 ![0] hb0 (select (cmpi .slt src (broadcastInDim SE ![] hb (constantI Sc 32 0#32)))
          (addi src (broadcastInDim SE ![] hb (constantI Sc 32 50000#32))) src)))
      (broadcastInDim SEF ![] hbn (constant (F := Ideal) Sc .f32 0x7FC00000#32))
    = Host.gather g h (broadcastInDim SE1 ![0] hb0 src) := by
  rw [take_fill src hb hb0 hbz hb1 hb11 hr h_ hbm hbn hsrc g h, idx_eq src hb hb0 hsrc]

end

end MeshGnn.Take

end
-- ==== Proof.WalkTake0.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.TakeFill
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- With every source index a node index, the gathered rows are the node features' rows at the edges' sources. -/
theorem at3_hsrc (hok : SrcOk m) (c : Dev nD) : W3 m ρ c (Proc.devRef .tc main_call0_v22)
    = Host.gather gather_S50000x128_S600000x1_S600000x128_1_0_n_n_0_1_1128 (W2 m ρ c (Proc.devRef .tc main_call0_v4))
        (broadcastInDim S600000x1 ![0] bcast_S600000_S600000x1_0 (Src m c)) := by
  show StableHlo.after hostOps1 (W2 m ρ c) (Proc.devRef .tc main_call0_v22) = _
  after_results_simp
  simp only [TRef.toBuf, TRef.ofBuf, cast_eq, (from1_2 m ρ c main_call0_v1 (by decide)).trans (at1_src m ρ c)]
  exact MeshGnn.Take.take_fill_src (Src m c) bcast_S_S600000 bcast_S600000_S600000x1_0 bcast_S_S600000x1 bcast_S1_S1x1_1
    bcast_S1x1_S600000x1_0_1 reducesTo_S600000x1_S600000_d1 h_S_ bcast_S600000_S600000x128_0 bcast_S_S600000x128 (hok c)
    gather_S50000x128_S600000x1_S600000x128_1_0_n_n_0_1_1128 (W2 m ρ c (Proc.devRef .tc main_call0_v4))

end Cert.KernelIdeal.Hand.Walk

end
-- ==== Proof.WalkCnt.lean ====
import proofs.«406442_j73220602462590_1_alg».proof.Proof.Gen.KernelIdeal.Frame
import proofs.«406442_j73220602462590_1_alg».proof.Proof.WalkKeep
import proofs.«406442_j73220602462590_1_alg».proof.Proof.WalkDefs
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- Per node the number of edges into it, at least one. -/
theorem at3_cnt (c : Dev nD) : W3 m ρ c (Proc.devRef .tc main_call0_v11) = Cnt m c := by
  show StableHlo.after hostOps1 (W2 m ρ c) (Proc.devRef .tc main_call0_v11) = _
  after_results_simp
  simp only [TRef.toBuf, TRef.ofBuf, cast_eq, (from1_2 m ρ c main_call0_v3 (by decide)).trans (at1_dst m ρ c)]

end Cert.KernelIdeal.Hand.Walk

end
-- ==== Proof.WalkAgg0.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.WalkCnt
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The mean of the messages over the edges into each node. -/
theorem at5_agg (c : Dev nD) : W5 m ρ c (Proc.devRef .tc main_call0_v28) = Host.divf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (Dst m c)) (W4 m ρ c (Proc.devRef .tc main_call0_v23))) (broadcastInDim S50000x128 ![0, 1] bcast_S50000x1_S50000x128_0_1 (Cnt m c)) := by
  show StableHlo.after hostOps2 (W4 m ρ c) (Proc.devRef .tc main_call0_v28) = _
  after_results_simp
  simp only [TRef.toBuf, TRef.ofBuf, cast_eq, (from1_4 m ρ c main_call0_v3 (by decide)).trans (at1_dst m ρ c), (from3_4 m ρ c main_call0_v11 (by decide)).trans (at3_cnt m ρ c)]

end Cert.KernelIdeal.Hand.Walk

end
-- ==== Proof.WalkBridge.lean ====
import proofs.«406442_j73220602462590_1_alg».proof.Proof.WalkDefs
import proofs.«406442_j73220602462590_1_alg».proof.Proof.RefRead
import proofs.«406442_j73220602462590_1_alg».proof.Proof.TakeFill

set_option maxRecDepth 16384

noncomputable section

namespace Cert.KernelIdeal.Hand.Walk

open Cert.KernelIdeal Cert.KernelIdeal.Gen
open Idealize.ShloMosaic Idealize.ShloMosaic.TcCoe Idealize.SL.Sem Idealize.ShloMosaic.ValueIdx
open Cert.ReferenceIdeal.Read

section Trees
variable {F : FTy → Type} [FloatOps F]

theorem src_tree (x1 : S2x600000.Idx → BitVec 32) :
    shapeCast S600000 (extractStridedSlice S1x600000 ![0, 0] x1 slices_S2x600000_S1x600000_0_0) shapeCasts_S1x600000_S600000
      = val_main_v1 (F := F) x1 := by
  unfold val_main_v1 val_main_v0
  rfl

theorem dst_tree (x1 : S2x600000.Idx → BitVec 32) :
    shapeCast S600000 (extractStridedSlice S1x600000 ![1, 0] x1 slices_S2x600000_S1x600000_1_0) shapeCasts_S1x600000_S600000
      = val_main_v3 (F := F) x1 := by
  unfold val_main_v3 val_main_v2
  rfl

theorem cnt_tree (x1 : S2x600000.Idx → BitVec 32) :
    broadcastInDim S50000x1 ![0] bcast_S50000_S50000x1_0
      (maximumf
        (Host.scatterAdd scatter_S50000_S600000x1_S600000_n_0_0_1
          (broadcastInDim S50000 ![] bcast_S_S50000 (constant (F := F) S_ .f32 0x00000000#32))
          (broadcastInDim S600000x1 ![0] bcast_S600000_S600000x1_0 (val_main_v3 (F := F) x1))
          (broadcastInDim S600000 ![] bcast_S_S600000 (constant (F := F) S_ .f32 0x3F800000#32)))
        (broadcastInDim S50000 ![] bcast_S_S50000 (constant (F := F) S_ .f32 0x3F800000#32)))
      = val_main_v15 (F := F) x1 := by
  unfold val_main_v15 val_main_v14 val_main_v13 val_main_v12 val_main_v11 val_main_v10 val_main_v9 val_main_cst val_main_cst_0 val_main_cst_1
  rfl

theorem idx_tree (x1 : S2x600000.Idx → BitVec 32) (hsrc : ∀ e : Fin 600000, 0 ≤ ((val_main_v1 (F := F) x1) (ix1 e)).toInt ∧ ((val_main_v1 (F := F) x1) (ix1 e)).toInt < 50000) :
    broadcastInDim S600000x1 ![0] bcast_S600000_S600000x1_0 (val_main_v1 (F := F) x1) = val_main_v21 (F := F) x1 := by
  unfold val_main_v21 val_main_v20 val_main_v19 val_main_v18 val_main_v17 val_main_v16 val_main_c val_main_c_2
  rw [MeshGnn.Take.wrap_eq (val_main_v1 (F := F) x1) _ hsrc]

/-- Both programs gather the rows at the same index column once the wrap of negative indices is seen to be the identity. -/
theorem gather_tree (x1 : S2x600000.Idx → BitVec 32) (hsrc : ∀ e : Fin 600000, 0 ≤ ((val_main_v1 (F := F) x1) (ix1 e)).toInt ∧ ((val_main_v1 (F := F) x1) (ix1 e)).toInt < 50000) (h : S50000x128.Idx → F .f32) :
    Host.gather gather_S50000x128_S600000x1_S600000x128_1_0_n_n_0_1_1128 h (broadcastInDim S600000x1 ![0] bcast_S600000_S600000x1_0 (val_main_v1 (F := F) x1))
      = Host.gather Cert.ReferenceIdeal.gather_S50000x128_S600000x1_S600000x128_1_0_n_n_0_1_1128 h (val_main_v21 (F := F) x1) := by
  rw [idx_tree x1 hsrc]
  rfl

/-- Both programs average the messages with the same scatter-add and the same counts. -/
theorem agg_tree (x1 : S2x600000.Idx → BitVec 32) (u : S600000x128.Idx → F .f32) :
    Host.divf (Host.scatterAdd scatter_S50000x128_S600000x1_S600000x128_1_0_0_1
        (broadcastInDim S50000x128 ![] bcast_S_S50000x128 (constant (F := F) S_ .f32 0x00000000#32))
        (broadcastInDim S600000x1 ![0] bcast_S600000_S600000x1_0 (val_main_v3 (F := F) x1)) u)
      (broadcastInDim S50000x128 ![0, 1] bcast_S50000x1_S50000x128_0_1 (val_main_v15 (F := F) x1))
      = Host.divf (Host.scatterAdd Cert.ReferenceIdeal.scatter_S50000x128_S600000x1_S600000x128_1_0_0_1 (val_main_v42 (F := F)) (val_main_v43 (F := F) x1) u) (val_main_v45 (F := F) x1) := by
  unfold val_main_v45 val_main_v43 val_main_v42 val_main_cst_3
  rfl

end Trees

variable (m : (ℓ : Loc nD τ sig) → Buf (Elt Ideal) ℓ)

theorem src_eq (c : Dev nD) : Src m c = val_main_v1 (F := Ideal) (A1 m c) := src_tree (F := Ideal) (A1 m c)

theorem dst_eq (c : Dev nD) : Dst m c = val_main_v3 (F := Ideal) (A1 m c) := dst_tree (F := Ideal) (A1 m c)

theorem cnt_eq (c : Dev nD) : Cnt m c = val_main_v15 (F := Ideal) (A1 m c) := by
  have h := cnt_tree (F := Ideal) (A1 m c)
  rw [← dst_eq m c] at h
  exact h

theorem gather_eq0 (hok : SrcOk m) (c : Dev nD) :
    Host.gather gather_S50000x128_S600000x1_S600000x128_1_0_n_n_0_1_1128 (val_main_v8 (F := Ideal) (A0 m c) (A3 m c) (A4 m c)) (broadcastInDim S600000x1 ![0] bcast_S600000_S600000x1_0 (Src m c))
      = val_main_v22 (F := Ideal) (A0 m c) (A1 m c) (A3 m c) (A4 m c) := by
  have hsrc : ∀ e : Fin 600000, 0 ≤ ((val_main_v1 (F := Ideal) (A1 m c)) (ix1 e)).toInt ∧ ((val_main_v1 (F := Ideal) (A1 m c)) (ix1 e)).toInt < 50000 := by
    rw [← src_eq m c]; exact hok c
  rw [src_eq m c, gather_tree (F := Ideal) (A1 m c) hsrc]
  unfold val_main_v22
  rfl

theorem agg_eq0 (c : Dev nD) :
    Host.divf (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (Dst m c)) (val_main_v41 (F := Ideal) (A0 m c) (A1 m c) (A2 m c) (A3 m c) (A4 m c) (A5 m c) (A6 m c) (A7 m c) (A8 m c)))
      (broadcastInDim S50000x128 ![0, 1] bcast_S50000x1_S50000x128_0_1 (Cnt m c))
      = val_main_v46 (F := Ideal) (A0 m c) (A1 m c) (A2 m c) (A3 m c) (A4 m c) (A5 m c) (A6 m c) (A7 m c) (A8 m c) := by
  rw [dst_eq m c, cnt_eq m c, agg_tree (F := Ideal) (A1 m c)]
  unfold val_main_v46 val_main_v44
  rfl

theorem gather_eq1 (hok : SrcOk m) (c : Dev nD) :
    Host.gather gather_S50000x128_S600000x1_S600000x128_1_0_n_n_0_1_1128 (val_main_v66 (F := Ideal) (A0 m c) (A1 m c) (A2 m c) (A3 m c) (A4 m c) (A5 m c) (A6 m c) (A7 m c) (A8 m c) (A9 m c) (A10 m c) (A11 m c) (A12 m c)) (broadcastInDim S600000x1 ![0] bcast_S600000_S600000x1_0 (Src m c))
      = val_main_v73 (F := Ideal) (A0 m c) (A1 m c) (A2 m c) (A3 m c) (A4 m c) (A5 m c) (A6 m c) (A7 m c) (A8 m c) (A9 m c) (A10 m c) (A11 m c) (A12 m c) := by
  have hsrc : ∀ e : Fin 600000, 0 ≤ ((val_main_v1 (F := Ideal) (A1 m c)) (ix1 e)).toInt ∧ ((val_main_v1 (F := Ideal) (A1 m c)) (ix1 e)).toInt < 50000 := by
    rw [← src_eq m c]; exact hok c
  rw [src_eq m c, gather_tree (F := Ideal) (A1 m c) hsrc]
  unfold val_main_v73
  rfl

theorem agg_eq1 (c : Dev nD) :
    Host.divf (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (Dst m c)) (val_main_v92 (F := Ideal) (A0 m c) (A1 m c) (A2 m c) (A3 m c) (A4 m c) (A5 m c) (A6 m c) (A7 m c) (A8 m c) (A9 m c) (A10 m c) (A11 m c) (A12 m c)))
      (broadcastInDim S50000x128 ![0, 1] bcast_S50000x1_S50000x128_0_1 (Cnt m c))
      = val_main_v97 (F := Ideal) (A0 m c) (A1 m c) (A2 m c) (A3 m c) (A4 m c) (A5 m c) (A6 m c) (A7 m c) (A8 m c) (A9 m c) (A10 m c) (A11 m c) (A12 m c) := by
  rw [dst_eq m c, cnt_eq m c, agg_tree (F := Ideal) (A1 m c)]
  unfold val_main_v97 val_main_v95
  rfl

theorem gather_eq2 (hok : SrcOk m) (c : Dev nD) :
    Host.gather gather_S50000x128_S600000x1_S600000x128_1_0_n_n_0_1_1128 (val_main_v117 (F := Ideal) (A0 m c) (A1 m c) (A2 m c) (A3 m c) (A4 m c) (A5 m c) (A6 m c) (A7 m c) (A8 m c) (A9 m c) (A10 m c) (A11 m c) (A12 m c)) (broadcastInDim S600000x1 ![0] bcast_S600000_S600000x1_0 (Src m c))
      = val_main_v124 (F := Ideal) (A0 m c) (A1 m c) (A2 m c) (A3 m c) (A4 m c) (A5 m c) (A6 m c) (A7 m c) (A8 m c) (A9 m c) (A10 m c) (A11 m c) (A12 m c) := by
  have hsrc : ∀ e : Fin 600000, 0 ≤ ((val_main_v1 (F := Ideal) (A1 m c)) (ix1 e)).toInt ∧ ((val_main_v1 (F := Ideal) (A1 m c)) (ix1 e)).toInt < 50000 := by
    rw [← src_eq m c]; exact hok c
  rw [src_eq m c, gather_tree (F := Ideal) (A1 m c) hsrc]
  unfold val_main_v124
  rfl

theorem agg_eq2 (c : Dev nD) :
    Host.divf (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (Dst m c)) (val_main_v143 (F := Ideal) (A0 m c) (A1 m c) (A2 m c) (A3 m c) (A4 m c) (A5 m c) (A6 m c) (A7 m c) (A8 m c) (A9 m c) (A10 m c) (A11 m c) (A12 m c)))
      (broadcastInDim S50000x128 ![0, 1] bcast_S50000x1_S50000x128_0_1 (Cnt m c))
      = val_main_v148 (F := Ideal) (A0 m c) (A1 m c) (A2 m c) (A3 m c) (A4 m c) (A5 m c) (A6 m c) (A7 m c) (A8 m c) (A9 m c) (A10 m c) (A11 m c) (A12 m c) := by
  rw [dst_eq m c, cnt_eq m c, agg_tree (F := Ideal) (A1 m c)]
  unfold val_main_v148 val_main_v146
  rfl

theorem gather_eq3 (hok : SrcOk m) (c : Dev nD) :
    Host.gather gather_S50000x128_S600000x1_S600000x128_1_0_n_n_0_1_1128 (val_main_v168 (F := Ideal) (A0 m c) (A1 m c) (A2 m c) (A3 m c) (A4 m c) (A5 m c) (A6 m c) (A7 m c) (A8 m c) (A9 m c) (A10 m c) (A11 m c) (A12 m c)) (broadcastInDim S600000x1 ![0] bcast_S600000_S600000x1_0 (Src m c))
      = val_main_v175 (F := Ideal) (A0 m c) (A1 m c) (A2 m c) (A3 m c) (A4 m c) (A5 m c) (A6 m c) (A7 m c) (A8 m c) (A9 m c) (A10 m c) (A11 m c) (A12 m c) := by
  have hsrc : ∀ e : Fin 600000, 0 ≤ ((val_main_v1 (F := Ideal) (A1 m c)) (ix1 e)).toInt ∧ ((val_main_v1 (F := Ideal) (A1 m c)) (ix1 e)).toInt < 50000 := by
    rw [← src_eq m c]; exact hok c
  rw [src_eq m c, gather_tree (F := Ideal) (A1 m c) hsrc]
  unfold val_main_v175
  rfl

theorem agg_eq3 (c : Dev nD) :
    Host.divf (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (Dst m c)) (val_main_v194 (F := Ideal) (A0 m c) (A1 m c) (A2 m c) (A3 m c) (A4 m c) (A5 m c) (A6 m c) (A7 m c) (A8 m c) (A9 m c) (A10 m c) (A11 m c) (A12 m c)))
      (broadcastInDim S50000x128 ![0, 1] bcast_S50000x1_S50000x128_0_1 (Cnt m c))
      = val_main_v199 (F := Ideal) (A0 m c) (A1 m c) (A2 m c) (A3 m c) (A4 m c) (A5 m c) (A6 m c) (A7 m c) (A8 m c) (A9 m c) (A10 m c) (A11 m c) (A12 m c) := by
  rw [dst_eq m c, cnt_eq m c, agg_tree (F := Ideal) (A1 m c)]
  unfold val_main_v199 val_main_v197
  rfl

end Cert.KernelIdeal.Hand.Walk

end
-- ==== Proof.PayMsg.lean ====
import proofs.«406442_j73220602462590_1_alg».proof.Proof.Gen.KernelIdeal.Skeleton
import proofs.«406442_j73220602462590_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Msg

open Cert.KernelIdeal Cert.KernelIdeal.Gen Idealize.ShloMosaic Idealize.ShloMosaic.ValueIdx Idealize.SL.Sem
open scoped BigOperators

theorem lhs_mm128_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_mm128_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_mm128_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_mm128_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

theorem mm128_apply {φ₁ φ₂ : FTy} (x : FVec Ideal S6000x128 φ₁) (w : FVec Ideal S128x128 φ₂) (p : Fin 6000) (c : Fin 128) :
    FloatOps.matmul dot_S6000x128_S128x128_S6000x128_1_0_0_1_n_n none x w (constant S6000x128 .f32 0x00000000#32) (ix2 p c)
      = ∑ k : Fin 128, x (ix2 p k) * w (ix2 k c) := by
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 p c) ((ValueIdx.contrEquiv1 dot_S6000x128_S128x128_S6000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S6000x128_S128x128_S6000x128_1_0_0_1_n_n.rhsIdx (ix2 p c) ((ValueIdx.contrEquiv1 dot_S6000x128_S128x128_S6000x128_1_0_0_1_n_n 128 rfl rfl).symm k) = ix2 k c := funext fun a => Fin.ext (by
    match a with
    | ⟨0, _⟩ => exact (rhs_mm128_0 _ _).trans hk
    | ⟨1, _⟩ => exact rhs_mm128_1 _ _)
  rw [el, er]

theorem lhs_mm4_0 (i : S6000x128.Idx) (q : dot_S6000x4_S4x128_S6000x128_1_0_0_1_n_n.contr.Idx) :
    (dot_S6000x4_S4x128_S6000x128_1_0_0_1_n_n.lhsIdx i q 0).val = (i 0).val := by
  unfold DotDims.lhsIdx
  rw [dif_neg (show ¬(0 : Fin S6000x4.rank) ∈ dot_S6000x4_S4x128_S6000x128_1_0_0_1_n_n.lhsBatch by decide), dif_pos (show (0 : Fin S6000x4.rank) ∈ dot_S6000x4_S4x128_S6000x128_1_0_0_1_n_n.lhsNonContracting by decide)]
  rfl
theorem lhs_mm4_1 (i : S6000x128.Idx) (q : dot_S6000x4_S4x128_S6000x128_1_0_0_1_n_n.contr.Idx) :
    (dot_S6000x4_S4x128_S6000x128_1_0_0_1_n_n.lhsIdx i q 1).val = (q ⟨0, by decide⟩).val :=
  dot_S6000x4_S4x128_S6000x128_1_0_0_1_n_n.lhsIdx_val_of_single rfl i q
theorem rhs_mm4_0 (i : S6000x128.Idx) (q : dot_S6000x4_S4x128_S6000x128_1_0_0_1_n_n.contr.Idx) :
    (dot_S6000x4_S4x128_S6000x128_1_0_0_1_n_n.rhsIdx i q 0).val = (q ⟨0, by decide⟩).val :=
  dot_S6000x4_S4x128_S6000x128_1_0_0_1_n_n.rhsIdx_val_of_single rfl i q
theorem rhs_mm4_1 (i : S6000x128.Idx) (q : dot_S6000x4_S4x128_S6000x128_1_0_0_1_n_n.contr.Idx) :
    (dot_S6000x4_S4x128_S6000x128_1_0_0_1_n_n.rhsIdx i q 1).val = (i 1).val := by
  unfold DotDims.rhsIdx
  rw [dif_neg (show ¬(1 : Fin S4x128.rank) ∈ dot_S6000x4_S4x128_S6000x128_1_0_0_1_n_n.rhsBatch by decide), dif_pos (show (1 : Fin S4x128.rank) ∈ dot_S6000x4_S4x128_S6000x128_1_0_0_1_n_n.rhsNonContracting by decide)]
  rfl

theorem mm4_apply {φ₁ φ₂ : FTy} (x : FVec Ideal S6000x4 φ₁) (w : FVec Ideal S4x128 φ₂) (p : Fin 6000) (c : Fin 128) :
    FloatOps.matmul dot_S6000x4_S4x128_S6000x128_1_0_0_1_n_n none x w (constant S6000x128 .f32 0x00000000#32) (ix2 p c)
      = ∑ k : Fin 4, x (ix2 p k) * w (ix2 k c) := by
  rw [Ideal.matmul_constant_zero_apply, ← Equiv.sum_comp (ValueIdx.contrEquiv1 dot_S6000x4_S4x128_S6000x128_1_0_0_1_n_n 4 rfl rfl).symm]
  refine Finset.sum_congr rfl fun k _ => ?_
  have hk := ValueIdx.contrEquiv1_symm_val dot_S6000x4_S4x128_S6000x128_1_0_0_1_n_n 4 rfl rfl k
  have el : dot_S6000x4_S4x128_S6000x128_1_0_0_1_n_n.lhsIdx (ix2 p c) ((ValueIdx.contrEquiv1 dot_S6000x4_S4x128_S6000x128_1_0_0_1_n_n 4 rfl rfl).symm k) = ix2 p k := funext fun a => Fin.ext (by
    match a with
    | ⟨0, _⟩ => exact lhs_mm4_0 _ _
    | ⟨1, _⟩ => exact (lhs_mm4_1 _ _).trans hk)
  have er : dot_S6000x4_S4x128_S6000x128_1_0_0_1_n_n.rhsIdx (ix2 p c) ((ValueIdx.contrEquiv1 dot_S6000x4_S4x128_S6000x128_1_0_0_1_n_n 4 rfl rfl).symm k) = ix2 k c := funext fun a => Fin.ext (by
    match a with
    | ⟨0, _⟩ => exact (rhs_mm4_0 _ _).trans hk
    | ⟨1, _⟩ => exact rhs_mm4_1 _ _)
  rw [el, er]

theorem bias_apply (b : FVec Ideal S128 .f32) (p : Fin 6000) (c : Fin 128) :
    broadcastTo S6000x128 (shapeCast S1x128 b shapeCasts_S128_S1x128) broadcasts_S1x128_S6000x128 (ix2 p c) = b (ix1 c) := by
  rw [broadcastTo_1b_ab_apply, shapeCast_a_1a_apply]

theorem layer2_eq (a : Vec Ideal S6000x128 .f32) (w : Vec Ideal S128x128 .f32) (e : Vec Ideal S6000x4 .f32) (w' : Vec Ideal S4x128 .f32)
    (b : Vec Ideal S128 .f32) :
    maximumf (addf (addf
        (matmul dot_S6000x128_S128x128_S6000x128_1_0_0_1_n_n none (truncf .bf16 a bitsLt_bf16_f32) (truncf .bf16 w bitsLt_bf16_f32) (constant S6000x128 .f32 0x00000000#32))
        (matmul dot_S6000x4_S4x128_S6000x128_1_0_0_1_n_n none (truncf .bf16 e bitsLt_bf16_f32) (truncf .bf16 w' bitsLt_bf16_f32) (constant S6000x128 .f32 0x00000000#32)))
        (broadcastTo S6000x128 (shapeCast S1x128 b shapeCasts_S128_S1x128) broadcasts_S1x128_S6000x128))
      (broadcast S6000x128 (Scalar.ofBits (F := Ideal) .f32 0x00000000#32))
      = MeshGnn.dense2 a w e w' b := by
  funext j
  obtain ⟨p, c, rfl⟩ : ∃ (p : Fin 6000) (c : Fin 128), j = ix2 p c := ⟨_, _, eq_ix2 j⟩
  rw [MeshGnn.dense2_apply, maximumf_apply, addf_apply, addf_apply, broadcast_apply, bias_apply]
  simp only [matmul]
  rw [mm128_apply, mm4_apply]
  simp only [truncf_apply]
  congr 1
  exact Ideal.ofBits_zero_f32

theorem layer1_eq (a : Vec Ideal S6000x128 .f32) (w : Vec Ideal S128x128 .f32) (b : Vec Ideal S128 .f32) :
    maximumf (addf
        (matmul dot_S6000x128_S128x128_S6000x128_1_0_0_1_n_n none (truncf .bf16 a bitsLt_bf16_f32) (truncf .bf16 w bitsLt_bf16_f32) (constant S6000x128 .f32 0x00000000#32))
        (broadcastTo S6000x128 (shapeCast S1x128 b shapeCasts_S128_S1x128) broadcasts_S1x128_S6000x128))
      (broadcast S6000x128 (Scalar.ofBits (F := Ideal) .f32 0x00000000#32))
      = MeshGnn.dense a w b := by
  funext j
  obtain ⟨p, c, rfl⟩ : ∃ (p : Fin 6000) (c : Fin 128), j = ix2 p c := ⟨_, _, eq_ix2 j⟩
  rw [MeshGnn.dense_apply, maximumf_apply, addf_apply, broadcast_apply, bias_apply]
  simp only [matmul]
  rw [mm128_apply]
  simp only [truncf_apply]
  congr 1
  exact Ideal.ofBits_zero_f32

/-- One block of rows through the two dense layers of the message network. -/
theorem pay1 (x0 : Vec Ideal S6000x128 .f32) (x1 : Vec Ideal S6000x4 .f32) (x2 : Vec Ideal S128x128 .f32) (x3 : Vec Ideal S4x128 .f32)
    (x4 : Vec Ideal S128 .f32) (x5 : Vec Ideal S128x128 .f32) (x6 : Vec Ideal S128 .f32) :
    Gen.k1_pay1 (F := Ideal) x0 x1 x2 x3 x4 x5 x6 = MeshGnn.dense (MeshGnn.dense2 x0 x2 x1 x3 x4) x5 x6 := by
  unfold Gen.k1_pay1
  simp only [shapeCast_self]
  rw [layer2_eq, layer1_eq]

theorem pay3 (x0 : Vec Ideal S6000x128 .f32) (x1 : Vec Ideal S6000x4 .f32) (x2 : Vec Ideal S128x128 .f32) (x3 : Vec Ideal S4x128 .f32)
    (x4 : Vec Ideal S128 .f32) (x5 : Vec Ideal S128x128 .f32) (x6 : Vec Ideal S128 .f32) :
    Gen.k3_pay1 (F := Ideal) x0 x1 x2 x3 x4 x5 x6 = MeshGnn.dense (MeshGnn.dense2 x0 x2 x1 x3 x4) x5 x6 :=
  pay1 x0 x1 x2 x3 x4 x5 x6

theorem pay5 (x0 : Vec Ideal S6000x128 .f32) (x1 : Vec Ideal S6000x4 .f32) (x2 : Vec Ideal S128x128 .f32) (x3 : Vec Ideal S4x128 .f32)
    (x4 : Vec Ideal S128 .f32) (x5 : Vec Ideal S128x128 .f32) (x6 : Vec Ideal S128 .f32) :
    Gen.k5_pay1 (F := Ideal) x0 x1 x2 x3 x4 x5 x6 = MeshGnn.dense (MeshGnn.dense2 x0 x2 x1 x3 x4) x5 x6 :=
  pay1 x0 x1 x2 x3 x4 x5 x6

theorem pay7 (x0 : Vec Ideal S6000x128 .f32) (x1 : Vec Ideal S6000x4 .f32) (x2 : Vec Ideal S128x128 .f32) (x3 : Vec Ideal S4x128 .f32)
    (x4 : Vec Ideal S128 .f32) (x5 : Vec Ideal S128x128 .f32) (x6 : Vec Ideal S128 .f32) :
    Gen.k7_pay1 (F := Ideal) x0 x1 x2 x3 x4 x5 x6 = MeshGnn.dense (MeshGnn.dense2 x0 x2 x1 x3 x4) x5 x6 :=
  pay1 x0 x1 x2 x3 x4 x5 x6

end Cert.KernelIdeal.Hand.Msg

end
-- ==== Proof.RegMsg1.lean ====
import proofs.«406442_j73220602462590_1_alg».proof.Proof.Gen.KernelIdeal.Frame
import proofs.«406442_j73220602462590_1_alg».proof.Proof.PayMsg
import Idealize.ShloMosaic.Lib.Pipeline.Value
import Idealize.ShloMosaic.Lib.ValueIdx

set_option maxRecDepth 16384

noncomputable section

namespace Cert.KernelIdeal.Hand.Msg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

abbrev G1 (c : Dev nD) : Vec Ideal S600000x128 .f32 :=
  MeshGnn.dense (MeshGnn.dense2 (V c main_call0_v22) (V c main_call0_v13) (V c main_arg2) (V c main_call0_v15) (V c main_call0_v17)) (V c main_call0_v19) (V c main_call0_v21)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

def rowAt1 (t : Fin cfg1.N) (r : Fin 6000) : Fin 600000 :=
  ⟨t.val * 6000 + r.val, by have h : t.val < 100 := t.isLt.trans_eq N_1; have := r.isLt; omega⟩

theorem blk1_0_apply (c : Dev nD) (t : Fin cfg1.N) (r : Fin 6000) (q : Fin 128) :
    (iblk1 V c 0 t : Vec Ideal S6000x128 .f32) (ix2 r q) = (V c main_call0_v22 : Vec Ideal S600000x128 .f32) (ix2 (rowAt1 t r) q) := by
  obtain ⟨e0, e1, -⟩ := idx_facts1 t
  unfold iblk1
  rw [View.read_apply]
  show V c main_call0_v22 _ = V c main_call0_v22 _
  congr 1
  funext a
  apply Fin.ext
  match a with
  | ⟨0, _⟩ => show win1_0.index t (0 : Fin 2) * 6000 + 1 * r.val = t.val * 6000 + r.val; rw [e0]; omega
  | ⟨1, _⟩ => show win1_0.index t (1 : Fin 2) * 128 + 1 * q.val = q.val; rw [e1]; omega

theorem blk1_1_apply (c : Dev nD) (t : Fin cfg1.N) (r : Fin 6000) (q : Fin 4) :
    (iblk1 V c 1 t : Vec Ideal S6000x4 .f32) (ix2 r q) = (V c main_arg2 : Vec Ideal S600000x4 .f32) (ix2 (rowAt1 t r) q) := by
  obtain ⟨-, -, e0, e1, -⟩ := idx_facts1 t
  unfold iblk1
  rw [View.read_apply]
  show V c main_arg2 _ = V c main_arg2 _
  congr 1
  funext a
  apply Fin.ext
  match a with
  | ⟨0, _⟩ => show win1_1.index t (0 : Fin 2) * 6000 + 1 * r.val = t.val * 6000 + r.val; rw [e0]; omega
  | ⟨1, _⟩ => show win1_1.index t (1 : Fin 2) * 4 + 1 * q.val = q.val; rw [e1]; omega

theorem blk1_2_eq (c : Dev nD) (t : Fin cfg1.N) :
    (iblk1 V c 2 t : Vec Ideal S128x128 .f32) = (V c main_call0_v13 : Vec Ideal S128x128 .f32) := by
  obtain ⟨-, -, -, -, e0, e1, -⟩ := idx_facts1 t
  funext j
  unfold iblk1
  rw [View.read_apply]
  show V c main_call0_v13 _ = V c main_call0_v13 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

theorem blk1_3_eq (c : Dev nD) (t : Fin cfg1.N) :
    (iblk1 V c 3 t : Vec Ideal S4x128 .f32) = (V c main_call0_v15 : Vec Ideal S4x128 .f32) := by
  obtain ⟨-, -, -, -, -, -, e0, e1, -⟩ := idx_facts1 t
  funext j
  unfold iblk1
  rw [View.read_apply]
  show V c main_call0_v15 _ = V c main_call0_v15 _
  congr 1
  funext a
  apply Fin.ext
  match a with
  | ⟨0, _⟩ => show win1_3.index t (0 : Fin 2) * 4 + 1 * (j 0).val = (j 0).val; rw [e0]; omega
  | ⟨1, _⟩ => show win1_3.index t (1 : Fin 2) * 128 + 1 * (j 1).val = (j 1).val; rw [e1]; omega

theorem blk1_4_eq (c : Dev nD) (t : Fin cfg1.N) :
    (iblk1 V c 4 t : Vec Ideal S128 .f32) = (V c main_call0_v17 : Vec Ideal S128 .f32) := by
  obtain ⟨-, -, -, -, -, -, -, -, e0, -⟩ := idx_facts1 t
  funext j
  unfold iblk1
  rw [View.read_apply]
  show V c main_call0_v17 _ = V c main_call0_v17 _
  congr 1
  funext a
  apply Fin.ext
  match a with
  | ⟨0, _⟩ => show win1_4.index t (0 : Fin 1) * 128 + 1 * (j 0).val = (j 0).val; rw [e0]; omega

theorem blk1_5_eq (c : Dev nD) (t : Fin cfg1.N) :
    (iblk1 V c 5 t : Vec Ideal S128x128 .f32) = (V c main_call0_v19 : Vec Ideal S128x128 .f32) := by
  obtain ⟨-, -, -, -, -, -, -, -, -, e0, e1, -⟩ := idx_facts1 t
  funext j
  unfold iblk1
  rw [View.read_apply]
  show V c main_call0_v19 _ = V c main_call0_v19 _
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

theorem blk1_6_eq (c : Dev nD) (t : Fin cfg1.N) :
    (iblk1 V c 6 t : Vec Ideal S128 .f32) = (V c main_call0_v21 : Vec Ideal S128 .f32) := by
  obtain ⟨-, -, -, -, -, -, -, -, -, -, -, e0, -⟩ := idx_facts1 t
  funext j
  unfold iblk1
  rw [View.read_apply]
  show V c main_call0_v21 _ = V c main_call0_v21 _
  congr 1
  funext a
  apply Fin.ext
  match a with
  | ⟨0, _⟩ => show win1_6.index t (0 : Fin 1) * 128 + 1 * (j 0).val = (j 0).val; rw [e0]; omega

theorem block_value1 (c : Dev nD) (t : Fin cfg1.N) (j : S6000x128.Idx) (i : S600000x128.Idx)
    (h0 : (i 0).val = t.val * 6000 + (j 0).val) (h1 : (i 1).val = (j 1).val) :
    MeshGnn.dense (MeshGnn.dense2 (iblk1 V c 0 t : Vec Ideal S6000x128 .f32) (iblk1 V c 2 t : Vec Ideal S128x128 .f32)
        (iblk1 V c 1 t : Vec Ideal S6000x4 .f32) (iblk1 V c 3 t : Vec Ideal S4x128 .f32) (iblk1 V c 4 t : Vec Ideal S128 .f32))
      (iblk1 V c 5 t : Vec Ideal S128x128 .f32) (iblk1 V c 6 t : Vec Ideal S128 .f32) j = G1 V c i := by
  obtain ⟨p, q, rfl⟩ : ∃ (p : Fin 6000) (q : Fin 128), j = ix2 p q := ⟨_, _, eq_ix2 j⟩
  have hi : i = ix2 (rowAt1 t p) q := funext fun a => Fin.ext (by
    match a with
    | ⟨0, _⟩ => exact h0
    | ⟨1, _⟩ => exact h1)
  rw [hi, blk1_2_eq V c t, blk1_3_eq V c t, blk1_4_eq V c t, blk1_5_eq V c t, blk1_6_eq V c t]
  exact MeshGnn.dense_rows _ _ (rowAt1 t)
    (fun r k => MeshGnn.dense2_rows _ _ _ _ (rowAt1 t) (fun r' k' => blk1_0_apply V c t r' k') (fun r' k' => blk1_1_apply V c t r' k') _ _ _ r k)
    _ _ p q

theorem flushed_eq1 (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  unfold out1_7
  rw [View.canon_unit_zero hz2_1]
  simp only [View.ld_unit_zero (S := S6000x128) hz2_1, View.ld_unit_zero (S := S6000x4) hz2_1, View.ld_unit_zero (S := S128x128) hz2_1, View.ld_unit_zero (S := S4x128) hz2_1, View.ld_unit_zero (S := S128) hz1_1]
  rw [pay1]
  obtain ⟨-, -, -, -, -, -, -, -, -, -, -, -, e0, e1⟩ := idx_facts1 t
  funext j
  rw [View.read_apply]
  refine block_value1 V c t _ _ ?_ ?_
  · show win1_7.index t (0 : Fin 2) * 6000 + 1 * (j 0).val = t.val * 6000 + (j 0).val
    rw [e0]; omega
  · show win1_7.index t (1 : Fin 2) * 128 + 1 * (j 1).val = (j 1).val
    rw [e1]; omega

theorem mem_blk1 (t : Fin cfg1.N) (i : S600000x128.Idx) :
    i ∈ ((cfg1.win 7).blk t).view.set ↔ ∀ a : Fin 2, win1_7.index t a * S6000x128.size a ≤ (i a).val ∧ (i a).val < win1_7.index t a * S6000x128.size a + S6000x128.size a := by
  show i ∈ ((View.whole main_call0_v23).slice (win1_7.rect t)).set ↔ _
  rw [View.set_slice_whole, Rect.mem_set_unit]
  exact Iff.rfl

/-- Every index lies in the block of the point its row falls in. -/
theorem cover1 (i : S600000x128.Idx) : ∃ t : Fin cfg1.N, (cfg1.win 7).flush t = true ∧ i ∈ ((cfg1.win 7).blk t).view.set := by
  have hi0 : (i 0).val < 600000 := (i 0).isLt
  have hi1 : (i 1).val < 128 := (i 1).isLt
  obtain ⟨t, ht⟩ : ∃ t : Fin cfg1.N, t.val = (i 0).val / 6000 :=
    ⟨⟨(i 0).val / 6000, by rw [show cfg1.N = 100 from N_1]; omega⟩, rfl⟩
  obtain ⟨-, -, -, -, -, -, -, -, -, -, -, -, e0, e1⟩ := idx_facts1 t
  refine ⟨t, flush1_7 t, ?_⟩
  rw [mem_blk1]
  intro a
  match a with
  | ⟨0, _⟩ => show win1_7.index t (0 : Fin 2) * 6000 ≤ (i 0).val ∧ (i 0).val < win1_7.index t (0 : Fin 2) * 6000 + 6000; rw [e0]; omega
  | ⟨1, _⟩ => show win1_7.index t (1 : Fin 2) * 128 ≤ (i 1).val ∧ (i 1).val < win1_7.index t (1 : Fin 2) * 128 + 128; rw [e1]; omega

/-- The array the region leaves is the message network of the whole arrays it found: each block of rows is the same rows of the whole map, and the blocks tile the array. -/
theorem region1_value (c : Dev nD) :
    (Gen.dat1 (F := Ideal) V c).arrAt 7 cfg1.N = MeshGnn.dense (MeshGnn.dense2 (V c main_call0_v22) (V c main_call0_v13) (V c main_arg2) (V c main_call0_v15) (V c main_call0_v17)) (V c main_call0_v19) (V c main_call0_v21) :=
  (Gen.dat1 (F := Ideal) V c).arrAt_eq_of_cover 7 (G1 V c) (fun t _ => flushed_eq1 V c t) cover1

end Cert.KernelIdeal.Hand.Msg

end
-- ==== Proof.PayUpd.lean ====
import proofs.«406442_j73220602462590_1_alg».proof.Proof.Gen.KernelIdeal.Skeleton
import proofs.«406442_j73220602462590_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand.Upd

open Cert.KernelIdeal Cert.KernelIdeal.Gen Idealize.ShloMosaic Idealize.ShloMosaic.ValueIdx Idealize.SL.Sem
open scoped BigOperators

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm_apply {φ₁ φ₂ : FTy} (x : FVec Ideal S2000x128 φ₁) (w : FVec Ideal S128x128 φ₂) (p : Fin 2000) (c : Fin 128) :
    matmul dot_S2000x128_S128x128_S2000x128_1_0_0_1_n_n none x w (constant (F := Ideal) S2000x128 .f32 0x00000000#32) (ix2 p c)
      = ∑ k : Fin 128, x (ix2 p k) * w (ix2 k c) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p c) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p c) ((ValueIdx.contrEquiv1 dot_S2000x128_S128x128_S2000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

theorem bias_apply {α : Type} (b : S128.Idx → α) (p : Fin 2000) (c : Fin 128) :
    broadcastTo S2000x128 (shapeCast S1x128 b shapeCasts_S128_S1x128) broadcasts_S1x128_S2000x128 (ix2 p c)
      = b (ix1 c) := by
  rw [broadcastTo_1b_ab_apply, shapeCast_a_1a_apply]

/-- One block of rows through the update network. -/
theorem pay2 (x0 : Vec Ideal S2000x128 .f32) (x1 : Vec Ideal S2000x128 .f32) (x2 : Vec Ideal S128x128 .f32) (x3 : Vec Ideal S128x128 .f32) (x4 : Vec Ideal S128 .f32) (x5 : Vec Ideal S128x128 .f32) (x6 : Vec Ideal S128 .f32) :
    Gen.k2_pay1 (F := Ideal) x0 x1 x2 x3 x4 x5 x6 = MeshGnn.denseRes (MeshGnn.dense2 x0 x2 x1 x3 x4) x5 x6 x0 := by
  funext j
  obtain ⟨p, c, rfl⟩ : ∃ (p : Fin 2000) (c : Fin 128), j = ix2 p c := ⟨j 0, j 1, eq_ix2 j⟩
  unfold Gen.k2_pay1
  rw [MeshGnn.denseRes_apply]
  simp only [shapeCast_self]
  rw [maximumf_apply, addf_apply, addf_apply, mm_apply, bias_apply, broadcast_apply]
  simp only [truncf_apply, maximumf_apply, addf_apply, broadcast_apply, Ideal.ofBits_def, Ideal.ofBits_zero_f32, mm_apply,
    bias_apply, MeshGnn.dense2_apply]

theorem pay4 (x0 : Vec Ideal S2000x128 .f32) (x1 : Vec Ideal S2000x128 .f32) (x2 : Vec Ideal S128x128 .f32) (x3 : Vec Ideal S128x128 .f32) (x4 : Vec Ideal S128 .f32) (x5 : Vec Ideal S128x128 .f32) (x6 : Vec Ideal S128 .f32) :
    Gen.k4_pay1 (F := Ideal) x0 x1 x2 x3 x4 x5 x6 = MeshGnn.denseRes (MeshGnn.dense2 x0 x2 x1 x3 x4) x5 x6 x0 :=
  pay2 x0 x1 x2 x3 x4 x5 x6

theorem pay6 (x0 : Vec Ideal S2000x128 .f32) (x1 : Vec Ideal S2000x128 .f32) (x2 : Vec Ideal S128x128 .f32) (x3 : Vec Ideal S128x128 .f32) (x4 : Vec Ideal S128 .f32) (x5 : Vec Ideal S128x128 .f32) (x6 : Vec Ideal S128 .f32) :
    Gen.k6_pay1 (F := Ideal) x0 x1 x2 x3 x4 x5 x6 = MeshGnn.denseRes (MeshGnn.dense2 x0 x2 x1 x3 x4) x5 x6 x0 :=
  pay2 x0 x1 x2 x3 x4 x5 x6

theorem pay8 (x0 : Vec Ideal S2000x128 .f32) (x1 : Vec Ideal S2000x128 .f32) (x2 : Vec Ideal S128x128 .f32) (x3 : Vec Ideal S128x128 .f32) (x4 : Vec Ideal S128 .f32) (x5 : Vec Ideal S128x128 .f32) (x6 : Vec Ideal S128 .f32) :
    Gen.k8_pay1 (F := Ideal) x0 x1 x2 x3 x4 x5 x6 = MeshGnn.denseRes (MeshGnn.dense2 x0 x2 x1 x3 x4) x5 x6 x0 :=
  pay2 x0 x1 x2 x3 x4 x5 x6

theorem zero2 : (![0, 0] : Fin 2 → Nat) = fun _ => 0 := funext fun a => by fin_cases a <;> rfl
theorem zero1 : (![0] : Fin 1 → Nat) = fun _ => 0 := funext fun a => by fin_cases a <;> rfl

def rowAt (t : Nat) (ht : t < 25) (p : Fin 2000) : Fin 50000 := ⟨t * 2000 + p.val, by have := p.isLt; omega⟩

theorem upd_rows (t : Nat) (ht : t < 25) (H A : MeshGnn.A2 50000 128) (h a : MeshGnn.A2 2000 128)
    (hh : ∀ p q, h (ix2 p q) = H (ix2 (rowAt t ht p) q)) (ha : ∀ p q, a (ix2 p q) = A (ix2 (rowAt t ht p) q))
    (W₁ W₁' : MeshGnn.A2 128 128) (b₁ : MeshGnn.A1 128) (W₂ : MeshGnn.A2 128 128) (b₂ : MeshGnn.A1 128)
    (p : Fin 2000) (q : Fin 128) :
    MeshGnn.denseRes (MeshGnn.dense2 h W₁ a W₁' b₁) W₂ b₂ h (ix2 p q)
      = MeshGnn.denseRes (MeshGnn.dense2 H W₁ A W₁' b₁) W₂ b₂ H (ix2 (rowAt t ht p) q) :=
  MeshGnn.denseRes_rows _ _ _ _ (rowAt t ht)
    (fun r k => MeshGnn.dense2_rows H h A a (rowAt t ht) hh ha W₁ W₁' b₁ r k) hh W₂ b₂ p q

end Cert.KernelIdeal.Hand.Upd

end
-- ==== Proof.RegUpd2.lean ====
import proofs.«406442_j73220602462590_1_alg».proof.Proof.Gen.KernelIdeal.Frame
import proofs.«406442_j73220602462590_1_alg».proof.Proof.PayUpd
import Idealize.ShloMosaic.Lib.Pipeline.Value

noncomputable section

namespace Cert.KernelIdeal.Hand.Upd

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev reg2_G (c : Dev nD) : S50000x128.Idx → EReal :=
  MeshGnn.denseRes (MeshGnn.dense2 (V c main_call0_v4) (V c main_call0_v30) (V c main_call0_v28) (V c main_call0_v32) (V c main_call0_v34)) (V c main_call0_v36) (V c main_call0_v38) (V c main_call0_v4)

theorem reg2_lt (t : Fin cfg2.N) : t.val < 25 := t.isLt.trans_eq N_2

theorem reg2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

theorem reg2_blk0 (c : Dev nD) (t : Fin cfg2.N) (p : Fin 2000) (q : Fin 128) :
    (iblk2 V c 0 t : Vec Ideal S2000x128 .f32) (ix2 p q)
      = (V c main_call0_v4 : S50000x128.Idx → EReal) (ix2 (rowAt t.val (reg2_lt t) p) q) := by
  obtain ⟨e0, e1, -⟩ := reg2_idx t
  unfold iblk2
  rw [View.read_apply]
  show V c main_call0_v4 _ = V c main_call0_v4 _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 128 + 1 * q.val = q.val; rw [e1]; omega

theorem reg2_blk1 (c : Dev nD) (t : Fin cfg2.N) (p : Fin 2000) (q : Fin 128) :
    (iblk2 V c 1 t : Vec Ideal S2000x128 .f32) (ix2 p q)
      = (V c main_call0_v28 : S50000x128.Idx → EReal) (ix2 (rowAt t.val (reg2_lt t) p) q) := by
  obtain ⟨-, -, e0, e1, -⟩ := reg2_idx t
  unfold iblk2
  rw [View.read_apply]
  show V c main_call0_v28 _ = V c main_call0_v28 _
  congr 1
  funext a
  apply Fin.ext
  match a with
  | ⟨0, _⟩ => show win2_1.index t (0 : Fin 2) * 2000 + 1 * p.val = t.val * 2000 + p.val; rw [e0]; omega
  | ⟨1, _⟩ => show win2_1.index t (1 : Fin 2) * 128 + 1 * q.val = q.val; rw [e1]; omega

theorem reg2_blk2 (c : Dev nD) (t : Fin cfg2.N) :
    (iblk2 V c 2 t : Vec Ideal S128x128 .f32) = (V c main_call0_v30 : S128x128.Idx → EReal) := by
  obtain ⟨-, -, -, -, e0, e1, -⟩ := reg2_idx t
  funext y
  unfold iblk2
  rw [View.read_apply]
  show V c main_call0_v30 _ = V c main_call0_v30 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem reg2_blk3 (c : Dev nD) (t : Fin cfg2.N) :
    (iblk2 V c 3 t : Vec Ideal S128x128 .f32) = (V c main_call0_v32 : S128x128.Idx → EReal) := by
  obtain ⟨-, -, -, -, -, -, e0, e1, -⟩ := reg2_idx t
  funext y
  unfold iblk2
  rw [View.read_apply]
  show V c main_call0_v32 _ = V c main_call0_v32 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem reg2_blk4 (c : Dev nD) (t : Fin cfg2.N) :
    (iblk2 V c 4 t : Vec Ideal S128 .f32) = (V c main_call0_v34 : S128.Idx → EReal) := by
  obtain ⟨-, -, -, -, -, -, -, -, e0, -⟩ := reg2_idx t
  funext y
  unfold iblk2
  rw [View.read_apply]
  show V c main_call0_v34 _ = V c main_call0_v34 y
  congr 1
  funext a
  apply Fin.ext
  match a with
  | ⟨0, _⟩ => show win2_4.index t (0 : Fin 1) * 128 + 1 * (y 0).val = (y 0).val; rw [e0]; omega

theorem reg2_blk5 (c : Dev nD) (t : Fin cfg2.N) :
    (iblk2 V c 5 t : Vec Ideal S128x128 .f32) = (V c main_call0_v36 : S128x128.Idx → EReal) := by
  obtain ⟨-, -, -, -, -, -, -, -, -, e0, e1, -⟩ := reg2_idx t
  funext y
  unfold iblk2
  rw [View.read_apply]
  show V c main_call0_v36 _ = V c main_call0_v36 y
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem reg2_blk6 (c : Dev nD) (t : Fin cfg2.N) :
    (iblk2 V c 6 t : Vec Ideal S128 .f32) = (V c main_call0_v38 : S128.Idx → EReal) := by
  obtain ⟨-, -, -, -, -, -, -, -, -, -, -, e0, -⟩ := reg2_idx t
  funext y
  unfold iblk2
  rw [View.read_apply]
  show V c main_call0_v38 _ = V c main_call0_v38 y
  congr 1
  funext a
  apply Fin.ext
  match a with
  | ⟨0, _⟩ => show win2_6.index t (0 : Fin 1) * 128 + 1 * (y 0).val = (y 0).val; rw [e0]; omega

theorem reg2_block (c : Dev nD) (t : Fin cfg2.N) (j : S2000x128.Idx) (i : S50000x128.Idx)
    (h0 : (i 0).val = t.val * 2000 + (j 0).val) (h1 : (i 1).val = (j 1).val) :
    MeshGnn.denseRes (MeshGnn.dense2 (iblk2 V c 0 t : Vec Ideal S2000x128 .f32) (iblk2 V c 2 t : Vec Ideal S128x128 .f32)
        (iblk2 V c 1 t : Vec Ideal S2000x128 .f32) (iblk2 V c 3 t : Vec Ideal S128x128 .f32) (iblk2 V c 4 t : Vec Ideal S128 .f32))
      (iblk2 V c 5 t : Vec Ideal S128x128 .f32) (iblk2 V c 6 t : Vec Ideal S128 .f32) (iblk2 V c 0 t : Vec Ideal S2000x128 .f32) j
      = reg2_G V c i := by
  obtain ⟨p, q, rfl⟩ : ∃ (p : Fin 2000) (q : Fin 128), j = ix2 p q := ⟨_, _, eq_ix2 j⟩
  have hi : i = ix2 (rowAt t.val (reg2_lt t) p) q := funext fun a => Fin.ext (by
    match a with
    | ⟨0, _⟩ => exact h0
    | ⟨1, _⟩ => exact h1)
  rw [hi, reg2_blk2 V c t, reg2_blk3 V c t, reg2_blk4 V c t, reg2_blk5 V c t, reg2_blk6 V c t]
  exact upd_rows t.val (reg2_lt t) _ _ _ _ (reg2_blk0 V c t) (reg2_blk1 V c t) _ _ _ _ _ p q

theorem reg2_flushed (c : Dev nD) (t : Fin cfg2.N) :
    (dat2 V c).flushed 7 t = ((cfg2.win 7).blk t).view.read (Elt Ideal) (reg2_G V c) := by
  show (cfg2.win 7).cut (grid2.coords t) ((dat2 V c).after 7 t) = _
  rw [after2_7]
  unfold out2_7
  rw [View.canon_unit_zero zero2]
  simp only [View.ld_unit_zero (S := S2000x128) zero2, View.ld_unit_zero (S := S128x128) zero2, View.ld_unit_zero (S := S128) zero1]
  rw [pay2]
  obtain ⟨-, -, -, -, -, -, -, -, -, -, -, -, e0, e1⟩ := reg2_idx t
  funext j
  rw [View.read_apply]
  refine reg2_block V c t _ _ ?_ ?_
  · show win2_7.index t (0 : Fin 2) * 2000 + 1 * (j 0).val = t.val * 2000 + (j 0).val
    rw [e0]; omega
  · show win2_7.index t (1 : Fin 2) * 128 + 1 * (j 1).val = (j 1).val
    rw [e1]; omega

theorem reg2_mem (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_call0_v39).slice (win2_7.rect t)).set ↔ _
  rw [View.set_slice_whole, Rect.mem_set_unit]
  exact Iff.rfl

theorem reg2_cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, -, -, e0, e1⟩ := reg2_idx t
  have ht : t.val = (i 0).val / 2000 := rfl
  refine ⟨t, flush2_7 t, ?_⟩
  rw [reg2_mem]
  intro a
  match a with
  | ⟨0, _⟩ => show win2_7.index t (0 : Fin 2) * 2000 ≤ (i 0).val ∧ (i 0).val < win2_7.index t (0 : Fin 2) * 2000 + 2000; rw [e0, ht]; omega
  | ⟨1, _⟩ => show win2_7.index t (1 : Fin 2) * 128 ≤ (i 1).val ∧ (i 1).val < win2_7.index t (1 : Fin 2) * 128 + 128; rw [e1]; omega

/-- The array the region leaves is the update network of the whole arrays it found: each block of rows is the same rows of the whole map, and the blocks tile the array. -/
theorem region2_value (c : Dev nD) :
    (Gen.dat2 (F := Ideal) V c).arrAt 7 cfg2.N = MeshGnn.denseRes (MeshGnn.dense2 (V c main_call0_v4) (V c main_call0_v30) (V c main_call0_v28) (V c main_call0_v32) (V c main_call0_v34)) (V c main_call0_v36) (V c main_call0_v38) (V c main_call0_v4) :=
  (dat2 V c).arrAt_eq_of_cover 7 (reg2_G V c) (fun t _ => reg2_flushed V c t) reg2_cover

end Cert.KernelIdeal.Hand.Upd

end
-- ==== Proof.RefMsg0.lean ====
import proofs.«406442_j73220602462590_1_alg».proof.Proof.RefRead
import proofs.«406442_j73220602462590_1_alg».proof.Proof.Spec
import Idealize.ShloMosaic.Lib.Pipeline.Value
import Idealize.ShloMosaic.Lib.ValueIdx
import Idealize.ShloMosaic.PureOps.Ideal.Laws

noncomputable section

open scoped BigOperators
open Cert.ReferenceIdeal Cert.ReferenceIdeal.Gen Cert.ReferenceIdeal.Read Idealize.ShloMosaic Idealize.ShloMosaic.ValueIdx

namespace Cert.ReferenceIdeal.Hand

variable (x0 : (⟨S50000x16, .f32⟩ : BufTy).Contents (Elt Ideal)) (x1 : (⟨S2x600000, .i32⟩ : BufTy).Contents (Elt Ideal)) (x2 : (⟨S600000x4, .f32⟩ : BufTy).Contents (Elt Ideal))
  (x3 : (⟨S16x128, .f32⟩ : BufTy).Contents (Elt Ideal)) (x4 : (⟨S128, .f32⟩ : BufTy).Contents (Elt Ideal)) (x5 : (⟨S4x132x128, .f32⟩ : BufTy).Contents (Elt Ideal))
  (x6 : (⟨S4x128, .f32⟩ : BufTy).Contents (Elt Ideal)) (x7 : (⟨S4x128x128, .f32⟩ : BufTy).Contents (Elt Ideal)) (x8 : (⟨S4x128, .f32⟩ : BufTy).Contents (Elt Ideal))

theorem cat_msg0 :
    val_main_v23 (F := Ideal) x0 x1 x2 x3 x4
      = MeshGnn.beside (n := 600000) (a := 128) (b := 4) (val_main_v22 (F := Ideal) x0 x1 x3 x4) x2 := by
  funext i
  unfold val_main_v23
  generalize val_main_v22 (F := Ideal) x0 x1 x3 x4 = g
  unfold MeshGnn.beside
  by_cases h : (i 1).val < 128
  · rw [dif_pos h]
    exact concatenate_pair_apply_left 1 g x2 concatenates_S600000x128_S600000x4_S600000x132_d1 i rfl _ (fun b => by
      match b with
      | ⟨0, _⟩ => rfl
      | ⟨1, _⟩ => rfl)
  · rw [dif_neg h]
    exact concatenate_pair_apply_right 1 g x2 concatenates_S600000x128_S600000x4_S600000x132_d1 i rfl rfl _
      (fun b hb => by
        match b with
        | ⟨0, _⟩ => rfl
        | ⟨1, _⟩ => exact absurd rfl hb)
      (by show (i 1).val - 128 + 128 = (i 1).val; omega)

theorem w1_msg0 (q : Fin 132) (c : Fin 128) :
    val_main_v25 (F := Ideal) x5 (ix2 q c) = x5 (ix3 (0 : Fin 4) q c) := by
  rw [val_main_v25_apply, val_main_v24_apply]
  refine congrArg x5 (funext fun a => ?_)
  have hq := q.isLt
  have hc := c.isLt
  match a with
  | ⟨0, _⟩ => rfl
  | ⟨1, _⟩ => exact Fin.ext (by show (q.val * 128 + c.val) / 128 % 132 = q.val; omega)
  | ⟨2, _⟩ => exact Fin.ext (by show (q.val * 128 + c.val) % 128 = c.val; omega)

theorem b1_msg0 (r : Fin 600000) (c : Fin 128) :
    val_main_v30 (F := Ideal) x6 (ix2 r c) = MeshGnn.rowOf x6 (0 : Fin 4) (ix1 c) := by
  rw [val_main_v30_apply, val_main_v29_apply, val_main_v28_apply, val_main_v27_apply]
  unfold MeshGnn.rowOf
  refine congrArg x6 (funext fun a => ?_)
  have hc := c.isLt
  match a with
  | ⟨0, _⟩ => rfl
  | ⟨1, _⟩ => exact Fin.ext (by show c.val % 128 = c.val; omega)

theorem zero1_msg0 (i : S600000x128.Idx) : val_main_call1_v0 (F := Ideal) i = 0 := by
  rw [val_main_call1_v0_apply, val_main_call1_cst_apply]
  exact Ideal.ofBits_zero_f32

theorem dot1_msg0 (g : MeshGnn.A2 600000 128) (r : Fin 600000) (c : Fin 128) :
    (∑ k : Fin 132, MeshGnn.beside (n := 600000) (a := 128) (b := 4) g x2 (lidx_main_v26 (ix2 r c) k)
        * val_main_v25 (F := Ideal) x5 (ridx_main_v26 (ix2 r c) k))
      = (∑ q : Fin 128, g (ix2 r q) * MeshGnn.slab x5 (0 : Fin 4) 0 128 (by decide) (ix2 q c))
        + ∑ q : Fin 4, x2 (ix2 r q) * MeshGnn.slab x5 (0 : Fin 4) 128 4 (by decide) (ix2 q c) := by
  have hl : ∀ k : Fin 132, lidx_main_v26 (ix2 r c) k = ix2 r k := fun k => funext fun a => by
    match a with
    | ⟨0, _⟩ => rfl
    | ⟨1, _⟩ => rfl
  have hr : ∀ k : Fin 132, ridx_main_v26 (ix2 r c) k = ix2 k c := fun k => funext fun a => by
    match a with
    | ⟨0, _⟩ => rfl
    | ⟨1, _⟩ => rfl
  have e : (∑ k : Fin 132, MeshGnn.beside (n := 600000) (a := 128) (b := 4) g x2 (lidx_main_v26 (ix2 r c) k)
        * val_main_v25 (F := Ideal) x5 (ridx_main_v26 (ix2 r c) k))
      = ∑ k : Fin 132, MeshGnn.beside (n := 600000) (a := 128) (b := 4) g x2 (ix2 r k)
        * x5 (ix3 (0 : Fin 4) k c) :=
    Finset.sum_congr rfl fun k _ => by rw [hl k, hr k, w1_msg0]
  refine e.trans ?_
  refine (MeshGnn.dot_beside (n := 600000) (a := 128) (b := 4) (p := 128) g x2
    (fun i => x5 (ix3 (0 : Fin 4) (MeshGnn.row i) (MeshGnn.col i))) r c).trans ?_
  unfold MeshGnn.dot MeshGnn.slab
  congr 1

theorem hid_msg0 :
    val_main_v32 (F := Ideal) x0 x1 x2 x3 x4 x5 x6
      = MeshGnn.dense2 (val_main_v22 (F := Ideal) x0 x1 x3 x4) (MeshGnn.slab x5 0 0 128 (by decide)) x2
          (MeshGnn.slab x5 0 128 4 (by decide)) (MeshGnn.rowOf x6 0) := by
  funext i
  obtain ⟨r, c, rfl⟩ : ∃ (r : Fin 600000) (c : Fin 128), i = ix2 r c := ⟨_, _, eq_ix2 i⟩
  rewrite [MeshGnn.dense2_apply, val_main_v32_apply, val_main_v31_apply, val_main_v26_apply, zero1_msg0, b1_msg0,
    cat_msg0, dot1_msg0]
  rfl

theorem w2_msg0 (q : Fin 128) (c : Fin 128) :
    val_main_v34 (F := Ideal) x7 (ix2 q c) = MeshGnn.slab x7 (0 : Fin 4) 0 128 (by decide) (ix2 q c) := by
  rw [val_main_v34_apply, val_main_v33_apply]
  unfold MeshGnn.slab
  refine congrArg x7 (funext fun a => ?_)
  have hq := q.isLt
  have hc := c.isLt
  match a with
  | ⟨0, _⟩ => rfl
  | ⟨1, _⟩ => exact Fin.ext (by show (q.val * 128 + c.val) / 128 % 128 = 0 + q.val; omega)
  | ⟨2, _⟩ => exact Fin.ext (by show (q.val * 128 + c.val) % 128 = c.val; omega)

theorem b2_msg0 (r : Fin 600000) (c : Fin 128) :
    val_main_v39 (F := Ideal) x8 (ix2 r c) = MeshGnn.rowOf x8 (0 : Fin 4) (ix1 c) := by
  rw [val_main_v39_apply, val_main_v38_apply, val_main_v37_apply, val_main_v36_apply]
  unfold MeshGnn.rowOf
  refine congrArg x8 (funext fun a => ?_)
  have hc := c.isLt
  match a with
  | ⟨0, _⟩ => rfl
  | ⟨1, _⟩ => exact Fin.ext (by show c.val % 128 = c.val; omega)

theorem zero2_msg0 (i : S600000x128.Idx) : val_main_call2_v0 (F := Ideal) i = 0 := by
  rw [val_main_call2_v0_apply, val_main_call2_cst_apply]
  exact Ideal.ofBits_zero_f32

theorem dot2_msg0 (H : MeshGnn.A2 600000 128) (r : Fin 600000) (c : Fin 128) :
    (∑ k : Fin 128, H (lidx_main_v35 (ix2 r c) k) * val_main_v34 (F := Ideal) x7 (ridx_main_v35 (ix2 r c) k))
      = ∑ q : Fin 128, H (ix2 r q) * MeshGnn.slab x7 (0 : Fin 4) 0 128 (by decide) (ix2 q c) := by
  have hl : ∀ k : Fin 128, lidx_main_v35 (ix2 r c) k = ix2 r k := fun k => funext fun a => by
    match a with
    | ⟨0, _⟩ => rfl
    | ⟨1, _⟩ => rfl
  have hr : ∀ k : Fin 128, ridx_main_v35 (ix2 r c) k = ix2 k c := fun k => funext fun a => by
    match a with
    | ⟨0, _⟩ => rfl
    | ⟨1, _⟩ => rfl
  exact Finset.sum_congr rfl fun k _ => by rw [hl k, hr k, w2_msg0]

/-- The reference's message network: two dense layers, the first on the gathered node rows beside the edge attributes. -/
theorem ref_msg0 :
    val_main_v41 (F := Ideal) x0 x1 x2 x3 x4 x5 x6 x7 x8
      = MeshGnn.dense
          (MeshGnn.dense2 (val_main_v22 (F := Ideal) x0 x1 x3 x4) (MeshGnn.slab x5 0 0 128 (by decide)) x2
            (MeshGnn.slab x5 0 128 4 (by decide)) (MeshGnn.rowOf x6 0))
          (MeshGnn.slab x7 0 0 128 (by decide)) (MeshGnn.rowOf x8 0) := by
  funext i
  obtain ⟨r, c, rfl⟩ : ∃ (r : Fin 600000) (c : Fin 128), i = ix2 r c := ⟨_, _, eq_ix2 i⟩
  rewrite [MeshGnn.dense_apply, val_main_v41_apply, val_main_v40_apply, val_main_v35_apply, zero2_msg0, b2_msg0,
    hid_msg0, dot2_msg0]
  rfl

end Cert.ReferenceIdeal.Hand

end
-- ==== Proof.RefUpd0.lean ====
import proofs.«406442_j73220602462590_1_alg».proof.Proof.RefRead
import proofs.«406442_j73220602462590_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

theorem upd0_w1 (x9 : (⟨S4x256x128, .f32⟩ : BufTy).Contents (Elt Ideal)) (q : Fin 256) (c : Fin 128) :
    val_main_v49 (F := Ideal) x9 (ix2 q c) = x9 (ix3 (0 : Fin 4) q c) := by
  rw [val_main_v49_apply, val_main_v48_apply]
  congr 1
  funext a
  have hq := q.isLt
  have hc := c.isLt
  match a with
  | ⟨0, _⟩ => exact Fin.ext rfl
  | ⟨1, _⟩ => exact Fin.ext (by show (q.val * 128 + c.val) / 128 % 256 = q.val; omega)
  | ⟨2, _⟩ => exact Fin.ext (by show (q.val * 128 + c.val) % 128 = c.val; omega)

theorem upd0_b1 (x10 : (⟨S4x128, .f32⟩ : BufTy).Contents (Elt Ideal)) (r : Fin 50000) (c : Fin 128) :
    val_main_v54 (F := Ideal) x10 (ix2 r c) = MeshGnn.rowOf x10 (0 : Fin 4) (ix1 c) := by
  rw [val_main_v54_apply, val_main_v53_apply, val_main_v52_apply, val_main_v51_apply]
  unfold MeshGnn.rowOf
  congr 1
  funext a
  have hc := c.isLt
  match a with
  | ⟨0, _⟩ => exact Fin.ext rfl
  | ⟨1, _⟩ => exact Fin.ext (by show c.val % 128 = c.val; omega)

theorem upd0_w2 (x11 : (⟨S4x128x128, .f32⟩ : BufTy).Contents (Elt Ideal)) (q : Fin 128) (c : Fin 128) :
    val_main_v58 (F := Ideal) x11 (ix2 q c) = MeshGnn.slab x11 (0 : Fin 4) 0 128 (by decide) (ix2 q c) := by
  rw [val_main_v58_apply, val_main_v57_apply]
  unfold MeshGnn.slab
  congr 1
  funext a
  have hq := q.isLt
  have hc := c.isLt
  match a with
  | ⟨0, _⟩ => exact Fin.ext rfl
  | ⟨1, _⟩ => exact Fin.ext (by show (q.val * 128 + c.val) / 128 % 128 = 0 + q.val; omega)
  | ⟨2, _⟩ => exact Fin.ext (by show (q.val * 128 + c.val) % 128 = c.val; omega)

theorem upd0_b2 (x12 : (⟨S4x128, .f32⟩ : BufTy).Contents (Elt Ideal)) (r : Fin 50000) (c : Fin 128) :
    val_main_v63 (F := Ideal) x12 (ix2 r c) = MeshGnn.rowOf x12 (0 : Fin 4) (ix1 c) := by
  rw [val_main_v63_apply, val_main_v62_apply, val_main_v61_apply, val_main_v60_apply]
  unfold MeshGnn.rowOf
  congr 1
  funext a
  have hc := c.isLt
  match a with
  | ⟨0, _⟩ => exact Fin.ext rfl
  | ⟨1, _⟩ => exact Fin.ext (by show c.val % 128 = c.val; omega)

theorem upd0_slab_lo (x9 : (⟨S4x256x128, .f32⟩ : BufTy).Contents (Elt Ideal)) (q : Fin 128) (c : Fin 128) :
    MeshGnn.slab x9 (0 : Fin 4) 0 128 (by decide) (ix2 q c) = x9 (ix3 (0 : Fin 4) ⟨q.val, by omega⟩ c) := by
  unfold MeshGnn.slab
  refine congrArg x9 (funext fun a => ?_)
  match a with
  | ⟨0, _⟩ => rfl
  | ⟨1, _⟩ => exact Fin.ext (by show 0 + q.val = q.val; omega)
  | ⟨2, _⟩ => rfl

theorem upd0_slab_hi (x9 : (⟨S4x256x128, .f32⟩ : BufTy).Contents (Elt Ideal)) (q : Fin 128) (c : Fin 128) :
    MeshGnn.slab x9 (0 : Fin 4) 128 128 (by decide) (ix2 q c) = x9 (ix3 (0 : Fin 4) ⟨128 + q.val, by omega⟩ c) := rfl

theorem upd0_sum_halves (f : Fin 256 → EReal) :
    ∑ k : Fin 256, f k = (∑ q : Fin 128, f ⟨q.val, by omega⟩) + ∑ q : Fin 128, f ⟨128 + q.val, by omega⟩ :=
  Fin.sum_univ_add (a := 128) (b := 128) f

theorem upd0_cat_left (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal))
    (r : Fin 50000) (k : Fin 256) (q : Fin 128) (hk : k.val = q.val) :
    val_main_v47 (F := Ideal) x0 x1 x2 x3 x4 x5 x6 x7 x8 (ix2 r k) = val_main_v8 (F := Ideal) x0 x3 x4 (ix2 r q) := by
  unfold val_main_v47
  refine concatenate_pair_apply_left (t := S50000x256) (s₁ := S50000x128) (s₂ := S50000x128) 1 _ _ _ _ rfl _ ?_
  intro b
  match b with
  | ⟨0, _⟩ => rfl
  | ⟨1, _⟩ => exact hk.symm

theorem upd0_cat_right (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal))
    (r : Fin 50000) (k : Fin 256) (q : Fin 128) (hk : q.val + 128 = k.val) :
    val_main_v47 (F := Ideal) x0 x1 x2 x3 x4 x5 x6 x7 x8 (ix2 r k) = val_main_v46 (F := Ideal) x0 x1 x2 x3 x4 x5 x6 x7 x8 (ix2 r q) := by
  unfold val_main_v47
  refine concatenate_pair_apply_right (t := S50000x256) (s₁ := S50000x128) (s₂ := S50000x128) 1 _ _ _ _ rfl rfl _ ?_ ?_
  · intro b hb
    match b with
    | ⟨0, _⟩ => rfl
    | ⟨1, _⟩ => exact absurd rfl hb
  · exact hk

theorem ref_upd0_hid (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) :
    val_main_v56 (F := Ideal) x0 x1 x2 x3 x4 x5 x6 x7 x8 x9 x10
      = MeshGnn.dense2 (val_main_v8 (F := Ideal) x0 x3 x4) (MeshGnn.slab x9 (0 : Fin 4) 0 128 (by decide))
          (val_main_v46 (F := Ideal) x0 x1 x2 x3 x4 x5 x6 x7 x8) (MeshGnn.slab x9 (0 : Fin 4) 128 128 (by decide))
          (MeshGnn.rowOf x10 (0 : Fin 4)) := by
  funext i
  obtain ⟨r, c, rfl⟩ : ∃ (r : Fin 50000) (c : Fin 128), i = ix2 r c := ⟨_, _, eq_ix2 i⟩
  rw [val_main_v56_apply, val_main_v55_apply, val_main_v50_apply, upd0_b1, val_main_call3_v0_apply,
    val_main_call3_cst_apply, MeshGnn.dense2_apply]
  have el : ∀ k : Fin 256, lidx_main_v50 (ix2 r c) k = ix2 r k := fun k =>
    funext fun a => Fin.ext (by match a with | ⟨0, _⟩ => rfl | ⟨1, _⟩ => rfl)
  have er : ∀ k : Fin 256, ridx_main_v50 (ix2 r c) k = ix2 k c := fun k =>
    funext fun a => Fin.ext (by match a with | ⟨0, _⟩ => rfl | ⟨1, _⟩ => rfl)
  simp only [el, er, upd0_w1, Ideal.maximumf_def, Ideal.addf_def, Ideal.ofBits_def, Ideal.ofBits_zero_f32]

  have hsum : (∑ k : Fin 256, val_main_v47 (F := Ideal) x0 x1 x2 x3 x4 x5 x6 x7 x8 (ix2 r k) * x9 (ix3 (0 : Fin 4) k c))
      = (∑ q : Fin 128, val_main_v8 (F := Ideal) x0 x3 x4 (ix2 r q) * MeshGnn.slab x9 (0 : Fin 4) 0 128 (by decide) (ix2 q c))
        + ∑ q : Fin 128, val_main_v46 (F := Ideal) x0 x1 x2 x3 x4 x5 x6 x7 x8 (ix2 r q) * MeshGnn.slab x9 (0 : Fin 4) 128 128 (by decide) (ix2 q c) := by
    rw [upd0_sum_halves]
    refine congrArg₂ (· + ·) ?_ ?_
    · refine Finset.sum_congr rfl fun q _ => ?_
      rw [upd0_cat_left x0 x1 x2 x3 x4 x5 x6 x7 x8 r ⟨q.val, by omega⟩ q rfl, upd0_slab_lo]
    · refine Finset.sum_congr rfl fun q _ => ?_
      rw [upd0_cat_right x0 x1 x2 x3 x4 x5 x6 x7 x8 r ⟨128 + q.val, by omega⟩ q (by show q.val + 128 = 128 + q.val; omega), upd0_slab_hi]
  rw [hsum]

/-- The reference's update network: a dense layer on the node features beside the mean, then a dense layer with the residual. -/
theorem ref_upd0 (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v66 (F := Ideal) x0 x1 x2 x3 x4 x5 x6 x7 x8 x9 x10 x11 x12
      = MeshGnn.denseRes
          (MeshGnn.dense2 (val_main_v8 (F := Ideal) x0 x3 x4) (MeshGnn.slab x9 (0 : Fin 4) 0 128 (by decide))
            (val_main_v46 (F := Ideal) x0 x1 x2 x3 x4 x5 x6 x7 x8) (MeshGnn.slab x9 (0 : Fin 4) 128 128 (by decide))
            (MeshGnn.rowOf x10 (0 : Fin 4)))
          (MeshGnn.slab x11 (0 : Fin 4) 0 128 (by decide)) (MeshGnn.rowOf x12 (0 : Fin 4)) (val_main_v8 (F := Ideal) x0 x3 x4) := by
  funext i
  obtain ⟨r, c, rfl⟩ : ∃ (r : Fin 50000) (c : Fin 128), i = ix2 r c := ⟨_, _, eq_ix2 i⟩
  rw [val_main_v66_apply, val_main_v65_apply, val_main_v64_apply, val_main_v59_apply, upd0_b2,
    val_main_call4_v0_apply, val_main_call4_cst_apply, MeshGnn.denseRes_apply, ref_upd0_hid]
  have el : ∀ k : Fin 128, lidx_main_v59 (ix2 r c) k = ix2 r k := fun k =>
    funext fun a => Fin.ext (by match a with | ⟨0, _⟩ => rfl | ⟨1, _⟩ => rfl)
  have er : ∀ k : Fin 128, ridx_main_v59 (ix2 r c) k = ix2 k c := fun k =>
    funext fun a => Fin.ext (by match a with | ⟨0, _⟩ => rfl | ⟨1, _⟩ => rfl)
  simp only [el, er, upd0_w2, Ideal.maximumf_def, Ideal.addf_def, Ideal.ofBits_def, Ideal.ofBits_zero_f32]

end Cert.ReferenceIdeal.Hand

end
-- ==== Proof.WalkLayer0.lean ====
import proofs.«406442_j73220602462590_1_alg».proof.Proof.Gen.KernelIdeal.Frame
import proofs.«406442_j73220602462590_1_alg».proof.Proof.RefRead
import proofs.«406442_j73220602462590_1_alg».proof.Proof.WalkKeep
import proofs.«406442_j73220602462590_1_alg».proof.Proof.WalkDefs
import proofs.«406442_j73220602462590_1_alg».proof.Proof.WalkWts0
import proofs.«406442_j73220602462590_1_alg».proof.Proof.WalkTake0
import proofs.«406442_j73220602462590_1_alg».proof.Proof.WalkAgg0
import proofs.«406442_j73220602462590_1_alg».proof.Proof.WalkBridge
import proofs.«406442_j73220602462590_1_alg».proof.Proof.RegMsg1
import proofs.«406442_j73220602462590_1_alg».proof.Proof.RegUpd2
import proofs.«406442_j73220602462590_1_alg».proof.Proof.RefMsg0
import proofs.«406442_j73220602462590_1_alg».proof.Proof.RefUpd0
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- One message-passing layer along the run: if the node features entering it are the reference's, so are those leaving it. -/
theorem layer0 (hok : SrcOk m) (c : Dev nD)
    (hin : W2 m ρ c (Proc.devRef .tc main_call0_v4) = val_main_v8 (F := Ideal) (A0 m c) (A3 m c) (A4 m c)) :
    W6 m ρ c (Proc.devRef .tc main_call0_v39) = val_main_v66 (F := Ideal) (A0 m c) (A1 m c) (A2 m c) (A3 m c) (A4 m c) (A5 m c) (A6 m c) (A7 m c) (A8 m c) (A9 m c) (A10 m c) (A11 m c) (A12 m c) := by

  have hs : W3 m ρ c (Proc.devRef .tc main_call0_v22) = val_main_v22 (F := Ideal) (A0 m c) (A1 m c) (A3 m c) (A4 m c) := by
    rw [at3_hsrc m ρ hok c, hin]
    exact gather_eq0 m hok c

  have hm : W4 m ρ c (Proc.devRef .tc main_call0_v23) = val_main_v41 (F := Ideal) (A0 m c) (A1 m c) (A2 m c) (A3 m c) (A4 m c) (A5 m c) (A6 m c) (A7 m c) (A8 m c) := by
    refine (show W4 m ρ c (Proc.devRef .tc main_call0_v23) = (dat1 (V3 m ρ) c).arrAt 7 cfg1.N from W4_arr m ρ c 7).trans ?_
    rw [Cert.KernelIdeal.Hand.Msg.region1_value (V3 m ρ) c]
    rw [show V3 m ρ c main_call0_v22 = _ from hs, show V3 m ρ c main_call0_v13 = _ from at3_w1a m ρ c,
      show V3 m ρ c main_arg2 = A2 m c from at3 m ρ c main_arg2 (by decide), show V3 m ρ c main_call0_v15 = _ from at3_w1b m ρ c,
      show V3 m ρ c main_call0_v17 = _ from at3_b1 m ρ c, show V3 m ρ c main_call0_v19 = _ from at3_w2 m ρ c,
      show V3 m ρ c main_call0_v21 = _ from at3_b2 m ρ c]
    exact (Cert.ReferenceIdeal.Hand.ref_msg0 (A0 m c) (A1 m c) (A2 m c) (A3 m c) (A4 m c) (A5 m c) (A6 m c) (A7 m c) (A8 m c)).symm

  have ha : W5 m ρ c (Proc.devRef .tc main_call0_v28) = val_main_v46 (F := Ideal) (A0 m c) (A1 m c) (A2 m c) (A3 m c) (A4 m c) (A5 m c) (A6 m c) (A7 m c) (A8 m c) := by
    rw [at5_agg m ρ c, hm]
    exact agg_eq0 m c

  have hh : W5 m ρ c (Proc.devRef .tc main_call0_v4) = val_main_v8 (F := Ideal) (A0 m c) (A3 m c) (A4 m c) :=
    (from2_5 m ρ c main_call0_v4 (by decide)).trans hin
  refine (show W6 m ρ c (Proc.devRef .tc main_call0_v39) = (dat2 (V5 m ρ) c).arrAt 7 cfg2.N from W6_arr m ρ c 7).trans ?_
  rw [Cert.KernelIdeal.Hand.Upd.region2_value (V5 m ρ) c]
  rw [show V5 m ρ c main_call0_v4 = _ from hh, show V5 m ρ c main_call0_v28 = _ from ha,
    show V5 m ρ c main_call0_v30 = _ from at5_wu1h m ρ c, show V5 m ρ c main_call0_v32 = _ from at5_wu1a m ρ c,
    show V5 m ρ c main_call0_v34 = _ from at5_bu1 m ρ c, show V5 m ρ c main_call0_v36 = _ from at5_wu2 m ρ c,
    show V5 m ρ c main_call0_v38 = _ from at5_bu2 m ρ c]
  exact (Cert.ReferenceIdeal.Hand.ref_upd0 (A0 m c) (A1 m c) (A2 m c) (A3 m c) (A4 m c) (A5 m c) (A6 m c) (A7 m c) (A8 m c) (A9 m c) (A10 m c) (A11 m c) (A12 m c)).symm

end Cert.KernelIdeal.Hand.Walk

end
-- ==== Proof.WalkWts1.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.KSlices
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The layer's weights and biases as the run holds them: bands and rows of the stacked parameter arrays. -/
theorem at7_w1a (c : Dev nD) :
    W7 m ρ c (Proc.devRef .tc main_call0_v41) = MeshGnn.slab (A5 m c) 1 0 128 (by decide) := by
  show StableHlo.after hostOps3 (W6 m ρ c) (Proc.devRef .tc main_call0_v41) = _
  after_results_simp
  simp only [TRef.toBuf, TRef.ofBuf, cast_eq, at6 m ρ c main_arg5 (by decide)]
  exact MeshGnn.Slices.slab3_132_top (A5 m c) 1 _ _

theorem at7_w1b (c : Dev nD) :
    W7 m ρ c (Proc.devRef .tc main_call0_v43) = MeshGnn.slab (A5 m c) 1 128 4 (by decide) := by
  show StableHlo.after hostOps3 (W6 m ρ c) (Proc.devRef .tc main_call0_v43) = _
  after_results_simp
  simp only [TRef.toBuf, TRef.ofBuf, cast_eq, at6 m ρ c main_arg5 (by decide)]
  exact MeshGnn.Slices.slab3_132_bot (A5 m c) 1 _ _

theorem at7_b1 (c : Dev nD) :
    W7 m ρ c (Proc.devRef .tc main_call0_v45) = MeshGnn.rowOf (A6 m c) 1 := by
  show StableHlo.after hostOps3 (W6 m ρ c) (Proc.devRef .tc main_call0_v45) = _
  after_results_simp
  simp only [TRef.toBuf, TRef.ofBuf, cast_eq, at6 m ρ c main_arg6 (by decide)]
  exact MeshGnn.Slices.row2 (A6 m c) 1 _ _

theorem at7_w2 (c : Dev nD) :
    W7 m ρ c (Proc.devRef .tc main_call0_v47) = MeshGnn.slab (A7 m c) 1 0 128 (by decide) := by
  show StableHlo.after hostOps3 (W6 m ρ c) (Proc.devRef .tc main_call0_v47) = _
  after_results_simp
  simp only [TRef.toBuf, TRef.ofBuf, cast_eq, at6 m ρ c main_arg7 (by decide)]
  exact MeshGnn.Slices.slab3_128 (A7 m c) 1 _ _

theorem at7_b2 (c : Dev nD) :
    W7 m ρ c (Proc.devRef .tc main_call0_v49) = MeshGnn.rowOf (A8 m c) 1 := by
  show StableHlo.after hostOps3 (W6 m ρ c) (Proc.devRef .tc main_call0_v49) = _
  after_results_simp
  simp only [TRef.toBuf, TRef.ofBuf, cast_eq, at6 m ρ c main_arg8 (by decide)]
  exact MeshGnn.Slices.row2 (A8 m c) 1 _ _

theorem at9_wu1h (c : Dev nD) :
    W9 m ρ c (Proc.devRef .tc main_call0_v58) = MeshGnn.slab (A9 m c) 1 0 128 (by decide) := by
  show StableHlo.after hostOps4 (W8 m ρ c) (Proc.devRef .tc main_call0_v58) = _
  after_results_simp
  simp only [TRef.toBuf, TRef.ofBuf, cast_eq, at8 m ρ c main_arg9 (by decide)]
  exact MeshGnn.Slices.slab3_256_top (A9 m c) 1 _ _

theorem at9_wu1a (c : Dev nD) :
    W9 m ρ c (Proc.devRef .tc main_call0_v60) = MeshGnn.slab (A9 m c) 1 128 128 (by decide) := by
  show StableHlo.after hostOps4 (W8 m ρ c) (Proc.devRef .tc main_call0_v60) = _
  after_results_simp
  simp only [TRef.toBuf, TRef.ofBuf, cast_eq, at8 m ρ c main_arg9 (by decide)]
  exact MeshGnn.Slices.slab3_256_bot (A9 m c) 1 _ _

theorem at9_bu1 (c : Dev nD) :
    W9 m ρ c (Proc.devRef .tc main_call0_v62) = MeshGnn.rowOf (A10 m c) 1 := by
  show StableHlo.after hostOps4 (W8 m ρ c) (Proc.devRef .tc main_call0_v62) = _
  after_results_simp
  simp only [TRef.toBuf, TRef.ofBuf, cast_eq, at8 m ρ c main_arg10 (by decide)]
  exact MeshGnn.Slices.row2 (A10 m c) 1 _ _

theorem at9_wu2 (c : Dev nD) :
    W9 m ρ c (Proc.devRef .tc main_call0_v64) = MeshGnn.slab (A11 m c) 1 0 128 (by decide) := by
  show StableHlo.after hostOps4 (W8 m ρ c) (Proc.devRef .tc main_call0_v64) = _
  after_results_simp
  simp only [TRef.toBuf, TRef.ofBuf, cast_eq, at8 m ρ c main_arg11 (by decide)]
  exact MeshGnn.Slices.slab3_128 (A11 m c) 1 _ _

theorem at9_bu2 (c : Dev nD) :
    W9 m ρ c (Proc.devRef .tc main_call0_v66) = MeshGnn.rowOf (A12 m c) 1 := by
  show StableHlo.after hostOps4 (W8 m ρ c) (Proc.devRef .tc main_call0_v66) = _
  after_results_simp
  simp only [TRef.toBuf, TRef.ofBuf, cast_eq, at8 m ρ c main_arg12 (by decide)]
  exact MeshGnn.Slices.row2 (A12 m c) 1 _ _

end Cert.KernelIdeal.Hand.Walk

end
-- ==== Proof.WalkTake1.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.TakeFill
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- With every source index a node index, the gathered rows are the node features' rows at the edges' sources. -/
theorem at7_hsrc (hok : SrcOk m) (c : Dev nD) : W7 m ρ c (Proc.devRef .tc main_call0_v50)
    = Host.gather gather_S50000x128_S600000x1_S600000x128_1_0_n_n_0_1_1128 (W6 m ρ c (Proc.devRef .tc main_call0_v39))
        (broadcastInDim S600000x1 ![0] bcast_S600000_S600000x1_0 (Src m c)) := by
  show StableHlo.after hostOps3 (W6 m ρ c) (Proc.devRef .tc main_call0_v50) = _
  after_results_simp
  simp only [TRef.toBuf, TRef.ofBuf, cast_eq, (from1_6 m ρ c main_call0_v1 (by decide)).trans (at1_src m ρ c)]
  exact MeshGnn.Take.take_fill_src (Src m c) bcast_S_S600000 bcast_S600000_S600000x1_0 bcast_S_S600000x1 bcast_S1_S1x1_1
    bcast_S1x1_S600000x1_0_1 reducesTo_S600000x1_S600000_d1 h_S_ bcast_S600000_S600000x128_0 bcast_S_S600000x128 (hok c)
    gather_S50000x128_S600000x1_S600000x128_1_0_n_n_0_1_1128 (W6 m ρ c (Proc.devRef .tc main_call0_v39))

end Cert.KernelIdeal.Hand.Walk

end
-- ==== Proof.WalkAgg1.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.WalkCnt
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The mean of the messages over the edges into each node. -/
theorem at9_agg (c : Dev nD) : W9 m ρ c (Proc.devRef .tc main_call0_v56) = Host.divf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (Dst m c)) (W8 m ρ c (Proc.devRef .tc main_call0_v51))) (broadcastInDim S50000x128 ![0, 1] bcast_S50000x1_S50000x128_0_1 (Cnt m c)) := by
  show StableHlo.after hostOps4 (W8 m ρ c) (Proc.devRef .tc main_call0_v56) = _
  after_results_simp
  simp only [TRef.toBuf, TRef.ofBuf, cast_eq, (from1_8 m ρ c main_call0_v3 (by decide)).trans (at1_dst m ρ c), (from3_8 m ρ c main_call0_v11 (by decide)).trans (at3_cnt m ρ c)]

end Cert.KernelIdeal.Hand.Walk

end
-- ==== Proof.RegMsg3.lean ====
import proofs.«406442_j73220602462590_1_alg».proof.Proof.Gen.KernelIdeal.Frame
import proofs.«406442_j73220602462590_1_alg».proof.Proof.PayMsg
import Idealize.ShloMosaic.Lib.Pipeline.Value
import Idealize.ShloMosaic.Lib.ValueIdx

set_option maxRecDepth 16384

noncomputable section

namespace Cert.KernelIdeal.Hand.Msg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a <;> rfl

abbrev G3 (c : Dev nD) : Vec Ideal S600000x128 .f32 :=
  MeshGnn.dense (MeshGnn.dense2 (V c main_call0_v50) (V c main_call0_v41) (V c main_arg2) (V c main_call0_v43) (V c main_call0_v45)) (V c main_call0_v47) (V c main_call0_v49)

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

def rowAt3 (t : Fin cfg3.N) (r : Fin 6000) : Fin 600000 :=
  ⟨t.val * 6000 + r.val, by have h : t.val < 100 := t.isLt.trans_eq N_3; have := r.isLt; omega⟩

theorem blk3_0_apply (c : Dev nD) (t : Fin cfg3.N) (r : Fin 6000) (q : Fin 128) :
    (iblk3 V c 0 t : Vec Ideal S6000x128 .f32) (ix2 r q) = (V c main_call0_v50 : Vec Ideal S600000x128 .f32) (ix2 (rowAt3 t r) q) := by
  obtain ⟨e0, e1, -⟩ := idx_facts3 t
  unfold iblk3
  rw [View.read_apply]
  show V c main_call0_v50 _ = V c main_call0_v50 _
  congr 1
  funext a
  apply Fin.ext
  match a with
  | ⟨0, _⟩ => show win3_0.index t (0 : Fin 2) * 6000 + 1 * r.val = t.val * 6000 + r.val; rw [e0]; omega
  | ⟨1, _⟩ => show win3_0.index t (1 : Fin 2) * 128 + 1 * q.val = q.val; rw [e1]; omega

theorem blk3_1_apply (c : Dev nD) (t : Fin cfg3.N) (r : Fin 6000) (q : Fin 4) :
    (iblk3 V c 1 t : Vec Ideal S6000x4 .f32) (ix2 r q) = (V c main_arg2 : Vec Ideal S600000x4 .f32) (ix2 (rowAt3 t r) q) := by
  obtain ⟨-, -, e0, e1, -⟩ := idx_facts3 t
  unfold iblk3
  rw [View.read_apply]
  show V c main_arg2 _ = V c main_arg2 _
  congr 1
  funext a
  apply Fin.ext
  match a with
  | ⟨0, _⟩ => show win3_1.index t (0 : Fin 2) * 6000 + 1 * r.val = t.val * 6000 + r.val; rw [e0]; omega
  | ⟨1, _⟩ => show win3_1.index t (1 : Fin 2) * 4 + 1 * q.val = q.val; rw [e1]; omega

theorem blk3_2_eq (c : Dev nD) (t : Fin cfg3.N) :
    (iblk3 V c 2 t : Vec Ideal S128x128 .f32) = (V c main_call0_v41 : Vec Ideal S128x128 .f32) := by
  obtain ⟨-, -, -, -, e0, e1, -⟩ := idx_facts3 t
  funext j
  unfold iblk3
  rw [View.read_apply]
  show V c main_call0_v41 _ = V c main_call0_v41 _
  congr 1
  funext a
  apply Fin.ext
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

theorem blk3_3_eq (c : Dev nD) (t : Fin cfg3.N) :
    (iblk3 V c 3 t : Vec Ideal S4x128 .f32) = (V c main_call0_v43 : Vec Ideal S4x128 .f32) := by
  obtain ⟨-, -, -, -, -, -, e0, e1, -⟩ := idx_facts3 t
  funext j
  unfold iblk3
  rw [View.read_apply]
  show V c main_call0_v43 _ = V c main_call0_v43 _
  congr 1
  funext a
  apply Fin.ext
  match a with
  | ⟨0, _⟩ => show win3_3.index t (0 : Fin 2) * 4 + 1 * (j 0).val = (j 0).val; rw [e0]; omega
  | ⟨1, _⟩ => show win3_3.index t (1 : Fin 2) * 128 + 1 * (j 1).val = (j 1).val; rw [e1]; omega

theorem blk3_4_eq (c : Dev nD) (t : Fin cfg3.N) :
    (iblk3 V c 4 t : Vec Ideal S128 .f32) = (V c main_call0_v45 : Vec Ideal S128 .f32) := by
  obtain ⟨-, -, -, -, -, -, -, -, e0, -⟩ := idx_facts3 t
  funext j
  unfold iblk3
  rw [View.read_apply]
  show V c main_call0_v45 _ = V c main_call0_v45 _
  congr 1
  funext a
  apply Fin.ext
  match a with
  | ⟨0, _⟩ => show win3_4.index t (0 : Fin 1) * 128 + 1 * (j 0).val = (j 0).val; rw [e0]; omega

theorem blk3_5_eq (c : Dev nD) (t : Fin cfg3.N) :
    (iblk3 V c 5 t : Vec Ideal S128x128 .f32) = (V c main_call0_v47 : Vec Ideal S128x128 .f32) := by
  obtain ⟨-, -, -, -, -, -, -, -, -, e0, e1, -⟩ := idx_facts3 t
  funext j
  unfold iblk3
  rw [View.read_apply]
  show V c main_call0_v47 _ = V c main_call0_v47 _
  congr 1
  funext a
  apply Fin.ext
  match a with
  | ⟨0, _⟩ => show win3_5.index t (0 : Fin 2) * 128 + 1 * (j 0).val = (j 0).val; rw [e0]; omega
  | ⟨1, _⟩ => show win3_5.index t (1 : Fin 2) * 128 + 1 * (j 1).val = (j 1).val; rw [e1]; omega

theorem blk3_6_eq (c : Dev nD) (t : Fin cfg3.N) :
    (iblk3 V c 6 t : Vec Ideal S128 .f32) = (V c main_call0_v49 : Vec Ideal S128 .f32) := by
  obtain ⟨-, -, -, -, -, -, -, -, -, -, -, e0, -⟩ := idx_facts3 t
  funext j
  unfold iblk3
  rw [View.read_apply]
  show V c main_call0_v49 _ = V c main_call0_v49 _
  congr 1
  funext a
  apply Fin.ext
  match a with
  | ⟨0, _⟩ => show win3_6.index t (0 : Fin 1) * 128 + 1 * (j 0).val = (j 0).val; rw [e0]; omega

theorem block_value3 (c : Dev nD) (t : Fin cfg3.N) (j : S6000x128.Idx) (i : S600000x128.Idx)
    (h0 : (i 0).val = t.val * 6000 + (j 0).val) (h1 : (i 1).val = (j 1).val) :
    MeshGnn.dense (MeshGnn.dense2 (iblk3 V c 0 t : Vec Ideal S6000x128 .f32) (iblk3 V c 2 t : Vec Ideal S128x128 .f32)
        (iblk3 V c 1 t : Vec Ideal S6000x4 .f32) (iblk3 V c 3 t : Vec Ideal S4x128 .f32) (iblk3 V c 4 t : Vec Ideal S128 .f32))
      (iblk3 V c 5 t : Vec Ideal S128x128 .f32) (iblk3 V c 6 t : Vec Ideal S128 .f32) j = G3 V c i := by
  obtain ⟨p, q, rfl⟩ : ∃ (p : Fin 6000) (q : Fin 128), j = ix2 p q := ⟨_, _, eq_ix2 j⟩
  have hi : i = ix2 (rowAt3 t p) q := funext fun a => Fin.ext (by
    match a with
    | ⟨0, _⟩ => exact h0
    | ⟨1, _⟩ => exact h1)
  rw [hi, blk3_2_eq V c t, blk3_3_eq V c t, blk3_4_eq V c t, blk3_5_eq V c t, blk3_6_eq V c t]
  exact MeshGnn.dense_rows _ _ (rowAt3 t)
    (fun r k => MeshGnn.dense2_rows _ _ _ _ (rowAt3 t) (fun r' k' => blk3_0_apply V c t r' k') (fun r' k' => blk3_1_apply V c t r' k') _ _ _ r k)
    _ _ p q

theorem flushed_eq3 (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  unfold out3_7
  rw [View.canon_unit_zero hz2_3]
  simp only [View.ld_unit_zero (S := S6000x128) hz2_3, View.ld_unit_zero (S := S6000x4) hz2_3, View.ld_unit_zero (S := S128x128) hz2_3, View.ld_unit_zero (S := S4x128) hz2_3, View.ld_unit_zero (S := S128) hz1_3]
  rw [pay3]
  obtain ⟨-, -, -, -, -, -, -, -, -, -, -, -, e0, e1⟩ := idx_facts3 t
  funext j
  rw [View.read_apply]
  refine block_value3 V c t _ _ ?_ ?_
  · show win3_7.index t (0 : Fin 2) * 6000 + 1 * (j 0).val = t.val * 6000 + (j 0).val
    rw [e0]; omega
  · show win3_7.index t (1 : Fin 2) * 128 + 1 * (j 1).val = (j 1).val
    rw [e1]; omega

theorem mem_blk3 (t : Fin cfg3.N) (i : S600000x128.Idx) :
    i ∈ ((cfg3.win 7).blk t).view.set ↔ ∀ a : Fin 2, win3_7.index t a * S6000x128.size a ≤ (i a).val ∧ (i a).val < win3_7.index t a * S6000x128.size a + S6000x128.size a := by
  show i ∈ ((View.whole main_call0_v51).slice (win3_7.rect t)).set ↔ _
  rw [View.set_slice_whole, Rect.mem_set_unit]
  exact Iff.rfl

theorem cover3 (i : S600000x128.Idx) : ∃ t : Fin cfg3.N, (cfg3.win 7).flush t = true ∧ i ∈ ((cfg3.win 7).blk t).view.set := by
  have hi0 : (i 0).val < 600000 := (i 0).isLt
  have hi1 : (i 1).val < 128 := (i 1).isLt
  obtain ⟨t, ht⟩ : ∃ t : Fin cfg3.N, t.val = (i 0).val / 6000 :=
    ⟨⟨(i 0).val / 6000, by rw [show cfg3.N = 100 from N_3]; omega⟩, rfl⟩
  obtain ⟨-, -, -, -, -, -, -, -, -, -, -, -, e0, e1⟩ := idx_facts3 t
  refine ⟨t, flush3_7 t, ?_⟩
  rw [mem_blk3]
  intro a
  match a with
  | ⟨0, _⟩ => show win3_7.index t (0 : Fin 2) * 6000 ≤ (i 0).val ∧ (i 0).val < win3_7.index t (0 : Fin 2) * 6000 + 6000; rw [e0]; omega
  | ⟨1, _⟩ => show win3_7.index t (1 : Fin 2) * 128 ≤ (i 1).val ∧ (i 1).val < win3_7.index t (1 : Fin 2) * 128 + 128; rw [e1]; omega

/-- The array the region leaves is the message network of the whole arrays it found: each block of rows is the same rows of the whole map, and the blocks tile the array. -/
theorem region3_value (c : Dev nD) :
    (Gen.dat3 (F := Ideal) V c).arrAt 7 cfg3.N = MeshGnn.dense (MeshGnn.dense2 (V c main_call0_v50) (V c main_call0_v41) (V c main_arg2) (V c main_call0_v43) (V c main_call0_v45)) (V c main_call0_v47) (V c main_call0_v49) :=
  (Gen.dat3 (F := Ideal) V c).arrAt_eq_of_cover 7 (G3 V c) (fun t _ => flushed_eq3 V c t) cover3

end Cert.KernelIdeal.Hand.Msg

end
-- ==== Proof.RegUpd4.lean ====
import proofs.«406442_j73220602462590_1_alg».proof.Proof.Gen.KernelIdeal.Frame
import proofs.«406442_j73220602462590_1_alg».proof.Proof.PayUpd
import Idealize.ShloMosaic.Lib.Pipeline.Value

noncomputable section

namespace Cert.KernelIdeal.Hand.Upd

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev reg4_G (c : Dev nD) : S50000x128.Idx → EReal :=
  MeshGnn.denseRes (MeshGnn.dense2 (V c main_call0_v39) (V c main_call0_v58) (V c main_call0_v56) (V c main_call0_v60) (V c main_call0_v62)) (V c main_call0_v64) (V c main_call0_v66) (V c main_call0_v39)

theorem reg4_lt (t : Fin cfg4.N) : t.val < 25 := t.isLt.trans_eq N_4

theorem reg4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

theorem reg4_blk0 (c : Dev nD) (t : Fin cfg4.N) (p : Fin 2000) (q : Fin 128) :
    (iblk4 V c 0 t : Vec Ideal S2000x128 .f32) (ix2 p q)
      = (V c main_call0_v39 : S50000x128.Idx → EReal) (ix2 (rowAt t.val (reg4_lt t) p) q) := by
  obtain ⟨e0, e1, -⟩ := reg4_idx t
  unfold iblk4
  rw [View.read_apply]
  show V c main_call0_v39 _ = V c main_call0_v39 _
  congr 1
  funext a
  apply Fin.ext
  match a with
  | ⟨0, _⟩ => show win4_0.index t (0 : Fin 2) * 2000 + 1 * p.val = t.val * 2000 + p.val; rw [e0]; omega
  | ⟨1, _⟩ => show win4_0.index t (1 : Fin 2) * 128 + 1 * q.val = q.val; rw [e1]; omega

theorem reg4_blk1 (c : Dev nD) (t : Fin cfg4.N) (p : Fin 2000) (q : Fin 128) :
    (iblk4 V c 1 t : Vec Ideal S2000x128 .f32) (ix2 p q)
      = (V c main_call0_v56 : S50000x128.Idx → EReal) (ix2 (rowAt t.val (reg4_lt t) p) q) := by
  obtain ⟨-, -, e0, e1, -⟩ := reg4_idx t
  unfold iblk4
  rw [View.read_apply]
  show V c main_call0_v56 _ = V c main_call0_v56 _
  congr 1
  funext a
  apply Fin.ext
  match a with
  | ⟨0, _⟩ => show win4_1.index t (0 : Fin 2) * 2000 + 1 * p.val = t.val * 2000 + p.val; rw [e0]; omega
  | ⟨1, _⟩ => show win4_1.index t (1 : Fin 2) * 128 + 1 * q.val = q.val; rw [e1]; omega

theorem reg4_blk2 (c : Dev nD) (t : Fin cfg4.N) :
    (iblk4 V c 2 t : Vec Ideal S128x128 .f32) = (V c main_call0_v58 : S128x128.Idx → EReal) := by
  obtain ⟨-, -, -, -, e0, e1, -⟩ := reg4_idx t
  funext y
  unfold iblk4
  rw [View.read_apply]
  show V c main_call0_v58 _ = V c main_call0_v58 y
  congr 1
  funext a
  apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

theorem reg4_blk3 (c : Dev nD) (t : Fin cfg4.N) :
    (iblk4 V c 3 t : Vec Ideal S128x128 .f32) = (V c main_call0_v60 : S128x128.Idx → EReal) := by
  obtain ⟨-, -, -, -, -, -, e0, e1, -⟩ := reg4_idx t
  funext y
  unfold iblk4
  rw [View.read_apply]
  show V c main_call0_v60 _ = V c main_call0_v60 y
  congr 1
  funext a
  apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

theorem reg4_blk4 (c : Dev nD) (t : Fin cfg4.N) :
    (iblk4 V c 4 t : Vec Ideal S128 .f32) = (V c main_call0_v62 : S128.Idx → EReal) := by
  obtain ⟨-, -, -, -, -, -, -, -, e0, -⟩ := reg4_idx t
  funext y
  unfold iblk4
  rw [View.read_apply]
  show V c main_call0_v62 _ = V c main_call0_v62 y
  congr 1
  funext a
  apply Fin.ext
  match a with
  | ⟨0, _⟩ => show win4_4.index t (0 : Fin 1) * 128 + 1 * (y 0).val = (y 0).val; rw [e0]; omega

theorem reg4_blk5 (c : Dev nD) (t : Fin cfg4.N) :
    (iblk4 V c 5 t : Vec Ideal S128x128 .f32) = (V c main_call0_v64 : S128x128.Idx → EReal) := by
  obtain ⟨-, -, -, -, -, -, -, -, -, e0, e1, -⟩ := reg4_idx t
  funext y
  unfold iblk4
  rw [View.read_apply]
  show V c main_call0_v64 _ = V c main_call0_v64 y
  congr 1
  funext a
  apply Fin.ext
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

theorem reg4_blk6 (c : Dev nD) (t : Fin cfg4.N) :
    (iblk4 V c 6 t : Vec Ideal S128 .f32) = (V c main_call0_v66 : S128.Idx → EReal) := by
  obtain ⟨-, -, -, -, -, -, -, -, -, -, -, e0, -⟩ := reg4_idx t
  funext y
  unfold iblk4
  rw [View.read_apply]
  show V c main_call0_v66 _ = V c main_call0_v66 y
  congr 1
  funext a
  apply Fin.ext
  match a with
  | ⟨0, _⟩ => show win4_6.index t (0 : Fin 1) * 128 + 1 * (y 0).val = (y 0).val; rw [e0]; omega

theorem reg4_block (c : Dev nD) (t : Fin cfg4.N) (j : S2000x128.Idx) (i : S50000x128.Idx)
    (h0 : (i 0).val = t.val * 2000 + (j 0).val) (h1 : (i 1).val = (j 1).val) :
    MeshGnn.denseRes (MeshGnn.dense2 (iblk4 V c 0 t : Vec Ideal S2000x128 .f32) (iblk4 V c 2 t : Vec Ideal S128x128 .f32)
        (iblk4 V c 1 t : Vec Ideal S2000x128 .f32) (iblk4 V c 3 t : Vec Ideal S128x128 .f32) (iblk4 V c 4 t : Vec Ideal S128 .f32))
      (iblk4 V c 5 t : Vec Ideal S128x128 .f32) (iblk4 V c 6 t : Vec Ideal S128 .f32) (iblk4 V c 0 t : Vec Ideal S2000x128 .f32) j
      = reg4_G V c i := by
  obtain ⟨p, q, rfl⟩ : ∃ (p : Fin 2000) (q : Fin 128), j = ix2 p q := ⟨_, _, eq_ix2 j⟩
  have hi : i = ix2 (rowAt t.val (reg4_lt t) p) q := funext fun a => Fin.ext (by
    match a with
    | ⟨0, _⟩ => exact h0
    | ⟨1, _⟩ => exact h1)
  rw [hi, reg4_blk2 V c t, reg4_blk3 V c t, reg4_blk4 V c t, reg4_blk5 V c t, reg4_blk6 V c t]
  exact upd_rows t.val (reg4_lt t) _ _ _ _ (reg4_blk0 V c t) (reg4_blk1 V c t) _ _ _ _ _ p q

theorem reg4_flushed (c : Dev nD) (t : Fin cfg4.N) :
    (dat4 V c).flushed 7 t = ((cfg4.win 7).blk t).view.read (Elt Ideal) (reg4_G V c) := by
  show (cfg4.win 7).cut (grid4.coords t) ((dat4 V c).after 7 t) = _
  rw [after4_7]
  unfold out4_7
  rw [View.canon_unit_zero zero2]
  simp only [View.ld_unit_zero (S := S2000x128) zero2, View.ld_unit_zero (S := S128x128) zero2, View.ld_unit_zero (S := S128) zero1]
  rw [pay4]
  obtain ⟨-, -, -, -, -, -, -, -, -, -, -, -, e0, e1⟩ := reg4_idx t
  funext j
  rw [View.read_apply]
  refine reg4_block V c t _ _ ?_ ?_
  · show win4_7.index t (0 : Fin 2) * 2000 + 1 * (j 0).val = t.val * 2000 + (j 0).val
    rw [e0]; omega
  · show win4_7.index t (1 : Fin 2) * 128 + 1 * (j 1).val = (j 1).val
    rw [e1]; omega

theorem reg4_mem (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_call0_v67).slice (win4_7.rect t)).set ↔ _
  rw [View.set_slice_whole, Rect.mem_set_unit]
  exact Iff.rfl

theorem reg4_cover (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨-, -, -, -, -, -, -, -, -, -, -, -, e0, e1⟩ := reg4_idx t
  have ht : t.val = (i 0).val / 2000 := rfl
  refine ⟨t, flush4_7 t, ?_⟩
  rw [reg4_mem]
  intro a
  match a with
  | ⟨0, _⟩ => show win4_7.index t (0 : Fin 2) * 2000 ≤ (i 0).val ∧ (i 0).val < win4_7.index t (0 : Fin 2) * 2000 + 2000; rw [e0, ht]; omega
  | ⟨1, _⟩ => show win4_7.index t (1 : Fin 2) * 128 ≤ (i 1).val ∧ (i 1).val < win4_7.index t (1 : Fin 2) * 128 + 128; rw [e1]; omega

/-- The array the region leaves is the update network of the whole arrays it found: each block of rows is the same rows of the whole map, and the blocks tile the array. -/
theorem region4_value (c : Dev nD) :
    (Gen.dat4 (F := Ideal) V c).arrAt 7 cfg4.N = MeshGnn.denseRes (MeshGnn.dense2 (V c main_call0_v39) (V c main_call0_v58) (V c main_call0_v56) (V c main_call0_v60) (V c main_call0_v62)) (V c main_call0_v64) (V c main_call0_v66) (V c main_call0_v39) :=
  (dat4 V c).arrAt_eq_of_cover 7 (reg4_G V c) (fun t _ => reg4_flushed V c t) reg4_cover

end Cert.KernelIdeal.Hand.Upd

end
-- ==== Proof.RefMsg1.lean ====
import proofs.«406442_j73220602462590_1_alg».proof.Proof.RefRead
import proofs.«406442_j73220602462590_1_alg».proof.Proof.Spec
import Idealize.ShloMosaic.Lib.Pipeline.Value
import Idealize.ShloMosaic.Lib.ValueIdx
import Idealize.ShloMosaic.PureOps.Ideal.Laws

noncomputable section

open scoped BigOperators
open Cert.ReferenceIdeal Cert.ReferenceIdeal.Gen Cert.ReferenceIdeal.Read Idealize.ShloMosaic Idealize.ShloMosaic.ValueIdx

namespace Cert.ReferenceIdeal.Hand

variable (x0 : (⟨S50000x16, .f32⟩ : BufTy).Contents (Elt Ideal)) (x1 : (⟨S2x600000, .i32⟩ : BufTy).Contents (Elt Ideal)) (x2 : (⟨S600000x4, .f32⟩ : BufTy).Contents (Elt Ideal))
  (x3 : (⟨S16x128, .f32⟩ : BufTy).Contents (Elt Ideal)) (x4 : (⟨S128, .f32⟩ : BufTy).Contents (Elt Ideal)) (x5 : (⟨S4x132x128, .f32⟩ : BufTy).Contents (Elt Ideal))
  (x6 : (⟨S4x128, .f32⟩ : BufTy).Contents (Elt Ideal)) (x7 : (⟨S4x128x128, .f32⟩ : BufTy).Contents (Elt Ideal)) (x8 : (⟨S4x128, .f32⟩ : BufTy).Contents (Elt Ideal))
  (x9 : (⟨S4x256x128, .f32⟩ : BufTy).Contents (Elt Ideal)) (x10 : (⟨S4x128, .f32⟩ : BufTy).Contents (Elt Ideal)) (x11 : (⟨S4x128x128, .f32⟩ : BufTy).Contents (Elt Ideal))
  (x12 : (⟨S4x128, .f32⟩ : BufTy).Contents (Elt Ideal))

theorem cat_msg1 :
    val_main_v74 (F := Ideal) x0 x1 x2 x3 x4 x5 x6 x7 x8 x9 x10 x11 x12
      = MeshGnn.beside (n := 600000) (a := 128) (b := 4) (val_main_v73 (F := Ideal) x0 x1 x2 x3 x4 x5 x6 x7 x8 x9 x10 x11 x12) x2 := by
  funext i
  unfold val_main_v74
  generalize val_main_v73 (F := Ideal) x0 x1 x2 x3 x4 x5 x6 x7 x8 x9 x10 x11 x12 = g
  unfold MeshGnn.beside
  by_cases h : (i 1).val < 128
  · rw [dif_pos h]
    exact concatenate_pair_apply_left 1 g x2 concatenates_S600000x128_S600000x4_S600000x132_d1 i rfl _ (fun b => by
      match b with
      | ⟨0, _⟩ => rfl
      | ⟨1, _⟩ => rfl)
  · rw [dif_neg h]
    exact concatenate_pair_apply_right 1 g x2 concatenates_S600000x128_S600000x4_S600000x132_d1 i rfl rfl _
      (fun b hb => by
        match b with
        | ⟨0, _⟩ => rfl
        | ⟨1, _⟩ => exact absurd rfl hb)
      (by show (i 1).val - 128 + 128 = (i 1).val; omega)

theorem w1_msg1 (q : Fin 132) (c : Fin 128) :
    val_main_v76 (F := Ideal) x5 (ix2 q c) = x5 (ix3 (1 : Fin 4) q c) := by
  rw [val_main_v76_apply, val_main_v75_apply]
  refine congrArg x5 (funext fun a => ?_)
  have hq := q.isLt
  have hc := c.isLt
  match a with
  | ⟨0, _⟩ => rfl
  | ⟨1, _⟩ => exact Fin.ext (by show (q.val * 128 + c.val) / 128 % 132 = q.val; omega)
  | ⟨2, _⟩ => exact Fin.ext (by show (q.val * 128 + c.val) % 128 = c.val; omega)

theorem b1_msg1 (r : Fin 600000) (c : Fin 128) :
    val_main_v81 (F := Ideal) x6 (ix2 r c) = MeshGnn.rowOf x6 (1 : Fin 4) (ix1 c) := by
  rw [val_main_v81_apply, val_main_v80_apply, val_main_v79_apply, val_main_v78_apply]
  unfold MeshGnn.rowOf
  refine congrArg x6 (funext fun a => ?_)
  have hc := c.isLt
  match a with
  | ⟨0, _⟩ => rfl
  | ⟨1, _⟩ => exact Fin.ext (by show c.val % 128 = c.val; omega)

theorem zero1_msg1 (i : S600000x128.Idx) : val_main_call5_v0 (F := Ideal) i = 0 := by
  rw [val_main_call5_v0_apply, val_main_call5_cst_apply]
  exact Ideal.ofBits_zero_f32

/-- The contraction over the joined 132 columns splits into the node part (rows 0 to 127 of the weights) and the edge part (rows 128 to 131). -/
theorem dot1_msg1 (g : MeshGnn.A2 600000 128) (r : Fin 600000) (c : Fin 128) :
    (∑ k : Fin 132, MeshGnn.beside (n := 600000) (a := 128) (b := 4) g x2 (lidx_main_v77 (ix2 r c) k)
        * val_main_v76 (F := Ideal) x5 (ridx_main_v77 (ix2 r c) k))
      = (∑ q : Fin 128, g (ix2 r q) * MeshGnn.slab x5 (1 : Fin 4) 0 128 (by decide) (ix2 q c))
        + ∑ q : Fin 4, x2 (ix2 r q) * MeshGnn.slab x5 (1 : Fin 4) 128 4 (by decide) (ix2 q c) := by
  have hl : ∀ k : Fin 132, lidx_main_v77 (ix2 r c) k = ix2 r k := fun k => funext fun a => by
    match a with
    | ⟨0, _⟩ => rfl
    | ⟨1, _⟩ => rfl
  have hr : ∀ k : Fin 132, ridx_main_v77 (ix2 r c) k = ix2 k c := fun k => funext fun a => by
    match a with
    | ⟨0, _⟩ => rfl
    | ⟨1, _⟩ => rfl
  have e : (∑ k : Fin 132, MeshGnn.beside (n := 600000) (a := 128) (b := 4) g x2 (lidx_main_v77 (ix2 r c) k)
        * val_main_v76 (F := Ideal) x5 (ridx_main_v77 (ix2 r c) k))
      = ∑ k : Fin 132, MeshGnn.beside (n := 600000) (a := 128) (b := 4) g x2 (ix2 r k)
        * x5 (ix3 (1 : Fin 4) k c) :=
    Finset.sum_congr rfl fun k _ => by rw [hl k, hr k, w1_msg1]
  refine e.trans ?_
  refine (MeshGnn.dot_beside (n := 600000) (a := 128) (b := 4) (p := 128) g x2
    (fun i => x5 (ix3 (1 : Fin 4) (MeshGnn.row i) (MeshGnn.col i))) r c).trans ?_
  unfold MeshGnn.dot MeshGnn.slab
  congr 1

theorem hid_msg1 :
    val_main_v83 (F := Ideal) x0 x1 x2 x3 x4 x5 x6 x7 x8 x9 x10 x11 x12
      = MeshGnn.dense2 (val_main_v73 (F := Ideal) x0 x1 x2 x3 x4 x5 x6 x7 x8 x9 x10 x11 x12) (MeshGnn.slab x5 1 0 128 (by decide)) x2
          (MeshGnn.slab x5 1 128 4 (by decide)) (MeshGnn.rowOf x6 1) := by
  funext i
  obtain ⟨r, c, rfl⟩ : ∃ (r : Fin 600000) (c : Fin 128), i = ix2 r c := ⟨_, _, eq_ix2 i⟩
  rewrite [MeshGnn.dense2_apply, val_main_v83_apply, val_main_v82_apply, val_main_v77_apply, zero1_msg1, b1_msg1,
    cat_msg1, dot1_msg1]
  rfl

theorem w2_msg1 (q : Fin 128) (c : Fin 128) :
    val_main_v85 (F := Ideal) x7 (ix2 q c) = MeshGnn.slab x7 (1 : Fin 4) 0 128 (by decide) (ix2 q c) := by
  rw [val_main_v85_apply, val_main_v84_apply]
  unfold MeshGnn.slab
  refine congrArg x7 (funext fun a => ?_)
  have hq := q.isLt
  have hc := c.isLt
  match a with
  | ⟨0, _⟩ => rfl
  | ⟨1, _⟩ => exact Fin.ext (by show (q.val * 128 + c.val) / 128 % 128 = 0 + q.val; omega)
  | ⟨2, _⟩ => exact Fin.ext (by show (q.val * 128 + c.val) % 128 = c.val; omega)

theorem b2_msg1 (r : Fin 600000) (c : Fin 128) :
    val_main_v90 (F := Ideal) x8 (ix2 r c) = MeshGnn.rowOf x8 (1 : Fin 4) (ix1 c) := by
  rw [val_main_v90_apply, val_main_v89_apply, val_main_v88_apply, val_main_v87_apply]
  unfold MeshGnn.rowOf
  refine congrArg x8 (funext fun a => ?_)
  have hc := c.isLt
  match a with
  | ⟨0, _⟩ => rfl
  | ⟨1, _⟩ => exact Fin.ext (by show c.val % 128 = c.val; omega)

theorem zero2_msg1 (i : S600000x128.Idx) : val_main_call6_v0 (F := Ideal) i = 0 := by
  rw [val_main_call6_v0_apply, val_main_call6_cst_apply]
  exact Ideal.ofBits_zero_f32

theorem dot2_msg1 (H : MeshGnn.A2 600000 128) (r : Fin 600000) (c : Fin 128) :
    (∑ k : Fin 128, H (lidx_main_v86 (ix2 r c) k) * val_main_v85 (F := Ideal) x7 (ridx_main_v86 (ix2 r c) k))
      = ∑ q : Fin 128, H (ix2 r q) * MeshGnn.slab x7 (1 : Fin 4) 0 128 (by decide) (ix2 q c) := by
  have hl : ∀ k : Fin 128, lidx_main_v86 (ix2 r c) k = ix2 r k := fun k => funext fun a => by
    match a with
    | ⟨0, _⟩ => rfl
    | ⟨1, _⟩ => rfl
  have hr : ∀ k : Fin 128, ridx_main_v86 (ix2 r c) k = ix2 k c := fun k => funext fun a => by
    match a with
    | ⟨0, _⟩ => rfl
    | ⟨1, _⟩ => rfl
  exact Finset.sum_congr rfl fun k _ => by rw [hl k, hr k, w2_msg1]

/-- The reference's message network: two dense layers, the first on the gathered node rows beside the edge attributes. -/
theorem ref_msg1 :
    val_main_v92 (F := Ideal) x0 x1 x2 x3 x4 x5 x6 x7 x8 x9 x10 x11 x12
      = MeshGnn.dense
          (MeshGnn.dense2 (val_main_v73 (F := Ideal) x0 x1 x2 x3 x4 x5 x6 x7 x8 x9 x10 x11 x12) (MeshGnn.slab x5 1 0 128 (by decide)) x2
            (MeshGnn.slab x5 1 128 4 (by decide)) (MeshGnn.rowOf x6 1))
          (MeshGnn.slab x7 1 0 128 (by decide)) (MeshGnn.rowOf x8 1) := by
  funext i
  obtain ⟨r, c, rfl⟩ : ∃ (r : Fin 600000) (c : Fin 128), i = ix2 r c := ⟨_, _, eq_ix2 i⟩
  rewrite [MeshGnn.dense_apply, val_main_v92_apply, val_main_v91_apply, val_main_v86_apply, zero2_msg1, b2_msg1,
    hid_msg1, dot2_msg1]
  rfl

end Cert.ReferenceIdeal.Hand

end
-- ==== Proof.RefUpd1.lean ====
import proofs.«406442_j73220602462590_1_alg».proof.Proof.RefRead
import proofs.«406442_j73220602462590_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

theorem upd1_w1 (x9 : (⟨S4x256x128, .f32⟩ : BufTy).Contents (Elt Ideal)) (q : Fin 256) (c : Fin 128) :
    val_main_v100 (F := Ideal) x9 (ix2 q c) = x9 (ix3 (1 : Fin 4) q c) := by
  rw [val_main_v100_apply, val_main_v99_apply]
  congr 1
  funext a
  have hq := q.isLt
  have hc := c.isLt
  match a with
  | ⟨0, _⟩ => exact Fin.ext rfl
  | ⟨1, _⟩ => exact Fin.ext (by show (q.val * 128 + c.val) / 128 % 256 = q.val; omega)
  | ⟨2, _⟩ => exact Fin.ext (by show (q.val * 128 + c.val) % 128 = c.val; omega)

theorem upd1_b1 (x10 : (⟨S4x128, .f32⟩ : BufTy).Contents (Elt Ideal)) (r : Fin 50000) (c : Fin 128) :
    val_main_v105 (F := Ideal) x10 (ix2 r c) = MeshGnn.rowOf x10 (1 : Fin 4) (ix1 c) := by
  rw [val_main_v105_apply, val_main_v104_apply, val_main_v103_apply, val_main_v102_apply]
  unfold MeshGnn.rowOf
  congr 1
  funext a
  have hc := c.isLt
  match a with
  | ⟨0, _⟩ => exact Fin.ext rfl
  | ⟨1, _⟩ => exact Fin.ext (by show c.val % 128 = c.val; omega)

theorem upd1_w2 (x11 : (⟨S4x128x128, .f32⟩ : BufTy).Contents (Elt Ideal)) (q : Fin 128) (c : Fin 128) :
    val_main_v109 (F := Ideal) x11 (ix2 q c) = MeshGnn.slab x11 (1 : Fin 4) 0 128 (by decide) (ix2 q c) := by
  rw [val_main_v109_apply, val_main_v108_apply]
  unfold MeshGnn.slab
  congr 1
  funext a
  have hq := q.isLt
  have hc := c.isLt
  match a with
  | ⟨0, _⟩ => exact Fin.ext rfl
  | ⟨1, _⟩ => exact Fin.ext (by show (q.val * 128 + c.val) / 128 % 128 = 0 + q.val; omega)
  | ⟨2, _⟩ => exact Fin.ext (by show (q.val * 128 + c.val) % 128 = c.val; omega)

theorem upd1_b2 (x12 : (⟨S4x128, .f32⟩ : BufTy).Contents (Elt Ideal)) (r : Fin 50000) (c : Fin 128) :
    val_main_v114 (F := Ideal) x12 (ix2 r c) = MeshGnn.rowOf x12 (1 : Fin 4) (ix1 c) := by
  rw [val_main_v114_apply, val_main_v113_apply, val_main_v112_apply, val_main_v111_apply]
  unfold MeshGnn.rowOf
  congr 1
  funext a
  have hc := c.isLt
  match a with
  | ⟨0, _⟩ => exact Fin.ext rfl
  | ⟨1, _⟩ => exact Fin.ext (by show c.val % 128 = c.val; omega)

theorem upd1_slab_lo (x9 : (⟨S4x256x128, .f32⟩ : BufTy).Contents (Elt Ideal)) (q : Fin 128) (c : Fin 128) :
    MeshGnn.slab x9 (1 : Fin 4) 0 128 (by decide) (ix2 q c) = x9 (ix3 (1 : Fin 4) ⟨q.val, by omega⟩ c) := by
  unfold MeshGnn.slab
  refine congrArg x9 (funext fun a => ?_)
  match a with
  | ⟨0, _⟩ => rfl
  | ⟨1, _⟩ => exact Fin.ext (by show 0 + q.val = q.val; omega)
  | ⟨2, _⟩ => rfl

theorem upd1_slab_hi (x9 : (⟨S4x256x128, .f32⟩ : BufTy).Contents (Elt Ideal)) (q : Fin 128) (c : Fin 128) :
    MeshGnn.slab x9 (1 : Fin 4) 128 128 (by decide) (ix2 q c) = x9 (ix3 (1 : Fin 4) ⟨128 + q.val, by omega⟩ c) := rfl

theorem upd1_sum_halves (f : Fin 256 → EReal) :
    ∑ k : Fin 256, f k = (∑ q : Fin 128, f ⟨q.val, by omega⟩) + ∑ q : Fin 128, f ⟨128 + q.val, by omega⟩ :=
  Fin.sum_univ_add (a := 128) (b := 128) f

theorem upd1_cat_left (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : k.val = q.val) :
    val_main_v98 (F := Ideal) x0 x1 x2 x3 x4 x5 x6 x7 x8 x9 x10 x11 x12 (ix2 r k) = val_main_v66 (F := Ideal) x0 x1 x2 x3 x4 x5 x6 x7 x8 x9 x10 x11 x12 (ix2 r q) := by
  unfold val_main_v98
  refine concatenate_pair_apply_left (t := S50000x256) (s₁ := S50000x128) (s₂ := S50000x128) 1 _ _ _ _ rfl _ ?_
  intro b
  match b with
  | ⟨0, _⟩ => rfl
  | ⟨1, _⟩ => exact hk.symm

theorem upd1_cat_right (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : q.val + 128 = k.val) :
    val_main_v98 (F := Ideal) x0 x1 x2 x3 x4 x5 x6 x7 x8 x9 x10 x11 x12 (ix2 r k) = val_main_v97 (F := Ideal) x0 x1 x2 x3 x4 x5 x6 x7 x8 x9 x10 x11 x12 (ix2 r q) := by
  unfold val_main_v98
  refine concatenate_pair_apply_right (t := S50000x256) (s₁ := S50000x128) (s₂ := S50000x128) 1 _ _ _ _ rfl rfl _ ?_ ?_
  · intro b hb
    match b with
    | ⟨0, _⟩ => rfl
    | ⟨1, _⟩ => exact absurd rfl hb
  · exact hk

theorem ref_upd1_hid (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v107 (F := Ideal) x0 x1 x2 x3 x4 x5 x6 x7 x8 x9 x10 x11 x12
      = MeshGnn.dense2 (val_main_v66 (F := Ideal) x0 x1 x2 x3 x4 x5 x6 x7 x8 x9 x10 x11 x12) (MeshGnn.slab x9 (1 : Fin 4) 0 128 (by decide))
          (val_main_v97 (F := Ideal) x0 x1 x2 x3 x4 x5 x6 x7 x8 x9 x10 x11 x12) (MeshGnn.slab x9 (1 : Fin 4) 128 128 (by decide))
          (MeshGnn.rowOf x10 (1 : Fin 4)) := by
  funext i
  obtain ⟨r, c, rfl⟩ : ∃ (r : Fin 50000) (c : Fin 128), i = ix2 r c := ⟨_, _, eq_ix2 i⟩
  rw [val_main_v107_apply, val_main_v106_apply, val_main_v101_apply, upd1_b1, val_main_call7_v0_apply,
    val_main_call7_cst_apply, MeshGnn.dense2_apply]
  have el : ∀ k : Fin 256, lidx_main_v101 (ix2 r c) k = ix2 r k := fun k =>
    funext fun a => Fin.ext (by match a with | ⟨0, _⟩ => rfl | ⟨1, _⟩ => rfl)
  have er : ∀ k : Fin 256, ridx_main_v101 (ix2 r c) k = ix2 k c := fun k =>
    funext fun a => Fin.ext (by match a with | ⟨0, _⟩ => rfl | ⟨1, _⟩ => rfl)
  simp only [el, er, upd1_w1, Ideal.maximumf_def, Ideal.addf_def, Ideal.ofBits_def, Ideal.ofBits_zero_f32]

  have hsum : (∑ k : Fin 256, val_main_v98 (F := Ideal) x0 x1 x2 x3 x4 x5 x6 x7 x8 x9 x10 x11 x12 (ix2 r k) * x9 (ix3 (1 : Fin 4) k c))
      = (∑ q : Fin 128, val_main_v66 (F := Ideal) x0 x1 x2 x3 x4 x5 x6 x7 x8 x9 x10 x11 x12 (ix2 r q) * MeshGnn.slab x9 (1 : Fin 4) 0 128 (by decide) (ix2 q c))
        + ∑ q : Fin 128, val_main_v97 (F := Ideal) x0 x1 x2 x3 x4 x5 x6 x7 x8 x9 x10 x11 x12 (ix2 r q) * MeshGnn.slab x9 (1 : Fin 4) 128 128 (by decide) (ix2 q c) := by
    rw [upd1_sum_halves]
    refine congrArg₂ (· + ·) ?_ ?_
    · refine Finset.sum_congr rfl fun q _ => ?_
      rw [upd1_cat_left x0 x1 x2 x3 x4 x5 x6 x7 x8 x9 x10 x11 x12 r ⟨q.val, by omega⟩ q rfl, upd1_slab_lo]
    · refine Finset.sum_congr rfl fun q _ => ?_
      rw [upd1_cat_right x0 x1 x2 x3 x4 x5 x6 x7 x8 x9 x10 x11 x12 r ⟨128 + q.val, by omega⟩ q (by show q.val + 128 = 128 + q.val; omega), upd1_slab_hi]
  rw [hsum]

/-- The reference's update network: a dense layer on the node features beside the mean, then a dense layer with the residual. -/
theorem ref_upd1 (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v117 (F := Ideal) x0 x1 x2 x3 x4 x5 x6 x7 x8 x9 x10 x11 x12
      = MeshGnn.denseRes
          (MeshGnn.dense2 (val_main_v66 (F := Ideal) x0 x1 x2 x3 x4 x5 x6 x7 x8 x9 x10 x11 x12) (MeshGnn.slab x9 (1 : Fin 4) 0 128 (by decide))
            (val_main_v97 (F := Ideal) x0 x1 x2 x3 x4 x5 x6 x7 x8 x9 x10 x11 x12) (MeshGnn.slab x9 (1 : Fin 4) 128 128 (by decide))
            (MeshGnn.rowOf x10 (1 : Fin 4)))
          (MeshGnn.slab x11 (1 : Fin 4) 0 128 (by decide)) (MeshGnn.rowOf x12 (1 : Fin 4)) (val_main_v66 (F := Ideal) x0 x1 x2 x3 x4 x5 x6 x7 x8 x9 x10 x11 x12) := by
  funext i
  obtain ⟨r, c, rfl⟩ : ∃ (r : Fin 50000) (c : Fin 128), i = ix2 r c := ⟨_, _, eq_ix2 i⟩
  rw [val_main_v117_apply, val_main_v116_apply, val_main_v115_apply, val_main_v110_apply, upd1_b2,
    val_main_call8_v0_apply, val_main_call8_cst_apply, MeshGnn.denseRes_apply, ref_upd1_hid]
  have el : ∀ k : Fin 128, lidx_main_v110 (ix2 r c) k = ix2 r k := fun k =>
    funext fun a => Fin.ext (by match a with | ⟨0, _⟩ => rfl | ⟨1, _⟩ => rfl)
  have er : ∀ k : Fin 128, ridx_main_v110 (ix2 r c) k = ix2 k c := fun k =>
    funext fun a => Fin.ext (by match a with | ⟨0, _⟩ => rfl | ⟨1, _⟩ => rfl)
  simp only [el, er, upd1_w2, Ideal.maximumf_def, Ideal.addf_def, Ideal.ofBits_def, Ideal.ofBits_zero_f32]

end Cert.ReferenceIdeal.Hand

end
-- ==== Proof.WalkLayer1.lean ====
import proofs.«406442_j73220602462590_1_alg».proof.Proof.Gen.KernelIdeal.Frame
import proofs.«406442_j73220602462590_1_alg».proof.Proof.RefRead
import proofs.«406442_j73220602462590_1_alg».proof.Proof.WalkKeep
import proofs.«406442_j73220602462590_1_alg».proof.Proof.WalkDefs
import proofs.«406442_j73220602462590_1_alg».proof.Proof.WalkWts1
import proofs.«406442_j73220602462590_1_alg».proof.Proof.WalkTake1
import proofs.«406442_j73220602462590_1_alg».proof.Proof.WalkAgg1
import proofs.«406442_j73220602462590_1_alg».proof.Proof.WalkBridge
import proofs.«406442_j73220602462590_1_alg».proof.Proof.RegMsg3
import proofs.«406442_j73220602462590_1_alg».proof.Proof.RegUpd4
import proofs.«406442_j73220602462590_1_alg».proof.Proof.RefMsg1
import proofs.«406442_j73220602462590_1_alg».proof.Proof.RefUpd1
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- One message-passing layer along the run: if the node features entering it are the reference's, so are those leaving it. -/
theorem layer1 (hok : SrcOk m) (c : Dev nD)
    (hin : W6 m ρ c (Proc.devRef .tc main_call0_v39) = val_main_v66 (F := Ideal) (A0 m c) (A1 m c) (A2 m c) (A3 m c) (A4 m c) (A5 m c) (A6 m c) (A7 m c) (A8 m c) (A9 m c) (A10 m c) (A11 m c) (A12 m c)) :
    W10 m ρ c (Proc.devRef .tc main_call0_v67) = val_main_v117 (F := Ideal) (A0 m c) (A1 m c) (A2 m c) (A3 m c) (A4 m c) (A5 m c) (A6 m c) (A7 m c) (A8 m c) (A9 m c) (A10 m c) (A11 m c) (A12 m c) := by

  have hs : W7 m ρ c (Proc.devRef .tc main_call0_v50) = val_main_v73 (F := Ideal) (A0 m c) (A1 m c) (A2 m c) (A3 m c) (A4 m c) (A5 m c) (A6 m c) (A7 m c) (A8 m c) (A9 m c) (A10 m c) (A11 m c) (A12 m c) := by
    rw [at7_hsrc m ρ hok c, hin]
    exact gather_eq1 m hok c

  have hm : W8 m ρ c (Proc.devRef .tc main_call0_v51) = val_main_v92 (F := Ideal) (A0 m c) (A1 m c) (A2 m c) (A3 m c) (A4 m c) (A5 m c) (A6 m c) (A7 m c) (A8 m c) (A9 m c) (A10 m c) (A11 m c) (A12 m c) := by
    refine (show W8 m ρ c (Proc.devRef .tc main_call0_v51) = (dat3 (V7 m ρ) c).arrAt 7 cfg3.N from W8_arr m ρ c 7).trans ?_
    rw [Cert.KernelIdeal.Hand.Msg.region3_value (V7 m ρ) c]
    rw [show V7 m ρ c main_call0_v50 = _ from hs, show V7 m ρ c main_call0_v41 = _ from at7_w1a m ρ c,
      show V7 m ρ c main_arg2 = A2 m c from at7 m ρ c main_arg2 (by decide), show V7 m ρ c main_call0_v43 = _ from at7_w1b m ρ c,
      show V7 m ρ c main_call0_v45 = _ from at7_b1 m ρ c, show V7 m ρ c main_call0_v47 = _ from at7_w2 m ρ c,
      show V7 m ρ c main_call0_v49 = _ from at7_b2 m ρ c]
    exact (Cert.ReferenceIdeal.Hand.ref_msg1 (A0 m c) (A1 m c) (A2 m c) (A3 m c) (A4 m c) (A5 m c) (A6 m c) (A7 m c) (A8 m c) (A9 m c) (A10 m c) (A11 m c) (A12 m c)).symm

  have ha : W9 m ρ c (Proc.devRef .tc main_call0_v56) = val_main_v97 (F := Ideal) (A0 m c) (A1 m c) (A2 m c) (A3 m c) (A4 m c) (A5 m c) (A6 m c) (A7 m c) (A8 m c) (A9 m c) (A10 m c) (A11 m c) (A12 m c) := by
    rw [at9_agg m ρ c, hm]
    exact agg_eq1 m c

  have hh : W9 m ρ c (Proc.devRef .tc main_call0_v39) = val_main_v66 (F := Ideal) (A0 m c) (A1 m c) (A2 m c) (A3 m c) (A4 m c) (A5 m c) (A6 m c) (A7 m c) (A8 m c) (A9 m c) (A10 m c) (A11 m c) (A12 m c) :=
    (from6_9 m ρ c main_call0_v39 (by decide)).trans hin
  refine (show W10 m ρ c (Proc.devRef .tc main_call0_v67) = (dat4 (V9 m ρ) c).arrAt 7 cfg4.N from W10_arr m ρ c 7).trans ?_
  rw [Cert.KernelIdeal.Hand.Upd.region4_value (V9 m ρ) c]
  rw [show V9 m ρ c main_call0_v39 = _ from hh, show V9 m ρ c main_call0_v56 = _ from ha,
    show V9 m ρ c main_call0_v58 = _ from at9_wu1h m ρ c, show V9 m ρ c main_call0_v60 = _ from at9_wu1a m ρ c,
    show V9 m ρ c main_call0_v62 = _ from at9_bu1 m ρ c, show V9 m ρ c main_call0_v64 = _ from at9_wu2 m ρ c,
    show V9 m ρ c main_call0_v66 = _ from at9_bu2 m ρ c]
  exact (Cert.ReferenceIdeal.Hand.ref_upd1 (A0 m c) (A1 m c) (A2 m c) (A3 m c) (A4 m c) (A5 m c) (A6 m c) (A7 m c) (A8 m c) (A9 m c) (A10 m c) (A11 m c) (A12 m c)).symm

end Cert.KernelIdeal.Hand.Walk

end
-- ==== Proof.WalkWts2.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.KSlices
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The layer's weights and biases as the run holds them: bands and rows of the stacked parameter arrays. -/
theorem at11_w1a (c : Dev nD) :
    W11 m ρ c (Proc.devRef .tc main_call0_v69) = MeshGnn.slab (A5 m c) 2 0 128 (by decide) := by
  show StableHlo.after hostOps5 (W10 m ρ c) (Proc.devRef .tc main_call0_v69) = _
  after_results_simp
  simp only [TRef.toBuf, TRef.ofBuf, cast_eq, at10 m ρ c main_arg5 (by decide)]
  exact MeshGnn.Slices.slab3_132_top (A5 m c) 2 _ _

theorem at11_w1b (c : Dev nD) :
    W11 m ρ c (Proc.devRef .tc main_call0_v71) = MeshGnn.slab (A5 m c) 2 128 4 (by decide) := by
  show StableHlo.after hostOps5 (W10 m ρ c) (Proc.devRef .tc main_call0_v71) = _
  after_results_simp
  simp only [TRef.toBuf, TRef.ofBuf, cast_eq, at10 m ρ c main_arg5 (by decide)]
  exact MeshGnn.Slices.slab3_132_bot (A5 m c) 2 _ _

theorem at11_b1 (c : Dev nD) :
    W11 m ρ c (Proc.devRef .tc main_call0_v73) = MeshGnn.rowOf (A6 m c) 2 := by
  show StableHlo.after hostOps5 (W10 m ρ c) (Proc.devRef .tc main_call0_v73) = _
  after_results_simp
  simp only [TRef.toBuf, TRef.ofBuf, cast_eq, at10 m ρ c main_arg6 (by decide)]
  exact MeshGnn.Slices.row2 (A6 m c) 2 _ _

theorem at11_w2 (c : Dev nD) :
    W11 m ρ c (Proc.devRef .tc main_call0_v75) = MeshGnn.slab (A7 m c) 2 0 128 (by decide) := by
  show StableHlo.after hostOps5 (W10 m ρ c) (Proc.devRef .tc main_call0_v75) = _
  after_results_simp
  simp only [TRef.toBuf, TRef.ofBuf, cast_eq, at10 m ρ c main_arg7 (by decide)]
  exact MeshGnn.Slices.slab3_128 (A7 m c) 2 _ _

theorem at11_b2 (c : Dev nD) :
    W11 m ρ c (Proc.devRef .tc main_call0_v77) = MeshGnn.rowOf (A8 m c) 2 := by
  show StableHlo.after hostOps5 (W10 m ρ c) (Proc.devRef .tc main_call0_v77) = _
  after_results_simp
  simp only [TRef.toBuf, TRef.ofBuf, cast_eq, at10 m ρ c main_arg8 (by decide)]
  exact MeshGnn.Slices.row2 (A8 m c) 2 _ _

theorem at13_wu1h (c : Dev nD) :
    W13 m ρ c (Proc.devRef .tc main_call0_v86) = MeshGnn.slab (A9 m c) 2 0 128 (by decide) := by
  show StableHlo.after hostOps6 (W12 m ρ c) (Proc.devRef .tc main_call0_v86) = _
  after_results_simp
  simp only [TRef.toBuf, TRef.ofBuf, cast_eq, at12 m ρ c main_arg9 (by decide)]
  exact MeshGnn.Slices.slab3_256_top (A9 m c) 2 _ _

theorem at13_wu1a (c : Dev nD) :
    W13 m ρ c (Proc.devRef .tc main_call0_v88) = MeshGnn.slab (A9 m c) 2 128 128 (by decide) := by
  show StableHlo.after hostOps6 (W12 m ρ c) (Proc.devRef .tc main_call0_v88) = _
  after_results_simp
  simp only [TRef.toBuf, TRef.ofBuf, cast_eq, at12 m ρ c main_arg9 (by decide)]
  exact MeshGnn.Slices.slab3_256_bot (A9 m c) 2 _ _

theorem at13_bu1 (c : Dev nD) :
    W13 m ρ c (Proc.devRef .tc main_call0_v90) = MeshGnn.rowOf (A10 m c) 2 := by
  show StableHlo.after hostOps6 (W12 m ρ c) (Proc.devRef .tc main_call0_v90) = _
  after_results_simp
  simp only [TRef.toBuf, TRef.ofBuf, cast_eq, at12 m ρ c main_arg10 (by decide)]
  exact MeshGnn.Slices.row2 (A10 m c) 2 _ _

theorem at13_wu2 (c : Dev nD) :
    W13 m ρ c (Proc.devRef .tc main_call0_v92) = MeshGnn.slab (A11 m c) 2 0 128 (by decide) := by
  show StableHlo.after hostOps6 (W12 m ρ c) (Proc.devRef .tc main_call0_v92) = _
  after_results_simp
  simp only [TRef.toBuf, TRef.ofBuf, cast_eq, at12 m ρ c main_arg11 (by decide)]
  exact MeshGnn.Slices.slab3_128 (A11 m c) 2 _ _

theorem at13_bu2 (c : Dev nD) :
    W13 m ρ c (Proc.devRef .tc main_call0_v94) = MeshGnn.rowOf (A12 m c) 2 := by
  show StableHlo.after hostOps6 (W12 m ρ c) (Proc.devRef .tc main_call0_v94) = _
  after_results_simp
  simp only [TRef.toBuf, TRef.ofBuf, cast_eq, at12 m ρ c main_arg12 (by decide)]
  exact MeshGnn.Slices.row2 (A12 m c) 2 _ _

end Cert.KernelIdeal.Hand.Walk

end
-- ==== Proof.WalkTake2.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.TakeFill
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- With every source index a node index, the gathered rows are the node features' rows at the edges' sources. -/
theorem at11_hsrc (hok : SrcOk m) (c : Dev nD) : W11 m ρ c (Proc.devRef .tc main_call0_v78)
    = Host.gather gather_S50000x128_S600000x1_S600000x128_1_0_n_n_0_1_1128 (W10 m ρ c (Proc.devRef .tc main_call0_v67))
        (broadcastInDim S600000x1 ![0] bcast_S600000_S600000x1_0 (Src m c)) := by
  show StableHlo.after hostOps5 (W10 m ρ c) (Proc.devRef .tc main_call0_v78) = _
  after_results_simp
  simp only [TRef.toBuf, TRef.ofBuf, cast_eq, (from1_10 m ρ c main_call0_v1 (by decide)).trans (at1_src m ρ c)]
  exact MeshGnn.Take.take_fill_src (Src m c) bcast_S_S600000 bcast_S600000_S600000x1_0 bcast_S_S600000x1 bcast_S1_S1x1_1
    bcast_S1x1_S600000x1_0_1 reducesTo_S600000x1_S600000_d1 h_S_ bcast_S600000_S600000x128_0 bcast_S_S600000x128 (hok c)
    gather_S50000x128_S600000x1_S600000x128_1_0_n_n_0_1_1128 (W10 m ρ c (Proc.devRef .tc main_call0_v67))

end Cert.KernelIdeal.Hand.Walk

end
-- ==== Proof.WalkAgg2.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.WalkCnt
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The mean of the messages over the edges into each node. -/
theorem at13_agg (c : Dev nD) : W13 m ρ c (Proc.devRef .tc main_call0_v84) = Host.divf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (Dst m c)) (W12 m ρ c (Proc.devRef .tc main_call0_v79))) (broadcastInDim S50000x128 ![0, 1] bcast_S50000x1_S50000x128_0_1 (Cnt m c)) := by
  show StableHlo.after hostOps6 (W12 m ρ c) (Proc.devRef .tc main_call0_v84) = _
  after_results_simp
  simp only [TRef.toBuf, TRef.ofBuf, cast_eq, (from1_12 m ρ c main_call0_v3 (by decide)).trans (at1_dst m ρ c), (from3_12 m ρ c main_call0_v11 (by decide)).trans (at3_cnt m ρ c)]

end Cert.KernelIdeal.Hand.Walk

end
-- ==== Proof.RegMsg5.lean ====
import proofs.«406442_j73220602462590_1_alg».proof.Proof.Gen.KernelIdeal.Frame
import proofs.«406442_j73220602462590_1_alg».proof.Proof.PayMsg
import Idealize.ShloMosaic.Lib.Pipeline.Value
import Idealize.ShloMosaic.Lib.ValueIdx

set_option maxRecDepth 16384

noncomputable section

namespace Cert.KernelIdeal.Hand.Msg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_5 : (![0, 0] : Fin 2 → Nat) = fun _ => 0 := funext fun a => by fin_cases a <;> rfl
theorem hz1_5 : (![0] : Fin 1 → Nat) = fun _ => 0 := funext fun a => by fin_cases a <;> rfl

abbrev G5 (c : Dev nD) : Vec Ideal S600000x128 .f32 :=
  MeshGnn.dense (MeshGnn.dense2 (V c main_call0_v78) (V c main_call0_v69) (V c main_arg2) (V c main_call0_v71) (V c main_call0_v73)) (V c main_call0_v75) (V c main_call0_v77)

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

def rowAt5 (t : Fin cfg5.N) (r : Fin 6000) : Fin 600000 :=
  ⟨t.val * 6000 + r.val, by have h : t.val < 100 := t.isLt.trans_eq N_5; have := r.isLt; omega⟩

theorem blk5_0_apply (c : Dev nD) (t : Fin cfg5.N) (r : Fin 6000) (q : Fin 128) :
    (iblk5 V c 0 t : Vec Ideal S6000x128 .f32) (ix2 r q) = (V c main_call0_v78 : Vec Ideal S600000x128 .f32) (ix2 (rowAt5 t r) q) := by
  obtain ⟨e0, e1, -⟩ := idx_facts5 t
  unfold iblk5
  rw [View.read_apply]
  show V c main_call0_v78 _ = V c main_call0_v78 _
  congr 1
  funext a
  apply Fin.ext
  match a with
  | ⟨0, _⟩ => show win5_0.index t (0 : Fin 2) * 6000 + 1 * r.val = t.val * 6000 + r.val; rw [e0]; omega
  | ⟨1, _⟩ => show win5_0.index t (1 : Fin 2) * 128 + 1 * q.val = q.val; rw [e1]; omega

theorem blk5_1_apply (c : Dev nD) (t : Fin cfg5.N) (r : Fin 6000) (q : Fin 4) :
    (iblk5 V c 1 t : Vec Ideal S6000x4 .f32) (ix2 r q) = (V c main_arg2 : Vec Ideal S600000x4 .f32) (ix2 (rowAt5 t r) q) := by
  obtain ⟨-, -, e0, e1, -⟩ := idx_facts5 t
  unfold iblk5
  rw [View.read_apply]
  show V c main_arg2 _ = V c main_arg2 _
  congr 1
  funext a
  apply Fin.ext
  match a with
  | ⟨0, _⟩ => show win5_1.index t (0 : Fin 2) * 6000 + 1 * r.val = t.val * 6000 + r.val; rw [e0]; omega
  | ⟨1, _⟩ => show win5_1.index t (1 : Fin 2) * 4 + 1 * q.val = q.val; rw [e1]; omega

theorem blk5_2_eq (c : Dev nD) (t : Fin cfg5.N) :
    (iblk5 V c 2 t : Vec Ideal S128x128 .f32) = (V c main_call0_v69 : Vec Ideal S128x128 .f32) := by
  obtain ⟨-, -, -, -, e0, e1, -⟩ := idx_facts5 t
  funext j
  unfold iblk5
  rw [View.read_apply]
  show V c main_call0_v69 _ = V c main_call0_v69 _
  congr 1
  funext a
  apply Fin.ext
  match a with
  | ⟨0, _⟩ => show win5_2.index t (0 : Fin 2) * 128 + 1 * (j 0).val = (j 0).val; rw [e0]; omega
  | ⟨1, _⟩ => show win5_2.index t (1 : Fin 2) * 128 + 1 * (j 1).val = (j 1).val; rw [e1]; omega

theorem blk5_3_eq (c : Dev nD) (t : Fin cfg5.N) :
    (iblk5 V c 3 t : Vec Ideal S4x128 .f32) = (V c main_call0_v71 : Vec Ideal S4x128 .f32) := by
  obtain ⟨-, -, -, -, -, -, e0, e1, -⟩ := idx_facts5 t
  funext j
  unfold iblk5
  rw [View.read_apply]
  show V c main_call0_v71 _ = V c main_call0_v71 _
  congr 1
  funext a
  apply Fin.ext
  match a with
  | ⟨0, _⟩ => show win5_3.index t (0 : Fin 2) * 4 + 1 * (j 0).val = (j 0).val; rw [e0]; omega
  | ⟨1, _⟩ => show win5_3.index t (1 : Fin 2) * 128 + 1 * (j 1).val = (j 1).val; rw [e1]; omega

theorem blk5_4_eq (c : Dev nD) (t : Fin cfg5.N) :
    (iblk5 V c 4 t : Vec Ideal S128 .f32) = (V c main_call0_v73 : Vec Ideal S128 .f32) := by
  obtain ⟨-, -, -, -, -, -, -, -, e0, -⟩ := idx_facts5 t
  funext j
  unfold iblk5
  rw [View.read_apply]
  show V c main_call0_v73 _ = V c main_call0_v73 _
  congr 1
  funext a
  apply Fin.ext
  match a with
  | ⟨0, _⟩ => show win5_4.index t (0 : Fin 1) * 128 + 1 * (j 0).val = (j 0).val; rw [e0]; omega

theorem blk5_5_eq (c : Dev nD) (t : Fin cfg5.N) :
    (iblk5 V c 5 t : Vec Ideal S128x128 .f32) = (V c main_call0_v75 : Vec Ideal S128x128 .f32) := by
  obtain ⟨-, -, -, -, -, -, -, -, -, e0, e1, -⟩ := idx_facts5 t
  funext j
  unfold iblk5
  rw [View.read_apply]
  show V c main_call0_v75 _ = V c main_call0_v75 _
  congr 1
  funext a
  apply Fin.ext
  match a with
  | ⟨0, _⟩ => show win5_5.index t (0 : Fin 2) * 128 + 1 * (j 0).val = (j 0).val; rw [e0]; omega
  | ⟨1, _⟩ => show win5_5.index t (1 : Fin 2) * 128 + 1 * (j 1).val = (j 1).val; rw [e1]; omega

theorem blk5_6_eq (c : Dev nD) (t : Fin cfg5.N) :
    (iblk5 V c 6 t : Vec Ideal S128 .f32) = (V c main_call0_v77 : Vec Ideal S128 .f32) := by
  obtain ⟨-, -, -, -, -, -, -, -, -, -, -, e0, -⟩ := idx_facts5 t
  funext j
  unfold iblk5
  rw [View.read_apply]
  show V c main_call0_v77 _ = V c main_call0_v77 _
  congr 1
  funext a
  apply Fin.ext
  match a with
  | ⟨0, _⟩ => show win5_6.index t (0 : Fin 1) * 128 + 1 * (j 0).val = (j 0).val; rw [e0]; omega

theorem block_value5 (c : Dev nD) (t : Fin cfg5.N) (j : S6000x128.Idx) (i : S600000x128.Idx)
    (h0 : (i 0).val = t.val * 6000 + (j 0).val) (h1 : (i 1).val = (j 1).val) :
    MeshGnn.dense (MeshGnn.dense2 (iblk5 V c 0 t : Vec Ideal S6000x128 .f32) (iblk5 V c 2 t : Vec Ideal S128x128 .f32)
        (iblk5 V c 1 t : Vec Ideal S6000x4 .f32) (iblk5 V c 3 t : Vec Ideal S4x128 .f32) (iblk5 V c 4 t : Vec Ideal S128 .f32))
      (iblk5 V c 5 t : Vec Ideal S128x128 .f32) (iblk5 V c 6 t : Vec Ideal S128 .f32) j = G5 V c i := by
  obtain ⟨p, q, rfl⟩ : ∃ (p : Fin 6000) (q : Fin 128), j = ix2 p q := ⟨_, _, eq_ix2 j⟩
  have hi : i = ix2 (rowAt5 t p) q := funext fun a => Fin.ext (by
    match a with
    | ⟨0, _⟩ => exact h0
    | ⟨1, _⟩ => exact h1)
  rw [hi, blk5_2_eq V c t, blk5_3_eq V c t, blk5_4_eq V c t, blk5_5_eq V c t, blk5_6_eq V c t]
  exact MeshGnn.dense_rows _ _ (rowAt5 t)
    (fun r k => MeshGnn.dense2_rows _ _ _ _ (rowAt5 t) (fun r' k' => blk5_0_apply V c t r' k') (fun r' k' => blk5_1_apply V c t r' k') _ _ _ r k)
    _ _ p q

theorem flushed_eq5 (c : Dev nD) (t : Fin cfg5.N) :
    (dat5 (F := Ideal) V c).flushed 7 t = ((cfg5.win 7).blk t).view.read (Elt Ideal) (G5 V c) := by
  show (cfg5.win 7).cut (grid5.coords t) ((dat5 (F := Ideal) V c).after 7 t) = _
  rw [after5_7]
  unfold out5_7
  rw [View.canon_unit_zero hz2_5]
  simp only [View.ld_unit_zero (S := S6000x128) hz2_5, View.ld_unit_zero (S := S6000x4) hz2_5, View.ld_unit_zero (S := S128x128) hz2_5, View.ld_unit_zero (S := S4x128) hz2_5, View.ld_unit_zero (S := S128) hz1_5]
  rw [pay5]
  obtain ⟨-, -, -, -, -, -, -, -, -, -, -, -, e0, e1⟩ := idx_facts5 t
  funext j
  rw [View.read_apply]
  refine block_value5 V c t _ _ ?_ ?_
  · show win5_7.index t (0 : Fin 2) * 6000 + 1 * (j 0).val = t.val * 6000 + (j 0).val
    rw [e0]; omega
  · show win5_7.index t (1 : Fin 2) * 128 + 1 * (j 1).val = (j 1).val
    rw [e1]; omega

theorem mem_blk5 (t : Fin cfg5.N) (i : S600000x128.Idx) :
    i ∈ ((cfg5.win 7).blk t).view.set ↔ ∀ a : Fin 2, win5_7.index t a * S6000x128.size a ≤ (i a).val ∧ (i a).val < win5_7.index t a * S6000x128.size a + S6000x128.size a := by
  show i ∈ ((View.whole main_call0_v79).slice (win5_7.rect t)).set ↔ _
  rw [View.set_slice_whole, Rect.mem_set_unit]
  exact Iff.rfl

theorem cover5 (i : S600000x128.Idx) : ∃ t : Fin cfg5.N, (cfg5.win 7).flush t = true ∧ i ∈ ((cfg5.win 7).blk t).view.set := by
  have hi0 : (i 0).val < 600000 := (i 0).isLt
  have hi1 : (i 1).val < 128 := (i 1).isLt
  obtain ⟨t, ht⟩ : ∃ t : Fin cfg5.N, t.val = (i 0).val / 6000 :=
    ⟨⟨(i 0).val / 6000, by rw [show cfg5.N = 100 from N_5]; omega⟩, rfl⟩
  obtain ⟨-, -, -, -, -, -, -, -, -, -, -, -, e0, e1⟩ := idx_facts5 t
  refine ⟨t, flush5_7 t, ?_⟩
  rw [mem_blk5]
  intro a
  match a with
  | ⟨0, _⟩ => show win5_7.index t (0 : Fin 2) * 6000 ≤ (i 0).val ∧ (i 0).val < win5_7.index t (0 : Fin 2) * 6000 + 6000; rw [e0]; omega
  | ⟨1, _⟩ => show win5_7.index t (1 : Fin 2) * 128 ≤ (i 1).val ∧ (i 1).val < win5_7.index t (1 : Fin 2) * 128 + 128; rw [e1]; omega

/-- The array the region leaves is the message network of the whole arrays it found: each block of rows is the same rows of the whole map, and the blocks tile the array. -/
theorem region5_value (c : Dev nD) :
    (Gen.dat5 (F := Ideal) V c).arrAt 7 cfg5.N = MeshGnn.dense (MeshGnn.dense2 (V c main_call0_v78) (V c main_call0_v69) (V c main_arg2) (V c main_call0_v71) (V c main_call0_v73)) (V c main_call0_v75) (V c main_call0_v77) :=
  (Gen.dat5 (F := Ideal) V c).arrAt_eq_of_cover 7 (G5 V c) (fun t _ => flushed_eq5 V c t) cover5

end Cert.KernelIdeal.Hand.Msg

end
-- ==== Proof.RegUpd6.lean ====
import proofs.«406442_j73220602462590_1_alg».proof.Proof.Gen.KernelIdeal.Frame
import proofs.«406442_j73220602462590_1_alg».proof.Proof.PayUpd
import Idealize.ShloMosaic.Lib.Pipeline.Value

noncomputable section

namespace Cert.KernelIdeal.Hand.Upd

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev reg6_G (c : Dev nD) : S50000x128.Idx → EReal :=
  MeshGnn.denseRes (MeshGnn.dense2 (V c main_call0_v67) (V c main_call0_v86) (V c main_call0_v84) (V c main_call0_v88) (V c main_call0_v90)) (V c main_call0_v92) (V c main_call0_v94) (V c main_call0_v67)

theorem reg6_lt (t : Fin cfg6.N) : t.val < 25 := t.isLt.trans_eq N_6

theorem reg6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 1) = 0
    ∧ win6_7.index t (0 : Fin 2) = t.val ∧ win6_7.index t (1 : Fin 2) = 0 :=
  (by decide +kernel : ∀ t : Fin grid6.N, _)

theorem reg6_blk0 (c : Dev nD) (t : Fin cfg6.N) (p : Fin 2000) (q : Fin 128) :
    (iblk6 V c 0 t : Vec Ideal S2000x128 .f32) (ix2 p q)
      = (V c main_call0_v67 : S50000x128.Idx → EReal) (ix2 (rowAt t.val (reg6_lt t) p) q) := by
  obtain ⟨e0, e1, -⟩ := reg6_idx t
  unfold iblk6
  rw [View.read_apply]
  show V c main_call0_v67 _ = V c main_call0_v67 _
  congr 1
  funext a
  apply Fin.ext
  match a with
  | ⟨0, _⟩ => show win6_0.index t (0 : Fin 2) * 2000 + 1 * p.val = t.val * 2000 + p.val; rw [e0]; omega
  | ⟨1, _⟩ => show win6_0.index t (1 : Fin 2) * 128 + 1 * q.val = q.val; rw [e1]; omega

theorem reg6_blk1 (c : Dev nD) (t : Fin cfg6.N) (p : Fin 2000) (q : Fin 128) :
    (iblk6 V c 1 t : Vec Ideal S2000x128 .f32) (ix2 p q)
      = (V c main_call0_v84 : S50000x128.Idx → EReal) (ix2 (rowAt t.val (reg6_lt t) p) q) := by
  obtain ⟨-, -, e0, e1, -⟩ := reg6_idx t
  unfold iblk6
  rw [View.read_apply]
  show V c main_call0_v84 _ = V c main_call0_v84 _
  congr 1
  funext a
  apply Fin.ext
  match a with
  | ⟨0, _⟩ => show win6_1.index t (0 : Fin 2) * 2000 + 1 * p.val = t.val * 2000 + p.val; rw [e0]; omega
  | ⟨1, _⟩ => show win6_1.index t (1 : Fin 2) * 128 + 1 * q.val = q.val; rw [e1]; omega

theorem reg6_blk2 (c : Dev nD) (t : Fin cfg6.N) :
    (iblk6 V c 2 t : Vec Ideal S128x128 .f32) = (V c main_call0_v86 : S128x128.Idx → EReal) := by
  obtain ⟨-, -, -, -, e0, e1, -⟩ := reg6_idx t
  funext y
  unfold iblk6
  rw [View.read_apply]
  show V c main_call0_v86 _ = V c main_call0_v86 y
  congr 1
  funext a
  apply Fin.ext
  match a with
  | ⟨0, _⟩ => show win6_2.index t (0 : Fin 2) * 128 + 1 * (y 0).val = (y 0).val; rw [e0]; omega
  | ⟨1, _⟩ => show win6_2.index t (1 : Fin 2) * 128 + 1 * (y 1).val = (y 1).val; rw [e1]; omega

theorem reg6_blk3 (c : Dev nD) (t : Fin cfg6.N) :
    (iblk6 V c 3 t : Vec Ideal S128x128 .f32) = (V c main_call0_v88 : S128x128.Idx → EReal) := by
  obtain ⟨-, -, -, -, -, -, e0, e1, -⟩ := reg6_idx t
  funext y
  unfold iblk6
  rw [View.read_apply]
  show V c main_call0_v88 _ = V c main_call0_v88 y
  congr 1
  funext a
  apply Fin.ext
  match a with
  | ⟨0, _⟩ => show win6_3.index t (0 : Fin 2) * 128 + 1 * (y 0).val = (y 0).val; rw [e0]; omega
  | ⟨1, _⟩ => show win6_3.index t (1 : Fin 2) * 128 + 1 * (y 1).val = (y 1).val; rw [e1]; omega

theorem reg6_blk4 (c : Dev nD) (t : Fin cfg6.N) :
    (iblk6 V c 4 t : Vec Ideal S128 .f32) = (V c main_call0_v90 : S128.Idx → EReal) := by
  obtain ⟨-, -, -, -, -, -, -, -, e0, -⟩ := reg6_idx t
  funext y
  unfold iblk6
  rw [View.read_apply]
  show V c main_call0_v90 _ = V c main_call0_v90 y
  congr 1
  funext a
  apply Fin.ext
  match a with
  | ⟨0, _⟩ => show win6_4.index t (0 : Fin 1) * 128 + 1 * (y 0).val = (y 0).val; rw [e0]; omega

theorem reg6_blk5 (c : Dev nD) (t : Fin cfg6.N) :
    (iblk6 V c 5 t : Vec Ideal S128x128 .f32) = (V c main_call0_v92 : S128x128.Idx → EReal) := by
  obtain ⟨-, -, -, -, -, -, -, -, -, e0, e1, -⟩ := reg6_idx t
  funext y
  unfold iblk6
  rw [View.read_apply]
  show V c main_call0_v92 _ = V c main_call0_v92 y
  congr 1
  funext a
  apply Fin.ext
  match a with
  | ⟨0, _⟩ => show win6_5.index t (0 : Fin 2) * 128 + 1 * (y 0).val = (y 0).val; rw [e0]; omega
  | ⟨1, _⟩ => show win6_5.index t (1 : Fin 2) * 128 + 1 * (y 1).val = (y 1).val; rw [e1]; omega

theorem reg6_blk6 (c : Dev nD) (t : Fin cfg6.N) :
    (iblk6 V c 6 t : Vec Ideal S128 .f32) = (V c main_call0_v94 : S128.Idx → EReal) := by
  obtain ⟨-, -, -, -, -, -, -, -, -, -, -, e0, -⟩ := reg6_idx t
  funext y
  unfold iblk6
  rw [View.read_apply]
  show V c main_call0_v94 _ = V c main_call0_v94 y
  congr 1
  funext a
  apply Fin.ext
  match a with
  | ⟨0, _⟩ => show win6_6.index t (0 : Fin 1) * 128 + 1 * (y 0).val = (y 0).val; rw [e0]; omega

theorem reg6_block (c : Dev nD) (t : Fin cfg6.N) (j : S2000x128.Idx) (i : S50000x128.Idx)
    (h0 : (i 0).val = t.val * 2000 + (j 0).val) (h1 : (i 1).val = (j 1).val) :
    MeshGnn.denseRes (MeshGnn.dense2 (iblk6 V c 0 t : Vec Ideal S2000x128 .f32) (iblk6 V c 2 t : Vec Ideal S128x128 .f32)
        (iblk6 V c 1 t : Vec Ideal S2000x128 .f32) (iblk6 V c 3 t : Vec Ideal S128x128 .f32) (iblk6 V c 4 t : Vec Ideal S128 .f32))
      (iblk6 V c 5 t : Vec Ideal S128x128 .f32) (iblk6 V c 6 t : Vec Ideal S128 .f32) (iblk6 V c 0 t : Vec Ideal S2000x128 .f32) j
      = reg6_G V c i := by
  obtain ⟨p, q, rfl⟩ : ∃ (p : Fin 2000) (q : Fin 128), j = ix2 p q := ⟨_, _, eq_ix2 j⟩
  have hi : i = ix2 (rowAt t.val (reg6_lt t) p) q := funext fun a => Fin.ext (by
    match a with
    | ⟨0, _⟩ => exact h0
    | ⟨1, _⟩ => exact h1)
  rw [hi, reg6_blk2 V c t, reg6_blk3 V c t, reg6_blk4 V c t, reg6_blk5 V c t, reg6_blk6 V c t]
  exact upd_rows t.val (reg6_lt t) _ _ _ _ (reg6_blk0 V c t) (reg6_blk1 V c t) _ _ _ _ _ p q

theorem reg6_flushed (c : Dev nD) (t : Fin cfg6.N) :
    (dat6 V c).flushed 7 t = ((cfg6.win 7).blk t).view.read (Elt Ideal) (reg6_G V c) := by
  show (cfg6.win 7).cut (grid6.coords t) ((dat6 V c).after 7 t) = _
  rw [after6_7]
  unfold out6_7
  rw [View.canon_unit_zero zero2]
  simp only [View.ld_unit_zero (S := S2000x128) zero2, View.ld_unit_zero (S := S128x128) zero2, View.ld_unit_zero (S := S128) zero1]
  rw [pay6]
  obtain ⟨-, -, -, -, -, -, -, -, -, -, -, -, e0, e1⟩ := reg6_idx t
  funext j
  rw [View.read_apply]
  refine reg6_block V c t _ _ ?_ ?_
  · show win6_7.index t (0 : Fin 2) * 2000 + 1 * (j 0).val = t.val * 2000 + (j 0).val
    rw [e0]; omega
  · show win6_7.index t (1 : Fin 2) * 128 + 1 * (j 1).val = (j 1).val
    rw [e1]; omega

theorem reg6_mem (t : Fin cfg6.N) (i : S50000x128.Idx) :
    i ∈ ((cfg6.win 7).blk t).view.set ↔ ∀ a : Fin 2, win6_7.index t a * S2000x128.size a ≤ (i a).val ∧ (i a).val < win6_7.index t a * S2000x128.size a + S2000x128.size a := by
  show i ∈ ((View.whole main_call0_v95).slice (win6_7.rect t)).set ↔ _
  rw [View.set_slice_whole, Rect.mem_set_unit]
  exact Iff.rfl

theorem reg6_cover (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 25 := N_6
  let t : Fin cfg6.N := ⟨(i 0).val / 2000, by rw [hN]; omega⟩
  obtain ⟨-, -, -, -, -, -, -, -, -, -, -, -, e0, e1⟩ := reg6_idx t
  have ht : t.val = (i 0).val / 2000 := rfl
  refine ⟨t, flush6_7 t, ?_⟩
  rw [reg6_mem]
  intro a
  match a with
  | ⟨0, _⟩ => show win6_7.index t (0 : Fin 2) * 2000 ≤ (i 0).val ∧ (i 0).val < win6_7.index t (0 : Fin 2) * 2000 + 2000; rw [e0, ht]; omega
  | ⟨1, _⟩ => show win6_7.index t (1 : Fin 2) * 128 ≤ (i 1).val ∧ (i 1).val < win6_7.index t (1 : Fin 2) * 128 + 128; rw [e1]; omega

/-- The array the region leaves is the update network of the whole arrays it found: each block of rows is the same rows of the whole map, and the blocks tile the array. -/
theorem region6_value (c : Dev nD) :
    (Gen.dat6 (F := Ideal) V c).arrAt 7 cfg6.N = MeshGnn.denseRes (MeshGnn.dense2 (V c main_call0_v67) (V c main_call0_v86) (V c main_call0_v84) (V c main_call0_v88) (V c main_call0_v90)) (V c main_call0_v92) (V c main_call0_v94) (V c main_call0_v67) :=
  (dat6 V c).arrAt_eq_of_cover 7 (reg6_G V c) (fun t _ => reg6_flushed V c t) reg6_cover

end Cert.KernelIdeal.Hand.Upd

end
-- ==== Proof.RefMsg2.lean ====
/- The message network of layer 2 of the reference program, read as the mathematics of two dense maps.

   The reference joins the gathered node features [600000,128] and the edge attributes [600000,4] into one
   [600000,132] array, contracts it with matrix 2 of the first weight stack, adds row 2 of the first bias stack and
   clamps at zero; then contracts with matrix 2 of the second weight stack, adds row 2 of the second bias stack and
   clamps at zero.  The joined contraction over 132 = 128 + 4 positions splits into the contraction of the node
   features against rows 0..127 and of the edge attributes against rows 128..131 of the weight matrix.  The gathered
   node features stay an unopened operand. -/
import proofs.«406442_j73220602462590_1_alg».proof.Proof.RefRead
import proofs.«406442_j73220602462590_1_alg».proof.Proof.Spec
import Idealize.ShloMosaic.Lib.Pipeline.Value
import Idealize.ShloMosaic.Lib.ValueIdx
import Idealize.ShloMosaic.PureOps.Ideal.Laws

noncomputable section

open scoped BigOperators
open Cert.ReferenceIdeal Cert.ReferenceIdeal.Gen Cert.ReferenceIdeal.Read Idealize.ShloMosaic Idealize.ShloMosaic.ValueIdx

namespace Cert.ReferenceIdeal.Hand

variable (x0 : (⟨S50000x16, .f32⟩ : BufTy).Contents (Elt Ideal)) (x1 : (⟨S2x600000, .i32⟩ : BufTy).Contents (Elt Ideal)) (x2 : (⟨S600000x4, .f32⟩ : BufTy).Contents (Elt Ideal))
  (x3 : (⟨S16x128, .f32⟩ : BufTy).Contents (Elt Ideal)) (x4 : (⟨S128, .f32⟩ : BufTy).Contents (Elt Ideal)) (x5 : (⟨S4x132x128, .f32⟩ : BufTy).Contents (Elt Ideal))
  (x6 : (⟨S4x128, .f32⟩ : BufTy).Contents (Elt Ideal)) (x7 : (⟨S4x128x128, .f32⟩ : BufTy).Contents (Elt Ideal)) (x8 : (⟨S4x128, .f32⟩ : BufTy).Contents (Elt Ideal))
  (x9 : (⟨S4x256x128, .f32⟩ : BufTy).Contents (Elt Ideal)) (x10 : (⟨S4x128, .f32⟩ : BufTy).Contents (Elt Ideal)) (x11 : (⟨S4x128x128, .f32⟩ : BufTy).Contents (Elt Ideal))
  (x12 : (⟨S4x128, .f32⟩ : BufTy).Contents (Elt Ideal))

/-- The joined input of the first dense map: the gathered node features beside the edge attributes. A column below
    128 falls in the first piece, a column from 128 on falls in the second, 128 less. -/
theorem cat_msg2 :
    val_main_v125 (F := Ideal) x0 x1 x2 x3 x4 x5 x6 x7 x8 x9 x10 x11 x12
      = MeshGnn.beside (n := 600000) (a := 128) (b := 4) (val_main_v124 (F := Ideal) x0 x1 x2 x3 x4 x5 x6 x7 x8 x9 x10 x11 x12) x2 := by
  funext i
  unfold val_main_v125
  generalize val_main_v124 (F := Ideal) x0 x1 x2 x3 x4 x5 x6 x7 x8 x9 x10 x11 x12 = g
  unfold MeshGnn.beside
  by_cases h : (i 1).val < 128
  · rw [dif_pos h]
    exact concatenate_pair_apply_left 1 g x2 concatenates_S600000x128_S600000x4_S600000x132_d1 i rfl _ (fun b => by
      match b with
      | ⟨0, _⟩ => rfl
      | ⟨1, _⟩ => rfl)
  · rw [dif_neg h]
    exact concatenate_pair_apply_right 1 g x2 concatenates_S600000x128_S600000x4_S600000x132_d1 i rfl rfl _
      (fun b hb => by
        match b with
        | ⟨0, _⟩ => rfl
        | ⟨1, _⟩ => exact absurd rfl hb)
      (by show (i 1).val - 128 + 128 = (i 1).val; omega)

/-- The first weight matrix of the layer is matrix 2 of the stack: the slice keeps the matrix, the reshape drops the
    unit axis (row-major position `q * 128 + c` splits back into `q` and `c`). -/
theorem w1_msg2 (q : Fin 132) (c : Fin 128) :
    val_main_v127 (F := Ideal) x5 (ix2 q c) = x5 (ix3 (2 : Fin 4) q c) := by
  rw [val_main_v127_apply, val_main_v126_apply]
  refine congrArg x5 (funext fun a => ?_)
  have hq := q.isLt
  have hc := c.isLt
  match a with
  | ⟨0, _⟩ => rfl
  | ⟨1, _⟩ => exact Fin.ext (by show (q.val * 128 + c.val) / 128 % 132 = q.val; omega)
  | ⟨2, _⟩ => exact Fin.ext (by show (q.val * 128 + c.val) % 128 = c.val; omega)

/-- The first bias, broadcast along the rows, is row 2 of the bias matrix. -/
theorem b1_msg2 (r : Fin 600000) (c : Fin 128) :
    val_main_v132 (F := Ideal) x6 (ix2 r c) = MeshGnn.rowOf x6 (2 : Fin 4) (ix1 c) := by
  rw [val_main_v132_apply, val_main_v131_apply, val_main_v130_apply, val_main_v129_apply]
  unfold MeshGnn.rowOf
  refine congrArg x6 (funext fun a => ?_)
  have hc := c.isLt
  match a with
  | ⟨0, _⟩ => rfl
  | ⟨1, _⟩ => exact Fin.ext (by show c.val % 128 = c.val; omega)

/-- The clamp's lower bound is the number zero. -/
theorem zero1_msg2 (i : S600000x128.Idx) : val_main_call9_v0 (F := Ideal) i = 0 := by
  rw [val_main_call9_v0_apply, val_main_call9_cst_apply]
  exact Ideal.ofBits_zero_f32

/-- Contracting the joined row against the 132-row weight matrix is the contraction of the node features against its
    rows 0..127 plus the contraction of the edge attributes against its rows 128..131. -/
theorem dot1_msg2 (g : MeshGnn.A2 600000 128) (r : Fin 600000) (c : Fin 128) :
    (∑ k : Fin 132, MeshGnn.beside (n := 600000) (a := 128) (b := 4) g x2 (lidx_main_v128 (ix2 r c) k)
        * val_main_v127 (F := Ideal) x5 (ridx_main_v128 (ix2 r c) k))
      = (∑ q : Fin 128, g (ix2 r q) * MeshGnn.slab x5 (2 : Fin 4) 0 128 (by decide) (ix2 q c))
        + ∑ q : Fin 4, x2 (ix2 r q) * MeshGnn.slab x5 (2 : Fin 4) 128 4 (by decide) (ix2 q c) := by
  have hl : ∀ k : Fin 132, lidx_main_v128 (ix2 r c) k = ix2 r k := fun k => funext fun a => by
    match a with
    | ⟨0, _⟩ => rfl
    | ⟨1, _⟩ => rfl
  have hr : ∀ k : Fin 132, ridx_main_v128 (ix2 r c) k = ix2 k c := fun k => funext fun a => by
    match a with
    | ⟨0, _⟩ => rfl
    | ⟨1, _⟩ => rfl
  have e : (∑ k : Fin 132, MeshGnn.beside (n := 600000) (a := 128) (b := 4) g x2 (lidx_main_v128 (ix2 r c) k)
        * val_main_v127 (F := Ideal) x5 (ridx_main_v128 (ix2 r c) k))
      = ∑ k : Fin 132, MeshGnn.beside (n := 600000) (a := 128) (b := 4) g x2 (ix2 r k)
        * x5 (ix3 (2 : Fin 4) k c) :=
    Finset.sum_congr rfl fun k _ => by rw [hl k, hr k, w1_msg2]
  refine e.trans ?_
  refine (MeshGnn.dot_beside (n := 600000) (a := 128) (b := 4) (p := 128) g x2
    (fun i => x5 (ix3 (2 : Fin 4) (MeshGnn.row i) (MeshGnn.col i))) r c).trans ?_
  unfold MeshGnn.dot MeshGnn.slab
  congr 1

/-- The first dense map of the layer. -/
theorem hid_msg2 :
    val_main_v134 (F := Ideal) x0 x1 x2 x3 x4 x5 x6 x7 x8 x9 x10 x11 x12
      = MeshGnn.dense2 (val_main_v124 (F := Ideal) x0 x1 x2 x3 x4 x5 x6 x7 x8 x9 x10 x11 x12) (MeshGnn.slab x5 2 0 128 (by decide)) x2
          (MeshGnn.slab x5 2 128 4 (by decide)) (MeshGnn.rowOf x6 2) := by
  funext i
  obtain ⟨r, c, rfl⟩ : ∃ (r : Fin 600000) (c : Fin 128), i = ix2 r c := ⟨_, _, eq_ix2 i⟩
  rewrite [MeshGnn.dense2_apply, val_main_v134_apply, val_main_v133_apply, val_main_v128_apply, zero1_msg2, b1_msg2,
    cat_msg2, dot1_msg2]
  rfl

/-- The second weight matrix of the layer is matrix 2 of its stack. -/
theorem w2_msg2 (q : Fin 128) (c : Fin 128) :
    val_main_v136 (F := Ideal) x7 (ix2 q c) = MeshGnn.slab x7 (2 : Fin 4) 0 128 (by decide) (ix2 q c) := by
  rw [val_main_v136_apply, val_main_v135_apply]
  unfold MeshGnn.slab
  refine congrArg x7 (funext fun a => ?_)
  have hq := q.isLt
  have hc := c.isLt
  match a with
  | ⟨0, _⟩ => rfl
  | ⟨1, _⟩ => exact Fin.ext (by show (q.val * 128 + c.val) / 128 % 128 = 0 + q.val; omega)
  | ⟨2, _⟩ => exact Fin.ext (by show (q.val * 128 + c.val) % 128 = c.val; omega)

/-- The second bias, broadcast along the rows, is row 2 of its bias matrix. -/
theorem b2_msg2 (r : Fin 600000) (c : Fin 128) :
    val_main_v141 (F := Ideal) x8 (ix2 r c) = MeshGnn.rowOf x8 (2 : Fin 4) (ix1 c) := by
  rw [val_main_v141_apply, val_main_v140_apply, val_main_v139_apply, val_main_v138_apply]
  unfold MeshGnn.rowOf
  refine congrArg x8 (funext fun a => ?_)
  have hc := c.isLt
  match a with
  | ⟨0, _⟩ => rfl
  | ⟨1, _⟩ => exact Fin.ext (by show c.val % 128 = c.val; omega)

/-- The second clamp's lower bound is the number zero. -/
theorem zero2_msg2 (i : S600000x128.Idx) : val_main_call10_v0 (F := Ideal) i = 0 := by
  rw [val_main_call10_v0_apply, val_main_call10_cst_apply]
  exact Ideal.ofBits_zero_f32

/-- The second contraction, against the second weight matrix of the layer. -/
theorem dot2_msg2 (H : MeshGnn.A2 600000 128) (r : Fin 600000) (c : Fin 128) :
    (∑ k : Fin 128, H (lidx_main_v137 (ix2 r c) k) * val_main_v136 (F := Ideal) x7 (ridx_main_v137 (ix2 r c) k))
      = ∑ q : Fin 128, H (ix2 r q) * MeshGnn.slab x7 (2 : Fin 4) 0 128 (by decide) (ix2 q c) := by
  have hl : ∀ k : Fin 128, lidx_main_v137 (ix2 r c) k = ix2 r k := fun k => funext fun a => by
    match a with
    | ⟨0, _⟩ => rfl
    | ⟨1, _⟩ => rfl
  have hr : ∀ k : Fin 128, ridx_main_v137 (ix2 r c) k = ix2 k c := fun k => funext fun a => by
    match a with
    | ⟨0, _⟩ => rfl
    | ⟨1, _⟩ => rfl
  exact Finset.sum_congr rfl fun k _ => by rw [hl k, hr k, w2_msg2]

/-- The message network of layer 2: two dense maps, the first fed by the gathered node features beside the edge
    attributes. -/
theorem ref_msg2 :
    val_main_v143 (F := Ideal) x0 x1 x2 x3 x4 x5 x6 x7 x8 x9 x10 x11 x12
      = MeshGnn.dense
          (MeshGnn.dense2 (val_main_v124 (F := Ideal) x0 x1 x2 x3 x4 x5 x6 x7 x8 x9 x10 x11 x12) (MeshGnn.slab x5 2 0 128 (by decide)) x2
            (MeshGnn.slab x5 2 128 4 (by decide)) (MeshGnn.rowOf x6 2))
          (MeshGnn.slab x7 2 0 128 (by decide)) (MeshGnn.rowOf x8 2) := by
  funext i
  obtain ⟨r, c, rfl⟩ : ∃ (r : Fin 600000) (c : Fin 128), i = ix2 r c := ⟨_, _, eq_ix2 i⟩
  rewrite [MeshGnn.dense_apply, val_main_v143_apply, val_main_v142_apply, val_main_v137_apply, zero2_msg2, b2_msg2,
    hid_msg2, dot2_msg2]
  rfl

end Cert.ReferenceIdeal.Hand

end
-- ==== Proof.RefUpd2.lean ====
/- Update layer 2 of the reference program.  The node features and the aggregated messages are joined side
   by side; the joined row is contracted against the first update matrix, the first bias is added and the
   result clamped below at zero; that is contracted against the second update matrix, the second bias and
   then the node features themselves are added, and the sum is clamped below at zero.  The contraction
   over the 256 joined columns is the contraction of the node features against the upper 128 rows of the
   matrix plus the contraction of the aggregated messages against its lower 128 rows. -/
import proofs.«406442_j73220602462590_1_alg».proof.Proof.RefRead
import proofs.«406442_j73220602462590_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

/-- Row `q` of the first update matrix of layer 2, read out of the stack of matrices. -/
theorem upd2_w1 (x9 : (⟨S4x256x128, .f32⟩ : BufTy).Contents (Elt Ideal)) (q : Fin 256) (c : Fin 128) :
    val_main_v151 (F := Ideal) x9 (ix2 q c) = x9 (ix3 (2 : Fin 4) q c) := by
  rw [val_main_v151_apply, val_main_v150_apply]
  congr 1
  funext a
  have hq := q.isLt
  have hc := c.isLt
  match a with
  | ⟨0, _⟩ => exact Fin.ext rfl
  | ⟨1, _⟩ => exact Fin.ext (by show (q.val * 128 + c.val) / 128 % 256 = q.val; omega)
  | ⟨2, _⟩ => exact Fin.ext (by show (q.val * 128 + c.val) % 128 = c.val; omega)

/-- The first update bias of layer 2, spread over the rows. -/
theorem upd2_b1 (x10 : (⟨S4x128, .f32⟩ : BufTy).Contents (Elt Ideal)) (r : Fin 50000) (c : Fin 128) :
    val_main_v156 (F := Ideal) x10 (ix2 r c) = MeshGnn.rowOf x10 (2 : Fin 4) (ix1 c) := by
  rw [val_main_v156_apply, val_main_v155_apply, val_main_v154_apply, val_main_v153_apply]
  unfold MeshGnn.rowOf
  congr 1
  funext a
  have hc := c.isLt
  match a with
  | ⟨0, _⟩ => exact Fin.ext rfl
  | ⟨1, _⟩ => exact Fin.ext (by show c.val % 128 = c.val; omega)

/-- The second update matrix of layer 2, read out of the stack of matrices. -/
theorem upd2_w2 (x11 : (⟨S4x128x128, .f32⟩ : BufTy).Contents (Elt Ideal)) (q : Fin 128) (c : Fin 128) :
    val_main_v160 (F := Ideal) x11 (ix2 q c) = MeshGnn.slab x11 (2 : Fin 4) 0 128 (by decide) (ix2 q c) := by
  rw [val_main_v160_apply, val_main_v159_apply]
  unfold MeshGnn.slab
  congr 1
  funext a
  have hq := q.isLt
  have hc := c.isLt
  match a with
  | ⟨0, _⟩ => exact Fin.ext rfl
  | ⟨1, _⟩ => exact Fin.ext (by show (q.val * 128 + c.val) / 128 % 128 = 0 + q.val; omega)
  | ⟨2, _⟩ => exact Fin.ext (by show (q.val * 128 + c.val) % 128 = c.val; omega)

/-- The second update bias of layer 2, spread over the rows. -/
theorem upd2_b2 (x12 : (⟨S4x128, .f32⟩ : BufTy).Contents (Elt Ideal)) (r : Fin 50000) (c : Fin 128) :
    val_main_v165 (F := Ideal) x12 (ix2 r c) = MeshGnn.rowOf x12 (2 : Fin 4) (ix1 c) := by
  rw [val_main_v165_apply, val_main_v164_apply, val_main_v163_apply, val_main_v162_apply]
  unfold MeshGnn.rowOf
  congr 1
  funext a
  have hc := c.isLt
  match a with
  | ⟨0, _⟩ => exact Fin.ext rfl
  | ⟨1, _⟩ => exact Fin.ext (by show c.val % 128 = c.val; omega)

/-- The upper 128 rows of the first update matrix of layer 2. -/
theorem upd2_slab_lo (x9 : (⟨S4x256x128, .f32⟩ : BufTy).Contents (Elt Ideal)) (q : Fin 128) (c : Fin 128) :
    MeshGnn.slab x9 (2 : Fin 4) 0 128 (by decide) (ix2 q c) = x9 (ix3 (2 : Fin 4) ⟨q.val, by omega⟩ c) := by
  unfold MeshGnn.slab
  refine congrArg x9 (funext fun a => ?_)
  match a with
  | ⟨0, _⟩ => rfl
  | ⟨1, _⟩ => exact Fin.ext (by show 0 + q.val = q.val; omega)
  | ⟨2, _⟩ => rfl

/-- The lower 128 rows of the first update matrix of layer 2. -/
theorem upd2_slab_hi (x9 : (⟨S4x256x128, .f32⟩ : BufTy).Contents (Elt Ideal)) (q : Fin 128) (c : Fin 128) :
    MeshGnn.slab x9 (2 : Fin 4) 128 128 (by decide) (ix2 q c) = x9 (ix3 (2 : Fin 4) ⟨128 + q.val, by omega⟩ c) := rfl

/-- A sum over 256 indices is the sum over the first 128 plus the sum over the last 128. -/
theorem upd2_sum_halves (f : Fin 256 → EReal) :
    ∑ k : Fin 256, f k = (∑ q : Fin 128, f ⟨q.val, by omega⟩) + ∑ q : Fin 128, f ⟨128 + q.val, by omega⟩ :=
  Fin.sum_univ_add (a := 128) (b := 128) f

/-- The joined input at a column among the first 128 is the node features there. -/
theorem upd2_cat_left (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : k.val = q.val) :
    val_main_v149 (F := Ideal) x0 x1 x2 x3 x4 x5 x6 x7 x8 x9 x10 x11 x12 (ix2 r k) = val_main_v117 (F := Ideal) x0 x1 x2 x3 x4 x5 x6 x7 x8 x9 x10 x11 x12 (ix2 r q) := by
  unfold val_main_v149
  refine concatenate_pair_apply_left (t := S50000x256) (s₁ := S50000x128) (s₂ := S50000x128) 1 _ _ _ _ rfl _ ?_
  intro b
  match b with
  | ⟨0, _⟩ => rfl
  | ⟨1, _⟩ => exact hk.symm

/-- The joined input at a column among the last 128 is the aggregated messages at that column less 128. -/
theorem upd2_cat_right (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : q.val + 128 = k.val) :
    val_main_v149 (F := Ideal) x0 x1 x2 x3 x4 x5 x6 x7 x8 x9 x10 x11 x12 (ix2 r k) = val_main_v148 (F := Ideal) x0 x1 x2 x3 x4 x5 x6 x7 x8 x9 x10 x11 x12 (ix2 r q) := by
  unfold val_main_v149
  refine concatenate_pair_apply_right (t := S50000x256) (s₁ := S50000x128) (s₂ := S50000x128) 1 _ _ _ _ rfl rfl _ ?_ ?_
  · intro b hb
    match b with
    | ⟨0, _⟩ => rfl
    | ⟨1, _⟩ => exact absurd rfl hb
  · exact hk

/-- The hidden activation of update layer 2: the dense map fed by the node features beside the aggregated
    messages. -/
theorem ref_upd2_hid (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v158 (F := Ideal) x0 x1 x2 x3 x4 x5 x6 x7 x8 x9 x10 x11 x12
      = MeshGnn.dense2 (val_main_v117 (F := Ideal) x0 x1 x2 x3 x4 x5 x6 x7 x8 x9 x10 x11 x12) (MeshGnn.slab x9 (2 : Fin 4) 0 128 (by decide))
          (val_main_v148 (F := Ideal) x0 x1 x2 x3 x4 x5 x6 x7 x8 x9 x10 x11 x12) (MeshGnn.slab x9 (2 : Fin 4) 128 128 (by decide))
          (MeshGnn.rowOf x10 (2 : Fin 4)) := by
  funext i
  obtain ⟨r, c, rfl⟩ : ∃ (r : Fin 50000) (c : Fin 128), i = ix2 r c := ⟨_, _, eq_ix2 i⟩
  rw [val_main_v158_apply, val_main_v157_apply, val_main_v152_apply, upd2_b1, val_main_call11_v0_apply,
    val_main_call11_cst_apply, MeshGnn.dense2_apply]
  have el : ∀ k : Fin 256, lidx_main_v152 (ix2 r c) k = ix2 r k := fun k =>
    funext fun a => Fin.ext (by match a with | ⟨0, _⟩ => rfl | ⟨1, _⟩ => rfl)
  have er : ∀ k : Fin 256, ridx_main_v152 (ix2 r c) k = ix2 k c := fun k =>
    funext fun a => Fin.ext (by match a with | ⟨0, _⟩ => rfl | ⟨1, _⟩ => rfl)
  simp only [el, er, upd2_w1, Ideal.maximumf_def, Ideal.addf_def, Ideal.ofBits_def, Ideal.ofBits_zero_f32]
  -- the sum over the 256 joined columns is the sum over the first 128 plus the sum over the last 128
  have hsum : (∑ k : Fin 256, val_main_v149 (F := Ideal) x0 x1 x2 x3 x4 x5 x6 x7 x8 x9 x10 x11 x12 (ix2 r k) * x9 (ix3 (2 : Fin 4) k c))
      = (∑ q : Fin 128, val_main_v117 (F := Ideal) x0 x1 x2 x3 x4 x5 x6 x7 x8 x9 x10 x11 x12 (ix2 r q) * MeshGnn.slab x9 (2 : Fin 4) 0 128 (by decide) (ix2 q c))
        + ∑ q : Fin 128, val_main_v148 (F := Ideal) x0 x1 x2 x3 x4 x5 x6 x7 x8 x9 x10 x11 x12 (ix2 r q) * MeshGnn.slab x9 (2 : Fin 4) 128 128 (by decide) (ix2 q c) := by
    rw [upd2_sum_halves]
    refine congrArg₂ (· + ·) ?_ ?_
    · refine Finset.sum_congr rfl fun q _ => ?_
      rw [upd2_cat_left x0 x1 x2 x3 x4 x5 x6 x7 x8 x9 x10 x11 x12 r ⟨q.val, by omega⟩ q rfl, upd2_slab_lo]
    · refine Finset.sum_congr rfl fun q _ => ?_
      rw [upd2_cat_right x0 x1 x2 x3 x4 x5 x6 x7 x8 x9 x10 x11 x12 r ⟨128 + q.val, by omega⟩ q (by show q.val + 128 = 128 + q.val; omega), upd2_slab_hi]
  rw [hsum]

/-- Update layer 2. -/
theorem ref_upd2 (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v168 (F := Ideal) x0 x1 x2 x3 x4 x5 x6 x7 x8 x9 x10 x11 x12
      = MeshGnn.denseRes
          (MeshGnn.dense2 (val_main_v117 (F := Ideal) x0 x1 x2 x3 x4 x5 x6 x7 x8 x9 x10 x11 x12) (MeshGnn.slab x9 (2 : Fin 4) 0 128 (by decide))
            (val_main_v148 (F := Ideal) x0 x1 x2 x3 x4 x5 x6 x7 x8 x9 x10 x11 x12) (MeshGnn.slab x9 (2 : Fin 4) 128 128 (by decide))
            (MeshGnn.rowOf x10 (2 : Fin 4)))
          (MeshGnn.slab x11 (2 : Fin 4) 0 128 (by decide)) (MeshGnn.rowOf x12 (2 : Fin 4)) (val_main_v117 (F := Ideal) x0 x1 x2 x3 x4 x5 x6 x7 x8 x9 x10 x11 x12) := by
  funext i
  obtain ⟨r, c, rfl⟩ : ∃ (r : Fin 50000) (c : Fin 128), i = ix2 r c := ⟨_, _, eq_ix2 i⟩
  rw [val_main_v168_apply, val_main_v167_apply, val_main_v166_apply, val_main_v161_apply, upd2_b2,
    val_main_call12_v0_apply, val_main_call12_cst_apply, MeshGnn.denseRes_apply, ref_upd2_hid]
  have el : ∀ k : Fin 128, lidx_main_v161 (ix2 r c) k = ix2 r k := fun k =>
    funext fun a => Fin.ext (by match a with | ⟨0, _⟩ => rfl | ⟨1, _⟩ => rfl)
  have er : ∀ k : Fin 128, ridx_main_v161 (ix2 r c) k = ix2 k c := fun k =>
    funext fun a => Fin.ext (by match a with | ⟨0, _⟩ => rfl | ⟨1, _⟩ => rfl)
  simp only [el, er, upd2_w2, Ideal.maximumf_def, Ideal.addf_def, Ideal.ofBits_def, Ideal.ofBits_zero_f32]

end Cert.ReferenceIdeal.Hand

end
-- ==== Proof.WalkLayer2.lean ====
import proofs.«406442_j73220602462590_1_alg».proof.Proof.Gen.KernelIdeal.Frame
import proofs.«406442_j73220602462590_1_alg».proof.Proof.RefRead
import proofs.«406442_j73220602462590_1_alg».proof.Proof.WalkKeep
import proofs.«406442_j73220602462590_1_alg».proof.Proof.WalkDefs
import proofs.«406442_j73220602462590_1_alg».proof.Proof.WalkWts2
import proofs.«406442_j73220602462590_1_alg».proof.Proof.WalkTake2
import proofs.«406442_j73220602462590_1_alg».proof.Proof.WalkAgg2
import proofs.«406442_j73220602462590_1_alg».proof.Proof.WalkBridge
import proofs.«406442_j73220602462590_1_alg».proof.Proof.RegMsg5
import proofs.«406442_j73220602462590_1_alg».proof.Proof.RegUpd6
import proofs.«406442_j73220602462590_1_alg».proof.Proof.RefMsg2
import proofs.«406442_j73220602462590_1_alg».proof.Proof.RefUpd2
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- One message-passing layer along the run: if the node features entering it are the reference's, so are those leaving it. -/
theorem layer2 (hok : SrcOk m) (c : Dev nD)
    (hin : W10 m ρ c (Proc.devRef .tc main_call0_v67) = val_main_v117 (F := Ideal) (A0 m c) (A1 m c) (A2 m c) (A3 m c) (A4 m c) (A5 m c) (A6 m c) (A7 m c) (A8 m c) (A9 m c) (A10 m c) (A11 m c) (A12 m c)) :
    W14 m ρ c (Proc.devRef .tc main_call0_v95) = val_main_v168 (F := Ideal) (A0 m c) (A1 m c) (A2 m c) (A3 m c) (A4 m c) (A5 m c) (A6 m c) (A7 m c) (A8 m c) (A9 m c) (A10 m c) (A11 m c) (A12 m c) := by

  have hs : W11 m ρ c (Proc.devRef .tc main_call0_v78) = val_main_v124 (F := Ideal) (A0 m c) (A1 m c) (A2 m c) (A3 m c) (A4 m c) (A5 m c) (A6 m c) (A7 m c) (A8 m c) (A9 m c) (A10 m c) (A11 m c) (A12 m c) := by
    rw [at11_hsrc m ρ hok c, hin]
    exact gather_eq2 m hok c

  have hm : W12 m ρ c (Proc.devRef .tc main_call0_v79) = val_main_v143 (F := Ideal) (A0 m c) (A1 m c) (A2 m c) (A3 m c) (A4 m c) (A5 m c) (A6 m c) (A7 m c) (A8 m c) (A9 m c) (A10 m c) (A11 m c) (A12 m c) := by
    refine (show W12 m ρ c (Proc.devRef .tc main_call0_v79) = (dat5 (V11 m ρ) c).arrAt 7 cfg5.N from W12_arr m ρ c 7).trans ?_
    rw [Cert.KernelIdeal.Hand.Msg.region5_value (V11 m ρ) c]
    rw [show V11 m ρ c main_call0_v78 = _ from hs, show V11 m ρ c main_call0_v69 = _ from at11_w1a m ρ c,
      show V11 m ρ c main_arg2 = A2 m c from at11 m ρ c main_arg2 (by decide), show V11 m ρ c main_call0_v71 = _ from at11_w1b m ρ c,
      show V11 m ρ c main_call0_v73 = _ from at11_b1 m ρ c, show V11 m ρ c main_call0_v75 = _ from at11_w2 m ρ c,
      show V11 m ρ c main_call0_v77 = _ from at11_b2 m ρ c]
    exact (Cert.ReferenceIdeal.Hand.ref_msg2 (A0 m c) (A1 m c) (A2 m c) (A3 m c) (A4 m c) (A5 m c) (A6 m c) (A7 m c) (A8 m c) (A9 m c) (A10 m c) (A11 m c) (A12 m c)).symm

  have ha : W13 m ρ c (Proc.devRef .tc main_call0_v84) = val_main_v148 (F := Ideal) (A0 m c) (A1 m c) (A2 m c) (A3 m c) (A4 m c) (A5 m c) (A6 m c) (A7 m c) (A8 m c) (A9 m c) (A10 m c) (A11 m c) (A12 m c) := by
    rw [at13_agg m ρ c, hm]
    exact agg_eq2 m c

  have hh : W13 m ρ c (Proc.devRef .tc main_call0_v67) = val_main_v117 (F := Ideal) (A0 m c) (A1 m c) (A2 m c) (A3 m c) (A4 m c) (A5 m c) (A6 m c) (A7 m c) (A8 m c) (A9 m c) (A10 m c) (A11 m c) (A12 m c) :=
    (from10_13 m ρ c main_call0_v67 (by decide)).trans hin
  refine (show W14 m ρ c (Proc.devRef .tc main_call0_v95) = (dat6 (V13 m ρ) c).arrAt 7 cfg6.N from W14_arr m ρ c 7).trans ?_
  rw [Cert.KernelIdeal.Hand.Upd.region6_value (V13 m ρ) c]
  rw [show V13 m ρ c main_call0_v67 = _ from hh, show V13 m ρ c main_call0_v84 = _ from ha,
    show V13 m ρ c main_call0_v86 = _ from at13_wu1h m ρ c, show V13 m ρ c main_call0_v88 = _ from at13_wu1a m ρ c,
    show V13 m ρ c main_call0_v90 = _ from at13_bu1 m ρ c, show V13 m ρ c main_call0_v92 = _ from at13_wu2 m ρ c,
    show V13 m ρ c main_call0_v94 = _ from at13_bu2 m ρ c]
  exact (Cert.ReferenceIdeal.Hand.ref_upd2 (A0 m c) (A1 m c) (A2 m c) (A3 m c) (A4 m c) (A5 m c) (A6 m c) (A7 m c) (A8 m c) (A9 m c) (A10 m c) (A11 m c) (A12 m c)).symm

end Cert.KernelIdeal.Hand.Walk

end
-- ==== Proof.WalkWts3.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.KSlices
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The layer's weights and biases as the run holds them: bands and rows of the stacked parameter arrays. -/
theorem at15_w1a (c : Dev nD) :
    W15 m ρ c (Proc.devRef .tc main_call0_v97) = MeshGnn.slab (A5 m c) 3 0 128 (by decide) := by
  show StableHlo.after hostOps7 (W14 m ρ c) (Proc.devRef .tc main_call0_v97) = _
  after_results_simp
  simp only [TRef.toBuf, TRef.ofBuf, cast_eq, at14 m ρ c main_arg5 (by decide)]
  exact MeshGnn.Slices.slab3_132_top (A5 m c) 3 _ _

theorem at15_w1b (c : Dev nD) :
    W15 m ρ c (Proc.devRef .tc main_call0_v99) = MeshGnn.slab (A5 m c) 3 128 4 (by decide) := by
  show StableHlo.after hostOps7 (W14 m ρ c) (Proc.devRef .tc main_call0_v99) = _
  after_results_simp
  simp only [TRef.toBuf, TRef.ofBuf, cast_eq, at14 m ρ c main_arg5 (by decide)]
  exact MeshGnn.Slices.slab3_132_bot (A5 m c) 3 _ _

theorem at15_b1 (c : Dev nD) :
    W15 m ρ c (Proc.devRef .tc main_call0_v101) = MeshGnn.rowOf (A6 m c) 3 := by
  show StableHlo.after hostOps7 (W14 m ρ c) (Proc.devRef .tc main_call0_v101) = _
  after_results_simp
  simp only [TRef.toBuf, TRef.ofBuf, cast_eq, at14 m ρ c main_arg6 (by decide)]
  exact MeshGnn.Slices.row2 (A6 m c) 3 _ _

theorem at15_w2 (c : Dev nD) :
    W15 m ρ c (Proc.devRef .tc main_call0_v103) = MeshGnn.slab (A7 m c) 3 0 128 (by decide) := by
  show StableHlo.after hostOps7 (W14 m ρ c) (Proc.devRef .tc main_call0_v103) = _
  after_results_simp
  simp only [TRef.toBuf, TRef.ofBuf, cast_eq, at14 m ρ c main_arg7 (by decide)]
  exact MeshGnn.Slices.slab3_128 (A7 m c) 3 _ _

theorem at15_b2 (c : Dev nD) :
    W15 m ρ c (Proc.devRef .tc main_call0_v105) = MeshGnn.rowOf (A8 m c) 3 := by
  show StableHlo.after hostOps7 (W14 m ρ c) (Proc.devRef .tc main_call0_v105) = _
  after_results_simp
  simp only [TRef.toBuf, TRef.ofBuf, cast_eq, at14 m ρ c main_arg8 (by decide)]
  exact MeshGnn.Slices.row2 (A8 m c) 3 _ _

theorem at17_wu1h (c : Dev nD) :
    W17 m ρ c (Proc.devRef .tc main_call0_v114) = MeshGnn.slab (A9 m c) 3 0 128 (by decide) := by
  show StableHlo.after hostOps8 (W16 m ρ c) (Proc.devRef .tc main_call0_v114) = _
  after_results_simp
  simp only [TRef.toBuf, TRef.ofBuf, cast_eq, at16 m ρ c main_arg9 (by decide)]
  exact MeshGnn.Slices.slab3_256_top (A9 m c) 3 _ _

theorem at17_wu1a (c : Dev nD) :
    W17 m ρ c (Proc.devRef .tc main_call0_v116) = MeshGnn.slab (A9 m c) 3 128 128 (by decide) := by
  show StableHlo.after hostOps8 (W16 m ρ c) (Proc.devRef .tc main_call0_v116) = _
  after_results_simp
  simp only [TRef.toBuf, TRef.ofBuf, cast_eq, at16 m ρ c main_arg9 (by decide)]
  exact MeshGnn.Slices.slab3_256_bot (A9 m c) 3 _ _

theorem at17_bu1 (c : Dev nD) :
    W17 m ρ c (Proc.devRef .tc main_call0_v118) = MeshGnn.rowOf (A10 m c) 3 := by
  show StableHlo.after hostOps8 (W16 m ρ c) (Proc.devRef .tc main_call0_v118) = _
  after_results_simp
  simp only [TRef.toBuf, TRef.ofBuf, cast_eq, at16 m ρ c main_arg10 (by decide)]
  exact MeshGnn.Slices.row2 (A10 m c) 3 _ _

theorem at17_wu2 (c : Dev nD) :
    W17 m ρ c (Proc.devRef .tc main_call0_v120) = MeshGnn.slab (A11 m c) 3 0 128 (by decide) := by
  show StableHlo.after hostOps8 (W16 m ρ c) (Proc.devRef .tc main_call0_v120) = _
  after_results_simp
  simp only [TRef.toBuf, TRef.ofBuf, cast_eq, at16 m ρ c main_arg11 (by decide)]
  exact MeshGnn.Slices.slab3_128 (A11 m c) 3 _ _

theorem at17_bu2 (c : Dev nD) :
    W17 m ρ c (Proc.devRef .tc main_call0_v122) = MeshGnn.rowOf (A12 m c) 3 := by
  show StableHlo.after hostOps8 (W16 m ρ c) (Proc.devRef .tc main_call0_v122) = _
  after_results_simp
  simp only [TRef.toBuf, TRef.ofBuf, cast_eq, at16 m ρ c main_arg12 (by decide)]
  exact MeshGnn.Slices.row2 (A12 m c) 3 _ _

end Cert.KernelIdeal.Hand.Walk

end
-- ==== Proof.WalkTake3.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.TakeFill
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- With every source index a node index, the gathered rows are the node features' rows at the edges' sources. -/
theorem at15_hsrc (hok : SrcOk m) (c : Dev nD) : W15 m ρ c (Proc.devRef .tc main_call0_v106)
    = Host.gather gather_S50000x128_S600000x1_S600000x128_1_0_n_n_0_1_1128 (W14 m ρ c (Proc.devRef .tc main_call0_v95))
        (broadcastInDim S600000x1 ![0] bcast_S600000_S600000x1_0 (Src m c)) := by
  show StableHlo.after hostOps7 (W14 m ρ c) (Proc.devRef .tc main_call0_v106) = _
  after_results_simp
  simp only [TRef.toBuf, TRef.ofBuf, cast_eq, (from1_14 m ρ c main_call0_v1 (by decide)).trans (at1_src m ρ c)]
  exact MeshGnn.Take.take_fill_src (Src m c) bcast_S_S600000 bcast_S600000_S600000x1_0 bcast_S_S600000x1 bcast_S1_S1x1_1
    bcast_S1x1_S600000x1_0_1 reducesTo_S600000x1_S600000_d1 h_S_ bcast_S600000_S600000x128_0 bcast_S_S600000x128 (hok c)
    gather_S50000x128_S600000x1_S600000x128_1_0_n_n_0_1_1128 (W14 m ρ c (Proc.devRef .tc main_call0_v95))

end Cert.KernelIdeal.Hand.Walk

end
-- ==== Proof.WalkAgg3.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.WalkCnt
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep Idealize.ShloMosaic Idealize.ShloMosaic.TcCoe Idealize.SL.Sem Idealize.ShloMosaic.StableHlo

variable (m : (ℓ : Loc nD τ sig) → Buf (Elt Ideal) ℓ) (ρ : Dev nD → PrngReg)

/-- The mean of the messages over the edges into each node. -/
theorem at17_agg (c : Dev nD) : W17 m ρ c (Proc.devRef .tc main_call0_v112) = Host.divf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (Dst m c)) (W16 m ρ c (Proc.devRef .tc main_call0_v107))) (broadcastInDim S50000x128 ![0, 1] bcast_S50000x1_S50000x128_0_1 (Cnt m c)) := by
  show StableHlo.after hostOps8 (W16 m ρ c) (Proc.devRef .tc main_call0_v112) = _
  after_results_simp
  simp only [TRef.toBuf, TRef.ofBuf, cast_eq, (from1_16 m ρ c main_call0_v3 (by decide)).trans (at1_dst m ρ c), (from3_16 m ρ c main_call0_v11 (by decide)).trans (at3_cnt m ρ c)]

end Cert.KernelIdeal.Hand.Walk

end
-- ==== Proof.RegMsg7.lean ====
import proofs.«406442_j73220602462590_1_alg».proof.Proof.Gen.KernelIdeal.Frame
import proofs.«406442_j73220602462590_1_alg».proof.Proof.PayMsg
import Idealize.ShloMosaic.Lib.Pipeline.Value
import Idealize.ShloMosaic.Lib.ValueIdx

set_option maxRecDepth 16384

noncomputable section

namespace Cert.KernelIdeal.Hand.Msg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_7 : (![0, 0] : Fin 2 → Nat) = fun _ => 0 := funext fun a => by fin_cases a <;> rfl
theorem hz1_7 : (![0] : Fin 1 → Nat) = fun _ => 0 := funext fun a => by fin_cases a <;> rfl

abbrev G7 (c : Dev nD) : Vec Ideal S600000x128 .f32 :=
  MeshGnn.dense (MeshGnn.dense2 (V c main_call0_v106) (V c main_call0_v97) (V c main_arg2) (V c main_call0_v99) (V c main_call0_v101)) (V c main_call0_v103) (V c main_call0_v105)

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = 0 ∧ win7_5.index t (1 : Fin 2) = 0
    ∧ win7_6.index t (0 : Fin 1) = 0
    ∧ win7_7.index t (0 : Fin 2) = t.val ∧ win7_7.index t (1 : Fin 2) = 0 :=
  (by decide +kernel : ∀ t : Fin grid7.N, _)

def rowAt7 (t : Fin cfg7.N) (r : Fin 6000) : Fin 600000 :=
  ⟨t.val * 6000 + r.val, by have h : t.val < 100 := t.isLt.trans_eq N_7; have := r.isLt; omega⟩

theorem blk7_0_apply (c : Dev nD) (t : Fin cfg7.N) (r : Fin 6000) (q : Fin 128) :
    (iblk7 V c 0 t : Vec Ideal S6000x128 .f32) (ix2 r q) = (V c main_call0_v106 : Vec Ideal S600000x128 .f32) (ix2 (rowAt7 t r) q) := by
  obtain ⟨e0, e1, -⟩ := idx_facts7 t
  unfold iblk7
  rw [View.read_apply]
  show V c main_call0_v106 _ = V c main_call0_v106 _
  congr 1
  funext a
  apply Fin.ext
  match a with
  | ⟨0, _⟩ => show win7_0.index t (0 : Fin 2) * 6000 + 1 * r.val = t.val * 6000 + r.val; rw [e0]; omega
  | ⟨1, _⟩ => show win7_0.index t (1 : Fin 2) * 128 + 1 * q.val = q.val; rw [e1]; omega

theorem blk7_1_apply (c : Dev nD) (t : Fin cfg7.N) (r : Fin 6000) (q : Fin 4) :
    (iblk7 V c 1 t : Vec Ideal S6000x4 .f32) (ix2 r q) = (V c main_arg2 : Vec Ideal S600000x4 .f32) (ix2 (rowAt7 t r) q) := by
  obtain ⟨-, -, e0, e1, -⟩ := idx_facts7 t
  unfold iblk7
  rw [View.read_apply]
  show V c main_arg2 _ = V c main_arg2 _
  congr 1
  funext a
  apply Fin.ext
  match a with
  | ⟨0, _⟩ => show win7_1.index t (0 : Fin 2) * 6000 + 1 * r.val = t.val * 6000 + r.val; rw [e0]; omega
  | ⟨1, _⟩ => show win7_1.index t (1 : Fin 2) * 4 + 1 * q.val = q.val; rw [e1]; omega

theorem blk7_2_eq (c : Dev nD) (t : Fin cfg7.N) :
    (iblk7 V c 2 t : Vec Ideal S128x128 .f32) = (V c main_call0_v97 : Vec Ideal S128x128 .f32) := by
  obtain ⟨-, -, -, -, e0, e1, -⟩ := idx_facts7 t
  funext j
  unfold iblk7
  rw [View.read_apply]
  show V c main_call0_v97 _ = V c main_call0_v97 _
  congr 1
  funext a
  apply Fin.ext
  match a with
  | ⟨0, _⟩ => show win7_2.index t (0 : Fin 2) * 128 + 1 * (j 0).val = (j 0).val; rw [e0]; omega
  | ⟨1, _⟩ => show win7_2.index t (1 : Fin 2) * 128 + 1 * (j 1).val = (j 1).val; rw [e1]; omega

theorem blk7_3_eq (c : Dev nD) (t : Fin cfg7.N) :
    (iblk7 V c 3 t : Vec Ideal S4x128 .f32) = (V c main_call0_v99 : Vec Ideal S4x128 .f32) := by
  obtain ⟨-, -, -, -, -, -, e0, e1, -⟩ := idx_facts7 t
  funext j
  unfold iblk7
  rw [View.read_apply]
  show V c main_call0_v99 _ = V c main_call0_v99 _
  congr 1
  funext a
  apply Fin.ext
  match a with
  | ⟨0, _⟩ => show win7_3.index t (0 : Fin 2) * 4 + 1 * (j 0).val = (j 0).val; rw [e0]; omega
  | ⟨1, _⟩ => show win7_3.index t (1 : Fin 2) * 128 + 1 * (j 1).val = (j 1).val; rw [e1]; omega

theorem blk7_4_eq (c : Dev nD) (t : Fin cfg7.N) :
    (iblk7 V c 4 t : Vec Ideal S128 .f32) = (V c main_call0_v101 : Vec Ideal S128 .f32) := by
  obtain ⟨-, -, -, -, -, -, -, -, e0, -⟩ := idx_facts7 t
  funext j
  unfold iblk7
  rw [View.read_apply]
  show V c main_call0_v101 _ = V c main_call0_v101 _
  congr 1
  funext a
  apply Fin.ext
  match a with
  | ⟨0, _⟩ => show win7_4.index t (0 : Fin 1) * 128 + 1 * (j 0).val = (j 0).val; rw [e0]; omega

theorem blk7_5_eq (c : Dev nD) (t : Fin cfg7.N) :
    (iblk7 V c 5 t : Vec Ideal S128x128 .f32) = (V c main_call0_v103 : Vec Ideal S128x128 .f32) := by
  obtain ⟨-, -, -, -, -, -, -, -, -, e0, e1, -⟩ := idx_facts7 t
  funext j
  unfold iblk7
  rw [View.read_apply]
  show V c main_call0_v103 _ = V c main_call0_v103 _
  congr 1
  funext a
  apply Fin.ext
  match a with
  | ⟨0, _⟩ => show win7_5.index t (0 : Fin 2) * 128 + 1 * (j 0).val = (j 0).val; rw [e0]; omega
  | ⟨1, _⟩ => show win7_5.index t (1 : Fin 2) * 128 + 1 * (j 1).val = (j 1).val; rw [e1]; omega

theorem blk7_6_eq (c : Dev nD) (t : Fin cfg7.N) :
    (iblk7 V c 6 t : Vec Ideal S128 .f32) = (V c main_call0_v105 : Vec Ideal S128 .f32) := by
  obtain ⟨-, -, -, -, -, -, -, -, -, -, -, e0, -⟩ := idx_facts7 t
  funext j
  unfold iblk7
  rw [View.read_apply]
  show V c main_call0_v105 _ = V c main_call0_v105 _
  congr 1
  funext a
  apply Fin.ext
  match a with
  | ⟨0, _⟩ => show win7_6.index t (0 : Fin 1) * 128 + 1 * (j 0).val = (j 0).val; rw [e0]; omega

theorem block_value7 (c : Dev nD) (t : Fin cfg7.N) (j : S6000x128.Idx) (i : S600000x128.Idx)
    (h0 : (i 0).val = t.val * 6000 + (j 0).val) (h1 : (i 1).val = (j 1).val) :
    MeshGnn.dense (MeshGnn.dense2 (iblk7 V c 0 t : Vec Ideal S6000x128 .f32) (iblk7 V c 2 t : Vec Ideal S128x128 .f32)
        (iblk7 V c 1 t : Vec Ideal S6000x4 .f32) (iblk7 V c 3 t : Vec Ideal S4x128 .f32) (iblk7 V c 4 t : Vec Ideal S128 .f32))
      (iblk7 V c 5 t : Vec Ideal S128x128 .f32) (iblk7 V c 6 t : Vec Ideal S128 .f32) j = G7 V c i := by
  obtain ⟨p, q, rfl⟩ : ∃ (p : Fin 6000) (q : Fin 128), j = ix2 p q := ⟨_, _, eq_ix2 j⟩
  have hi : i = ix2 (rowAt7 t p) q := funext fun a => Fin.ext (by
    match a with
    | ⟨0, _⟩ => exact h0
    | ⟨1, _⟩ => exact h1)
  rw [hi, blk7_2_eq V c t, blk7_3_eq V c t, blk7_4_eq V c t, blk7_5_eq V c t, blk7_6_eq V c t]
  exact MeshGnn.dense_rows _ _ (rowAt7 t)
    (fun r k => MeshGnn.dense2_rows _ _ _ _ (rowAt7 t) (fun r' k' => blk7_0_apply V c t r' k') (fun r' k' => blk7_1_apply V c t r' k') _ _ _ r k)
    _ _ p q

theorem flushed_eq7 (c : Dev nD) (t : Fin cfg7.N) :
    (dat7 (F := Ideal) V c).flushed 7 t = ((cfg7.win 7).blk t).view.read (Elt Ideal) (G7 V c) := by
  show (cfg7.win 7).cut (grid7.coords t) ((dat7 (F := Ideal) V c).after 7 t) = _
  rw [after7_7]
  unfold out7_7
  rw [View.canon_unit_zero hz2_7]
  simp only [View.ld_unit_zero (S := S6000x128) hz2_7, View.ld_unit_zero (S := S6000x4) hz2_7, View.ld_unit_zero (S := S128x128) hz2_7, View.ld_unit_zero (S := S4x128) hz2_7, View.ld_unit_zero (S := S128) hz1_7]
  rw [pay7]
  obtain ⟨-, -, -, -, -, -, -, -, -, -, -, -, e0, e1⟩ := idx_facts7 t
  funext j
  rw [View.read_apply]
  refine block_value7 V c t _ _ ?_ ?_
  · show win7_7.index t (0 : Fin 2) * 6000 + 1 * (j 0).val = t.val * 6000 + (j 0).val
    rw [e0]; omega
  · show win7_7.index t (1 : Fin 2) * 128 + 1 * (j 1).val = (j 1).val
    rw [e1]; omega

theorem mem_blk7 (t : Fin cfg7.N) (i : S600000x128.Idx) :
    i ∈ ((cfg7.win 7).blk t).view.set ↔ ∀ a : Fin 2, win7_7.index t a * S6000x128.size a ≤ (i a).val ∧ (i a).val < win7_7.index t a * S6000x128.size a + S6000x128.size a := by
  show i ∈ ((View.whole main_call0_v107).slice (win7_7.rect t)).set ↔ _
  rw [View.set_slice_whole, Rect.mem_set_unit]
  exact Iff.rfl

theorem cover7 (i : S600000x128.Idx) : ∃ t : Fin cfg7.N, (cfg7.win 7).flush t = true ∧ i ∈ ((cfg7.win 7).blk t).view.set := by
  have hi0 : (i 0).val < 600000 := (i 0).isLt
  have hi1 : (i 1).val < 128 := (i 1).isLt
  obtain ⟨t, ht⟩ : ∃ t : Fin cfg7.N, t.val = (i 0).val / 6000 :=
    ⟨⟨(i 0).val / 6000, by rw [show cfg7.N = 100 from N_7]; omega⟩, rfl⟩
  obtain ⟨-, -, -, -, -, -, -, -, -, -, -, -, e0, e1⟩ := idx_facts7 t
  refine ⟨t, flush7_7 t, ?_⟩
  rw [mem_blk7]
  intro a
  match a with
  | ⟨0, _⟩ => show win7_7.index t (0 : Fin 2) * 6000 ≤ (i 0).val ∧ (i 0).val < win7_7.index t (0 : Fin 2) * 6000 + 6000; rw [e0]; omega
  | ⟨1, _⟩ => show win7_7.index t (1 : Fin 2) * 128 ≤ (i 1).val ∧ (i 1).val < win7_7.index t (1 : Fin 2) * 128 + 128; rw [e1]; omega

/-- The array the region leaves is the message network of the whole arrays it found: each block of rows is the same rows of the whole map, and the blocks tile the array. -/
theorem region7_value (c : Dev nD) :
    (Gen.dat7 (F := Ideal) V c).arrAt 7 cfg7.N = MeshGnn.dense (MeshGnn.dense2 (V c main_call0_v106) (V c main_call0_v97) (V c main_arg2) (V c main_call0_v99) (V c main_call0_v101)) (V c main_call0_v103) (V c main_call0_v105) :=
  (Gen.dat7 (F := Ideal) V c).arrAt_eq_of_cover 7 (G7 V c) (fun t _ => flushed_eq7 V c t) cover7

end Cert.KernelIdeal.Hand.Msg

end
-- ==== Proof.RegUpd8.lean ====
import proofs.«406442_j73220602462590_1_alg».proof.Proof.Gen.KernelIdeal.Frame
import proofs.«406442_j73220602462590_1_alg».proof.Proof.PayUpd
import Idealize.ShloMosaic.Lib.Pipeline.Value

noncomputable section

namespace Cert.KernelIdeal.Hand.Upd

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev reg8_G (c : Dev nD) : S50000x128.Idx → EReal :=
  MeshGnn.denseRes (MeshGnn.dense2 (V c main_call0_v95) (V c main_call0_v114) (V c main_call0_v112) (V c main_call0_v116) (V c main_call0_v118)) (V c main_call0_v120) (V c main_call0_v122) (V c main_call0_v95)

theorem reg8_lt (t : Fin cfg8.N) : t.val < 25 := t.isLt.trans_eq N_8

theorem reg8_idx : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = 0 ∧ win8_5.index t (1 : Fin 2) = 0
    ∧ win8_6.index t (0 : Fin 1) = 0
    ∧ win8_7.index t (0 : Fin 2) = t.val ∧ win8_7.index t (1 : Fin 2) = 0 :=
  (by decide +kernel : ∀ t : Fin grid8.N, _)

theorem reg8_blk0 (c : Dev nD) (t : Fin cfg8.N) (p : Fin 2000) (q : Fin 128) :
    (iblk8 V c 0 t : Vec Ideal S2000x128 .f32) (ix2 p q)
      = (V c main_call0_v95 : S50000x128.Idx → EReal) (ix2 (rowAt t.val (reg8_lt t) p) q) := by
  obtain ⟨e0, e1, -⟩ := reg8_idx t
  unfold iblk8
  rw [View.read_apply]
  show V c main_call0_v95 _ = V c main_call0_v95 _
  congr 1
  funext a
  apply Fin.ext
  match a with
  | ⟨0, _⟩ => show win8_0.index t (0 : Fin 2) * 2000 + 1 * p.val = t.val * 2000 + p.val; rw [e0]; omega
  | ⟨1, _⟩ => show win8_0.index t (1 : Fin 2) * 128 + 1 * q.val = q.val; rw [e1]; omega

theorem reg8_blk1 (c : Dev nD) (t : Fin cfg8.N) (p : Fin 2000) (q : Fin 128) :
    (iblk8 V c 1 t : Vec Ideal S2000x128 .f32) (ix2 p q)
      = (V c main_call0_v112 : S50000x128.Idx → EReal) (ix2 (rowAt t.val (reg8_lt t) p) q) := by
  obtain ⟨-, -, e0, e1, -⟩ := reg8_idx t
  unfold iblk8
  rw [View.read_apply]
  show V c main_call0_v112 _ = V c main_call0_v112 _
  congr 1
  funext a
  apply Fin.ext
  match a with
  | ⟨0, _⟩ => show win8_1.index t (0 : Fin 2) * 2000 + 1 * p.val = t.val * 2000 + p.val; rw [e0]; omega
  | ⟨1, _⟩ => show win8_1.index t (1 : Fin 2) * 128 + 1 * q.val = q.val; rw [e1]; omega

theorem reg8_blk2 (c : Dev nD) (t : Fin cfg8.N) :
    (iblk8 V c 2 t : Vec Ideal S128x128 .f32) = (V c main_call0_v114 : S128x128.Idx → EReal) := by
  obtain ⟨-, -, -, -, e0, e1, -⟩ := reg8_idx t
  funext y
  unfold iblk8
  rw [View.read_apply]
  show V c main_call0_v114 _ = V c main_call0_v114 y
  congr 1
  funext a
  apply Fin.ext
  match a with
  | ⟨0, _⟩ => show win8_2.index t (0 : Fin 2) * 128 + 1 * (y 0).val = (y 0).val; rw [e0]; omega
  | ⟨1, _⟩ => show win8_2.index t (1 : Fin 2) * 128 + 1 * (y 1).val = (y 1).val; rw [e1]; omega

theorem reg8_blk3 (c : Dev nD) (t : Fin cfg8.N) :
    (iblk8 V c 3 t : Vec Ideal S128x128 .f32) = (V c main_call0_v116 : S128x128.Idx → EReal) := by
  obtain ⟨-, -, -, -, -, -, e0, e1, -⟩ := reg8_idx t
  funext y
  unfold iblk8
  rw [View.read_apply]
  show V c main_call0_v116 _ = V c main_call0_v116 y
  congr 1
  funext a
  apply Fin.ext
  match a with
  | ⟨0, _⟩ => show win8_3.index t (0 : Fin 2) * 128 + 1 * (y 0).val = (y 0).val; rw [e0]; omega
  | ⟨1, _⟩ => show win8_3.index t (1 : Fin 2) * 128 + 1 * (y 1).val = (y 1).val; rw [e1]; omega

theorem reg8_blk4 (c : Dev nD) (t : Fin cfg8.N) :
    (iblk8 V c 4 t : Vec Ideal S128 .f32) = (V c main_call0_v118 : S128.Idx → EReal) := by
  obtain ⟨-, -, -, -, -, -, -, -, e0, -⟩ := reg8_idx t
  funext y
  unfold iblk8
  rw [View.read_apply]
  show V c main_call0_v118 _ = V c main_call0_v118 y
  congr 1
  funext a
  apply Fin.ext
  match a with
  | ⟨0, _⟩ => show win8_4.index t (0 : Fin 1) * 128 + 1 * (y 0).val = (y 0).val; rw [e0]; omega

theorem reg8_blk5 (c : Dev nD) (t : Fin cfg8.N) :
    (iblk8 V c 5 t : Vec Ideal S128x128 .f32) = (V c main_call0_v120 : S128x128.Idx → EReal) := by
  obtain ⟨-, -, -, -, -, -, -, -, -, e0, e1, -⟩ := reg8_idx t
  funext y
  unfold iblk8
  rw [View.read_apply]
  show V c main_call0_v120 _ = V c main_call0_v120 y
  congr 1
  funext a
  apply Fin.ext
  match a with
  | ⟨0, _⟩ => show win8_5.index t (0 : Fin 2) * 128 + 1 * (y 0).val = (y 0).val; rw [e0]; omega
  | ⟨1, _⟩ => show win8_5.index t (1 : Fin 2) * 128 + 1 * (y 1).val = (y 1).val; rw [e1]; omega

theorem reg8_blk6 (c : Dev nD) (t : Fin cfg8.N) :
    (iblk8 V c 6 t : Vec Ideal S128 .f32) = (V c main_call0_v122 : S128.Idx → EReal) := by
  obtain ⟨-, -, -, -, -, -, -, -, -, -, -, e0, -⟩ := reg8_idx t
  funext y
  unfold iblk8
  rw [View.read_apply]
  show V c main_call0_v122 _ = V c main_call0_v122 y
  congr 1
  funext a
  apply Fin.ext
  match a with
  | ⟨0, _⟩ => show win8_6.index t (0 : Fin 1) * 128 + 1 * (y 0).val = (y 0).val; rw [e0]; omega

theorem reg8_block (c : Dev nD) (t : Fin cfg8.N) (j : S2000x128.Idx) (i : S50000x128.Idx)
    (h0 : (i 0).val = t.val * 2000 + (j 0).val) (h1 : (i 1).val = (j 1).val) :
    MeshGnn.denseRes (MeshGnn.dense2 (iblk8 V c 0 t : Vec Ideal S2000x128 .f32) (iblk8 V c 2 t : Vec Ideal S128x128 .f32)
        (iblk8 V c 1 t : Vec Ideal S2000x128 .f32) (iblk8 V c 3 t : Vec Ideal S128x128 .f32) (iblk8 V c 4 t : Vec Ideal S128 .f32))
      (iblk8 V c 5 t : Vec Ideal S128x128 .f32) (iblk8 V c 6 t : Vec Ideal S128 .f32) (iblk8 V c 0 t : Vec Ideal S2000x128 .f32) j
      = reg8_G V c i := by
  obtain ⟨p, q, rfl⟩ : ∃ (p : Fin 2000) (q : Fin 128), j = ix2 p q := ⟨_, _, eq_ix2 j⟩
  have hi : i = ix2 (rowAt t.val (reg8_lt t) p) q := funext fun a => Fin.ext (by
    match a with
    | ⟨0, _⟩ => exact h0
    | ⟨1, _⟩ => exact h1)
  rw [hi, reg8_blk2 V c t, reg8_blk3 V c t, reg8_blk4 V c t, reg8_blk5 V c t, reg8_blk6 V c t]
  exact upd_rows t.val (reg8_lt t) _ _ _ _ (reg8_blk0 V c t) (reg8_blk1 V c t) _ _ _ _ _ p q

theorem reg8_flushed (c : Dev nD) (t : Fin cfg8.N) :
    (dat8 V c).flushed 7 t = ((cfg8.win 7).blk t).view.read (Elt Ideal) (reg8_G V c) := by
  show (cfg8.win 7).cut (grid8.coords t) ((dat8 V c).after 7 t) = _
  rw [after8_7]
  unfold out8_7
  rw [View.canon_unit_zero zero2]
  simp only [View.ld_unit_zero (S := S2000x128) zero2, View.ld_unit_zero (S := S128x128) zero2, View.ld_unit_zero (S := S128) zero1]
  rw [pay8]
  obtain ⟨-, -, -, -, -, -, -, -, -, -, -, -, e0, e1⟩ := reg8_idx t
  funext j
  rw [View.read_apply]
  refine reg8_block V c t _ _ ?_ ?_
  · show win8_7.index t (0 : Fin 2) * 2000 + 1 * (j 0).val = t.val * 2000 + (j 0).val
    rw [e0]; omega
  · show win8_7.index t (1 : Fin 2) * 128 + 1 * (j 1).val = (j 1).val
    rw [e1]; omega

theorem reg8_mem (t : Fin cfg8.N) (i : S50000x128.Idx) :
    i ∈ ((cfg8.win 7).blk t).view.set ↔ ∀ a : Fin 2, win8_7.index t a * S2000x128.size a ≤ (i a).val ∧ (i a).val < win8_7.index t a * S2000x128.size a + S2000x128.size a := by
  show i ∈ ((View.whole main_call0_v123).slice (win8_7.rect t)).set ↔ _
  rw [View.set_slice_whole, Rect.mem_set_unit]
  exact Iff.rfl

theorem reg8_cover (i : S50000x128.Idx) :
    ∃ t : Fin cfg8.N, (cfg8.win 7).flush t = true ∧ i ∈ ((cfg8.win 7).blk t).view.set := by
  have hi0 : (i 0).val < 50000 := (i 0).isLt
  have hi1 : (i 1).val < 128 := (i 1).isLt
  have hN : cfg8.N = 25 := N_8
  let t : Fin cfg8.N := ⟨(i 0).val / 2000, by rw [hN]; omega⟩
  obtain ⟨-, -, -, -, -, -, -, -, -, -, -, -, e0, e1⟩ := reg8_idx t
  have ht : t.val = (i 0).val / 2000 := rfl
  refine ⟨t, flush8_7 t, ?_⟩
  rw [reg8_mem]
  intro a
  match a with
  | ⟨0, _⟩ => show win8_7.index t (0 : Fin 2) * 2000 ≤ (i 0).val ∧ (i 0).val < win8_7.index t (0 : Fin 2) * 2000 + 2000; rw [e0, ht]; omega
  | ⟨1, _⟩ => show win8_7.index t (1 : Fin 2) * 128 ≤ (i 1).val ∧ (i 1).val < win8_7.index t (1 : Fin 2) * 128 + 128; rw [e1]; omega

/-- The array the region leaves is the update network of the whole arrays it found: each block of rows is the same rows of the whole map, and the blocks tile the array. -/
theorem region8_value (c : Dev nD) :
    (Gen.dat8 (F := Ideal) V c).arrAt 7 cfg8.N = MeshGnn.denseRes (MeshGnn.dense2 (V c main_call0_v95) (V c main_call0_v114) (V c main_call0_v112) (V c main_call0_v116) (V c main_call0_v118)) (V c main_call0_v120) (V c main_call0_v122) (V c main_call0_v95) :=
  (dat8 V c).arrAt_eq_of_cover 7 (reg8_G V c) (fun t _ => reg8_flushed V c t) reg8_cover

end Cert.KernelIdeal.Hand.Upd

end
-- ==== Proof.RefMsg3.lean ====
/- The message network of layer 3 of the reference program, read as the mathematics of two dense maps.

   The reference joins the gathered node features [600000,128] and the edge attributes [600000,4] into one
   [600000,132] array, contracts it with matrix 3 of the first weight stack, adds row 3 of the first bias stack and
   clamps at zero; then contracts with matrix 3 of the second weight stack, adds row 3 of the second bias stack and
   clamps at zero.  The joined contraction over 132 = 128 + 4 positions splits into the contraction of the node
   features against rows 0..127 and of the edge attributes against rows 128..131 of the weight matrix.  The gathered
   node features stay an unopened operand. -/
import proofs.«406442_j73220602462590_1_alg».proof.Proof.RefRead
import proofs.«406442_j73220602462590_1_alg».proof.Proof.Spec
import Idealize.ShloMosaic.Lib.Pipeline.Value
import Idealize.ShloMosaic.Lib.ValueIdx
import Idealize.ShloMosaic.PureOps.Ideal.Laws

noncomputable section

open scoped BigOperators
open Cert.ReferenceIdeal Cert.ReferenceIdeal.Gen Cert.ReferenceIdeal.Read Idealize.ShloMosaic Idealize.ShloMosaic.ValueIdx

namespace Cert.ReferenceIdeal.Hand

variable (x0 : (⟨S50000x16, .f32⟩ : BufTy).Contents (Elt Ideal)) (x1 : (⟨S2x600000, .i32⟩ : BufTy).Contents (Elt Ideal)) (x2 : (⟨S600000x4, .f32⟩ : BufTy).Contents (Elt Ideal))
  (x3 : (⟨S16x128, .f32⟩ : BufTy).Contents (Elt Ideal)) (x4 : (⟨S128, .f32⟩ : BufTy).Contents (Elt Ideal)) (x5 : (⟨S4x132x128, .f32⟩ : BufTy).Contents (Elt Ideal))
  (x6 : (⟨S4x128, .f32⟩ : BufTy).Contents (Elt Ideal)) (x7 : (⟨S4x128x128, .f32⟩ : BufTy).Contents (Elt Ideal)) (x8 : (⟨S4x128, .f32⟩ : BufTy).Contents (Elt Ideal))
  (x9 : (⟨S4x256x128, .f32⟩ : BufTy).Contents (Elt Ideal)) (x10 : (⟨S4x128, .f32⟩ : BufTy).Contents (Elt Ideal)) (x11 : (⟨S4x128x128, .f32⟩ : BufTy).Contents (Elt Ideal))
  (x12 : (⟨S4x128, .f32⟩ : BufTy).Contents (Elt Ideal))

/-- The joined input of the first dense map: the gathered node features beside the edge attributes. A column below
    128 falls in the first piece, a column from 128 on falls in the second, 128 less. -/
theorem cat_msg3 :
    val_main_v176 (F := Ideal) x0 x1 x2 x3 x4 x5 x6 x7 x8 x9 x10 x11 x12
      = MeshGnn.beside (n := 600000) (a := 128) (b := 4) (val_main_v175 (F := Ideal) x0 x1 x2 x3 x4 x5 x6 x7 x8 x9 x10 x11 x12) x2 := by
  funext i
  unfold val_main_v176
  generalize val_main_v175 (F := Ideal) x0 x1 x2 x3 x4 x5 x6 x7 x8 x9 x10 x11 x12 = g
  unfold MeshGnn.beside
  by_cases h : (i 1).val < 128
  · rw [dif_pos h]
    exact concatenate_pair_apply_left 1 g x2 concatenates_S600000x128_S600000x4_S600000x132_d1 i rfl _ (fun b => by
      match b with
      | ⟨0, _⟩ => rfl
      | ⟨1, _⟩ => rfl)
  · rw [dif_neg h]
    exact concatenate_pair_apply_right 1 g x2 concatenates_S600000x128_S600000x4_S600000x132_d1 i rfl rfl _
      (fun b hb => by
        match b with
        | ⟨0, _⟩ => rfl
        | ⟨1, _⟩ => exact absurd rfl hb)
      (by show (i 1).val - 128 + 128 = (i 1).val; omega)

/-- The first weight matrix of the layer is matrix 3 of the stack: the slice keeps the matrix, the reshape drops the
    unit axis (row-major position `q * 128 + c` splits back into `q` and `c`). -/
theorem w1_msg3 (q : Fin 132) (c : Fin 128) :
    val_main_v178 (F := Ideal) x5 (ix2 q c) = x5 (ix3 (3 : Fin 4) q c) := by
  rw [val_main_v178_apply, val_main_v177_apply]
  refine congrArg x5 (funext fun a => ?_)
  have hq := q.isLt
  have hc := c.isLt
  match a with
  | ⟨0, _⟩ => rfl
  | ⟨1, _⟩ => exact Fin.ext (by show (q.val * 128 + c.val) / 128 % 132 = q.val; omega)
  | ⟨2, _⟩ => exact Fin.ext (by show (q.val * 128 + c.val) % 128 = c.val; omega)

/-- The first bias, broadcast along the rows, is row 3 of the bias matrix. -/
theorem b1_msg3 (r : Fin 600000) (c : Fin 128) :
    val_main_v183 (F := Ideal) x6 (ix2 r c) = MeshGnn.rowOf x6 (3 : Fin 4) (ix1 c) := by
  rw [val_main_v183_apply, val_main_v182_apply, val_main_v181_apply, val_main_v180_apply]
  unfold MeshGnn.rowOf
  refine congrArg x6 (funext fun a => ?_)
  have hc := c.isLt
  match a with
  | ⟨0, _⟩ => rfl
  | ⟨1, _⟩ => exact Fin.ext (by show c.val % 128 = c.val; omega)

/-- The clamp's lower bound is the number zero. -/
theorem zero1_msg3 (i : S600000x128.Idx) : val_main_call13_v0 (F := Ideal) i = 0 := by
  rw [val_main_call13_v0_apply, val_main_call13_cst_apply]
  exact Ideal.ofBits_zero_f32

/-- Contracting the joined row against the 132-row weight matrix is the contraction of the node features against its
    rows 0..127 plus the contraction of the edge attributes against its rows 128..131. -/
theorem dot1_msg3 (g : MeshGnn.A2 600000 128) (r : Fin 600000) (c : Fin 128) :
    (∑ k : Fin 132, MeshGnn.beside (n := 600000) (a := 128) (b := 4) g x2 (lidx_main_v179 (ix2 r c) k)
        * val_main_v178 (F := Ideal) x5 (ridx_main_v179 (ix2 r c) k))
      = (∑ q : Fin 128, g (ix2 r q) * MeshGnn.slab x5 (3 : Fin 4) 0 128 (by decide) (ix2 q c))
        + ∑ q : Fin 4, x2 (ix2 r q) * MeshGnn.slab x5 (3 : Fin 4) 128 4 (by decide) (ix2 q c) := by
  have hl : ∀ k : Fin 132, lidx_main_v179 (ix2 r c) k = ix2 r k := fun k => funext fun a => by
    match a with
    | ⟨0, _⟩ => rfl
    | ⟨1, _⟩ => rfl
  have hr : ∀ k : Fin 132, ridx_main_v179 (ix2 r c) k = ix2 k c := fun k => funext fun a => by
    match a with
    | ⟨0, _⟩ => rfl
    | ⟨1, _⟩ => rfl
  have e : (∑ k : Fin 132, MeshGnn.beside (n := 600000) (a := 128) (b := 4) g x2 (lidx_main_v179 (ix2 r c) k)
        * val_main_v178 (F := Ideal) x5 (ridx_main_v179 (ix2 r c) k))
      = ∑ k : Fin 132, MeshGnn.beside (n := 600000) (a := 128) (b := 4) g x2 (ix2 r k)
        * x5 (ix3 (3 : Fin 4) k c) :=
    Finset.sum_congr rfl fun k _ => by rw [hl k, hr k, w1_msg3]
  refine e.trans ?_
  refine (MeshGnn.dot_beside (n := 600000) (a := 128) (b := 4) (p := 128) g x2
    (fun i => x5 (ix3 (3 : Fin 4) (MeshGnn.row i) (MeshGnn.col i))) r c).trans ?_
  unfold MeshGnn.dot MeshGnn.slab
  congr 1

/-- The first dense map of the layer. -/
theorem hid_msg3 :
    val_main_v185 (F := Ideal) x0 x1 x2 x3 x4 x5 x6 x7 x8 x9 x10 x11 x12
      = MeshGnn.dense2 (val_main_v175 (F := Ideal) x0 x1 x2 x3 x4 x5 x6 x7 x8 x9 x10 x11 x12) (MeshGnn.slab x5 3 0 128 (by decide)) x2
          (MeshGnn.slab x5 3 128 4 (by decide)) (MeshGnn.rowOf x6 3) := by
  funext i
  obtain ⟨r, c, rfl⟩ : ∃ (r : Fin 600000) (c : Fin 128), i = ix2 r c := ⟨_, _, eq_ix2 i⟩
  rewrite [MeshGnn.dense2_apply, val_main_v185_apply, val_main_v184_apply, val_main_v179_apply, zero1_msg3, b1_msg3,
    cat_msg3, dot1_msg3]
  rfl

/-- The second weight matrix of the layer is matrix 3 of its stack. -/
theorem w2_msg3 (q : Fin 128) (c : Fin 128) :
    val_main_v187 (F := Ideal) x7 (ix2 q c) = MeshGnn.slab x7 (3 : Fin 4) 0 128 (by decide) (ix2 q c) := by
  rw [val_main_v187_apply, val_main_v186_apply]
  unfold MeshGnn.slab
  refine congrArg x7 (funext fun a => ?_)
  have hq := q.isLt
  have hc := c.isLt
  match a with
  | ⟨0, _⟩ => rfl
  | ⟨1, _⟩ => exact Fin.ext (by show (q.val * 128 + c.val) / 128 % 128 = 0 + q.val; omega)
  | ⟨2, _⟩ => exact Fin.ext (by show (q.val * 128 + c.val) % 128 = c.val; omega)

/-- The second bias, broadcast along the rows, is row 3 of its bias matrix. -/
theorem b2_msg3 (r : Fin 600000) (c : Fin 128) :
    val_main_v192 (F := Ideal) x8 (ix2 r c) = MeshGnn.rowOf x8 (3 : Fin 4) (ix1 c) := by
  rw [val_main_v192_apply, val_main_v191_apply, val_main_v190_apply, val_main_v189_apply]
  unfold MeshGnn.rowOf
  refine congrArg x8 (funext fun a => ?_)
  have hc := c.isLt
  match a with
  | ⟨0, _⟩ => rfl
  | ⟨1, _⟩ => exact Fin.ext (by show c.val % 128 = c.val; omega)

/-- The second clamp's lower bound is the number zero. -/
theorem zero2_msg3 (i : S600000x128.Idx) : val_main_call14_v0 (F := Ideal) i = 0 := by
  rw [val_main_call14_v0_apply, val_main_call14_cst_apply]
  exact Ideal.ofBits_zero_f32

/-- The second contraction, against the second weight matrix of the layer. -/
theorem dot2_msg3 (H : MeshGnn.A2 600000 128) (r : Fin 600000) (c : Fin 128) :
    (∑ k : Fin 128, H (lidx_main_v188 (ix2 r c) k) * val_main_v187 (F := Ideal) x7 (ridx_main_v188 (ix2 r c) k))
      = ∑ q : Fin 128, H (ix2 r q) * MeshGnn.slab x7 (3 : Fin 4) 0 128 (by decide) (ix2 q c) := by
  have hl : ∀ k : Fin 128, lidx_main_v188 (ix2 r c) k = ix2 r k := fun k => funext fun a => by
    match a with
    | ⟨0, _⟩ => rfl
    | ⟨1, _⟩ => rfl
  have hr : ∀ k : Fin 128, ridx_main_v188 (ix2 r c) k = ix2 k c := fun k => funext fun a => by
    match a with
    | ⟨0, _⟩ => rfl
    | ⟨1, _⟩ => rfl
  exact Finset.sum_congr rfl fun k _ => by rw [hl k, hr k, w2_msg3]

/-- The message network of layer 3: two dense maps, the first fed by the gathered node features beside the edge
    attributes. -/
theorem ref_msg3 :
    val_main_v194 (F := Ideal) x0 x1 x2 x3 x4 x5 x6 x7 x8 x9 x10 x11 x12
      = MeshGnn.dense
          (MeshGnn.dense2 (val_main_v175 (F := Ideal) x0 x1 x2 x3 x4 x5 x6 x7 x8 x9 x10 x11 x12) (MeshGnn.slab x5 3 0 128 (by decide)) x2
            (MeshGnn.slab x5 3 128 4 (by decide)) (MeshGnn.rowOf x6 3))
          (MeshGnn.slab x7 3 0 128 (by decide)) (MeshGnn.rowOf x8 3) := by
  funext i
  obtain ⟨r, c, rfl⟩ : ∃ (r : Fin 600000) (c : Fin 128), i = ix2 r c := ⟨_, _, eq_ix2 i⟩
  rewrite [MeshGnn.dense_apply, val_main_v194_apply, val_main_v193_apply, val_main_v188_apply, zero2_msg3, b2_msg3,
    hid_msg3, dot2_msg3]
  rfl

end Cert.ReferenceIdeal.Hand

end
-- ==== Proof.RefUpd3.lean ====
/- Update layer 3 of the reference program.  The node features and the aggregated messages are joined side
   by side; the joined row is contracted against the first update matrix, the first bias is added and the
   result clamped below at zero; that is contracted against the second update matrix, the second bias and
   then the node features themselves are added, and the sum is clamped below at zero.  The contraction
   over the 256 joined columns is the contraction of the node features against the upper 128 rows of the
   matrix plus the contraction of the aggregated messages against its lower 128 rows. -/
import proofs.«406442_j73220602462590_1_alg».proof.Proof.RefRead
import proofs.«406442_j73220602462590_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

/-- Row `q` of the first update matrix of layer 3, read out of the stack of matrices. -/
theorem upd3_w1 (x9 : (⟨S4x256x128, .f32⟩ : BufTy).Contents (Elt Ideal)) (q : Fin 256) (c : Fin 128) :
    val_main_v202 (F := Ideal) x9 (ix2 q c) = x9 (ix3 (3 : Fin 4) q c) := by
  rw [val_main_v202_apply, val_main_v201_apply]
  congr 1
  funext a
  have hq := q.isLt
  have hc := c.isLt
  match a with
  | ⟨0, _⟩ => exact Fin.ext rfl
  | ⟨1, _⟩ => exact Fin.ext (by show (q.val * 128 + c.val) / 128 % 256 = q.val; omega)
  | ⟨2, _⟩ => exact Fin.ext (by show (q.val * 128 + c.val) % 128 = c.val; omega)

/-- The first update bias of layer 3, spread over the rows. -/
theorem upd3_b1 (x10 : (⟨S4x128, .f32⟩ : BufTy).Contents (Elt Ideal)) (r : Fin 50000) (c : Fin 128) :
    val_main_v207 (F := Ideal) x10 (ix2 r c) = MeshGnn.rowOf x10 (3 : Fin 4) (ix1 c) := by
  rw [val_main_v207_apply, val_main_v206_apply, val_main_v205_apply, val_main_v204_apply]
  unfold MeshGnn.rowOf
  congr 1
  funext a
  have hc := c.isLt
  match a with
  | ⟨0, _⟩ => exact Fin.ext rfl
  | ⟨1, _⟩ => exact Fin.ext (by show c.val % 128 = c.val; omega)

/-- The second update matrix of layer 3, read out of the stack of matrices. -/
theorem upd3_w2 (x11 : (⟨S4x128x128, .f32⟩ : BufTy).Contents (Elt Ideal)) (q : Fin 128) (c : Fin 128) :
    val_main_v211 (F := Ideal) x11 (ix2 q c) = MeshGnn.slab x11 (3 : Fin 4) 0 128 (by decide) (ix2 q c) := by
  rw [val_main_v211_apply, val_main_v210_apply]
  unfold MeshGnn.slab
  congr 1
  funext a
  have hq := q.isLt
  have hc := c.isLt
  match a with
  | ⟨0, _⟩ => exact Fin.ext rfl
  | ⟨1, _⟩ => exact Fin.ext (by show (q.val * 128 + c.val) / 128 % 128 = 0 + q.val; omega)
  | ⟨2, _⟩ => exact Fin.ext (by show (q.val * 128 + c.val) % 128 = c.val; omega)

/-- The second update bias of layer 3, spread over the rows. -/
theorem upd3_b2 (x12 : (⟨S4x128, .f32⟩ : BufTy).Contents (Elt Ideal)) (r : Fin 50000) (c : Fin 128) :
    val_main_v216 (F := Ideal) x12 (ix2 r c) = MeshGnn.rowOf x12 (3 : Fin 4) (ix1 c) := by
  rw [val_main_v216_apply, val_main_v215_apply, val_main_v214_apply, val_main_v213_apply]
  unfold MeshGnn.rowOf
  congr 1
  funext a
  have hc := c.isLt
  match a with
  | ⟨0, _⟩ => exact Fin.ext rfl
  | ⟨1, _⟩ => exact Fin.ext (by show c.val % 128 = c.val; omega)

/-- The upper 128 rows of the first update matrix of layer 3. -/
theorem upd3_slab_lo (x9 : (⟨S4x256x128, .f32⟩ : BufTy).Contents (Elt Ideal)) (q : Fin 128) (c : Fin 128) :
    MeshGnn.slab x9 (3 : Fin 4) 0 128 (by decide) (ix2 q c) = x9 (ix3 (3 : Fin 4) ⟨q.val, by omega⟩ c) := by
  unfold MeshGnn.slab
  refine congrArg x9 (funext fun a => ?_)
  match a with
  | ⟨0, _⟩ => rfl
  | ⟨1, _⟩ => exact Fin.ext (by show 0 + q.val = q.val; omega)
  | ⟨2, _⟩ => rfl

/-- The lower 128 rows of the first update matrix of layer 3. -/
theorem upd3_slab_hi (x9 : (⟨S4x256x128, .f32⟩ : BufTy).Contents (Elt Ideal)) (q : Fin 128) (c : Fin 128) :
    MeshGnn.slab x9 (3 : Fin 4) 128 128 (by decide) (ix2 q c) = x9 (ix3 (3 : Fin 4) ⟨128 + q.val, by omega⟩ c) := rfl

/-- A sum over 256 indices is the sum over the first 128 plus the sum over the last 128. -/
theorem upd3_sum_halves (f : Fin 256 → EReal) :
    ∑ k : Fin 256, f k = (∑ q : Fin 128, f ⟨q.val, by omega⟩) + ∑ q : Fin 128, f ⟨128 + q.val, by omega⟩ :=
  Fin.sum_univ_add (a := 128) (b := 128) f

/-- The joined input at a column among the first 128 is the node features there. -/
theorem upd3_cat_left (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : k.val = q.val) :
    val_main_v200 (F := Ideal) x0 x1 x2 x3 x4 x5 x6 x7 x8 x9 x10 x11 x12 (ix2 r k) = val_main_v168 (F := Ideal) x0 x1 x2 x3 x4 x5 x6 x7 x8 x9 x10 x11 x12 (ix2 r q) := by
  unfold val_main_v200
  refine concatenate_pair_apply_left (t := S50000x256) (s₁ := S50000x128) (s₂ := S50000x128) 1 _ _ _ _ rfl _ ?_
  intro b
  match b with
  | ⟨0, _⟩ => rfl
  | ⟨1, _⟩ => exact hk.symm

/-- The joined input at a column among the last 128 is the aggregated messages at that column less 128. -/
theorem upd3_cat_right (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal))
    (r : Fin 50000) (k : Fin 256) (q : Fin 128) (hk : q.val + 128 = k.val) :
    val_main_v200 (F := Ideal) x0 x1 x2 x3 x4 x5 x6 x7 x8 x9 x10 x11 x12 (ix2 r k) = val_main_v199 (F := Ideal) x0 x1 x2 x3 x4 x5 x6 x7 x8 x9 x10 x11 x12 (ix2 r q) := by
  unfold val_main_v200
  refine concatenate_pair_apply_right (t := S50000x256) (s₁ := S50000x128) (s₂ := S50000x128) 1 _ _ _ _ rfl rfl _ ?_ ?_
  · intro b hb
    match b with
    | ⟨0, _⟩ => rfl
    | ⟨1, _⟩ => exact absurd rfl hb
  · exact hk

/-- The hidden activation of update layer 3: the dense map fed by the node features beside the aggregated
    messages. -/
theorem ref_upd3_hid (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v209 (F := Ideal) x0 x1 x2 x3 x4 x5 x6 x7 x8 x9 x10 x11 x12
      = MeshGnn.dense2 (val_main_v168 (F := Ideal) x0 x1 x2 x3 x4 x5 x6 x7 x8 x9 x10 x11 x12) (MeshGnn.slab x9 (3 : Fin 4) 0 128 (by decide))
          (val_main_v199 (F := Ideal) x0 x1 x2 x3 x4 x5 x6 x7 x8 x9 x10 x11 x12) (MeshGnn.slab x9 (3 : Fin 4) 128 128 (by decide))
          (MeshGnn.rowOf x10 (3 : Fin 4)) := by
  funext i
  obtain ⟨r, c, rfl⟩ : ∃ (r : Fin 50000) (c : Fin 128), i = ix2 r c := ⟨_, _, eq_ix2 i⟩
  rw [val_main_v209_apply, val_main_v208_apply, val_main_v203_apply, upd3_b1, val_main_call15_v0_apply,
    val_main_call15_cst_apply, MeshGnn.dense2_apply]
  have el : ∀ k : Fin 256, lidx_main_v203 (ix2 r c) k = ix2 r k := fun k =>
    funext fun a => Fin.ext (by match a with | ⟨0, _⟩ => rfl | ⟨1, _⟩ => rfl)
  have er : ∀ k : Fin 256, ridx_main_v203 (ix2 r c) k = ix2 k c := fun k =>
    funext fun a => Fin.ext (by match a with | ⟨0, _⟩ => rfl | ⟨1, _⟩ => rfl)
  simp only [el, er, upd3_w1, Ideal.maximumf_def, Ideal.addf_def, Ideal.ofBits_def, Ideal.ofBits_zero_f32]
  -- the sum over the 256 joined columns is the sum over the first 128 plus the sum over the last 128
  have hsum : (∑ k : Fin 256, val_main_v200 (F := Ideal) x0 x1 x2 x3 x4 x5 x6 x7 x8 x9 x10 x11 x12 (ix2 r k) * x9 (ix3 (3 : Fin 4) k c))
      = (∑ q : Fin 128, val_main_v168 (F := Ideal) x0 x1 x2 x3 x4 x5 x6 x7 x8 x9 x10 x11 x12 (ix2 r q) * MeshGnn.slab x9 (3 : Fin 4) 0 128 (by decide) (ix2 q c))
        + ∑ q : Fin 128, val_main_v199 (F := Ideal) x0 x1 x2 x3 x4 x5 x6 x7 x8 x9 x10 x11 x12 (ix2 r q) * MeshGnn.slab x9 (3 : Fin 4) 128 128 (by decide) (ix2 q c) := by
    rw [upd3_sum_halves]
    refine congrArg₂ (· + ·) ?_ ?_
    · refine Finset.sum_congr rfl fun q _ => ?_
      rw [upd3_cat_left x0 x1 x2 x3 x4 x5 x6 x7 x8 x9 x10 x11 x12 r ⟨q.val, by omega⟩ q rfl, upd3_slab_lo]
    · refine Finset.sum_congr rfl fun q _ => ?_
      rw [upd3_cat_right x0 x1 x2 x3 x4 x5 x6 x7 x8 x9 x10 x11 x12 r ⟨128 + q.val, by omega⟩ q (by show q.val + 128 = 128 + q.val; omega), upd3_slab_hi]
  rw [hsum]

/-- Update layer 3. -/
theorem ref_upd3 (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) :
    val_main_v219 (F := Ideal) x0 x1 x2 x3 x4 x5 x6 x7 x8 x9 x10 x11 x12
      = MeshGnn.denseRes
          (MeshGnn.dense2 (val_main_v168 (F := Ideal) x0 x1 x2 x3 x4 x5 x6 x7 x8 x9 x10 x11 x12) (MeshGnn.slab x9 (3 : Fin 4) 0 128 (by decide))
            (val_main_v199 (F := Ideal) x0 x1 x2 x3 x4 x5 x6 x7 x8 x9 x10 x11 x12) (MeshGnn.slab x9 (3 : Fin 4) 128 128 (by decide))
            (MeshGnn.rowOf x10 (3 : Fin 4)))
          (MeshGnn.slab x11 (3 : Fin 4) 0 128 (by decide)) (MeshGnn.rowOf x12 (3 : Fin 4)) (val_main_v168 (F := Ideal) x0 x1 x2 x3 x4 x5 x6 x7 x8 x9 x10 x11 x12) := by
  funext i
  obtain ⟨r, c, rfl⟩ : ∃ (r : Fin 50000) (c : Fin 128), i = ix2 r c := ⟨_, _, eq_ix2 i⟩
  rw [val_main_v219_apply, val_main_v218_apply, val_main_v217_apply, val_main_v212_apply, upd3_b2,
    val_main_call16_v0_apply, val_main_call16_cst_apply, MeshGnn.denseRes_apply, ref_upd3_hid]
  have el : ∀ k : Fin 128, lidx_main_v212 (ix2 r c) k = ix2 r k := fun k =>
    funext fun a => Fin.ext (by match a with | ⟨0, _⟩ => rfl | ⟨1, _⟩ => rfl)
  have er : ∀ k : Fin 128, ridx_main_v212 (ix2 r c) k = ix2 k c := fun k =>
    funext fun a => Fin.ext (by match a with | ⟨0, _⟩ => rfl | ⟨1, _⟩ => rfl)
  simp only [el, er, upd3_w2, Ideal.maximumf_def, Ideal.addf_def, Ideal.ofBits_def, Ideal.ofBits_zero_f32]

end Cert.ReferenceIdeal.Hand

end
-- ==== Proof.WalkLayer3.lean ====
import proofs.«406442_j73220602462590_1_alg».proof.Proof.Gen.KernelIdeal.Frame
import proofs.«406442_j73220602462590_1_alg».proof.Proof.RefRead
import proofs.«406442_j73220602462590_1_alg».proof.Proof.WalkKeep
import proofs.«406442_j73220602462590_1_alg».proof.Proof.WalkDefs
import proofs.«406442_j73220602462590_1_alg».proof.Proof.WalkWts3
import proofs.«406442_j73220602462590_1_alg».proof.Proof.WalkTake3
import proofs.«406442_j73220602462590_1_alg».proof.Proof.WalkAgg3
import proofs.«406442_j73220602462590_1_alg».proof.Proof.WalkBridge
import proofs.«406442_j73220602462590_1_alg».proof.Proof.RegMsg7
import proofs.«406442_j73220602462590_1_alg».proof.Proof.RegUpd8
import proofs.«406442_j73220602462590_1_alg».proof.Proof.RefMsg3
import proofs.«406442_j73220602462590_1_alg».proof.Proof.RefUpd3
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- One message-passing layer along the run: if the node features entering it are the reference's, so are those leaving it. -/
theorem layer3 (hok : SrcOk m) (c : Dev nD)
    (hin : W14 m ρ c (Proc.devRef .tc main_call0_v95) = val_main_v168 (F := Ideal) (A0 m c) (A1 m c) (A2 m c) (A3 m c) (A4 m c) (A5 m c) (A6 m c) (A7 m c) (A8 m c) (A9 m c) (A10 m c) (A11 m c) (A12 m c)) :
    W18 m ρ c (Proc.devRef .tc main_call0_v123) = val_main_v219 (F := Ideal) (A0 m c) (A1 m c) (A2 m c) (A3 m c) (A4 m c) (A5 m c) (A6 m c) (A7 m c) (A8 m c) (A9 m c) (A10 m c) (A11 m c) (A12 m c) := by

  have hs : W15 m ρ c (Proc.devRef .tc main_call0_v106) = val_main_v175 (F := Ideal) (A0 m c) (A1 m c) (A2 m c) (A3 m c) (A4 m c) (A5 m c) (A6 m c) (A7 m c) (A8 m c) (A9 m c) (A10 m c) (A11 m c) (A12 m c) := by
    rw [at15_hsrc m ρ hok c, hin]
    exact gather_eq3 m hok c

  have hm : W16 m ρ c (Proc.devRef .tc main_call0_v107) = val_main_v194 (F := Ideal) (A0 m c) (A1 m c) (A2 m c) (A3 m c) (A4 m c) (A5 m c) (A6 m c) (A7 m c) (A8 m c) (A9 m c) (A10 m c) (A11 m c) (A12 m c) := by
    refine (show W16 m ρ c (Proc.devRef .tc main_call0_v107) = (dat7 (V15 m ρ) c).arrAt 7 cfg7.N from W16_arr m ρ c 7).trans ?_
    rw [Cert.KernelIdeal.Hand.Msg.region7_value (V15 m ρ) c]
    rw [show V15 m ρ c main_call0_v106 = _ from hs, show V15 m ρ c main_call0_v97 = _ from at15_w1a m ρ c,
      show V15 m ρ c main_arg2 = A2 m c from at15 m ρ c main_arg2 (by decide), show V15 m ρ c main_call0_v99 = _ from at15_w1b m ρ c,
      show V15 m ρ c main_call0_v101 = _ from at15_b1 m ρ c, show V15 m ρ c main_call0_v103 = _ from at15_w2 m ρ c,
      show V15 m ρ c main_call0_v105 = _ from at15_b2 m ρ c]
    exact (Cert.ReferenceIdeal.Hand.ref_msg3 (A0 m c) (A1 m c) (A2 m c) (A3 m c) (A4 m c) (A5 m c) (A6 m c) (A7 m c) (A8 m c) (A9 m c) (A10 m c) (A11 m c) (A12 m c)).symm

  have ha : W17 m ρ c (Proc.devRef .tc main_call0_v112) = val_main_v199 (F := Ideal) (A0 m c) (A1 m c) (A2 m c) (A3 m c) (A4 m c) (A5 m c) (A6 m c) (A7 m c) (A8 m c) (A9 m c) (A10 m c) (A11 m c) (A12 m c) := by
    rw [at17_agg m ρ c, hm]
    exact agg_eq3 m c

  have hh : W17 m ρ c (Proc.devRef .tc main_call0_v95) = val_main_v168 (F := Ideal) (A0 m c) (A1 m c) (A2 m c) (A3 m c) (A4 m c) (A5 m c) (A6 m c) (A7 m c) (A8 m c) (A9 m c) (A10 m c) (A11 m c) (A12 m c) :=
    (from14_17 m ρ c main_call0_v95 (by decide)).trans hin
  refine (show W18 m ρ c (Proc.devRef .tc main_call0_v123) = (dat8 (V17 m ρ) c).arrAt 7 cfg8.N from W18_arr m ρ c 7).trans ?_
  rw [Cert.KernelIdeal.Hand.Upd.region8_value (V17 m ρ) c]
  rw [show V17 m ρ c main_call0_v95 = _ from hh, show V17 m ρ c main_call0_v112 = _ from ha,
    show V17 m ρ c main_call0_v114 = _ from at17_wu1h m ρ c, show V17 m ρ c main_call0_v116 = _ from at17_wu1a m ρ c,
    show V17 m ρ c main_call0_v118 = _ from at17_bu1 m ρ c, show V17 m ρ c main_call0_v120 = _ from at17_wu2 m ρ c,
    show V17 m ρ c main_call0_v122 = _ from at17_bu2 m ρ c]
  exact (Cert.ReferenceIdeal.Hand.ref_upd3 (A0 m c) (A1 m c) (A2 m c) (A3 m c) (A4 m c) (A5 m c) (A6 m c) (A7 m c) (A8 m c) (A9 m c) (A10 m c) (A11 m c) (A12 m c)).symm

end Cert.KernelIdeal.Hand.Walk

end
-- ==== Proof.PayHead.lean ====
import proofs.«406442_j73220602462590_1_alg».proof.Proof.Gen.KernelIdeal.Skeleton
import proofs.«406442_j73220602462590_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Head

open Idealize.ShloMosaic Idealize.SL.Sem Idealize.ShloMosaic.ValueIdx
open Facts₀ Facts
open scoped BigOperators

theorem a_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem a_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem a_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem a_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem a_mm_apply (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun d => Fin.ext (by
    match d with
    | ⟨0, _⟩ => exact a_lhs_0 _ _
    | ⟨1, _⟩ => exact (a_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun d => Fin.ext (by
    match d with
    | ⟨0, _⟩ => exact (a_rhs_0 _ _).trans hk
    | ⟨1, _⟩ => exact a_rhs_1 _ _)
  rw [el, er]

theorem b_lhs_0 (i : S2000x3.Idx) (q : dot_S2000x128_S128x3_S2000x3_1_0_0_1_n_n.contr.Idx) :
    (dot_S2000x128_S128x3_S2000x3_1_0_0_1_n_n.lhsIdx i q 0).val = (i 0).val := by
  unfold DotDims.lhsIdx
  rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
  rfl
theorem b_lhs_1 (i : S2000x3.Idx) (q : dot_S2000x128_S128x3_S2000x3_1_0_0_1_n_n.contr.Idx) :
    (dot_S2000x128_S128x3_S2000x3_1_0_0_1_n_n.lhsIdx i q 1).val = (q ⟨0, by decide⟩).val :=
  dot_S2000x128_S128x3_S2000x3_1_0_0_1_n_n.lhsIdx_val_of_single rfl i q
theorem b_rhs_0 (i : S2000x3.Idx) (q : dot_S2000x128_S128x3_S2000x3_1_0_0_1_n_n.contr.Idx) :
    (dot_S2000x128_S128x3_S2000x3_1_0_0_1_n_n.rhsIdx i q 0).val = (q ⟨0, by decide⟩).val :=
  dot_S2000x128_S128x3_S2000x3_1_0_0_1_n_n.rhsIdx_val_of_single rfl i q
theorem b_rhs_1 (i : S2000x3.Idx) (q : dot_S2000x128_S128x3_S2000x3_1_0_0_1_n_n.contr.Idx) :
    (dot_S2000x128_S128x3_S2000x3_1_0_0_1_n_n.rhsIdx i q 1).val = (i 1).val := by
  unfold DotDims.rhsIdx
  rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
  rfl

theorem b_mm_apply (a : FVec Ideal S2000x128 .bf16) (b : FVec Ideal S128x3 .bf16) (p : Fin 2000) (q : Fin 3) :
    matmul dot_S2000x128_S128x3_S2000x3_1_0_0_1_n_n none a b (constant S2000x3 .f32 0x00000000#32) (ix2 p q)
      = ∑ k : Fin 128, a (ix2 p k) * b (ix2 k q) := by
  simp only [matmul]
  rw [Ideal.matmul_constant_zero_apply, ← Equiv.sum_comp (contrEquiv1 dot_S2000x128_S128x3_S2000x3_1_0_0_1_n_n 128 rfl rfl).symm]
  refine Finset.sum_congr rfl fun k _ => ?_
  have hk := contrEquiv1_symm_val dot_S2000x128_S128x3_S2000x3_1_0_0_1_n_n 128 rfl rfl k
  have el : dot_S2000x128_S128x3_S2000x3_1_0_0_1_n_n.lhsIdx (ix2 p q) ((contrEquiv1 dot_S2000x128_S128x3_S2000x3_1_0_0_1_n_n 128 rfl rfl).symm k) = ix2 p k := funext fun d => Fin.ext (by
    match d with
    | ⟨0, _⟩ => exact b_lhs_0 _ _
    | ⟨1, _⟩ => exact (b_lhs_1 _ _).trans hk)
  have er : dot_S2000x128_S128x3_S2000x3_1_0_0_1_n_n.rhsIdx (ix2 p q) ((contrEquiv1 dot_S2000x128_S128x3_S2000x3_1_0_0_1_n_n 128 rfl rfl).symm k) = ix2 k q := funext fun d => Fin.ext (by
    match d with
    | ⟨0, _⟩ => exact (b_rhs_0 _ _).trans hk
    | ⟨1, _⟩ => exact b_rhs_1 _ _)
  rw [el, er]

theorem a_bias_apply (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (0 : Fin 1) q) (fun d => match d with
    | ⟨0, _⟩ => rfl
    | ⟨1, _⟩ => rfl)]
  exact shapeCast_a_1a_apply b shapeCasts_S128_S1x128 (0 : Fin 1) q

theorem b_bias_apply (b : FVec Ideal S3 .f32) (p : Fin 2000) (q : Fin 3) :
    broadcastTo S2000x3 (shapeCast S1x3 b shapeCasts_S3_S1x3) broadcasts_S1x3_S2000x3 (ix2 p q) = b (ix1 q) := by
  rw [broadcastTo_apply _ broadcasts_S1x3_S2000x3 (ix2 p q) (ix2 (0 : Fin 1) q) (fun d => match d with
    | ⟨0, _⟩ => rfl
    | ⟨1, _⟩ => rfl)]
  exact shapeCast_a_1a_apply b shapeCasts_S3_S1x3 (0 : Fin 1) q

theorem hidden (x0 : Vec Ideal S2000x128 .f32) (x1 : Vec Ideal S128x128 .f32) (x2 : Vec Ideal S128 .f32) :
    (maximumf (addf (matmul dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32))
      (broadcastTo S2000x128 (shapeCast S1x128 x2 shapeCasts_S128_S1x128) broadcasts_S1x128_S2000x128))
      (broadcast S2000x128 (Scalar.ofBits .f32 0x00000000#32)) : FVec Ideal S2000x128 .f32)
      = MeshGnn.dense x0 x1 x2 := by
  funext j
  obtain ⟨p, q, rfl⟩ : ∃ (p : Fin 2000) (q : Fin 128), j = ix2 p q := ⟨_, _, eq_ix2 j⟩
  rw [MeshGnn.dense_apply, maximumf_apply, addf_apply, broadcast_apply, a_mm_apply, a_bias_apply, shapeCast_self]
  simp only [truncf_apply]
  show max _ (Ideal.ofBits .f32 0x00000000#32) = _
  rw [Ideal.ofBits_zero_f32]

/-- One block of rows through the head's two dense layers. -/
theorem pay (x0 : Vec Ideal S2000x128 .f32) (x1 : Vec Ideal S128x128 .f32) (x2 : Vec Ideal S128 .f32)
    (x3 : Vec Ideal S128x3 .f32) (x4 : Vec Ideal S3 .f32) :
    Gen.k9_pay1 (F := Ideal) x0 x1 x2 x3 x4 = MeshGnn.dense (MeshGnn.dense x0 x1 x2) x3 x4 := by
  funext j
  obtain ⟨p, q, rfl⟩ : ∃ (p : Fin 2000) (q : Fin 3), j = ix2 p q := ⟨_, _, eq_ix2 j⟩
  rw [MeshGnn.dense_apply]
  unfold Gen.k9_pay1
  rw [maximumf_apply, addf_apply, broadcast_apply, b_mm_apply, b_bias_apply]
  simp only [truncf_apply]
  rw [hidden]
  show max _ (Ideal.ofBits .f32 0x00000000#32) = _
  rw [Ideal.ofBits_zero_f32]

end Cert.KernelIdeal.Hand.Head

end
-- ==== Proof.RegHead.lean ====
import proofs.«406442_j73220602462590_1_alg».proof.Proof.Gen.KernelIdeal.Frame
import proofs.«406442_j73220602462590_1_alg».proof.Proof.PayHead
import Idealize.ShloMosaic.Lib.Pipeline.Value
import Idealize.ShloMosaic.Lib.ValueIdx

noncomputable section

namespace Cert.KernelIdeal.Hand.Head

open Idealize.ShloMosaic Idealize.ShloMosaic.TcCoe Idealize.SL.Sem Idealize.ShloMosaic.ValueIdx
open Idealize.ShloMosaic.Pipeline (Dat)
open Facts₀ Facts

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0
    ∧ win9_4.index t (0 : Fin 1) = 0
    ∧ win9_5.index t (0 : Fin 2) = t.val ∧ win9_5.index t (1 : Fin 2) = 0 :=
  (by decide +kernel : ∀ t : Fin grid9.N, _)

def rowAt (t : Fin cfg9.N) (r : Fin 2000) : Fin 50000 :=
  ⟨t.val * 2000 + r.val, by have h : t.val < 25 := t.isLt.trans_eq Gen.N_9; have := r.isLt; omega⟩

abbrev G (c : Dev nD) : S50000x3.Idx → EReal :=
  MeshGnn.dense (MeshGnn.dense (V c main_call0_v123 : S50000x128.Idx → EReal) (V c main_arg13 : S128x128.Idx → EReal)
    (V c main_arg14 : S128.Idx → EReal)) (V c main_arg15 : S128x3.Idx → EReal) (V c main_arg16 : S3.Idx → EReal)

theorem blk0_apply (c : Dev nD) (t : Fin cfg9.N) (r : Fin 2000) (q : Fin 128) :
    (Gen.iblk9 V c 0 t : Vec Ideal S2000x128 .f32) (ix2 r q)
      = (V c main_call0_v123 : S50000x128.Idx → EReal) (ix2 (rowAt t r) q) := by
  obtain ⟨e0, e1, -⟩ := idx_facts t
  unfold Gen.iblk9
  rw [View.read_apply]
  show V c main_call0_v123 _ = V c main_call0_v123 _
  congr 1
  funext a
  apply Fin.ext
  match a with
  | ⟨0, _⟩ => show win9_0.index t (0 : Fin 2) * 2000 + 1 * r.val = t.val * 2000 + r.val; rw [e0]; omega
  | ⟨1, _⟩ => show win9_0.index t (1 : Fin 2) * 128 + 1 * q.val = q.val; rw [e1]; omega

theorem blk1_eq (c : Dev nD) (t : Fin cfg9.N) :
    (Gen.iblk9 V c 1 t : Vec Ideal S128x128 .f32) = (V c main_arg13 : S128x128.Idx → EReal) := by
  obtain ⟨-, -, e2, e3, -⟩ := idx_facts t
  funext y
  unfold Gen.iblk9
  rw [View.read_apply]
  show V c main_arg13 _ = V c main_arg13 _
  congr 1
  funext a
  apply Fin.ext
  match a with
  | ⟨0, _⟩ => show win9_1.index t (0 : Fin 2) * 128 + 1 * (y 0).val = (y 0).val; rw [e2]; omega
  | ⟨1, _⟩ => show win9_1.index t (1 : Fin 2) * 128 + 1 * (y 1).val = (y 1).val; rw [e3]; omega

theorem blk2_eq (c : Dev nD) (t : Fin cfg9.N) :
    (Gen.iblk9 V c 2 t : Vec Ideal S128 .f32) = (V c main_arg14 : S128.Idx → EReal) := by
  obtain ⟨-, -, -, -, e4, -⟩ := idx_facts t
  funext y
  unfold Gen.iblk9
  rw [View.read_apply]
  show V c main_arg14 _ = V c main_arg14 _
  congr 1
  funext a
  apply Fin.ext
  match a with
  | ⟨0, _⟩ => show win9_2.index t (0 : Fin 1) * 128 + 1 * (y 0).val = (y 0).val; rw [e4]; omega

theorem blk3_eq (c : Dev nD) (t : Fin cfg9.N) :
    (Gen.iblk9 V c 3 t : Vec Ideal S128x3 .f32) = (V c main_arg15 : S128x3.Idx → EReal) := by
  obtain ⟨-, -, -, -, -, e5, e6, -⟩ := idx_facts t
  funext y
  unfold Gen.iblk9
  rw [View.read_apply]
  show V c main_arg15 _ = V c main_arg15 _
  congr 1
  funext a
  apply Fin.ext
  match a with
  | ⟨0, _⟩ => show win9_3.index t (0 : Fin 2) * 128 + 1 * (y 0).val = (y 0).val; rw [e5]; omega
  | ⟨1, _⟩ => show win9_3.index t (1 : Fin 2) * 3 + 1 * (y 1).val = (y 1).val; rw [e6]; omega

theorem blk4_eq (c : Dev nD) (t : Fin cfg9.N) :
    (Gen.iblk9 V c 4 t : Vec Ideal S3 .f32) = (V c main_arg16 : S3.Idx → EReal) := by
  obtain ⟨-, -, -, -, -, -, -, e7, -⟩ := idx_facts t
  funext y
  unfold Gen.iblk9
  rw [View.read_apply]
  show V c main_arg16 _ = V c main_arg16 _
  congr 1
  funext a
  apply Fin.ext
  match a with
  | ⟨0, _⟩ => show win9_4.index t (0 : Fin 1) * 3 + 1 * (y 0).val = (y 0).val; rw [e7]; omega

theorem block_value (c : Dev nD) (t : Fin cfg9.N) (j : S2000x3.Idx) (i : S50000x3.Idx)
    (h0 : (i 0).val = t.val * 2000 + (j 0).val) (h1 : (i 1).val = (j 1).val) :
    MeshGnn.dense (MeshGnn.dense (Gen.iblk9 V c 0 t : Vec Ideal S2000x128 .f32) (Gen.iblk9 V c 1 t : Vec Ideal S128x128 .f32)
      (Gen.iblk9 V c 2 t : Vec Ideal S128 .f32)) (Gen.iblk9 V c 3 t : Vec Ideal S128x3 .f32)
      (Gen.iblk9 V c 4 t : Vec Ideal S3 .f32) j = G V c i := by
  obtain ⟨p, q, rfl⟩ : ∃ (p : Fin 2000) (q : Fin 3), j = ix2 p q := ⟨_, _, eq_ix2 j⟩
  have hi : i = ix2 (rowAt t p) q := funext fun a => Fin.ext (by
    match a with
    | ⟨0, _⟩ => exact h0
    | ⟨1, _⟩ => exact h1)
  rw [hi, blk1_eq V c t, blk2_eq V c t, blk3_eq V c t, blk4_eq V c t]
  exact MeshGnn.dense_rows _ _ (rowAt t)
    (fun r k => MeshGnn.dense_rows _ _ (rowAt t) (fun r' k' => blk0_apply V c t r' k') _ _ r k) _ _ p q

theorem flushed_eq (c : Dev nD) (t : Fin cfg9.N) :
    (Gen.dat9 (F := Ideal) V c).flushed 5 t = ((cfg9.win 5).blk t).view.read (Elt Ideal) (G V c) := by
  show (cfg9.win 5).cut (grid9.coords t) ((Gen.dat9 (F := Ideal) V c).after 5 t) = _
  rw [Gen.after9_5]
  unfold Gen.out9_5
  rw [View.canon_unit_zero hz2]
  simp only [View.ld_unit_zero (S := S2000x128) hz2, View.ld_unit_zero (S := S128x128) hz2, View.ld_unit_zero (S := S128) hz1,
    View.ld_unit_zero (S := S128x3) hz2, View.ld_unit_zero (S := S3) hz1]
  rw [pay]
  obtain ⟨-, -, -, -, -, -, -, -, e8, e9⟩ := idx_facts t
  funext j
  rw [View.read_apply]
  refine block_value V c t _ _ ?_ ?_
  · show win9_5.index t (0 : Fin 2) * 2000 + 1 * (j 0).val = t.val * 2000 + (j 0).val
    rw [e8]; omega
  · show win9_5.index t (1 : Fin 2) * 3 + 1 * (j 1).val = (j 1).val
    rw [e9]; omega

theorem mem_blk (t : Fin cfg9.N) (i : S50000x3.Idx) :
    i ∈ ((cfg9.win 5).blk t).view.set ↔ ∀ a : Fin 2, win9_5.index t a * S2000x3.size a ≤ (i a).val ∧ (i a).val < win9_5.index t a * S2000x3.size a + S2000x3.size a := by
  show i ∈ ((View.whole main_v0).slice (win9_5.rect t)).set ↔ _
  rw [View.set_slice_whole, Rect.mem_set_unit]
  exact Iff.rfl

theorem cover (i : S50000x3.Idx) : ∃ t : Fin cfg9.N, (cfg9.win 5).flush t = true ∧ i ∈ ((cfg9.win 5).blk t).view.set := by
  have hi0 : (i 0).val < 50000 := (i 0).isLt
  have hi1 : (i 1).val < 3 := (i 1).isLt
  obtain ⟨t, ht⟩ : ∃ t : Fin cfg9.N, t.val = (i 0).val / 2000 :=
    ⟨⟨(i 0).val / 2000, by rw [show cfg9.N = 25 from Gen.N_9]; omega⟩, rfl⟩
  obtain ⟨-, -, -, -, -, -, -, -, e8, e9⟩ := idx_facts t
  refine ⟨t, Gen.flush9_5 t, ?_⟩
  rw [mem_blk]
  intro a
  match a with
  | ⟨0, _⟩ => show win9_5.index t (0 : Fin 2) * 2000 ≤ (i 0).val ∧ (i 0).val < win9_5.index t (0 : Fin 2) * 2000 + 2000; rw [e8]; omega
  | ⟨1, _⟩ => show win9_5.index t (1 : Fin 2) * 3 ≤ (i 1).val ∧ (i 1).val < win9_5.index t (1 : Fin 2) * 3 + 3; rw [e9]; omega

/-- The array the region leaves is the head of the whole arrays it found: each block of rows is the same rows of the whole map, and the blocks tile the array. -/
theorem region_value (c : Dev nD) :
    (Gen.dat9 (F := Ideal) V c).arrAt 5 cfg9.N
      = MeshGnn.dense (MeshGnn.dense (V c main_call0_v123) (V c main_arg13) (V c main_arg14)) (V c main_arg15) (V c main_arg16) :=
  (Gen.dat9 (F := Ideal) V c).arrAt_eq_of_cover 5 (G V c) (fun t _ => flushed_eq V c t) cover

end Cert.KernelIdeal.Hand.Head

end
-- ==== Proof.RefHead.lean ====
import proofs.«406442_j73220602462590_1_alg».proof.Proof.RefRead
import proofs.«406442_j73220602462590_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx

theorem ref_head_hid (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) (x13 : (⟨S128x128, .f32⟩ : BufTy).Contents (Elt Ideal)) (x14 : (⟨S128, .f32⟩ : BufTy).Contents (Elt Ideal)) :
    val_main_v224 (F := Ideal) x0 x1 x2 x3 x4 x5 x6 x7 x8 x9 x10 x11 x12 x13 x14
      = MeshGnn.dense (val_main_v219 (F := Ideal) x0 x1 x2 x3 x4 x5 x6 x7 x8 x9 x10 x11 x12) x13 x14 := by
  funext i
  obtain ⟨r, c, rfl⟩ : ∃ (r : Fin 50000) (c : Fin 128), i = ix2 r c := ⟨_, _, eq_ix2 i⟩
  rw [val_main_v224_apply, val_main_v223_apply, val_main_v220_apply, val_main_v222_apply, val_main_v221_apply,
    val_main_call17_v0_apply, val_main_call17_cst_apply, MeshGnn.dense_apply]
  have eb : idx_main_v221 (idx_main_v222 (ix2 r c)) = ix1 c :=
    funext fun a => Fin.ext (by match a with | ⟨0, _⟩ => rfl)
  have el : ∀ k : Fin 128, lidx_main_v220 (ix2 r c) k = ix2 r k := fun k =>
    funext fun a => Fin.ext (by match a with | ⟨0, _⟩ => rfl | ⟨1, _⟩ => rfl)
  have er : ∀ k : Fin 128, ridx_main_v220 (ix2 r c) k = ix2 k c := fun k =>
    funext fun a => Fin.ext (by match a with | ⟨0, _⟩ => rfl | ⟨1, _⟩ => rfl)
  simp only [eb, el, er, Ideal.maximumf_def, Ideal.addf_def, Ideal.ofBits_def, Ideal.ofBits_zero_f32]

/-- The reference's head is two dense layers. -/
theorem ref_head (x0 : (⟨S50000x16, .f32⟩ : BufTy).Contents (Elt Ideal)) (x1 : (⟨S2x600000, .i32⟩ : BufTy).Contents (Elt Ideal)) (x2 : (⟨S600000x4, .f32⟩ : BufTy).Contents (Elt Ideal)) (x3 : (⟨S16x128, .f32⟩ : BufTy).Contents (Elt Ideal)) (x4 : (⟨S128, .f32⟩ : BufTy).Contents (Elt Ideal)) (x5 : (⟨S4x132x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S4x256x128, .f32⟩ : BufTy).Contents (Elt Ideal)) (x10 : (⟨S4x128, .f32⟩ : BufTy).Contents (Elt Ideal)) (x11 : (⟨S4x128x128, .f32⟩ : BufTy).Contents (Elt Ideal)) (x12 : (⟨S4x128, .f32⟩ : BufTy).Contents (Elt Ideal)) (x13 : (⟨S128x128, .f32⟩ : BufTy).Contents (Elt Ideal)) (x14 : (⟨S128, .f32⟩ : BufTy).Contents (Elt Ideal)) (x15 : (⟨S128x3, .f32⟩ : BufTy).Contents (Elt Ideal)) (x16 : (⟨S3, .f32⟩ : BufTy).Contents (Elt Ideal)) :
    val_main_v229 (F := Ideal) x0 x1 x2 x3 x4 x5 x6 x7 x8 x9 x10 x11 x12 x13 x14 x15 x16
      = MeshGnn.dense (MeshGnn.dense (val_main_v219 (F := Ideal) x0 x1 x2 x3 x4 x5 x6 x7 x8 x9 x10 x11 x12) x13 x14) x15 x16 := by
  funext i
  obtain ⟨r, c, rfl⟩ : ∃ (r : Fin 50000) (c : Fin 3), i = ix2 r c := ⟨_, _, eq_ix2 i⟩
  rw [val_main_v229_apply, val_main_v228_apply, val_main_v225_apply, val_main_v227_apply, val_main_v226_apply,
    val_main_call18_v0_apply, val_main_call18_cst_apply, MeshGnn.dense_apply, ref_head_hid]
  have eb : idx_main_v226 (idx_main_v227 (ix2 r c)) = ix1 c :=
    funext fun a => Fin.ext (by match a with | ⟨0, _⟩ => rfl)
  have el : ∀ k : Fin 128, lidx_main_v225 (ix2 r c) k = ix2 r k := fun k =>
    funext fun a => Fin.ext (by match a with | ⟨0, _⟩ => rfl | ⟨1, _⟩ => rfl)
  have er : ∀ k : Fin 128, ridx_main_v225 (ix2 r c) k = ix2 k c := fun k =>
    funext fun a => Fin.ext (by match a with | ⟨0, _⟩ => rfl | ⟨1, _⟩ => rfl)
  simp only [eb, el, er, Ideal.maximumf_def, Ideal.addf_def, Ideal.ofBits_def, Ideal.ofBits_zero_f32]

end Cert.ReferenceIdeal.Hand

end
-- ==== Proof.WalkHead.lean ====
import proofs.«406442_j73220602462590_1_alg».proof.Proof.Gen.KernelIdeal.Frame
import proofs.«406442_j73220602462590_1_alg».proof.Proof.WalkKeep
import proofs.«406442_j73220602462590_1_alg».proof.Proof.WalkDefs
import proofs.«406442_j73220602462590_1_alg».proof.Proof.RegHead
import proofs.«406442_j73220602462590_1_alg».proof.Proof.RefHead
import proofs.«406442_j73220602462590_1_alg».proof.Proof.RefRead
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The last step: the head applied to the node features the fourth layer leaves. -/
theorem head_step (c : Dev nD)
    (hin : W18 m ρ c (Proc.devRef .tc main_call0_v123) = val_main_v219 (F := Ideal) (A0 m c) (A1 m c) (A2 m c) (A3 m c) (A4 m c) (A5 m c) (A6 m c) (A7 m c) (A8 m c) (A9 m c) (A10 m c) (A11 m c) (A12 m c)) :
    W19 m ρ c (Proc.devRef .tc main_v0) = val_main_v229 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  refine (show W19 m ρ c (Proc.devRef .tc main_v0) = (dat9 (V18 m ρ) c).arrAt 5 cfg9.N from W19_arr m ρ c 5).trans ?_
  rw [Head.region_value (V18 m ρ) c]
  rw [show V18 m ρ c main_call0_v123 = _ from hin,
    show V18 m ρ c main_arg13 = A13 m c from at18 m ρ c main_arg13 (by decide),
    show V18 m ρ c main_arg14 = A14 m c from at18 m ρ c main_arg14 (by decide),
    show V18 m ρ c main_arg15 = A15 m c from at18 m ρ c main_arg15 (by decide),
    show V18 m ρ c main_arg16 = A16 m c from at18 m ρ c main_arg16 (by decide)]
  exact (Cert.ReferenceIdeal.Hand.ref_head (A0 m c) (A1 m c) (A2 m c) (A3 m c) (A4 m c) (A5 m c) (A6 m c) (A7 m c) (A8 m c) (A9 m c) (A10 m c) (A11 m c) (A12 m c) (A13 m c) (A14 m c) (A15 m c) (A16 m c)).symm

end Cert.KernelIdeal.Hand.Walk

end
-- ==== Proof.WalkAll.lean ====
import proofs.«406442_j73220602462590_1_alg».proof.Proof.WalkBase
import proofs.«406442_j73220602462590_1_alg».proof.Proof.WalkLayer0
import proofs.«406442_j73220602462590_1_alg».proof.Proof.WalkLayer1
import proofs.«406442_j73220602462590_1_alg».proof.Proof.WalkLayer2
import proofs.«406442_j73220602462590_1_alg».proof.Proof.WalkLayer3
import proofs.«406442_j73220602462590_1_alg».proof.Proof.WalkHead
import Idealize.ShloMosaic.Lib.StableHlo.Run
import Idealize.ShloMosaic.PureOps.Ideal

set_option maxRecDepth 16384

noncomputable section

namespace Cert.KernelIdeal.Hand.Walk

open Cert.KernelIdeal Cert.KernelIdeal.Gen Cert.KernelIdeal.Hand.Keep
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The whole run: with every source index a node index, the result array holds the reference's value of the same arguments. -/
theorem result_eq (hok : SrcOk m) (c : Dev nD) :
    W19 m ρ c (Proc.devRef .tc main_v0) = val_main_v229 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) :=
  head_step m ρ c (layer3 m ρ hok c (layer2 m ρ hok c (layer1 m ρ hok c (layer0 m ρ hok c (at2_h0 m ρ c)))))

end Cert.KernelIdeal.Hand.Walk

end
-- ==== Proof.lean ====
/- A mesh graph network: an input projection, four message-passing layers (gather the source rows, a two-layer message
   network, the mean over the edges into each node, a two-layer update network with a residual) and a two-layer head.
   The kernel program tiles the dense maps over ten regions and splits a contraction over a joined row into the sum of the
   two contractions; gather and scatter-add stay on the host in both programs. -/
import proofs.«406442_j73220602462590_1_alg».proof.Defs
import proofs.«406442_j73220602462590_1_alg».proof.Proof.Gen.Kernel
import proofs.«406442_j73220602462590_1_alg».proof.Proof.Gen.Kernel.Frame
import proofs.«406442_j73220602462590_1_alg».proof.Proof.Gen.KernelIdeal
import proofs.«406442_j73220602462590_1_alg».proof.Proof.Gen.KernelIdeal.Frame
import proofs.«406442_j73220602462590_1_alg».proof.Proof.Gen.ReferenceIdeal
import proofs.«406442_j73220602462590_1_alg».proof.Proof.RefRead
import proofs.«406442_j73220602462590_1_alg».proof.Proof.RefRun
import proofs.«406442_j73220602462590_1_alg».proof.Proof.Gen.Pre_finite_inputs
import proofs.«406442_j73220602462590_1_alg».proof.Proof.KRun
import proofs.«406442_j73220602462590_1_alg».proof.Proof.PreIdx
import proofs.«406442_j73220602462590_1_alg».proof.Proof.WalkAll
import Idealize.ShloMosaic.Adequacy
import Idealize.ShloMosaic.Init

set_option maxRecDepth 16384

noncomputable section

namespace Cert.Proof

open Idealize.ShloMosaic Idealize.SL.Sem

theorem src_ok (m : (ℓ : Loc Cert.KernelIdeal.nD Cert.KernelIdeal.τ Cert.KernelIdeal.sig) → Buf (Elt Ideal) ℓ)
    (hpre : Cert.Pre_KernelIdeal m) : Cert.KernelIdeal.Hand.Walk.SrcOk m := fun c e =>
  Cert.Pre_finite_inputs.Hand.src_in_range _ _ _ _ _ _ _ _ _ _ _ _ _ _ _ _ _ (hpre c) _ _ e

theorem algebraic : Cert.algebraic_KernelIdeal_ReferenceIdeal := by
  intro m ρ m' ρ' hpre hagree
  refine ⟨fun c => Cert.ReferenceIdeal.Read.val_main_v229 (F := Ideal) (Cert.KernelIdeal.Hand.Walk.A0 m c) (Cert.KernelIdeal.Hand.Walk.A1 m c) (Cert.KernelIdeal.Hand.Walk.A2 m c) (Cert.KernelIdeal.Hand.Walk.A3 m c) (Cert.KernelIdeal.Hand.Walk.A4 m c) (Cert.KernelIdeal.Hand.Walk.A5 m c) (Cert.KernelIdeal.Hand.Walk.A6 m c) (Cert.KernelIdeal.Hand.Walk.A7 m c) (Cert.KernelIdeal.Hand.Walk.A8 m c) (Cert.KernelIdeal.Hand.Walk.A9 m c) (Cert.KernelIdeal.Hand.Walk.A10 m c) (Cert.KernelIdeal.Hand.Walk.A11 m c) (Cert.KernelIdeal.Hand.Walk.A12 m c) (Cert.KernelIdeal.Hand.Walk.A13 m c) (Cert.KernelIdeal.Hand.Walk.A14 m c) (Cert.KernelIdeal.Hand.Walk.A15 m c) (Cert.KernelIdeal.Hand.Walk.A16 m c), ?_, ?_⟩
  · exact (θ_run Cert.KernelIdeal.defs _ _).mono
      (fun r h c => ⟨((h c).1).trans (Cert.KernelIdeal.Hand.Walk.result_eq m ρ (src_ok m hpre) c), (h c).2⟩)
      (Cert.KernelIdeal.Gen.run_result (F := Ideal) m ρ)
  · refine (θ_run Cert.ReferenceIdeal.defs _ _).mono (fun r h c => ⟨?_, (h c).2⟩)
      (Cert.ReferenceIdeal.Hand.ref_run (F := Ideal) m' ρ')
    obtain ⟨e0, e1, e2, e3, e4, e5, e6, e7, e8, e9, e10, e11, e12, e13, e14, e15, e16⟩ := hagree c
    rw [(h c).1, e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.ref_run (F := Ideal) m ρ),
  trivial,
  algebraic⟩

end Cert.Proof

end
